-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v192)) (v1 : (c : Dev Cert.KernelIdeal.nD) → Buf (Elt Ideal) ((c.tc : Thread Cert.KernelIdeal.nD Cert.KernelIdeal.τ).loc Cert.KernelIdeal.main_v231)) (v2 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v192) = v0 c
          ∧ r.2.mem ((c.tc : Thread Cert.KernelIdeal.nD Cert.KernelIdeal.τ).loc Cert.KernelIdeal.main_v231) = v1 c
          ∧ r.2.mem ((c.tc : Thread Cert.KernelIdeal.nD Cert.KernelIdeal.τ).loc Cert.KernelIdeal.main_v214) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_v287) = v1 c
          ∧ r.2.mem ((c.tc : Thread Cert.ReferenceIdeal.nD Cert.ReferenceIdeal.τ).loc Cert.ReferenceIdeal.main_v252) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S131072x256 : Shape := ⟨2, ![131072, 256]⟩
abbrev S131072 : Shape := ⟨1, ![131072]⟩
abbrev S65536 : Shape := ⟨1, ![65536]⟩
abbrev S512 : Shape := ⟨1, ![512]⟩
abbrev S512x256 : Shape := ⟨2, ![512, 256]⟩
abbrev S65x512 : Shape := ⟨2, ![65, 512]⟩
abbrev S65 : Shape := ⟨1, ![65]⟩
abbrev S64x256 : Shape := ⟨2, ![64, 256]⟩
abbrev S256x256 : Shape := ⟨2, ![256, 256]⟩
abbrev S256 : Shape := ⟨1, ![256]⟩
abbrev S256x512 : Shape := ⟨2, ![256, 512]⟩
abbrev S2x512x256 : Shape := ⟨3, ![2, 512, 256]⟩
abbrev S2x512x512 : Shape := ⟨3, ![2, 512, 512]⟩
abbrev S2x512 : Shape := ⟨2, ![2, 512]⟩
abbrev S2x768x512 : Shape := ⟨3, ![2, 768, 512]⟩
abbrev S2x768x256 : Shape := ⟨3, ![2, 768, 256]⟩
abbrev S2x768 : Shape := ⟨2, ![2, 768]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S65x512 : S_.BroadcastsInDim S65x512 (![] : Fin 0 → Fin S65x512.rank)
  reducesTo_S65x512_S_d0_1 : S65x512.ReducesTo [0, 1] S_
  bcast_S_S65 : S_.BroadcastsInDim S65 (![] : Fin 0 → Fin S65.rank)
  reducesTo_S65_S_d0 : S65.ReducesTo [0] S_
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S2x512x256 : S_.BroadcastsInDim S2x512x256 (![] : Fin 0 → Fin S2x512x256.rank)
  reducesTo_S2x512x256_S_d0_1_2 : S2x512x256.ReducesTo [0, 1, 2] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S2x768x512 : S_.BroadcastsInDim S2x768x512 (![] : Fin 0 → Fin S2x768x512.rank)
  reducesTo_S2x768x512_S_d0_1_2 : S2x768x512.ReducesTo [0, 1, 2] S_
  bcast_S_S2x768x256 : S_.BroadcastsInDim S2x768x256 (![] : Fin 0 → Fin S2x768x256.rank)
  reducesTo_S2x768x256_S_d0_1_2 : S2x768x256.ReducesTo [0, 1, 2] S_
  bcast_S_S2x768 : S_.BroadcastsInDim S2x768 (![] : Fin 0 → Fin S2x768.rank)
  reducesTo_S2x768_S_d0_1 : S2x768.ReducesTo [0, 1] S_
  bcast_S_S65536 : S_.BroadcastsInDim S65536 (![] : Fin 0 → Fin S65536.rank)
  reducesTo_S65536_S_d0 : S65536.ReducesTo [0] S_

variable [Facts]

def fn_part7 {F : FTy → Type} [FloatOps F] (main_arg4 : IVec S65536 32) (main_v118 : IVec S_ 1) (main_c_46 : IVec S_ 32) : IVec S_ 1 :=
  let main_v119 : IVec S65536 32 := broadcastInDim S65536 ![] bcast_S_S65536 main_c_46
  let main_v120 : IVec S65536 1 := cmpi .sge main_arg4 main_v119
  let main_c_47 : IVec S_ 1 := constantI S_ 1 1#1
  let main_v121 : IVec S_ 1 := (fun x v => Host.reduce IntOp.andi x v reducesTo_S65536_S_d0 h_S_) main_v120 main_c_47
  let main_v122 : IVec S_ 1 := andi main_v118 main_v121
  let main_c_48 : IVec S_ 32 := constantI S_ 32 512#32
  let main_v123 : IVec S65536 32 := broadcastInDim S65536 ![] bcast_S_S65536 main_c_48
  let main_v124 : IVec S65536 1 := cmpi .slt main_arg4 main_v123
  let main_c_49 : IVec S_ 1 := constantI S_ 1 1#1
  let main_v125 : IVec S_ 1 := (fun x v => Host.reduce IntOp.andi x v reducesTo_S65536_S_d0 h_S_) main_v124 main_c_49
  let main_v126 : IVec S_ 1 := andi main_v122 main_v125
  main_v126

def fn_part6 {F : FTy → Type} [FloatOps F] (main_arg4 : IVec S65536 32) (main_arg26 : FVec F S2x768x256 .f32) (main_arg27 : FVec F S2x768 .f32) (main_arg28 : FVec F S2x768 .f32) (main_v98 : IVec S_ 1) (main_v101 : IVec S2x768x512 1) (main_c_39 : IVec S_ 1) : IVec S_ 1 :=
  let main_v102 : IVec S_ 1 := (fun x v => Host.reduce IntOp.andi x v reducesTo_S2x768x512_S_d0_1_2 h_S_) main_v101 main_c_39
  let main_v103 : IVec S_ 1 := andi main_v98 main_v102
  let main_v104 : FVec F S2x768x256 .f32 := Host.absf main_arg26
  let main_cst_40 : FVec F S_ .f32 := constant S_ .f32 0x7F800000#32
  let main_v105 : FVec F S2x768x256 .f32 := broadcastInDim S2x768x256 ![] bcast_S_S2x768x256 main_cst_40
  let main_v106 : IVec S2x768x256 1 := cmpf .olt main_v104 main_v105
  let main_c_41 : IVec S_ 1 := constantI S_ 1 1#1
  let main_v107 : IVec S_ 1 := (fun x v => Host.reduce IntOp.andi x v reducesTo_S2x768x256_S_d0_1_2 h_S_) main_v106 main_c_41
  let main_v108 : IVec S_ 1 := andi main_v103 main_v107
  let main_v109 : FVec F S2x768 .f32 := Host.absf main_arg27
  let main_cst_42 : FVec F S_ .f32 := constant S_ .f32 0x7F800000#32
  let main_v110 : FVec F S2x768 .f32 := broadcastInDim S2x768 ![] bcast_S_S2x768 main_cst_42
  let main_v111 : IVec S2x768 1 := cmpf .olt main_v109 main_v110
  let main_c_43 : IVec S_ 1 := constantI S_ 1 1#1
  let main_v112 : IVec S_ 1 := (fun x v => Host.reduce IntOp.andi x v reducesTo_S2x768_S_d0_1 h_S_) main_v111 main_c_43
  let main_v113 : IVec S_ 1 := andi main_v108 main_v112
  let main_v114 : FVec F S2x768 .f32 := Host.absf main_arg28
  let main_cst_44 : FVec F S_ .f32 := constant S_ .f32 0x7F800000#32
  let main_v115 : FVec F S2x768 .f32 := broadcastInDim S2x768 ![] bcast_S_S2x768 main_cst_44
  let main_v116 : IVec S2x768 1 := cmpf .olt main_v114 main_v115
  let main_c_45 : IVec S_ 1 := constantI S_ 1 1#1
  let main_v117 : IVec S_ 1 := (fun x v => Host.reduce IntOp.andi x v reducesTo_S2x768_S_d0_1 h_S_) main_v116 main_c_45
  let main_v118 : IVec S_ 1 := andi main_v113 main_v117
  let main_c_46 : IVec S_ 32 := constantI S_ 32 0#32
  fn_part7 (F := F) main_arg4 main_v118 main_c_46

def fn_part5 {F : FTy → Type} [FloatOps F] (main_arg4 : IVec S65536 32) (main_arg23 : FVec F S2x512x512 .f32) (main_arg24 : FVec F S2x512 .f32) (main_arg25 : FVec F S2x768x512 .f32) (main_arg26 : FVec F S2x768x256 .f32) (main_arg27 : FVec F S2x768 .f32) (main_arg28 : FVec F S2x768 .f32) (main_v83 : IVec S_ 1) (main_v84 : FVec F S2x512x256 .f32) (main_cst_32 : FVec F S_ .f32) : IVec S_ 1 :=
  let main_v85 : FVec F S2x512x256 .f32 := broadcastInDim S2x512x256 ![] bcast_S_S2x512x256 main_cst_32
  let main_v86 : IVec S2x512x256 1 := cmpf .olt main_v84 main_v85
  let main_c_33 : IVec S_ 1 := constantI S_ 1 1#1
  let main_v87 : IVec S_ 1 := (fun x v => Host.reduce IntOp.andi x v reducesTo_S2x512x256_S_d0_1_2 h_S_) main_v86 main_c_33
  let main_v88 : IVec S_ 1 := andi main_v83 main_v87
  let main_v89 : FVec F S2x512x512 .f32 := Host.absf main_arg23
  let main_cst_34 : FVec F S_ .f32 := constant S_ .f32 0x7F800000#32
  let main_v90 : FVec F S2x512x512 .f32 := broadcastInDim S2x512x512 ![] bcast_S_S2x512x512 main_cst_34
  let main_v91 : IVec S2x512x512 1 := cmpf .olt main_v89 main_v90
  let main_c_35 : IVec S_ 1 := constantI S_ 1 1#1
  let main_v92 : IVec S_ 1 := (fun x v => Host.reduce IntOp.andi x v reducesTo_S2x512x512_S_d0_1_2 h_S_) main_v91 main_c_35
  let main_v93 : IVec S_ 1 := andi main_v88 main_v92
  let main_v94 : FVec F S2x512 .f32 := Host.absf main_arg24
  let main_cst_36 : FVec F S_ .f32 := constant S_ .f32 0x7F800000#32
  let main_v95 : FVec F S2x512 .f32 := broadcastInDim S2x512 ![] bcast_S_S2x512 main_cst_36
  let main_v96 : IVec S2x512 1 := cmpf .olt main_v94 main_v95
  let main_c_37 : IVec S_ 1 := constantI S_ 1 1#1
  let main_v97 : IVec S_ 1 := (fun x v => Host.reduce IntOp.andi x v reducesTo_S2x512_S_d0_1 h_S_) main_v96 main_c_37
  let main_v98 : IVec S_ 1 := andi main_v93 main_v97
  let main_v99 : FVec F S2x768x512 .f32 := Host.absf main_arg25
  let main_cst_38 : FVec F S_ .f32 := constant S_ .f32 0x7F800000#32
  let main_v100 : FVec F S2x768x512 .f32 := broadcastInDim S2x768x512 ![] bcast_S_S2x768x512 main_cst_38
  let main_v101 : IVec S2x768x512 1 := cmpf .olt main_v99 main_v100
  let main_c_39 : IVec S_ 1 := constantI S_ 1 1#1
  fn_part6 (F := F) main_arg4 main_arg26 main_arg27 main_arg28 main_v98 main_v101 main_c_39

def fn_part4 {F : FTy → Type} [FloatOps F] (main_arg4 : IVec S65536 32) (main_arg19 : FVec F S256 .f32) (main_arg20 : FVec F S256x512 .f32) (main_arg21 : FVec F S2x512x256 .f32) (main_arg22 : FVec F S2x512x256 .f32) (main_arg23 : FVec F S2x512x512 .f32) (main_arg24 : FVec F S2x512 .f32) (main_arg25 : FVec F S2x768x512 .f32) (main_arg26 : FVec F S2x768x256 .f32) (main_arg27 : FVec F S2x768 .f32) (main_arg28 : FVec F S2x768 .f32) (main_v63 : IVec S_ 1) (main_v67 : IVec S_ 1) : IVec S_ 1 :=
  let main_v68 : IVec S_ 1 := andi main_v63 main_v67
  let main_v69 : FVec F S256 .f32 := Host.absf main_arg19
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x512 .f32 := Host.absf main_arg20
  let main_cst_28 : FVec F S_ .f32 := constant S_ .f32 0x7F800000#32
  let main_v75 : FVec F S256x512 .f32 := broadcastInDim S256x512 ![] bcast_S_S256x512 main_cst_28
  let main_v76 : IVec S256x512 1 := cmpf .olt main_v74 main_v75
  let main_c_29 : IVec S_ 1 := constantI S_ 1 1#1
  let main_v77 : IVec S_ 1 := (fun x v => Host.reduce IntOp.andi x v reducesTo_S256x512_S_d0_1 h_S_) main_v76 main_c_29
  let main_v78 : IVec S_ 1 := andi main_v73 main_v77
  let main_v79 : FVec F S2x512x256 .f32 := Host.absf main_arg21
  let main_cst_30 : FVec F S_ .f32 := constant S_ .f32 0x7F800000#32
  let main_v80 : FVec F S2x512x256 .f32 := broadcastInDim S2x512x256 ![] bcast_S_S2x512x256 main_cst_30
  let main_v81 : IVec S2x512x256 1 := cmpf .olt main_v79 main_v80
  let main_c_31 : IVec S_ 1 := constantI S_ 1 1#1
  let main_v82 : IVec S_ 1 := (fun x v => Host.reduce IntOp.andi x v reducesTo_S2x512x256_S_d0_1_2 h_S_) main_v81 main_c_31
  let main_v83 : IVec S_ 1 := andi main_v78 main_v82
  let main_v84 : FVec F S2x512x256 .f32 := Host.absf main_arg22
  let main_cst_32 : FVec F S_ .f32 := constant S_ .f32 0x7F800000#32
  fn_part5 (F := F) main_arg4 main_arg23 main_arg24 main_arg25 main_arg26 main_arg27 main_arg28 main_v83 main_v84 main_cst_32

def fn_part3 {F : FTy → Type} [FloatOps F] (main_arg4 : IVec S65536 32) (main_arg16 : FVec F S65 .f32) (main_arg17 : FVec F S64x256 .f32) (main_arg18 : FVec F S256x256 .f32) (main_arg19 : FVec F S256 .f32) (main_arg20 : FVec F S256x512 .f32) (main_arg21 : FVec F S2x512x256 .f32) (main_arg22 : FVec F S2x512x256 .f32) (main_arg23 : FVec F S2x512x512 .f32) (main_arg24 : FVec F S2x512 .f32) (main_arg25 : FVec F S2x768x512 .f32) (main_arg26 : FVec F S2x768x256 .f32) (main_arg27 : FVec F S2x768 .f32) (main_arg28 : FVec F S2x768 .f32) (main_v48 : IVec S_ 1) (main_v49 : FVec F S65x512 .f32) (main_v50 : FVec F S65x512 .f32) : IVec S_ 1 :=
  let main_v51 : IVec S65x512 1 := cmpf .olt main_v49 main_v50
  let main_c_19 : IVec S_ 1 := constantI S_ 1 1#1
  let main_v52 : IVec S_ 1 := (fun x v => Host.reduce IntOp.andi x v reducesTo_S65x512_S_d0_1 h_S_) main_v51 main_c_19
  let main_v53 : IVec S_ 1 := andi main_v48 main_v52
  let main_v54 : FVec F S65 .f32 := Host.absf main_arg16
  let main_cst_20 : FVec F S_ .f32 := constant S_ .f32 0x7F800000#32
  let main_v55 : FVec F S65 .f32 := broadcastInDim S65 ![] bcast_S_S65 main_cst_20
  let main_v56 : IVec S65 1 := cmpf .olt main_v54 main_v55
  let main_c_21 : IVec S_ 1 := constantI S_ 1 1#1
  let main_v57 : IVec S_ 1 := (fun x v => Host.reduce IntOp.andi x v reducesTo_S65_S_d0 h_S_) main_v56 main_c_21
  let main_v58 : IVec S_ 1 := andi main_v53 main_v57
  let main_v59 : FVec F S64x256 .f32 := Host.absf main_arg17
  let main_cst_22 : FVec F S_ .f32 := constant S_ .f32 0x7F800000#32
  let main_v60 : FVec F S64x256 .f32 := broadcastInDim S64x256 ![] bcast_S_S64x256 main_cst_22
  let main_v61 : IVec S64x256 1 := cmpf .olt main_v59 main_v60
  let main_c_23 : IVec S_ 1 := constantI S_ 1 1#1
  let main_v62 : IVec S_ 1 := (fun x v => Host.reduce IntOp.andi x v reducesTo_S64x256_S_d0_1 h_S_) main_v61 main_c_23
  let main_v63 : IVec S_ 1 := andi main_v58 main_v62
  let main_v64 : FVec F S256x256 .f32 := Host.absf main_arg18
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg4 main_arg19 main_arg20 main_arg21 main_arg22 main_arg23 main_arg24 main_arg25 main_arg26 main_arg27 main_arg28 main_v63 main_v67

def fn_part2 {F : FTy → Type} [FloatOps F] (main_arg4 : IVec S65536 32) (main_arg12 : FVec F S512 .f32) (main_arg13 : FVec F S512x256 .f32) (main_arg14 : FVec F S512 .f32) (main_arg15 : FVec F S65x512 .f32) (main_arg16 : FVec F S65 .f32) (main_arg17 : FVec F S64x256 .f32) (main_arg18 : FVec F S256x256 .f32) (main_arg19 : FVec F S256 .f32) (main_arg20 : FVec F S256x512 .f32) (main_arg21 : FVec F S2x512x256 .f32) (main_arg22 : FVec F S2x512x256 .f32) (main_arg23 : FVec F S2x512x512 .f32) (main_arg24 : FVec F S2x512 .f32) (main_arg25 : FVec F S2x768x512 .f32) (main_arg26 : FVec F S2x768x256 .f32) (main_arg27 : FVec F S2x768 .f32) (main_arg28 : FVec F S2x768 .f32) (main_v33 : IVec S_ 1) : IVec S_ 1 :=
  let main_v34 : FVec F S512 .f32 := Host.absf main_arg12
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg13
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S512 .f32 := Host.absf main_arg14
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S65x512 .f32 := Host.absf main_arg15
  let main_cst_18 : FVec F S_ .f32 := constant S_ .f32 0x7F800000#32
  let main_v50 : FVec F S65x512 .f32 := broadcastInDim S65x512 ![] bcast_S_S65x512 main_cst_18
  fn_part3 (F := F) main_arg4 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : IVec S65536 32) (main_arg9 : FVec F S512x256 .f32) (main_arg10 : FVec F S512 .f32) (main_arg11 : FVec F S512x256 .f32) (main_arg12 : FVec F S512 .f32) (main_arg13 : FVec F S512x256 .f32) (main_arg14 : FVec F S512 .f32) (main_arg15 : FVec F S65x512 .f32) (main_arg16 : FVec F S65 .f32) (main_arg17 : FVec F S64x256 .f32) (main_arg18 : FVec F S256x256 .f32) (main_arg19 : FVec F S256 .f32) (main_arg20 : FVec F S256x512 .f32) (main_arg21 : FVec F S2x512x256 .f32) (main_arg22 : FVec F S2x512x256 .f32) (main_arg23 : FVec F S2x512x512 .f32) (main_arg24 : FVec F S2x512 .f32) (main_arg25 : FVec F S2x768x512 .f32) (main_arg26 : FVec F S2x768x256 .f32) (main_arg27 : FVec F S2x768 .f32) (main_arg28 : FVec F S2x768 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg9
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512 .f32 := Host.absf main_arg10
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg11
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg4 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S65536x256 .f32) (main_arg1 : FVec F S131072x256 .f32) (main_arg2 : IVec S131072 32) (main_arg3 : IVec S131072 32) (main_arg4 : IVec S65536 32) (main_arg5 : IVec S512 1) (main_arg6 : IVec S512 32) (main_arg7 : FVec F S512x256 .f32) (main_arg8 : FVec F S512 .f32) (main_arg9 : FVec F S512x256 .f32) (main_arg10 : FVec F S512 .f32) (main_arg11 : FVec F S512x256 .f32) (main_arg12 : FVec F S512 .f32) (main_arg13 : FVec F S512x256 .f32) (main_arg14 : FVec F S512 .f32) (main_arg15 : FVec F S65x512 .f32) (main_arg16 : FVec F S65 .f32) (main_arg17 : FVec F S64x256 .f32) (main_arg18 : FVec F S256x256 .f32) (main_arg19 : FVec F S256 .f32) (main_arg20 : FVec F S256x512 .f32) (main_arg21 : FVec F S2x512x256 .f32) (main_arg22 : FVec F S2x512x256 .f32) (main_arg23 : FVec F S2x512x512 .f32) (main_arg24 : FVec F S2x512 .f32) (main_arg25 : FVec F S2x768x512 .f32) (main_arg26 : FVec F S2x768x256 .f32) (main_arg27 : FVec F S2x768 .f32) (main_arg28 : FVec F S2x768 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S512x256 .f32 := Host.absf main_arg7
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg8
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S65536x256 : Shape := ⟨2, ![65536, 256]⟩
abbrev S131072x256 : Shape := ⟨2, ![131072, 256]⟩
abbrev S131072 : Shape := ⟨1, ![131072]⟩
abbrev S65536 : Shape := ⟨1, ![65536]⟩
abbrev S512 : Shape := ⟨1, ![512]⟩
abbrev S512x256 : Shape := ⟨2, ![512, 256]⟩
abbrev S65x512 : Shape := ⟨2, ![65, 512]⟩
abbrev S65 : Shape := ⟨1, ![65]⟩
abbrev S64x256 : Shape := ⟨2, ![64, 256]⟩
abbrev S256x256 : Shape := ⟨2, ![256, 256]⟩
abbrev S256 : Shape := ⟨1, ![256]⟩
abbrev S256x512 : Shape := ⟨2, ![256, 512]⟩
abbrev S2x512x256 : Shape := ⟨3, ![2, 512, 256]⟩
abbrev S2x512x512 : Shape := ⟨3, ![2, 512, 512]⟩
abbrev S2x512 : Shape := ⟨2, ![2, 512]⟩
abbrev S2x768x512 : Shape := ⟨3, ![2, 768, 512]⟩
abbrev S2x768x256 : Shape := ⟨3, ![2, 768, 256]⟩
abbrev S2x768 : Shape := ⟨2, ![2, 768]⟩
abbrev S_ : Shape := ⟨0, ![]⟩
abbrev S65536x1 : Shape := ⟨2, ![65536, 1]⟩
abbrev S1x512x256 : Shape := ⟨3, ![1, 512, 256]⟩
abbrev S131072x512 : Shape := ⟨2, ![131072, 512]⟩
abbrev S2048x256 : Shape := ⟨2, ![2048, 256]⟩
abbrev S2048x512 : Shape := ⟨2, ![2048, 512]⟩
abbrev S1x512 : Shape := ⟨2, ![1, 512]⟩
abbrev S65536x512 : Shape := ⟨2, ![65536, 512]⟩
abbrev S131072x1 : Shape := ⟨2, ![131072, 1]⟩
abbrev S1x512x512 : Shape := ⟨3, ![1, 512, 512]⟩
abbrev S512x512 : Shape := ⟨2, ![512, 512]⟩
abbrev S1x768x512 : Shape := ⟨3, ![1, 768, 512]⟩
abbrev S768x512 : Shape := ⟨2, ![768, 512]⟩
abbrev S1x768 : Shape := ⟨2, ![1, 768]⟩
abbrev S768 : Shape := ⟨1, ![768]⟩
abbrev S512x768 : Shape := ⟨2, ![512, 768]⟩
abbrev S65536x768 : Shape := ⟨2, ![65536, 768]⟩
abbrev S2048x768 : Shape := ⟨2, ![2048, 768]⟩
abbrev S1x768x256 : Shape := ⟨3, ![1, 768, 256]⟩
abbrev S768x256 : Shape := ⟨2, ![768, 256]⟩
abbrev S256x768 : Shape := ⟨2, ![256, 768]⟩
abbrev S1x65536 : Shape := ⟨2, ![1, 65536]⟩
abbrev S1024x256 : Shape := ⟨2, ![1024, 256]⟩
abbrev S1x1024 : Shape := ⟨2, ![1, 1024]⟩
abbrev S1024x512 : Shape := ⟨2, ![1024, 512]⟩
abbrev S512x1024 : Shape := ⟨2, ![512, 1024]⟩
abbrev S512x65 : Shape := ⟨2, ![512, 65]⟩
abbrev S1x65 : Shape := ⟨2, ![1, 65]⟩
abbrev S512x1 : Shape := ⟨2, ![512, 1]⟩
abbrev S512x2 : Shape := ⟨2, ![512, 2]⟩
abbrev S1x256 : Shape := ⟨2, ![1, 256]⟩

abbrev nBuf : Space → Nat
  | .hbm => 322
  | .vmem => 74
  | .smem => 0
  | _ => 0

abbrev hbmTy0_0 (i : Nat) : BufTy := match i % 128 with
  | 0 => ⟨S65536x256, .f32⟩
  | 1 => ⟨S131072x256, .f32⟩
  | 2 => ⟨S131072, .i32⟩
  | 3 => ⟨S131072, .i32⟩
  | 4 => ⟨S65536, .i32⟩
  | 5 => ⟨S512, .i1⟩
  | 6 => ⟨S512, .i32⟩
  | 7 => ⟨S512x256, .f32⟩
  | 8 => ⟨S512, .f32⟩
  | 9 => ⟨S512x256, .f32⟩
  | 10 => ⟨S512, .f32⟩
  | 11 => ⟨S512x256, .f32⟩
  | 12 => ⟨S512, .f32⟩
  | 13 => ⟨S512x256, .f32⟩
  | 14 => ⟨S512, .f32⟩
  | 15 => ⟨S65x512, .f32⟩
  | 16 => ⟨S65, .f32⟩
  | 17 => ⟨S64x256, .f32⟩
  | 18 => ⟨S256x256, .f32⟩
  | 19 => ⟨S256, .f32⟩
  | 20 => ⟨S256x512, .f32⟩
  | 21 => ⟨S2x512x256, .f32⟩
  | 22 => ⟨S2x512x256, .f32⟩
  | 23 => ⟨S2x512x512, .f32⟩
  | 24 => ⟨S2x512, .f32⟩
  | 25 => ⟨S2x768x512, .f32⟩
  | 26 => ⟨S2x768x256, .f32⟩
  | 27 => ⟨S2x768, .f32⟩
  | 28 => ⟨S2x768, .f32⟩
  | 29 => ⟨S_, .i32⟩
  | 30 => ⟨S65536, .i32⟩
  | 31 => ⟨S65536, .i1⟩
  | 32 => ⟨S_, .i32⟩
  | 33 => ⟨S65536, .i32⟩
  | 34 => ⟨S65536, .i32⟩
  | 35 => ⟨S65536, .i32⟩
  | 36 => ⟨S65536x1, .i32⟩
  | 37 => ⟨S65536, .i1⟩
  | 38 => ⟨S_, .f32⟩
  | 39 => ⟨S512, .f32⟩
  | 40 => ⟨S1x512x256, .f32⟩
  | 41 => ⟨S512x256, .f32⟩
  | 42 => ⟨S256x512, .f32⟩
  | 43 => ⟨S131072x512, .f32⟩
  | 44 => ⟨S1x512x256, .f32⟩
  | 45 => ⟨S512x256, .f32⟩
  | 46 => ⟨S256x512, .f32⟩
  | 47 => ⟨S65536x512, .f32⟩
  | 48 => ⟨S_, .i32⟩
  | 49 => ⟨S131072, .i32⟩
  | 50 => ⟨S131072, .i1⟩
  | 51 => ⟨S_, .i32⟩
  | 52 => ⟨S131072, .i32⟩
  | 53 => ⟨S131072, .i32⟩
  | 54 => ⟨S131072, .i32⟩
  | 55 => ⟨S131072x1, .i32⟩
  | 56 => ⟨S131072x512, .f32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S131072x1, .i32⟩
  | 65 => ⟨S131072x512, .f32⟩
  | 66 => ⟨S131072x512, .f32⟩
  | 67 => ⟨S131072x512, .f32⟩
  | 68 => ⟨S1x512x512, .f32⟩
  | 69 => ⟨S512x512, .f32⟩
  | 70 => ⟨S1x512, .f32⟩
  | 71 => ⟨S512, .f32⟩
  | 72 => ⟨S512x512, .f32⟩
  | 73 => ⟨S131072x512, .f32⟩
  | 74 => ⟨S_, .f32⟩
  | 75 => ⟨S65536x512, .f32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S65536x512, .f32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S65536x512, .f32⟩
  | 94 => ⟨S1x768x512, .f32⟩
  | 95 => ⟨S768x512, .f32⟩
  | 96 => ⟨S1x768, .f32⟩
  | 97 => ⟨S768, .f32⟩
  | 98 => ⟨S512x768, .f32⟩
  | 99 => ⟨S65536x768, .f32⟩
  | 100 => ⟨S1x768x256, .f32⟩
  | 101 => ⟨S768x256, .f32⟩
  | 102 => ⟨S1x768, .f32⟩
  | 103 => ⟨S768, .f32⟩
  | 104 => ⟨S256x768, .f32⟩
  | 105 => ⟨S65536x768, .f32⟩
  | 106 => ⟨S65536x256, .f32⟩
  | 107 => ⟨S65536x256, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x256, .f32⟩
  | 114 => ⟨S65536x256, .f32⟩
  | 115 => ⟨S_, .f32⟩
  | 116 => ⟨S65536x256, .f32⟩
  | 117 => ⟨S65536x256, .f32⟩
  | 118 => ⟨S_, .f32⟩
  | 119 => ⟨S65536x256, .f32⟩
  | 120 => ⟨S65536x256, .f32⟩
  | 121 => ⟨S65536x256, .f32⟩
  | 122 => ⟨S65536x256, .f32⟩
  | 123 => ⟨S65536x256, .f32⟩
  | 124 => ⟨S_, .f32⟩
  | 125 => ⟨S65536x256, .f32⟩
  | 126 => ⟨S65536x256, .f32⟩
  | 127 => ⟨S_, .f32⟩
  | _ => ⟨S65536x256, .f32⟩

abbrev hbmTy0_1 (i : Nat) : BufTy := match i % 128 with
  | 0 => ⟨S65536x256, .f32⟩
  | 1 => ⟨S65536x256, .f32⟩
  | 2 => ⟨S65536x256, .f32⟩
  | 3 => ⟨S65536x256, .f32⟩
  | 4 => ⟨S65536x256, .f32⟩
  | 5 => ⟨S_, .f32⟩
  | 6 => ⟨S65536x256, .f32⟩
  | 7 => ⟨S65536x256, .f32⟩
  | 8 => ⟨S65536x256, .f32⟩
  | 9 => ⟨S65536x256, .f32⟩
  | 10 => ⟨S65536x256, .f32⟩
  | 11 => ⟨S65536x1, .i1⟩
  | 12 => ⟨S65536x256, .i1⟩
  | 13 => ⟨S65536x256, .f32⟩
  | 14 => ⟨S1x512x256, .f32⟩
  | 15 => ⟨S512x256, .f32⟩
  | 16 => ⟨S256x512, .f32⟩
  | 17 => ⟨S131072x512, .f32⟩
  | 18 => ⟨S1x512x256, .f32⟩
  | 19 => ⟨S512x256, .f32⟩
  | 20 => ⟨S256x512, .f32⟩
  | 21 => ⟨S65536x512, .f32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x512, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x512, .f32⟩
  | 40 => ⟨S131072x512, .f32⟩
  | 41 => ⟨S131072x512, .f32⟩
  | 42 => ⟨S1x512x512, .f32⟩
  | 43 => ⟨S512x512, .f32⟩
  | 44 => ⟨S1x512, .f32⟩
  | 45 => ⟨S512, .f32⟩
  | 46 => ⟨S512x512, .f32⟩
  | 47 => ⟨S131072x512, .f32⟩
  | 48 => ⟨S_, .f32⟩
  | 49 => ⟨S65536x512, .f32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S131072x1, .i32⟩
  | 58 => ⟨S65536x512, .f32⟩
  | 59 => ⟨S_, .i32⟩
  | 60 => ⟨S131072, .i32⟩
  | 61 => ⟨S131072, .i1⟩
  | 62 => ⟨S_, .i32⟩
  | 63 => ⟨S131072, .i32⟩
  | 64 => ⟨S131072, .i32⟩
  | 65 => ⟨S131072, .i32⟩
  | 66 => ⟨S131072x1, .i32⟩
  | 67 => ⟨S65536x512, .f32⟩
  | 68 => ⟨S1x768x512, .f32⟩
  | 69 => ⟨S768x512, .f32⟩
  | 70 => ⟨S1x768, .f32⟩
  | 71 => ⟨S768, .f32⟩
  | 72 => ⟨S512x768, .f32⟩
  | 73 => ⟨S65536x768, .f32⟩
  | 74 => ⟨S1x768x256, .f32⟩
  | 75 => ⟨S768x256, .f32⟩
  | 76 => ⟨S1x768, .f32⟩
  | 77 => ⟨S768, .f32⟩
  | 78 => ⟨S256x768, .f32⟩
  | 79 => ⟨S65536x768, .f32⟩
  | 80 => ⟨S65536x256, .f32⟩
  | 81 => ⟨S65536x256, .f32⟩
  | 82 => ⟨S65536x256, .f32⟩
  | 83 => ⟨S65536x256, .f32⟩
  | 84 => ⟨S65536x256, .f32⟩
  | 85 => ⟨S65536x256, .f32⟩
  | 86 => ⟨S65536x256, .f32⟩
  | 87 => ⟨S65536x256, .f32⟩
  | 88 => ⟨S65536x256, .f32⟩
  | 89 => ⟨S_, .f32⟩
  | 90 => ⟨S65536x256, .f32⟩
  | 91 => ⟨S65536x256, .f32⟩
  | 92 => ⟨S_, .f32⟩
  | 93 => ⟨S65536x256, .f32⟩
  | 94 => ⟨S65536x256, .f32⟩
  | 95 => ⟨S65536x256, .f32⟩
  | 96 => ⟨S65536x256, .f32⟩
  | 97 => ⟨S65536x256, .f32⟩
  | 98 => ⟨S_, .f32⟩
  | 99 => ⟨S65536x256, .f32⟩
  | 100 => ⟨S65536x256, .f32⟩
  | 101 => ⟨S_, .f32⟩
  | 102 => ⟨S65536x256, .f32⟩
  | 103 => ⟨S65536x256, .f32⟩
  | 104 => ⟨S65536x256, .f32⟩
  | 105 => ⟨S65536x256, .f32⟩
  | 106 => ⟨S65536x256, .f32⟩
  | 107 => ⟨S_, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x1, .i1⟩
  | 114 => ⟨S65536x256, .i1⟩
  | 115 => ⟨S65536x256, .f32⟩
  | 116 => ⟨S256x512, .f32⟩
  | 117 => ⟨S256x512, .f32⟩
  | 118 => ⟨S256x512, .f32⟩
  | 119 => ⟨S256x512, .f32⟩
  | 120 => ⟨S1x65536, .i32⟩
  | 121 => ⟨S512x512, .f32⟩
  | 122 => ⟨S512x512, .f32⟩
  | 123 => ⟨S512x65, .f32⟩
  | 124 => ⟨S512x65, .f32⟩
  | 125 => ⟨S1x65, .f32⟩
  | 126 => ⟨S512x65, .f32⟩
  | 127 => ⟨S512x65, .f32⟩
  | _ => ⟨S65536x256, .f32⟩

abbrev hbmTy0_2 (i : Nat) : BufTy := match i % 128 with
  | 0 => ⟨S_, .i32⟩
  | 1 => ⟨S512, .i32⟩
  | 2 => ⟨S512, .i32⟩
  | 3 => ⟨S_, .f32⟩
  | 4 => ⟨S512, .f32⟩
  | 5 => ⟨S_, .f32⟩
  | 6 => ⟨S512, .f32⟩
  | 7 => ⟨S512, .f32⟩
  | 8 => ⟨S512x1, .f32⟩
  | 9 => ⟨S512x65, .f32⟩
  | 10 => ⟨S512x65, .f32⟩
  | 11 => ⟨S512x65, .f32⟩
  | 12 => ⟨S_, .f32⟩
  | 13 => ⟨S512, .f32⟩
  | 14 => ⟨S512x1, .f32⟩
  | 15 => ⟨S512x1, .f32⟩
  | 16 => ⟨S512x65, .f32⟩
  | 17 => ⟨S512x65, .f32⟩
  | 18 => ⟨S512, .i32⟩
  | 19 => ⟨S_, .i32⟩
  | 20 => ⟨S512, .i32⟩
  | 21 => ⟨S512, .i1⟩
  | 22 => ⟨S_, .i32⟩
  | 23 => ⟨S512, .i32⟩
  | 24 => ⟨S512, .i32⟩
  | 25 => ⟨S512, .i32⟩
  | 26 => ⟨S_, .i32⟩
  | 27 => ⟨S512, .i32⟩
  | 28 => ⟨S512, .i1⟩
  | 29 => ⟨S_, .i32⟩
  | 30 => ⟨S512, .i32⟩
  | 31 => ⟨S512, .i32⟩
  | 32 => ⟨S512, .i32⟩
  | 33 => ⟨S512x1, .i32⟩
  | 34 => ⟨S512x1, .i32⟩
  | 35 => ⟨S512x2, .i32⟩
  | 36 => ⟨S512, .f32⟩
  | 37 => ⟨S512, .f32⟩
  | 38 => ⟨S_, .f32⟩
  | 39 => ⟨S_, .f32⟩
  | 40 => ⟨S512, .f32⟩
  | 41 => ⟨S512, .f32⟩
  | 42 => ⟨S_, .f32⟩
  | 43 => ⟨S_, .f32⟩
  | 44 => ⟨S_, .f32⟩
  | 45 => ⟨S_, .f32⟩
  | 46 => ⟨S_, .i32⟩
  | 47 => ⟨S512, .i32⟩
  | 48 => ⟨S512, .i32⟩
  | 49 => ⟨S_, .i32⟩
  | 50 => ⟨S512, .i32⟩
  | 51 => ⟨S512, .i1⟩
  | 52 => ⟨S_, .i32⟩
  | 53 => ⟨S512, .i32⟩
  | 54 => ⟨S512, .i32⟩
  | 55 => ⟨S512, .i32⟩
  | 56 => ⟨S512x1, .i32⟩
  | 57 => ⟨S512x256, .f32⟩
  | 58 => ⟨S256x256, .f32⟩
  | 59 => ⟨S512x256, .f32⟩
  | 60 => ⟨S1x256, .f32⟩
  | 61 => ⟨S512x256, .f32⟩
  | 62 => ⟨S512x256, .f32⟩
  | 63 => ⟨S512x256, .f32⟩
  | 64 => ⟨S512x256, .f32⟩
  | 65 => ⟨S512x256, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S512, .f32⟩
  | .local _ .vmem, ⟨4, _⟩ => ⟨S2048x512, .f32⟩
  | .local _ .vmem, ⟨5, _⟩ => ⟨S2048x512, .f32⟩
  | .local _ .vmem, ⟨6, _⟩ => ⟨S2048x256, .f32⟩
  | .local _ .vmem, ⟨7, _⟩ => ⟨S2048x256, .f32⟩
  | .local _ .vmem, ⟨8, _⟩ => ⟨S256x512, .f32⟩
  | .local _ .vmem, ⟨9, _⟩ => ⟨S512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S512x512, .f32⟩
  | .local _ .vmem, ⟨15, _⟩ => ⟨S512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S512x768, .f32⟩
  | .local _ .vmem, ⟨21, _⟩ => ⟨S768, .f32⟩
  | .local _ .vmem, ⟨22, _⟩ => ⟨S2048x768, .f32⟩
  | .local _ .vmem, ⟨23, _⟩ => ⟨S2048x768, .f32⟩
  | .local _ .vmem, ⟨24, _⟩ => ⟨S2048x256, .f32⟩
  | .local _ .vmem, ⟨25, _⟩ => ⟨S2048x256, .f32⟩
  | .local _ .vmem, ⟨26, _⟩ => ⟨S256x768, .f32⟩
  | .local _ .vmem, ⟨27, _⟩ => ⟨S768, .f32⟩
  | .local _ .vmem, ⟨28, _⟩ => ⟨S2048x768, .f32⟩
  | .local _ .vmem, ⟨29, _⟩ => ⟨S2048x768, .f32⟩
  | .local _ .vmem, ⟨30, _⟩ => ⟨S2048x256, .f32⟩
  | .local _ .vmem, ⟨31, _⟩ => ⟨S2048x256, .f32⟩
  | .local _ .vmem, ⟨32, _⟩ => ⟨S256x512, .f32⟩
  | .local _ .vmem, ⟨33, _⟩ => ⟨S512, .f32⟩
  | .local _ .vmem, ⟨34, _⟩ => ⟨S2048x512, .f32⟩
  | .local _ .vmem, ⟨35, _⟩ => ⟨S2048x512, .f32⟩
  | .local _ .vmem, ⟨36, _⟩ => ⟨S2048x256, .f32⟩
  | .local _ .vmem, ⟨37, _⟩ => ⟨S2048x256, .f32⟩
  | .local _ .vmem, ⟨38, _⟩ => ⟨S256x512, .f32⟩
  | .local _ .vmem, ⟨39, _⟩ => ⟨S512, .f32⟩
  | .local _ .vmem, ⟨40, _⟩ => ⟨S2048x512, .f32⟩
  | .local _ .vmem, ⟨41, _⟩ => ⟨S2048x512, .f32⟩
  | .local _ .vmem, ⟨42, _⟩ => ⟨S2048x512, .f32⟩
  | .local _ .vmem, ⟨43, _⟩ => ⟨S2048x512, .f32⟩
  | .local _ .vmem, ⟨44, _⟩ => ⟨S512x512, .f32⟩
  | .local _ .vmem, ⟨45, _⟩ => ⟨S512, .f32⟩
  | .local _ .vmem, ⟨46, _⟩ => ⟨S2048x512, .f32⟩
  | .local _ .vmem, ⟨47, _⟩ => ⟨S2048x512, .f32⟩
  | .local _ .vmem, ⟨48, _⟩ => ⟨S2048x512, .f32⟩
  | .local _ .vmem, ⟨49, _⟩ => ⟨S2048x512, .f32⟩
  | .local _ .vmem, ⟨50, _⟩ => ⟨S512x768, .f32⟩
  | .local _ .vmem, ⟨51, _⟩ => ⟨S768, .f32⟩
  | .local _ .vmem, ⟨52, _⟩ => ⟨S2048x768, .f32⟩
  | .local _ .vmem, ⟨53, _⟩ => ⟨S2048x768, .f32⟩
  | .local _ .vmem, ⟨54, _⟩ => ⟨S2048x256, .f32⟩
  | .local _ .vmem, ⟨55, _⟩ => ⟨S2048x256, .f32⟩
  | .local _ .vmem, ⟨56, _⟩ => ⟨S256x768, .f32⟩
  | .local _ .vmem, ⟨57, _⟩ => ⟨S768, .f32⟩
  | .local _ .vmem, ⟨58, _⟩ => ⟨S2048x768, .f32⟩
  | .local _ .vmem, ⟨59, _⟩ => ⟨S2048x768, .f32⟩
  | .local _ .vmem, ⟨60, _⟩ => ⟨S1024x256, .f32⟩
  | .local _ .vmem, ⟨61, _⟩ => ⟨S1024x256, .f32⟩
  | .local _ .vmem, ⟨62, _⟩ => ⟨S1x1024, .i32⟩
  | .local _ .vmem, ⟨63, _⟩ => ⟨S1x1024, .i32⟩
  | .local _ .vmem, ⟨64, _⟩ => ⟨S256x512, .f32⟩
  | .local _ .vmem, ⟨65, _⟩ => ⟨S512, .f32⟩
  | .local _ .vmem, ⟨66, _⟩ => ⟨S256x512, .f32⟩
  | .local _ .vmem, ⟨67, _⟩ => ⟨S512, .f32⟩
  | .local _ .vmem, ⟨68, _⟩ => ⟨S256x512, .f32⟩
  | .local _ .vmem, ⟨69, _⟩ => ⟨S512, .f32⟩
  | .local _ .vmem, ⟨70, _⟩ => ⟨S256x512, .f32⟩
  | .local _ .vmem, ⟨71, _⟩ => ⟨S512, .f32⟩
  | .local _ .vmem, ⟨72, _⟩ => ⟨S512x512, .f32⟩
  | .local _ .vmem, ⟨73, _⟩ => ⟨S512x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_1 : Ref sig .tc := ⟨.hbm, 48, rfl⟩
abbrev main_v16 : Ref sig .tc := ⟨.hbm, 49, rfl⟩
abbrev main_v17 : Ref sig .tc := ⟨.hbm, 50, rfl⟩
abbrev main_c_2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_3 : Ref sig .tc := ⟨.hbm, 57, rfl⟩
abbrev main_v23 : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_5 : Ref sig .tc := ⟨.hbm, 74, rfl⟩
abbrev main_v38 : Ref sig .tc := ⟨.hbm, 75, rfl⟩
abbrev main_c_6 : Ref sig .tc := ⟨.hbm, 76, rfl⟩
abbrev main_v39 : Ref sig .tc := ⟨.hbm, 77, rfl⟩
abbrev main_v40 : Ref sig .tc := ⟨.hbm, 78, rfl⟩
abbrev main_c_7 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_8 : Ref sig .tc := ⟨.hbm, 85, rfl⟩
abbrev main_v46 : Ref sig .tc := ⟨.hbm, 86, rfl⟩
abbrev main_v47 : Ref sig .tc := ⟨.hbm, 87, rfl⟩
abbrev main_c_9 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_10 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_12 : Ref sig .tc := ⟨.hbm, 124, rfl⟩
abbrev main_v81 : Ref sig .tc := ⟨.hbm, 125, rfl⟩
abbrev main_v82 : Ref sig .tc := ⟨.hbm, 126, rfl⟩
abbrev main_cst_13 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_14 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_call0_v0 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_15 : Ref sig .tc := ⟨.hbm, 150, rfl⟩
abbrev main_v103 : Ref sig .tc := ⟨.hbm, 151, rfl⟩
abbrev main_v104 : Ref sig .tc := ⟨.hbm, 152, rfl⟩
abbrev main_c_16 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_17 : Ref sig .tc := ⟨.hbm, 159, rfl⟩
abbrev main_v110 : Ref sig .tc := ⟨.hbm, 160, rfl⟩
abbrev main_v111 : Ref sig .tc := ⟨.hbm, 161, rfl⟩
abbrev main_c_18 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_19 : Ref sig .tc := ⟨.hbm, 176, rfl⟩
abbrev main_v125 : Ref sig .tc := ⟨.hbm, 177, rfl⟩
abbrev main_c_20 : Ref sig .tc := ⟨.hbm, 178, rfl⟩
abbrev main_v126 : Ref sig .tc := ⟨.hbm, 179, rfl⟩
abbrev main_v127 : Ref sig .tc := ⟨.hbm, 180, rfl⟩
abbrev main_c_21 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_22 : Ref sig .tc := ⟨.hbm, 187, rfl⟩
abbrev main_v133 : Ref sig .tc := ⟨.hbm, 188, rfl⟩
abbrev main_v134 : Ref sig .tc := ⟨.hbm, 189, rfl⟩
abbrev main_c_23 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_24 : Ref sig .tc := ⟨.hbm, 217, rfl⟩
abbrev main_v161 : Ref sig .tc := ⟨.hbm, 218, rfl⟩
abbrev main_v162 : Ref sig .tc := ⟨.hbm, 219, rfl⟩
abbrev main_cst_25 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_26 : Ref sig .tc := ⟨.hbm, 226, rfl⟩
abbrev main_v168 : Ref sig .tc := ⟨.hbm, 227, rfl⟩
abbrev main_v169 : Ref sig .tc := ⟨.hbm, 228, rfl⟩
abbrev main_cst_27 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_28 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_call1_v0 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187_0 : Ref sig .tc := ⟨.hbm, 249, rfl⟩
abbrev main_v187_1 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_c_29 : Ref sig .tc := ⟨.hbm, 256, rfl⟩
abbrev main_v193 : Ref sig .tc := ⟨.hbm, 257, rfl⟩
abbrev main_v194 : Ref sig .tc := ⟨.hbm, 258, rfl⟩
abbrev main_call2_cst : Ref sig .tc := ⟨.hbm, 259, rfl⟩
abbrev main_call2_v0 : Ref sig .tc := ⟨.hbm, 260, rfl⟩
abbrev main_call2_cst_0 : Ref sig .tc := ⟨.hbm, 261, rfl⟩
abbrev main_call2_v1 : Ref sig .tc := ⟨.hbm, 262, rfl⟩
abbrev main_call2_v2 : Ref sig .tc := ⟨.hbm, 263, rfl⟩
abbrev main_call2_v3 : Ref sig .tc := ⟨.hbm, 264, rfl⟩
abbrev main_call2_v4 : Ref sig .tc := ⟨.hbm, 265, rfl⟩
abbrev main_call2_v5 : Ref sig .tc := ⟨.hbm, 266, rfl⟩
abbrev main_call2_v6 : Ref sig .tc := ⟨.hbm, 267, rfl⟩
abbrev main_call2_cst_1 : Ref sig .tc := ⟨.hbm, 268, rfl⟩
abbrev main_call2_v7 : Ref sig .tc := ⟨.hbm, 269, rfl⟩
abbrev main_call2_v8 : Ref sig .tc := ⟨.hbm, 270, rfl⟩
abbrev main_call2_v9 : Ref sig .tc := ⟨.hbm, 271, rfl⟩
abbrev main_call2_v10 : Ref sig .tc := ⟨.hbm, 272, rfl⟩
abbrev main_v195 : Ref sig .tc := ⟨.hbm, 273, rfl⟩
abbrev main_v196 : Ref sig .tc := ⟨.hbm, 274, rfl⟩
abbrev main_c_30 : Ref sig .tc := ⟨.hbm, 275, rfl⟩
abbrev main_v197 : Ref sig .tc := ⟨.hbm, 276, rfl⟩
abbrev main_v198 : Ref sig .tc := ⟨.hbm, 277, rfl⟩
abbrev main_c_31 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_c_32 : Ref sig .tc := ⟨.hbm, 282, rfl⟩
abbrev main_v202 : Ref sig .tc := ⟨.hbm, 283, rfl⟩
abbrev main_v203 : Ref sig .tc := ⟨.hbm, 284, rfl⟩
abbrev main_c_33 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_cst_34 : Ref sig .tc := ⟨.hbm, 294, rfl⟩
abbrev main_call3_v0 : Ref sig .tc := ⟨.hbm, 295, rfl⟩
abbrev main_call3_v1 : Ref sig .tc := ⟨.hbm, 296, rfl⟩
abbrev main_v212 : Ref sig .tc := ⟨.hbm, 297, rfl⟩
abbrev main_cst_35 : Ref sig .tc := ⟨.hbm, 298, rfl⟩
abbrev main_v213 : Ref sig .tc := ⟨.hbm, 299, rfl⟩
abbrev main_cst_36 : Ref sig .tc := ⟨.hbm, 300, rfl⟩
abbrev main_v214 : Ref sig .tc := ⟨.hbm, 301, rfl⟩
abbrev main_c_37 : Ref sig .tc := ⟨.hbm, 302, rfl⟩
abbrev main_v215 : Ref sig .tc := ⟨.hbm, 303, rfl⟩
abbrev main_v216 : Ref sig .tc := ⟨.hbm, 304, rfl⟩
abbrev main_c_38 : Ref sig .tc := ⟨.hbm, 305, rfl⟩
abbrev main_v217 : Ref sig .tc := ⟨.hbm, 306, rfl⟩
abbrev main_v218 : Ref sig .tc := ⟨.hbm, 307, rfl⟩
abbrev main_c_39 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg3_0 : Ref sig .tc := ⟨.vmem, 65, rfl⟩
abbrev cc10_stg4_0 : Ref sig .tc := ⟨.vmem, 66, rfl⟩
abbrev cc10_stg5_0 : Ref sig .tc := ⟨.vmem, 67, rfl⟩
abbrev cc10_stg6_0 : Ref sig .tc := ⟨.vmem, 68, rfl⟩
abbrev cc10_stg7_0 : Ref sig .tc := ⟨.vmem, 69, rfl⟩
abbrev cc10_stg8_0 : Ref sig .tc := ⟨.vmem, 70, rfl⟩
abbrev cc10_stg9_0 : Ref sig .tc := ⟨.vmem, 71, rfl⟩
abbrev cc10_stg10_0 : Ref sig .tc := ⟨.vmem, 72, rfl⟩
abbrev cc10_stg11_0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem3_0 : DmaSem sig := 65
abbrev cc10_sem4_0 : DmaSem sig := 66
abbrev cc10_sem5_0 : DmaSem sig := 67
abbrev cc10_sem6_0 : DmaSem sig := 68
abbrev cc10_sem7_0 : DmaSem sig := 69
abbrev cc10_sem8_0 : DmaSem sig := 70
abbrev cc10_sem9_0 : DmaSem sig := 71
abbrev cc10_sem10_0 : DmaSem sig := 72
abbrev cc10_sem11_0 : DmaSem sig := 73

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2048x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2048x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x768 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S768 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2048x768 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x768 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S768 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2048x768 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![64], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1024x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1024 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S256x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S256x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S256x512 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S512 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S256x512 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S512 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S512x512 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 1 → Memref sig .tc .vmem S512x512 .f32 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))
abbrev reads10_11 : Fin grid10.rank → Bool := ![false]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S512 : S_.BroadcastsInDim S512 (![] : Fin 0 → Fin S512.rank)
  slices_S2x512x256_S1x512x256_0_0_0 : S2x512x256.Slices ![0, 0, 0] S1x512x256
  shapeCasts_S1x512x256_S512x256 : S1x512x256.ShapeCasts S512x256
  transposes_S512x256_S256x512_1_0 : S512x256.Transposes [1, 0] S256x512
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  bcast_S_S131072 : S_.BroadcastsInDim S131072 (![] : Fin 0 → Fin S131072.rank)
  bcast_S131072_S131072x1_0 : S131072.BroadcastsInDim S131072x1 (![0] : Fin 1 → Fin S131072x1.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  transposes_S512x512_S512x512_1_0 : S512x512.Transposes [1, 0] S512x512
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S65536x512 : S_.BroadcastsInDim S65536x512 (![] : Fin 0 → Fin S65536x512.rank)
  slices_S2x768x512_S1x768x512_0_0_0 : S2x768x512.Slices ![0, 0, 0] S1x768x512
  shapeCasts_S1x768x512_S768x512 : S1x768x512.ShapeCasts S768x512
  slices_S2x768_S1x768_0_0 : S2x768.Slices ![0, 0] S1x768
  shapeCasts_S1x768_S768 : S1x768.ShapeCasts S768
  transposes_S768x512_S512x768_1_0 : S768x512.Transposes [1, 0] S512x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  slices_S2x768x256_S1x768x256_0_0_0 : S2x768x256.Slices ![0, 0, 0] S1x768x256
  shapeCasts_S1x768x256_S768x256 : S1x768x256.ShapeCasts S768x256
  transposes_S768x256_S256x768_1_0 : S768x256.Transposes [1, 0] S256x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  slices_S2x512x256_S1x512x256_1_0_0 : S2x512x256.Slices ![1, 0, 0] S1x512x256
  shapeCasts_S2048x256_S2048x256 : S2048x256.ShapeCasts S2048x256
  slices_S2x512x512_S1x512x512_1_0_0 : S2x512x512.Slices ![1, 0, 0] S1x512x512
  slices_S2x512_S1x512_1_0 : S2x512.Slices ![1, 0] S1x512
  slices_S2x768x512_S1x768x512_1_0_0 : S2x768x512.Slices ![1, 0, 0] S1x768x512
  slices_S2x768_S1x768_1_0 : S2x768.Slices ![1, 0] S1x768
  slices_S2x768x256_S1x768x256_1_0_0 : S2x768x256.Slices ![1, 0, 0] S1x768x256
  shapeCasts_S65536_S1x65536 : S65536.ShapeCasts S1x65536
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x512_S1024x512 : S1x512.Broadcasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  iota_S512x1024_d0_w32 : S512x1024.Iotas .tc 32 [0]
  natLt_1_32 : 1 < 32
  transposes_S65x512_S512x65_1_0 : S65x512.Transposes [1, 0] S512x65
  bcast_S65_S1x65_1 : S65.BroadcastsInDim S1x65 (![1] : Fin 1 → Fin S1x65.rank)
  bcast_S1x65_S512x65_0_1 : S1x65.BroadcastsInDim S512x65 (![0, 1] : Fin 2 → Fin S512x65.rank)
  reducesTo_S512x65_S512_d1 : S512x65.ReducesTo [1] S512
  h_S_ : 0 < S_.numel
  bcast_S512_S512x1_0 : S512.BroadcastsInDim S512x1 (![0] : Fin 1 → Fin S512x1.rank)
  bcast_S512x1_S512x65_0_1 : S512x1.BroadcastsInDim S512x65 (![0, 1] : Fin 2 → Fin S512x65.rank)
  concatenates_S512x1_S512x1_S512x2_d1 : Shape.Concatenates [S512x1, S512x1] S512x2 1
  reducesTo_S512_S_d0 : S512.ReducesTo [0] S_
  transposes_S256x256_S256x256_1_0 : S256x256.Transposes [1, 0] S256x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  transposes_S256x512_S512x256_1_0 : S256x512.Transposes [1, 0] S512x256
  gather_S512_S65536x1_S65536_n_0_n_n_0_1_1_wf : GatherDims.WF S512 S65536x1 S65536 [] [0] [] [0] [] 1 ![1]
  dot_S2048x256_S256x512_S2048x512_1_0_0_1_n_n_wf : DotDims.WF S2048x256 S256x512 S2048x512 [1] [0] [0] [1] [] []
  gather_S65536x512_S131072x1_S131072x512_1_0_n_n_0_1_1512_wf : GatherDims.WF S65536x512 S131072x1 S131072x512 [1] [0] [] [0] [] 1 ![1, 512]
  dot_S2048x512_S512x512_S2048x512_1_0_0_1_n_n_wf : DotDims.WF S2048x512 S512x512 S2048x512 [1] [0] [0] [1] [] []
  scatter_S65536x512_S131072x1_S131072x512_1_0_0_1_wf : ScatterDims.WF S65536x512 S131072x1 S131072x512 [1] [0] [0] 1
  dot_S2048x512_S512x768_S2048x768_1_0_0_1_n_n_wf : DotDims.WF S2048x512 S512x768 S2048x768 [1] [0] [0] [1] [] []
  dot_S2048x256_S256x768_S2048x768_1_0_0_1_n_n_wf : DotDims.WF S2048x256 S256x768 S2048x768 [1] [0] [0] [1] [] []
  dot_S1024x256_S256x512_S1024x512_1_0_0_1_n_n_wf : DotDims.WF S1024x256 S256x512 S1024x512 [1] [0] [0] [1] [] []
  dot_S512x1024_S1024x512_S512x512_1_0_0_1_n_n_wf : DotDims.WF S512x1024 S1024x512 S512x512 [1] [0] [0] [1] [] []
  dot_S512x512_S512x65_S512x65_1_0_0_1_n_n_wf : DotDims.WF S512x512 S512x65 S512x65 [1] [0] [0] [1] [] []
  gather_S512x65_S512x2_S512_n_01_n_n_01_1_11_wf : GatherDims.WF S512x65 S512x2 S512 [] [0, 1] [] [0, 1] [] 1 ![1, 1]
  gather_S64x256_S512x1_S512x256_1_0_n_n_0_1_1256_wf : GatherDims.WF S64x256 S512x1 S512x256 [1] [0] [] [0] [] 1 ![1, 256]
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S65536x512.size a
  hwx1_3 : ∀ i : grid1.Coords, EltTy.bits .f32 = 32 ∨ (Rect.block (s := S65536x512) S2048x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S131072x512.size a
  hwx2_0 : ∀ i : grid2.Coords, EltTy.bits .f32 = 32 ∨ (Rect.block (s := S131072x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S131072x512.size a
  hwx2_3 : ∀ i : grid2.Coords, EltTy.bits .f32 = 32 ∨ (Rect.block (s := S131072x512) S2048x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S65536x512.size a
  hwx3_0 : ∀ i : grid3.Coords, EltTy.bits .f32 = 32 ∨ (Rect.block (s := S65536x512) S2048x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x768.size a ≤ S512x768.size a
  hwx3_1 : ∀ i : grid3.Coords, EltTy.bits .f32 = 32 ∨ (Rect.block (s := S512x768) S512x768.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S768.size a ≤ S768.size a
  hwx3_2 : ∀ i : grid3.Coords, EltTy.bits .f32 = 32 ∨ (Rect.block (s := S768) S768.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x768.size a ≤ S65536x768.size a
  hwx3_3 : ∀ i : grid3.Coords, EltTy.bits .f32 = 32 ∨ (Rect.block (s := S65536x768) S2048x768.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S65536x256.size a
  hwx4_0 : ∀ i : grid4.Coords, EltTy.bits .f32 = 32 ∨ (Rect.block (s := S65536x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x768.size a ≤ S256x768.size a
  hwx4_1 : ∀ i : grid4.Coords, EltTy.bits .f32 = 32 ∨ (Rect.block (s := S256x768) S256x768.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S768.size a ≤ S768.size a
  hwx4_2 : ∀ i : grid4.Coords, EltTy.bits .f32 = 32 ∨ (Rect.block (s := S768) S768.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x768.size a ≤ S65536x768.size a
  hwx4_3 : ∀ i : grid4.Coords, EltTy.bits .f32 = 32 ∨ (Rect.block (s := S65536x768) S2048x768.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S131072x256.size a
  hwx5_0 : ∀ i : grid5.Coords, EltTy.bits .f32 = 32 ∨ (Rect.block (s := S131072x256) S2048x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x512.size a ≤ S256x512.size a
  hwx5_1 : ∀ i : grid5.Coords, EltTy.bits .f32 = 32 ∨ (Rect.block (s := S256x512) S256x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512.size a ≤ S512.size a
  hwx5_2 : ∀ i : grid5.Coords, EltTy.bits .f32 = 32 ∨ (Rect.block (s := S512) S512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x512.size a ≤ S131072x512.size a
  hwx5_3 : ∀ i : grid5.Coords, EltTy.bits .f32 = 32 ∨ (Rect.block (s := S131072x512) S2048x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S65536x256.size a
  hwx6_0 : ∀ i : grid6.Coords, EltTy.bits .f32 = 32 ∨ (Rect.block (s := S65536x256) S2048x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x512.size a ≤ S256x512.size a
  hwx6_1 : ∀ i : grid6.Coords, EltTy.bits .f32 = 32 ∨ (Rect.block (s := S256x512) S256x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512.size a ≤ S512.size a
  hwx6_2 : ∀ i : grid6.Coords, EltTy.bits .f32 = 32 ∨ (Rect.block (s := S512) S512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x512.size a ≤ S65536x512.size a
  hwx6_3 : ∀ i : grid6.Coords, EltTy.bits .f32 = 32 ∨ (Rect.block (s := S65536x512) S2048x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x512.size a ≤ S131072x512.size a
  hwx7_0 : ∀ i : grid7.Coords, EltTy.bits .f32 = 32 ∨ (Rect.block (s := S131072x512) S2048x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S512x512.size a
  hwx7_1 : ∀ i : grid7.Coords, EltTy.bits .f32 = 32 ∨ (Rect.block (s := S512x512) S512x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512.size a ≤ S512.size a
  hwx7_2 : ∀ i : grid7.Coords, EltTy.bits .f32 = 32 ∨ (Rect.block (s := S512) S512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x512.size a ≤ S131072x512.size a
  hwx7_3 : ∀ i : grid7.Coords, EltTy.bits .f32 = 32 ∨ (Rect.block (s := S131072x512) S2048x512.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x512.size a ≤ S65536x512.size a
  hwx8_0 : ∀ i : grid8.Coords, EltTy.bits .f32 = 32 ∨ (Rect.block (s := S65536x512) S2048x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x768.size a ≤ S512x768.size a
  hwx8_1 : ∀ i : grid8.Coords, EltTy.bits .f32 = 32 ∨ (Rect.block (s := S512x768) S512x768.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S768.size a ≤ S768.size a
  hwx8_2 : ∀ i : grid8.Coords, EltTy.bits .f32 = 32 ∨ (Rect.block (s := S768) S768.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x768.size a ≤ S65536x768.size a
  hwx8_3 : ∀ i : grid8.Coords, EltTy.bits .f32 = 32 ∨ (Rect.block (s := S65536x768) S2048x768.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x256.size a ≤ S65536x256.size a
  hwx9_0 : ∀ i : grid9.Coords, EltTy.bits .f32 = 32 ∨ (Rect.block (s := S65536x256) S2048x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x768.size a ≤ S256x768.size a
  hwx9_1 : ∀ i : grid9.Coords, EltTy.bits .f32 = 32 ∨ (Rect.block (s := S256x768) S256x768.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S768.size a ≤ S768.size a
  hwx9_2 : ∀ i : grid9.Coords, EltTy.bits .f32 = 32 ∨ (Rect.block (s := S768) S768.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x768.size a ≤ S65536x768.size a
  hwx9_3 : ∀ i : grid9.Coords, EltTy.bits .f32 = 32 ∨ (Rect.block (s := S65536x768) S2048x768.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x256.size a ≤ S65536x256.size a
  hwx10_0 : ∀ i : grid10.Coords, EltTy.bits .f32 = 32 ∨ (Rect.block (s := S65536x256) S1024x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x1024.size a ≤ S1x65536.size a
  hwx10_1 : ∀ i : grid10.Coords, EltTy.bits .i32 = 32 ∨ (Rect.block (s := S1x65536) S1x1024.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x512.size a ≤ S256x512.size a
  hwx10_2 : ∀ i : grid10.Coords, EltTy.bits .f32 = 32 ∨ (Rect.block (s := S256x512) S256x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S512.size a ≤ S512.size a
  hwx10_3 : ∀ i : grid10.Coords, EltTy.bits .f32 = 32 ∨ (Rect.block (s := S512) S512.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S256x512.size a ≤ S256x512.size a
  hwx10_4 : ∀ i : grid10.Coords, EltTy.bits .f32 = 32 ∨ (Rect.block (s := S256x512) S256x512.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512.size a ≤ S512.size a
  hwx10_5 : ∀ i : grid10.Coords, EltTy.bits .f32 = 32 ∨ (Rect.block (s := S512) S512.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S256x512.size a ≤ S256x512.size a
  hwx10_6 : ∀ i : grid10.Coords, EltTy.bits .f32 = 32 ∨ (Rect.block (s := S256x512) S256x512.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S512.size a ≤ S512.size a
  hwx10_7 : ∀ i : grid10.Coords, EltTy.bits .f32 = 32 ∨ (Rect.block (s := S512) S512.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S256x512.size a ≤ S256x512.size a
  hwx10_8 : ∀ i : grid10.Coords, EltTy.bits .f32 = 32 ∨ (Rect.block (s := S256x512) S256x512.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S512.size a ≤ S512.size a
  hwx10_9 : ∀ i : grid10.Coords, EltTy.bits .f32 = 32 ∨ (Rect.block (s := S512) S512.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S512x512.size a ≤ S512x512.size a
  hwx10_10 : ∀ i : grid10.Coords, EltTy.bits .f32 = 32 ∨ (Rect.block (s := S512x512) S512x512.size (cc10_transform_10 i) (hinb10_10 i)).WholeWords (EltTy.packing .f32)
  hstage10_11 : ∀ j, (stage10_11 j).IsWhole
  nbuf10_11 : grid10.bufCount reads10_11 true = 1
  hreads10_11 : ∀ i i' : grid10.Coords, (∀ a, reads10_11 a = true → i a = i' a) → cc10_transform_11 i = cc10_transform_11 i'
  hinb10_11 : ∀ (i : grid10.Coords) a, (cc10_transform_11 i a + 1) * S512x512.size a ≤ S512x512.size a
  hwx10_11 : ∀ i : grid10.Coords, EltTy.bits .f32 = 32 ∨ (Rect.block (s := S512x512) S512x512.size (cc10_transform_11 i) (hinb10_11 i)).WholeWords (EltTy.packing .f32)

variable [Facts₀]

def gather_S512_S65536x1_S65536_n_0_n_n_0_1_1 : GatherDims S512 S65536x1 S65536 where
  offsetDims := []
  collapsedSliceDims := [0]
  operandBatchingDims := []
  startIndicesBatchingDims := []
  startIndexMap := [0]
  indexVectorDim := 1
  sliceSizes := ![1]
  wf := gather_S512_S65536x1_S65536_n_0_n_n_0_1_1_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def gather_S65536x512_S131072x1_S131072x512_1_0_n_n_0_1_1512 : GatherDims S65536x512 S131072x1 S131072x512 where
  offsetDims := [1]
  collapsedSliceDims := [0]
  operandBatchingDims := []
  startIndicesBatchingDims := []
  startIndexMap := [0]
  indexVectorDim := 1
  sliceSizes := ![1, 512]
  wf := gather_S65536x512_S131072x1_S131072x512_1_0_n_n_0_1_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def scatter_S65536x512_S131072x1_S131072x512_1_0_0_1 : ScatterDims S65536x512 S131072x1 S131072x512 where
  updateWindowDims := [1]
  insertedWindowDims := [0]
  scatterDimsToOperandDims := [0]
  indexVectorDim := 1
  wf := scatter_S65536x512_S131072x1_S131072x512_1_0_0_1_wf
def dot_S2048x512_S512x768_S2048x768_1_0_0_1_n_n : DotDims S2048x512 S512x768 S2048x768 where
  lhsContracting := [1]
  rhsContracting := [0]
  lhsNonContracting := [0]
  rhsNonContracting := [1]
  lhsBatch := []
  rhsBatch := []
  wf := dot_S2048x512_S512x768_S2048x768_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x65_S512x65_1_0_0_1_n_n : DotDims S512x512 S512x65 S512x65 where
  lhsContracting := [1]
  rhsContracting := [0]
  lhsNonContracting := [0]
  rhsNonContracting := [1]
  lhsBatch := []
  rhsBatch := []
  wf := dot_S512x512_S512x65_S512x65_1_0_0_1_n_n_wf
def gather_S512x65_S512x2_S512_n_01_n_n_01_1_11 : GatherDims S512x65 S512x2 S512 where
  offsetDims := []
  collapsedSliceDims := [0, 1]
  operandBatchingDims := []
  startIndicesBatchingDims := []
  startIndexMap := [0, 1]
  indexVectorDim := 1
  sliceSizes := ![1, 1]
  wf := gather_S512x65_S512x2_S512_n_01_n_n_01_1_11_wf
def gather_S64x256_S512x1_S512x256_1_0_n_n_0_1_1256 : GatherDims S64x256 S512x1 S512x256 where
  offsetDims := [1]
  collapsedSliceDims := [0]
  operandBatchingDims := []
  startIndicesBatchingDims := []
  startIndexMap := [0]
  indexVectorDim := 1
  sliceSizes := ![1, 256]
  wf := gather_S64x256_S512x1_S512x256_1_0_n_n_0_1_1256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S512x768.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2048x768.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S256x768.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S2048x768.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S256x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v7) S512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S2048x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S256x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v7) S512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S2048x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v118) S2048x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v123) S512x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v122) S512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S2048x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v139) S2048x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v144) S512x768.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v143) S768.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v145) S2048x768.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v94) S2048x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v150) S256x768.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v149) S768.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v151) S2048x768.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v181) S1024x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v186) S1x1024.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v182) S256x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg8) S512.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v183) S256x512.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg10) S512.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v184) S256x512.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg12) S512.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v185) S256x512.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_arg14) S512.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_v187_0) S512x512.size cc10_transform_10 reads10_10 true true 1 stage10_10 sem10_10
    hrank10 hreads10_10 hinb10_10 nbuf10_10 (Memref.isWhole_whole _) hwx10_10 hstage10_10

abbrev win10_11 : Pipeline.Window sig grid10 :=
  Pipeline.Window.ofSpec (Memref.whole main_v187_1) S512x512.size cc10_transform_11 reads10_11 true true 1 stage10_11 sem10_11
    hrank10 hreads10_11 hinb10_11 nbuf10_11 (Memref.isWhole_whole _) hwx10_11 hstage10_11

abbrev win10 : Fin 12 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | ⟨_ + 12, h⟩ => absurd h (Nat.not_lt.2 (Nat.le_add_left _ _))
abbrev spec10 : Fin 12 → Pipeline.WinSpec sig grid10.rank := fun w => (win10 w).toWinSpec

class Facts : Prop extends Facts₀ where

variable [Facts]
-- ==== ReferenceIdeal.lean ====
abbrev S65536x256 : Shape := ⟨2, ![65536, 256]⟩
abbrev S131072x256 : Shape := ⟨2, ![131072, 256]⟩
abbrev S131072 : Shape := ⟨1, ![131072]⟩
abbrev S65536 : Shape := ⟨1, ![65536]⟩
abbrev S512 : Shape := ⟨1, ![512]⟩
abbrev S512x256 : Shape := ⟨2, ![512, 256]⟩
abbrev S65x512 : Shape := ⟨2, ![65, 512]⟩
abbrev S65 : Shape := ⟨1, ![65]⟩
abbrev S64x256 : Shape := ⟨2, ![64, 256]⟩
abbrev S256x256 : Shape := ⟨2, ![256, 256]⟩
abbrev S256 : Shape := ⟨1, ![256]⟩
abbrev S256x512 : Shape := ⟨2, ![256, 512]⟩
abbrev S2x512x256 : Shape := ⟨3, ![2, 512, 256]⟩
abbrev S2x512x512 : Shape := ⟨3, ![2, 512, 512]⟩
abbrev S2x512 : Shape := ⟨2, ![2, 512]⟩
abbrev S2x768x512 : Shape := ⟨3, ![2, 768, 512]⟩
abbrev S2x768x256 : Shape := ⟨3, ![2, 768, 256]⟩
abbrev S2x768 : Shape := ⟨2, ![2, 768]⟩
abbrev S1x65536 : Shape := ⟨2, ![1, 65536]⟩
abbrev S512x1 : Shape := ⟨2, ![512, 1]⟩
abbrev S512x65536 : Shape := ⟨2, ![512, 65536]⟩
abbrev S_ : Shape := ⟨0, ![]⟩
abbrev S1x512x256 : Shape := ⟨3, ![1, 512, 256]⟩
abbrev S131072x512 : Shape := ⟨2, ![131072, 512]⟩
abbrev S65536x512 : Shape := ⟨2, ![65536, 512]⟩
abbrev S131072x1 : Shape := ⟨2, ![131072, 1]⟩
abbrev S1x512x512 : Shape := ⟨3, ![1, 512, 512]⟩
abbrev S512x512 : Shape := ⟨2, ![512, 512]⟩
abbrev S1x512 : Shape := ⟨2, ![1, 512]⟩
abbrev S1x768x512 : Shape := ⟨3, ![1, 768, 512]⟩
abbrev S768x512 : Shape := ⟨2, ![768, 512]⟩
abbrev S512x768 : Shape := ⟨2, ![512, 768]⟩
abbrev S65536x768 : Shape := ⟨2, ![65536, 768]⟩
abbrev S1x768 : Shape := ⟨2, ![1, 768]⟩
abbrev S768 : Shape := ⟨1, ![768]⟩
abbrev S1x768x256 : Shape := ⟨3, ![1, 768, 256]⟩
abbrev S768x256 : Shape := ⟨2, ![768, 256]⟩
abbrev S256x768 : Shape := ⟨2, ![256, 768]⟩
abbrev S65536x1 : Shape := ⟨2, ![65536, 1]⟩
abbrev S512x65 : Shape := ⟨2, ![512, 65]⟩
abbrev S1x65 : Shape := ⟨2, ![1, 65]⟩
abbrev S512x2 : Shape := ⟨2, ![512, 2]⟩
abbrev S1x256 : Shape := ⟨2, ![1, 256]⟩

abbrev nBuf : Space → Nat
  | .hbm => 380
  | .vmem => 0
  | .smem => 0
  | _ => 0

abbrev hbmTy0_0 (i : Nat) : BufTy := match i % 128 with
  | 0 => ⟨S65536x256, .f32⟩
  | 1 => ⟨S131072x256, .f32⟩
  | 2 => ⟨S131072, .i32⟩
  | 3 => ⟨S131072, .i32⟩
  | 4 => ⟨S65536, .i32⟩
  | 5 => ⟨S512, .i1⟩
  | 6 => ⟨S512, .i32⟩
  | 7 => ⟨S512x256, .f32⟩
  | 8 => ⟨S512, .f32⟩
  | 9 => ⟨S512x256, .f32⟩
  | 10 => ⟨S512, .f32⟩
  | 11 => ⟨S512x256, .f32⟩
  | 12 => ⟨S512, .f32⟩
  | 13 => ⟨S512x256, .f32⟩
  | 14 => ⟨S512, .f32⟩
  | 15 => ⟨S65x512, .f32⟩
  | 16 => ⟨S65, .f32⟩
  | 17 => ⟨S64x256, .f32⟩
  | 18 => ⟨S256x256, .f32⟩
  | 19 => ⟨S256, .f32⟩
  | 20 => ⟨S256x512, .f32⟩
  | 21 => ⟨S2x512x256, .f32⟩
  | 22 => ⟨S2x512x256, .f32⟩
  | 23 => ⟨S2x512x512, .f32⟩
  | 24 => ⟨S2x512, .f32⟩
  | 25 => ⟨S2x768x512, .f32⟩
  | 26 => ⟨S2x768x256, .f32⟩
  | 27 => ⟨S2x768, .f32⟩
  | 28 => ⟨S2x768, .f32⟩
  | 29 => ⟨S1x65536, .i32⟩
  | 30 => ⟨S512, .i32⟩
  | 31 => ⟨S512x1, .i32⟩
  | 32 => ⟨S512x65536, .i32⟩
  | 33 => ⟨S512x65536, .i32⟩
  | 34 => ⟨S512x65536, .i1⟩
  | 35 => ⟨S512x65536, .f32⟩
  | 36 => ⟨S512x1, .i1⟩
  | 37 => ⟨S512x1, .f32⟩
  | 38 => ⟨S512x65536, .f32⟩
  | 39 => ⟨S512x65536, .f32⟩
  | 40 => ⟨S_, .f32⟩
  | 41 => ⟨S65536, .f32⟩
  | 42 => ⟨S_, .f32⟩
  | 43 => ⟨S65536, .f32⟩
  | 44 => ⟨S65536, .i1⟩
  | 45 => ⟨S1x512x256, .f32⟩
  | 46 => ⟨S512x256, .f32⟩
  | 47 => ⟨S256x512, .f32⟩
  | 48 => ⟨S131072x512, .f32⟩
  | 49 => ⟨S1x512x256, .f32⟩
  | 50 => ⟨S512x256, .f32⟩
  | 51 => ⟨S256x512, .f32⟩
  | 52 => ⟨S65536x512, .f32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x512, .f32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x512, .f32⟩
  | 71 => ⟨S131072x512, .f32⟩
  | 72 => ⟨S131072x512, .f32⟩
  | 73 => ⟨S131072x512, .f32⟩
  | 74 => ⟨S1x512x512, .f32⟩
  | 75 => ⟨S512x512, .f32⟩
  | 76 => ⟨S512x512, .f32⟩
  | 77 => ⟨S131072x512, .f32⟩
  | 78 => ⟨S1x512, .f32⟩
  | 79 => ⟨S512, .f32⟩
  | 80 => ⟨S1x512, .f32⟩
  | 81 => ⟨S131072x512, .f32⟩
  | 82 => ⟨S131072x512, .f32⟩
  | 83 => ⟨S_, .f32⟩
  | 84 => ⟨S65536x512, .f32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S65536x512, .f32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S65536x512, .f32⟩
  | 103 => ⟨S1x768x512, .f32⟩
  | 104 => ⟨S768x512, .f32⟩
  | 105 => ⟨S512x768, .f32⟩
  | 106 => ⟨S65536x768, .f32⟩
  | 107 => ⟨S1x768, .f32⟩
  | 108 => ⟨S768, .f32⟩
  | 109 => ⟨S1x768, .f32⟩
  | 110 => ⟨S65536x768, .f32⟩
  | 111 => ⟨S65536x768, .f32⟩
  | 112 => ⟨S1x768x256, .f32⟩
  | 113 => ⟨S768x256, .f32⟩
  | 114 => ⟨S256x768, .f32⟩
  | 115 => ⟨S65536x768, .f32⟩
  | 116 => ⟨S1x768, .f32⟩
  | 117 => ⟨S768, .f32⟩
  | 118 => ⟨S1x768, .f32⟩
  | 119 => ⟨S65536x768, .f32⟩
  | 120 => ⟨S65536x768, .f32⟩
  | 121 => ⟨S65536x256, .f32⟩
  | 122 => ⟨S65536x256, .f32⟩
  | 123 => ⟨S65536x256, .f32⟩
  | 124 => ⟨S65536x256, .f32⟩
  | 125 => ⟨S65536x256, .f32⟩
  | 126 => ⟨S65536x256, .f32⟩
  | 127 => ⟨S65536x256, .f32⟩
  | _ => ⟨S65536x256, .f32⟩

abbrev hbmTy0_1 (i : Nat) : BufTy := match i % 128 with
  | 0 => ⟨S65536x256, .f32⟩
  | 1 => ⟨S65536x256, .f32⟩
  | 2 => ⟨S_, .f32⟩
  | 3 => ⟨S65536x256, .f32⟩
  | 4 => ⟨S65536x256, .f32⟩
  | 5 => ⟨S_, .f32⟩
  | 6 => ⟨S65536x256, .f32⟩
  | 7 => ⟨S65536x256, .f32⟩
  | 8 => ⟨S65536x256, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S_, .f32⟩
  | 15 => ⟨S65536x256, .f32⟩
  | 16 => ⟨S65536x256, .f32⟩
  | 17 => ⟨S65536x256, .f32⟩
  | 18 => ⟨S65536x256, .f32⟩
  | 19 => ⟨S65536x256, .f32⟩
  | 20 => ⟨S_, .f32⟩
  | 21 => ⟨S65536x256, .f32⟩
  | 22 => ⟨S65536x256, .f32⟩
  | 23 => ⟨S65536x256, .f32⟩
  | 24 => ⟨S65536x256, .f32⟩
  | 25 => ⟨S65536x256, .f32⟩
  | 26 => ⟨S65536x1, .i1⟩
  | 27 => ⟨S65536x256, .i1⟩
  | 28 => ⟨S65536x256, .f32⟩
  | 29 => ⟨S1x512x256, .f32⟩
  | 30 => ⟨S512x256, .f32⟩
  | 31 => ⟨S256x512, .f32⟩
  | 32 => ⟨S131072x512, .f32⟩
  | 33 => ⟨S1x512x256, .f32⟩
  | 34 => ⟨S512x256, .f32⟩
  | 35 => ⟨S256x512, .f32⟩
  | 36 => ⟨S65536x512, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S131072x512, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x512, .f32⟩
  | 55 => ⟨S131072x512, .f32⟩
  | 56 => ⟨S131072x512, .f32⟩
  | 57 => ⟨S131072x512, .f32⟩
  | 58 => ⟨S1x512x512, .f32⟩
  | 59 => ⟨S512x512, .f32⟩
  | 60 => ⟨S512x512, .f32⟩
  | 61 => ⟨S131072x512, .f32⟩
  | 62 => ⟨S1x512, .f32⟩
  | 63 => ⟨S512, .f32⟩
  | 64 => ⟨S1x512, .f32⟩
  | 65 => ⟨S131072x512, .f32⟩
  | 66 => ⟨S131072x512, .f32⟩
  | 67 => ⟨S_, .f32⟩
  | 68 => ⟨S65536x512, .f32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S131072x1, .i32⟩
  | 77 => ⟨S65536x512, .f32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S65536x512, .f32⟩
  | 87 => ⟨S1x768x512, .f32⟩
  | 88 => ⟨S768x512, .f32⟩
  | 89 => ⟨S512x768, .f32⟩
  | 90 => ⟨S65536x768, .f32⟩
  | 91 => ⟨S1x768, .f32⟩
  | 92 => ⟨S768, .f32⟩
  | 93 => ⟨S1x768, .f32⟩
  | 94 => ⟨S65536x768, .f32⟩
  | 95 => ⟨S65536x768, .f32⟩
  | 96 => ⟨S1x768x256, .f32⟩
  | 97 => ⟨S768x256, .f32⟩
  | 98 => ⟨S256x768, .f32⟩
  | 99 => ⟨S65536x768, .f32⟩
  | 100 => ⟨S1x768, .f32⟩
  | 101 => ⟨S768, .f32⟩
  | 102 => ⟨S1x768, .f32⟩
  | 103 => ⟨S65536x768, .f32⟩
  | 104 => ⟨S65536x768, .f32⟩
  | 105 => ⟨S65536x256, .f32⟩
  | 106 => ⟨S65536x256, .f32⟩
  | 107 => ⟨S65536x256, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x256, .f32⟩
  | 114 => ⟨S_, .f32⟩
  | 115 => ⟨S65536x256, .f32⟩
  | 116 => ⟨S65536x256, .f32⟩
  | 117 => ⟨S_, .f32⟩
  | 118 => ⟨S65536x256, .f32⟩
  | 119 => ⟨S65536x256, .f32⟩
  | 120 => ⟨S65536x256, .f32⟩
  | 121 => ⟨S65536x256, .f32⟩
  | 122 => ⟨S65536x256, .f32⟩
  | 123 => ⟨S_, .f32⟩
  | 124 => ⟨S65536x256, .f32⟩
  | 125 => ⟨S65536x256, .f32⟩
  | 126 => ⟨S_, .f32⟩
  | 127 => ⟨S65536x256, .f32⟩
  | _ => ⟨S65536x256, .f32⟩

abbrev hbmTy0_2 (i : Nat) : BufTy := match i % 128 with
  | 0 => ⟨S65536x256, .f32⟩
  | 1 => ⟨S65536x256, .f32⟩
  | 2 => ⟨S65536x256, .f32⟩
  | 3 => ⟨S65536x256, .f32⟩
  | 4 => ⟨S_, .f32⟩
  | 5 => ⟨S65536x256, .f32⟩
  | 6 => ⟨S65536x256, .f32⟩
  | 7 => ⟨S65536x256, .f32⟩
  | 8 => ⟨S65536x256, .f32⟩
  | 9 => ⟨S65536x256, .f32⟩
  | 10 => ⟨S65536x1, .i1⟩
  | 11 => ⟨S65536x256, .i1⟩
  | 12 => ⟨S65536x256, .f32⟩
  | 13 => ⟨S256x512, .f32⟩
  | 14 => ⟨S65536x512, .f32⟩
  | 15 => ⟨S1x512, .f32⟩
  | 16 => ⟨S65536x512, .f32⟩
  | 17 => ⟨S65536x512, .f32⟩
  | 18 => ⟨S65536x512, .f32⟩
  | 19 => ⟨S65536x512, .f32⟩
  | 20 => ⟨S_, .f32⟩
  | 21 => ⟨S65536x512, .f32⟩
  | 22 => ⟨S65536x512, .f32⟩
  | 23 => ⟨S_, .f32⟩
  | 24 => ⟨S65536x512, .f32⟩
  | 25 => ⟨S65536x512, .f32⟩
  | 26 => ⟨S256x512, .f32⟩
  | 27 => ⟨S65536x512, .f32⟩
  | 28 => ⟨S1x512, .f32⟩
  | 29 => ⟨S65536x512, .f32⟩
  | 30 => ⟨S65536x512, .f32⟩
  | 31 => ⟨S65536x512, .f32⟩
  | 32 => ⟨S512x512, .f32⟩
  | 33 => ⟨S512x65, .f32⟩
  | 34 => ⟨S512x65, .f32⟩
  | 35 => ⟨S1x65, .f32⟩
  | 36 => ⟨S512x65, .f32⟩
  | 37 => ⟨S512x65, .f32⟩
  | 38 => ⟨S_, .i32⟩
  | 39 => ⟨S512, .i32⟩
  | 40 => ⟨S512, .i32⟩
  | 41 => ⟨S_, .f32⟩
  | 42 => ⟨S512, .f32⟩
  | 43 => ⟨S_, .f32⟩
  | 44 => ⟨S512, .f32⟩
  | 45 => ⟨S512, .f32⟩
  | 46 => ⟨S512x1, .f32⟩
  | 47 => ⟨S512x65, .f32⟩
  | 48 => ⟨S512x65, .f32⟩
  | 49 => ⟨S512x65, .f32⟩
  | 50 => ⟨S_, .f32⟩
  | 51 => ⟨S512, .f32⟩
  | 52 => ⟨S512x1, .f32⟩
  | 53 => ⟨S512x1, .f32⟩
  | 54 => ⟨S512x65, .f32⟩
  | 55 => ⟨S512x65, .f32⟩
  | 56 => ⟨S512, .i32⟩
  | 57 => ⟨S_, .i32⟩
  | 58 => ⟨S512, .i32⟩
  | 59 => ⟨S512, .i1⟩
  | 60 => ⟨S_, .i32⟩
  | 61 => ⟨S512, .i32⟩
  | 62 => ⟨S512, .i32⟩
  | 63 => ⟨S512, .i32⟩
  | 64 => ⟨S_, .i32⟩
  | 65 => ⟨S512, .i32⟩
  | 66 => ⟨S512, .i1⟩
  | 67 => ⟨S_, .i32⟩
  | 68 => ⟨S512, .i32⟩
  | 69 => ⟨S512, .i32⟩
  | 70 => ⟨S512, .i32⟩
  | 71 => ⟨S512x1, .i32⟩
  | 72 => ⟨S512x1, .i32⟩
  | 73 => ⟨S512x2, .i32⟩
  | 74 => ⟨S512, .f32⟩
  | 75 => ⟨S512, .f32⟩
  | 76 => ⟨S_, .f32⟩
  | 77 => ⟨S_, .f32⟩
  | 78 => ⟨S512, .f32⟩
  | 79 => ⟨S512, .f32⟩
  | 80 => ⟨S_, .f32⟩
  | 81 => ⟨S_, .f32⟩
  | 82 => ⟨S_, .f32⟩
  | 83 => ⟨S_, .f32⟩
  | 84 => ⟨S_, .i32⟩
  | 85 => ⟨S512, .i32⟩
  | 86 => ⟨S512, .i32⟩
  | 87 => ⟨S_, .i32⟩
  | 88 => ⟨S512, .i32⟩
  | 89 => ⟨S512, .i1⟩
  | 90 => ⟨S_, .i32⟩
  | 91 => ⟨S512, .i32⟩
  | 92 => ⟨S512, .i32⟩
  | 93 => ⟨S512, .i32⟩
  | 94 => ⟨S512x1, .i32⟩
  | 95 => ⟨S512x256, .f32⟩
  | 96 => ⟨S256x512, .f32⟩
  | 97 => ⟨S65536x512, .f32⟩
  | 98 => ⟨S1x512, .f32⟩
  | 99 => ⟨S65536x512, .f32⟩
  | 100 => ⟨S65536x512, .f32⟩
  | 101 => ⟨S65536x512, .f32⟩
  | 102 => ⟨S65536x512, .f32⟩
  | 103 => ⟨S_, .f32⟩
  | 104 => ⟨S65536x512, .f32⟩
  | 105 => ⟨S65536x512, .f32⟩
  | 106 => ⟨S_, .f32⟩
  | 107 => ⟨S65536x512, .f32⟩
  | 108 => ⟨S65536x512, .f32⟩
  | 109 => ⟨S256x512, .f32⟩
  | 110 => ⟨S65536x512, .f32⟩
  | 111 => ⟨S1x512, .f32⟩
  | 112 => ⟨S65536x512, .f32⟩
  | 113 => ⟨S65536x512, .f32⟩
  | 114 => ⟨S65536x512, .f32⟩
  | 115 => ⟨S512x512, .f32⟩
  | 116 => ⟨S256x256, .f32⟩
  | 117 => ⟨S512x256, .f32⟩
  | 118 => ⟨S1x256, .f32⟩
  | 119 => ⟨S512x256, .f32⟩
  | 120 => ⟨S512x256, .f32⟩
  | 121 => ⟨S512x256, .f32⟩
  | 122 => ⟨S512x256, .f32⟩
  | 123 => ⟨S512x256, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_cst_0 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c : Ref sig .tc := ⟨.hbm, 53, rfl⟩
abbrev main_v22 : Ref sig .tc := ⟨.hbm, 54, rfl⟩
abbrev main_v23 : Ref sig .tc := ⟨.hbm, 55, rfl⟩
abbrev main_c_1 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_2 : Ref sig .tc := ⟨.hbm, 62, rfl⟩
abbrev main_v29 : Ref sig .tc := ⟨.hbm, 63, rfl⟩
abbrev main_v30 : Ref sig .tc := ⟨.hbm, 64, rfl⟩
abbrev main_c_3 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_4 : Ref sig .tc := ⟨.hbm, 83, rfl⟩
abbrev main_v48 : Ref sig .tc := ⟨.hbm, 84, rfl⟩
abbrev main_c_5 : Ref sig .tc := ⟨.hbm, 85, rfl⟩
abbrev main_v49 : Ref sig .tc := ⟨.hbm, 86, rfl⟩
abbrev main_v50 : Ref sig .tc := ⟨.hbm, 87, rfl⟩
abbrev main_c_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_7 : Ref sig .tc := ⟨.hbm, 94, rfl⟩
abbrev main_v56 : Ref sig .tc := ⟨.hbm, 95, rfl⟩
abbrev main_v57 : Ref sig .tc := ⟨.hbm, 96, rfl⟩
abbrev main_c_8 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_9 : Ref sig .tc := ⟨.hbm, 130, rfl⟩
abbrev main_v90 : Ref sig .tc := ⟨.hbm, 131, rfl⟩
abbrev main_v91 : Ref sig .tc := ⟨.hbm, 132, rfl⟩
abbrev main_cst_10 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_11 : Ref sig .tc := ⟨.hbm, 139, rfl⟩
abbrev main_v97 : Ref sig .tc := ⟨.hbm, 140, rfl⟩
abbrev main_v98 : Ref sig .tc := ⟨.hbm, 141, rfl⟩
abbrev main_cst_12 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_13 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_call0_v0 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_c_14 : Ref sig .tc := ⟨.hbm, 165, rfl⟩
abbrev main_v119 : Ref sig .tc := ⟨.hbm, 166, rfl⟩
abbrev main_v120 : Ref sig .tc := ⟨.hbm, 167, rfl⟩
abbrev main_c_15 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_c_16 : Ref sig .tc := ⟨.hbm, 174, rfl⟩
abbrev main_v126 : Ref sig .tc := ⟨.hbm, 175, rfl⟩
abbrev main_v127 : Ref sig .tc := ⟨.hbm, 176, rfl⟩
abbrev main_c_17 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_18 : Ref sig .tc := ⟨.hbm, 195, rfl⟩
abbrev main_v145 : Ref sig .tc := ⟨.hbm, 196, rfl⟩
abbrev main_c_19 : Ref sig .tc := ⟨.hbm, 197, rfl⟩
abbrev main_v146 : Ref sig .tc := ⟨.hbm, 198, rfl⟩
abbrev main_v147 : Ref sig .tc := ⟨.hbm, 199, rfl⟩
abbrev main_c_20 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_c_21 : Ref sig .tc := ⟨.hbm, 206, rfl⟩
abbrev main_v153 : Ref sig .tc := ⟨.hbm, 207, rfl⟩
abbrev main_v154 : Ref sig .tc := ⟨.hbm, 208, rfl⟩
abbrev main_c_22 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_cst_23 : Ref sig .tc := ⟨.hbm, 242, rfl⟩
abbrev main_v187 : Ref sig .tc := ⟨.hbm, 243, rfl⟩
abbrev main_v188 : Ref sig .tc := ⟨.hbm, 244, rfl⟩
abbrev main_cst_24 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_25 : Ref sig .tc := ⟨.hbm, 251, rfl⟩
abbrev main_v194 : Ref sig .tc := ⟨.hbm, 252, rfl⟩
abbrev main_v195 : Ref sig .tc := ⟨.hbm, 253, rfl⟩
abbrev main_cst_26 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_27 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_call1_v0 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_cst_28 : Ref sig .tc := ⟨.hbm, 276, rfl⟩
abbrev main_v215 : Ref sig .tc := ⟨.hbm, 277, rfl⟩
abbrev main_v216 : Ref sig .tc := ⟨.hbm, 278, rfl⟩
abbrev main_cst_29 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_c_30 : Ref sig .tc := ⟨.hbm, 294, rfl⟩
abbrev main_v231 : Ref sig .tc := ⟨.hbm, 295, rfl⟩
abbrev main_v232 : Ref sig .tc := ⟨.hbm, 296, rfl⟩
abbrev main_call2_cst : Ref sig .tc := ⟨.hbm, 297, rfl⟩
abbrev main_call2_v0 : Ref sig .tc := ⟨.hbm, 298, rfl⟩
abbrev main_call2_cst_0 : Ref sig .tc := ⟨.hbm, 299, rfl⟩
abbrev main_call2_v1 : Ref sig .tc := ⟨.hbm, 300, rfl⟩
abbrev main_call2_v2 : Ref sig .tc := ⟨.hbm, 301, rfl⟩
abbrev main_call2_v3 : Ref sig .tc := ⟨.hbm, 302, rfl⟩
abbrev main_call2_v4 : Ref sig .tc := ⟨.hbm, 303, rfl⟩
abbrev main_call2_v5 : Ref sig .tc := ⟨.hbm, 304, rfl⟩
abbrev main_call2_v6 : Ref sig .tc := ⟨.hbm, 305, rfl⟩
abbrev main_call2_cst_1 : Ref sig .tc := ⟨.hbm, 306, rfl⟩
abbrev main_call2_v7 : Ref sig .tc := ⟨.hbm, 307, rfl⟩
abbrev main_call2_v8 : Ref sig .tc := ⟨.hbm, 308, rfl⟩
abbrev main_call2_v9 : Ref sig .tc := ⟨.hbm, 309, rfl⟩
abbrev main_call2_v10 : Ref sig .tc := ⟨.hbm, 310, rfl⟩
abbrev main_v233 : Ref sig .tc := ⟨.hbm, 311, rfl⟩
abbrev main_v234 : Ref sig .tc := ⟨.hbm, 312, rfl⟩
abbrev main_c_31 : Ref sig .tc := ⟨.hbm, 313, rfl⟩
abbrev main_v235 : Ref sig .tc := ⟨.hbm, 314, rfl⟩
abbrev main_v236 : Ref sig .tc := ⟨.hbm, 315, rfl⟩
abbrev main_c_32 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_c_33 : Ref sig .tc := ⟨.hbm, 320, rfl⟩
abbrev main_v240 : Ref sig .tc := ⟨.hbm, 321, rfl⟩
abbrev main_v241 : Ref sig .tc := ⟨.hbm, 322, rfl⟩
abbrev main_c_34 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_cst_35 : Ref sig .tc := ⟨.hbm, 332, rfl⟩
abbrev main_call3_v0 : Ref sig .tc := ⟨.hbm, 333, rfl⟩
abbrev main_call3_v1 : Ref sig .tc := ⟨.hbm, 334, rfl⟩
abbrev main_v250 : Ref sig .tc := ⟨.hbm, 335, rfl⟩
abbrev main_cst_36 : Ref sig .tc := ⟨.hbm, 336, rfl⟩
abbrev main_v251 : Ref sig .tc := ⟨.hbm, 337, rfl⟩
abbrev main_cst_37 : Ref sig .tc := ⟨.hbm, 338, rfl⟩
abbrev main_v252 : Ref sig .tc := ⟨.hbm, 339, rfl⟩
abbrev main_c_38 : Ref sig .tc := ⟨.hbm, 340, rfl⟩
abbrev main_v253 : Ref sig .tc := ⟨.hbm, 341, rfl⟩
abbrev main_v254 : Ref sig .tc := ⟨.hbm, 342, rfl⟩
abbrev main_c_39 : Ref sig .tc := ⟨.hbm, 343, rfl⟩
abbrev main_v255 : Ref sig .tc := ⟨.hbm, 344, rfl⟩
abbrev main_v256 : Ref sig .tc := ⟨.hbm, 345, rfl⟩
abbrev main_c_40 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_cst_41 : Ref sig .tc := ⟨.hbm, 359, rfl⟩
abbrev main_v269 : Ref sig .tc := ⟨.hbm, 360, rfl⟩
abbrev main_v270 : Ref sig .tc := ⟨.hbm, 361, rfl⟩
abbrev main_cst_42 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S512_S512x1_0 : S512.BroadcastsInDim S512x1 (![0] : Fin 1 → Fin S512x1.rank)
  bcast_S1x65536_S512x65536_0_1 : S1x65536.BroadcastsInDim S512x65536 (![0, 1] : Fin 2 → Fin S512x65536.rank)
  bcast_S512x1_S512x65536_0_1 : S512x1.BroadcastsInDim S512x65536 (![0, 1] : Fin 2 → Fin S512x65536.rank)
  reducesTo_S512x65536_S65536_d0 : S512x65536.ReducesTo [0] S65536
  h_S_ : 0 < S_.numel
  bcast_S_S65536 : S_.BroadcastsInDim S65536 (![] : Fin 0 → Fin S65536.rank)
  slices_S2x512x256_S1x512x256_0_0_0 : S2x512x256.Slices ![0, 0, 0] S1x512x256
  shapeCasts_S1x512x256_S512x256 : S1x512x256.ShapeCasts S512x256
  transposes_S512x256_S256x512_1_0 : S512x256.Transposes [1, 0] S256x512
  bcast_S_S131072 : S_.BroadcastsInDim S131072 (![] : Fin 0 → Fin S131072.rank)
  bcast_S131072_S131072x1_0 : S131072.BroadcastsInDim S131072x1 (![0] : Fin 1 → Fin S131072x1.rank)
  slices_S2x512x512_S1x512x512_0_0_0 : S2x512x512.Slices ![0, 0, 0] S1x512x512
  shapeCasts_S1x512x512_S512x512 : S1x512x512.ShapeCasts S512x512
  transposes_S512x512_S512x512_1_0 : S512x512.Transposes [1, 0] S512x512
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S65536x512 : S_.BroadcastsInDim S65536x512 (![] : Fin 0 → Fin S65536x512.rank)
  slices_S2x768x512_S1x768x512_0_0_0 : S2x768x512.Slices ![0, 0, 0] S1x768x512
  shapeCasts_S1x768x512_S768x512 : S1x768x512.ShapeCasts S768x512
  transposes_S768x512_S512x768_1_0 : S768x512.Transposes [1, 0] S512x768
  slices_S2x768_S1x768_0_0 : S2x768.Slices ![0, 0] S1x768
  shapeCasts_S1x768_S768 : S1x768.ShapeCasts S768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  slices_S2x768x256_S1x768x256_0_0_0 : S2x768x256.Slices ![0, 0, 0] S1x768x256
  shapeCasts_S1x768x256_S768x256 : S1x768x256.ShapeCasts S768x256
  transposes_S768x256_S256x768_1_0 : S768x256.Transposes [1, 0] S256x768
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  slices_S2x512x256_S1x512x256_1_0_0 : S2x512x256.Slices ![1, 0, 0] S1x512x256
  slices_S2x512x512_S1x512x512_1_0_0 : S2x512x512.Slices ![1, 0, 0] S1x512x512
  slices_S2x512_S1x512_1_0 : S2x512.Slices ![1, 0] S1x512
  slices_S2x768x512_S1x768x512_1_0_0 : S2x768x512.Slices ![1, 0, 0] S1x768x512
  slices_S2x768_S1x768_1_0 : S2x768.Slices ![1, 0] S1x768
  slices_S2x768x256_S1x768x256_1_0_0 : S2x768x256.Slices ![1, 0, 0] S1x768x256
  bcast_S1x512_S65536x512_0_1 : S1x512.BroadcastsInDim S65536x512 (![0, 1] : Fin 2 → Fin S65536x512.rank)
  transposes_S65x512_S512x65_1_0 : S65x512.Transposes [1, 0] S512x65
  bcast_S65_S1x65_1 : S65.BroadcastsInDim S1x65 (![1] : Fin 1 → Fin S1x65.rank)
  bcast_S1x65_S512x65_0_1 : S1x65.BroadcastsInDim S512x65 (![0, 1] : Fin 2 → Fin S512x65.rank)
  bcast_S_S512 : S_.BroadcastsInDim S512 (![] : Fin 0 → Fin S512.rank)
  reducesTo_S512x65_S512_d1 : S512x65.ReducesTo [1] S512
  bcast_S512x1_S512x65_0_1 : S512x1.BroadcastsInDim S512x65 (![0, 1] : Fin 2 → Fin S512x65.rank)
  concatenates_S512x1_S512x1_S512x2_d1 : Shape.Concatenates [S512x1, S512x1] S512x2 1
  reducesTo_S512_S_d0 : S512.ReducesTo [0] S_
  transposes_S256x256_S256x256_1_0 : S256x256.Transposes [1, 0] S256x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  transposes_S256x512_S512x256_1_0 : S256x512.Transposes [1, 0] S512x256
  dot_S131072x256_S256x512_S131072x512_1_0_0_1_n_n_wf : DotDims.WF S131072x256 S256x512 S131072x512 [1] [0] [0] [1] [] []
  dot_S65536x256_S256x512_S65536x512_1_0_0_1_n_n_wf : DotDims.WF S65536x256 S256x512 S65536x512 [1] [0] [0] [1] [] []
  gather_S65536x512_S131072x1_S131072x512_1_0_n_n_0_1_1512_wf : GatherDims.WF S65536x512 S131072x1 S131072x512 [1] [0] [] [0] [] 1 ![1, 512]
  dot_S131072x512_S512x512_S131072x512_1_0_0_1_n_n_wf : DotDims.WF S131072x512 S512x512 S131072x512 [1] [0] [0] [1] [] []
  scatter_S65536x512_S131072x1_S131072x512_1_0_0_1_wf : ScatterDims.WF S65536x512 S131072x1 S131072x512 [1] [0] [0] 1
  dot_S65536x512_S512x768_S65536x768_1_0_0_1_n_n_wf : DotDims.WF S65536x512 S512x768 S65536x768 [1] [0] [0] [1] [] []
  dot_S65536x256_S256x768_S65536x768_1_0_0_1_n_n_wf : DotDims.WF S65536x256 S256x768 S65536x768 [1] [0] [0] [1] [] []
  dot_S512x65536_S65536x512_S512x512_1_0_0_1_n_n_wf : DotDims.WF S512x65536 S65536x512 S512x512 [1] [0] [0] [1] [] []
  dot_S512x512_S512x65_S512x65_1_0_0_1_n_n_wf : DotDims.WF S512x512 S512x65 S512x65 [1] [0] [0] [1] [] []
  gather_S512x65_S512x2_S512_n_01_n_n_01_1_11_wf : GatherDims.WF S512x65 S512x2 S512 [] [0, 1] [] [0, 1] [] 1 ![1, 1]
  gather_S64x256_S512x1_S512x256_1_0_n_n_0_1_1256_wf : GatherDims.WF S64x256 S512x1 S512x256 [1] [0] [] [0] [] 1 ![1, 256]
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def gather_S65536x512_S131072x1_S131072x512_1_0_n_n_0_1_1512 : GatherDims S65536x512 S131072x1 S131072x512 where
  offsetDims := [1]
  collapsedSliceDims := [0]
  operandBatchingDims := []
  startIndicesBatchingDims := []
  startIndexMap := [0]
  indexVectorDim := 1
  sliceSizes := ![1, 512]
  wf := gather_S65536x512_S131072x1_S131072x512_1_0_n_n_0_1_1512_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def scatter_S65536x512_S131072x1_S131072x512_1_0_0_1 : ScatterDims S65536x512 S131072x1 S131072x512 where
  updateWindowDims := [1]
  insertedWindowDims := [0]
  scatterDimsToOperandDims := [0]
  indexVectorDim := 1
  wf := scatter_S65536x512_S131072x1_S131072x512_1_0_0_1_wf
def dot_S65536x512_S512x768_S65536x768_1_0_0_1_n_n : DotDims S65536x512 S512x768 S65536x768 where
  lhsContracting := [1]
  rhsContracting := [0]
  lhsNonContracting := [0]
  rhsNonContracting := [1]
  lhsBatch := []
  rhsBatch := []
  wf := dot_S65536x512_S512x768_S65536x768_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf
def dot_S512x512_S512x65_S512x65_1_0_0_1_n_n : DotDims S512x512 S512x65 S512x65 where
  lhsContracting := [1]
  rhsContracting := [0]
  lhsNonContracting := [0]
  rhsNonContracting := [1]
  lhsBatch := []
  rhsBatch := []
  wf := dot_S512x512_S512x65_S512x65_1_0_0_1_n_n_wf
def gather_S512x65_S512x2_S512_n_01_n_n_01_1_11 : GatherDims S512x65 S512x2 S512 where
  offsetDims := []
  collapsedSliceDims := [0, 1]
  operandBatchingDims := []
  startIndicesBatchingDims := []
  startIndexMap := [0, 1]
  indexVectorDim := 1
  sliceSizes := ![1, 1]
  wf := gather_S512x65_S512x2_S512_n_01_n_n_01_1_11_wf
def gather_S64x256_S512x1_S512x256_1_0_n_n_0_1_1256 : GatherDims S64x256 S512x1 S512x256 where
  offsetDims := [1]
  collapsedSliceDims := [0]
  operandBatchingDims := []
  startIndicesBatchingDims := []
  startIndexMap := [0]
  indexVectorDim := 1
  sliceSizes := ![1, 256]
  wf := gather_S64x256_S512x1_S512x256_1_0_n_n_0_1_1256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

class Facts : Prop extends Facts₀ where

variable [Facts]
-- ==== Proof.RefRead.lean ====
import proofs.«404942_j76501957477039_1_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S65536x256, .f32⟩ : BufTy).Contents (Elt F)) (x1 : (⟨S131072x256, .f32⟩ : BufTy).Contents (Elt F)) (x2 : (⟨S131072, .i32⟩ : BufTy).Contents (Elt F)) (x3 : (⟨S131072, .i32⟩ : BufTy).Contents (Elt F)) (x4 : (⟨S65536, .i32⟩ : BufTy).Contents (Elt F)) (x5 : (⟨S512, .i1⟩ : BufTy).Contents (Elt F)) (x6 : (⟨S512, .i32⟩ : BufTy).Contents (Elt F)) (x7 : (⟨S512x256, .f32⟩ : BufTy).Contents (Elt F)) (x8 : (⟨S512, .f32⟩ : BufTy).Contents (Elt F)) (x9 : (⟨S512x256, .f32⟩ : BufTy).Contents (Elt F)) (x10 : (⟨S512, .f32⟩ : BufTy).Contents (Elt F)) (x11 : (⟨S512x256, .f32⟩ : BufTy).Contents (Elt F)) (x12 : (⟨S512, .f32⟩ : BufTy).Contents (Elt F)) (x13 : (⟨S512x256, .f32⟩ : BufTy).Contents (Elt F)) (x14 : (⟨S512, .f32⟩ : BufTy).Contents (Elt F)) (x15 : (⟨S65x512, .f32⟩ : BufTy).Contents (Elt F)) (x16 : (⟨S65, .f32⟩ : BufTy).Contents (Elt F)) (x17 : (⟨S64x256, .f32⟩ : BufTy).Contents (Elt F)) (x18 : (⟨S256x256, .f32⟩ : BufTy).Contents (Elt F)) (x19 : (⟨S256, .f32⟩ : BufTy).Contents (Elt F)) (x20 : (⟨S256x512, .f32⟩ : BufTy).Contents (Elt F)) (x21 : (⟨S2x512x256, .f32⟩ : BufTy).Contents (Elt F)) (x22 : (⟨S2x512x256, .f32⟩ : BufTy).Contents (Elt F)) (x23 : (⟨S2x512x512, .f32⟩ : BufTy).Contents (Elt F)) (x24 : (⟨S2x512, .f32⟩ : BufTy).Contents (Elt F)) (x25 : (⟨S2x768x512, .f32⟩ : BufTy).Contents (Elt F)) (x26 : (⟨S2x768x256, .f32⟩ : BufTy).Contents (Elt F)) (x27 : (⟨S2x768, .f32⟩ : BufTy).Contents (Elt F)) (x28 : (⟨S2x768, .f32⟩ : BufTy).Contents (Elt F))

def val_main_v0 : (⟨S1x65536, .i32⟩ : BufTy).Contents (Elt F) :=
  broadcastInDim S1x65536 ![1] bcast_S65536_S1x65536_1 (x4)
abbrev idx_main_v0 (i : S1x65536.Idx) : S65536.Idx := fun a => match a with
  | ⟨0, _⟩ => ⟨(i 1).val, (i 1).isLt⟩
theorem val_main_v0_apply (i : S1x65536.Idx) :
    val_main_v0 (F := F) x4 i = x4 (idx_main_v0 i) := by
  unfold val_main_v0
  exact broadcastInDim_apply _ bcast_S65536_S1x65536_1 x4 i (idx_main_v0 i) (fun a => match a with
    | ⟨0, _⟩ => by show (i 1).val = if (65536 : Nat) = 1 then 0 else (i 1).val; rw [if_neg (by decide)])

def val_main_v1 : (⟨S512, .i32⟩ : BufTy).Contents (Elt F) :=
  iotaInDim S512 32 0
theorem val_main_v1_apply (i : S512.Idx) :
    val_main_v1 (F := F) i = BitVec.ofNat 32 (i 0).val := rfl

def val_main_v2 : (⟨S512x1, .i32⟩ : BufTy).Contents (Elt F) :=
  broadcastInDim S512x1 ![0] bcast_S512_S512x1_0 (val_main_v1 (F := F))
abbrev idx_main_v2 (i : S512x1.Idx) : S512.Idx := fun a => match a with
  | ⟨0, _⟩ => ⟨(i 0).val, (i 0).isLt⟩
theorem val_main_v2_apply (i : S512x1.Idx) :
    val_main_v2 (F := F) i = val_main_v1 (F := F) (idx_main_v2 i) := by
  unfold val_main_v2
  generalize val_main_v1 (F := F) = y
  exact broadcastInDim_apply _ bcast_S512_S512x1_0 y i (idx_main_v2 i) (fun a => match a with
    | ⟨0, _⟩ => by show (i 0).val = if (512 : Nat) = 1 then 0 else (i 0).val; rw [if_neg (by decide)])

def val_main_v3 : (⟨S512x65536, .i32⟩ : BufTy).Contents (Elt F) :=
  broadcastInDim S512x65536 ![0, 1] bcast_S1x65536_S512x65536_0_1 (val_main_v0 (F := F) x4)
abbrev idx_main_v3 (i : S512x65536.Idx) : S1x65536.Idx := fun a => match a with
  | ⟨0, _⟩ => ⟨0, Nat.one_pos⟩
  | ⟨1, _⟩ => ⟨(i 1).val, (i 1).isLt⟩
theorem val_main_v3_apply (i : S512x65536.Idx) :
    val_main_v3 (F := F) x4 i = val_main_v0 (F := F) x4 (idx_main_v3 i) := by
  unfold val_main_v3
  generalize val_main_v0 (F := F) x4 = y
  exact broadcastInDim_apply _ bcast_S1x65536_S512x65536_0_1 y i (idx_main_v3 i) (fun a => match a with
    | ⟨0, _⟩ => by show 0 = if (1 : Nat) = 1 then 0 else (i 0).val; rw [if_pos rfl]
    | ⟨1, _⟩ => by show (i 1).val = if (65536 : Nat) = 1 then 0 else (i 1).val; rw [if_neg (by decide)])

def val_main_v4 : (⟨S512x65536, .i32⟩ : BufTy).Contents (Elt F) :=
  broadcastInDim S512x65536 ![0, 1] bcast_S512x1_S512x65536_0_1 (val_main_v2 (F := F))
abbrev idx_main_v4 (i : S512x65536.Idx) : S512x1.Idx := fun a => match a with
  | ⟨0, _⟩ => ⟨(i 0).val, (i 0).isLt⟩
  | ⟨1, _⟩ => ⟨0, Nat.one_pos⟩
theorem val_main_v4_apply (i : S512x65536.Idx) :
    val_main_v4 (F := F) i = val_main_v2 (F := F) (idx_main_v4 i) := by
  unfold val_main_v4
  generalize val_main_v2 (F := F) = y
  exact broadcastInDim_apply _ bcast_S512x1_S512x65536_0_1 y i (idx_main_v4 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v5 : (⟨S512x65536, .i1⟩ : BufTy).Contents (Elt F) :=
  cmpi .eq (val_main_v3 (F := F) x4) (val_main_v4 (F := F))
theorem val_main_v5_apply (i : S512x65536.Idx) :
    val_main_v5 (F := F) x4 i = IntOp.cmpi .eq (val_main_v3 (F := F) x4 i) (val_main_v4 (F := F) i) := rfl

def val_main_v6 : (⟨S512x65536, .f32⟩ : BufTy).Contents (Elt F) :=
  uitofp .f32 (val_main_v5 (F := F) x4)
theorem val_main_v6_apply (i : S512x65536.Idx) :
    val_main_v6 (F := F) x4 i = FloatOps.uitofp .f32 (val_main_v5 (F := F) x4 i) := rfl

def val_main_v7 : (⟨S512x1, .i1⟩ : BufTy).Contents (Elt F) :=
  broadcastInDim S512x1 ![0] bcast_S512_S512x1_0 (x5)
abbrev idx_main_v7 (i : S512x1.Idx) : S512.Idx := fun a => match a with
  | ⟨0, _⟩ => ⟨(i 0).val, (i 0).isLt⟩
theorem val_main_v7_apply (i : S512x1.Idx) :
    val_main_v7 (F := F) x5 i = x5 (idx_main_v7 i) := by
  unfold val_main_v7
  exact broadcastInDim_apply _ bcast_S512_S512x1_0 x5 i (idx_main_v7 i) (fun a => match a with
    | ⟨0, _⟩ => by show (i 0).val = if (512 : Nat) = 1 then 0 else (i 0).val; rw [if_neg (by decide)])

def val_main_v8 : (⟨S512x1, .f32⟩ : BufTy).Contents (Elt F) :=
  uitofp .f32 (val_main_v7 (F := F) x5)
theorem val_main_v8_apply (i : S512x1.Idx) :
    val_main_v8 (F := F) x5 i = FloatOps.uitofp .f32 (val_main_v7 (F := F) x5 i) := rfl

def val_main_v9 : (⟨S512x65536, .f32⟩ : BufTy).Contents (Elt F) :=
  broadcastInDim S512x65536 ![0, 1] bcast_S512x1_S512x65536_0_1 (val_main_v8 (F := F) x5)
abbrev idx_main_v9 (i : S512x65536.Idx) : S512x1.Idx := fun a => match a with
  | ⟨0, _⟩ => ⟨(i 0).val, (i 0).isLt⟩
  | ⟨1, _⟩ => ⟨0, Nat.one_pos⟩
theorem val_main_v9_apply (i : S512x65536.Idx) :
    val_main_v9 (F := F) x5 i = val_main_v8 (F := F) x5 (idx_main_v9 i) := by
  unfold val_main_v9
  generalize val_main_v8 (F := F) x5 = y
  exact broadcastInDim_apply _ bcast_S512x1_S512x65536_0_1 y i (idx_main_v9 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v10 : (⟨S512x65536, .f32⟩ : BufTy).Contents (Elt F) :=
  mulf (val_main_v6 (F := F) x4) (val_main_v9 (F := F) x5)
theorem val_main_v10_apply (i : S512x65536.Idx) :
    val_main_v10 (F := F) x4 x5 i = FloatOps.mulf (val_main_v6 (F := F) x4 i) (val_main_v9 (F := F) x5 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v11 : (⟨S65536, .f32⟩ : BufTy).Contents (Elt F) :=
  Host.reduceAdd (val_main_v10 (F := F) x4 x5) (val_main_cst (F := F)) reducesTo_S512x65536_S65536_d0 h_S_
abbrev idx_main_v11 (i : S65536.Idx) (k : Fin 512) : S512x65536.Idx := fun a => match a with
  | ⟨0, _⟩ => ⟨k.val, k.isLt⟩
  | ⟨1, _⟩ => ⟨(i 0).val, (i 0).isLt⟩

theorem val_main_v11_apply (x4 : (⟨S65536, .i32⟩ : BufTy).Contents (Elt Ideal)) (x5 : (⟨S512, .i1⟩ : BufTy).Contents (Elt Ideal)) (i : S65536.Idx) :
    val_main_v11 (F := Ideal) x4 x5 i = (val_main_cst (F := Ideal)) (Shape.Idx.first h_S_) + ∑ k : Fin 512, (val_main_v10 (F := Ideal) x4 x5) (idx_main_v11 i k) := by
  unfold val_main_v11
  generalize val_main_v10 (F := Ideal) x4 x5 = y0
  simp only [Host.reduceAdd, Ideal.hostReduceAdd_def]
  rw [Ideal.hostReduceAdd_single reducesTo_S512x65536_S65536_d0 (by decide)]
  refine congrArg (_ + ·) (Finset.sum_congr rfl fun k _ => ?_)
  exact congrArg y0 (funext fun a => Fin.ext (by match a with | ⟨0, _⟩ => rfl | ⟨1, _⟩ => rfl))

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v12 : (⟨S65536, .f32⟩ : BufTy).Contents (Elt F) :=
  broadcastInDim S65536 ![] bcast_S_S65536 (val_main_cst_0 (F := F))
abbrev idx_main_v12 (i : S65536.Idx) : S_.Idx := fun a => a.elim0
theorem val_main_v12_apply (i : S65536.Idx) :
    val_main_v12 (F := F) i = val_main_cst_0 (F := F) (idx_main_v12 i) := by
  unfold val_main_v12
  generalize val_main_cst_0 (F := F) = y
  exact broadcastInDim_apply _ bcast_S_S65536 y i (idx_main_v12 i) (fun a => a.elim0)

def val_main_v13 : (⟨S65536, .i1⟩ : BufTy).Contents (Elt F) :=
  cmpf .ogt (val_main_v11 (F := F) x4 x5) (val_main_v12 (F := F))
theorem val_main_v13_apply (i : S65536.Idx) :
    val_main_v13 (F := F) x4 x5 i = FloatOps.cmpf .ogt (val_main_v11 (F := F) x4 x5 i) (val_main_v12 (F := F) i) := rfl

def val_main_v14 : (⟨S1x512x256, .f32⟩ : BufTy).Contents (Elt F) :=
  extractStridedSlice S1x512x256 ![0, 0, 0] (x22) slices_S2x512x256_S1x512x256_0_0_0

def val_main_v15 : (⟨S512x256, .f32⟩ : BufTy).Contents (Elt F) :=
  shapeCast _ (val_main_v14 (F := F) x22) shapeCasts_S1x512x256_S512x256

def val_main_v16 : (⟨S256x512, .f32⟩ : BufTy).Contents (Elt F) :=
  transpose S256x512 [1, 0] (val_main_v15 (F := F) x22) transposes_S512x256_S256x512_1_0

def val_main_v17 : (⟨S131072x512, .f32⟩ : BufTy).Contents (Elt F) :=
  Host.dotGeneral dot_S131072x256_S256x512_S131072x512_1_0_0_1_n_n none (x1) (val_main_v16 (F := F) x22)

def val_main_v18 : (⟨S1x512x256, .f32⟩ : BufTy).Contents (Elt F) :=
  extractStridedSlice S1x512x256 ![0, 0, 0] (x21) slices_S2x512x256_S1x512x256_0_0_0

def val_main_v19 : (⟨S512x256, .f32⟩ : BufTy).Contents (Elt F) :=
  shapeCast _ (val_main_v18 (F := F) x21) shapeCasts_S1x512x256_S512x256

def val_main_v20 : (⟨S256x512, .f32⟩ : BufTy).Contents (Elt F) :=
  transpose S256x512 [1, 0] (val_main_v19 (F := F) x21) transposes_S512x256_S256x512_1_0

def val_main_v21 : (⟨S65536x512, .f32⟩ : BufTy).Contents (Elt F) :=
  Host.dotGeneral dot_S65536x256_S256x512_S65536x512_1_0_0_1_n_n none (x0) (val_main_v20 (F := F) x21)

def val_main_c : (⟨S_, .i32⟩ : BufTy).Contents (Elt F) :=
  constantI S_ 32 0#32

def val_main_v22 : (⟨S131072, .i32⟩ : BufTy).Contents (Elt F) :=
  broadcastInDim S131072 ![] bcast_S_S131072 (val_main_c (F := F))

def val_main_v23 : (⟨S131072, .i1⟩ : BufTy).Contents (Elt F) :=
  cmpi .slt (x2) (val_main_v22 (F := F))

def val_main_c_1 : (⟨S_, .i32⟩ : BufTy).Contents (Elt F) :=
  constantI S_ 32 65536#32

def val_main_v24 : (⟨S131072, .i32⟩ : BufTy).Contents (Elt F) :=
  broadcastInDim S131072 ![] bcast_S_S131072 (val_main_c_1 (F := F))

def val_main_v25 : (⟨S131072, .i32⟩ : BufTy).Contents (Elt F) :=
  addi (x2) (val_main_v24 (F := F))

def val_main_v26 : (⟨S131072, .i32⟩ : BufTy).Contents (Elt F) :=
  select (val_main_v23 (F := F) x2) (val_main_v25 (F := F) x2) (x2)

def val_main_v27 : (⟨S131072x1, .i32⟩ : BufTy).Contents (Elt F) :=
  broadcastInDim S131072x1 ![0] bcast_S131072_S131072x1_0 (val_main_v26 (F := F) x2)

def val_main_v28 : (⟨S131072x512, .f32⟩ : BufTy).Contents (Elt F) :=
  Host.gather gather_S65536x512_S131072x1_S131072x512_1_0_n_n_0_1_1512 (val_main_v21 (F := F) x0 x21) (val_main_v27 (F := F) x2)

def val_main_c_2 : (⟨S_, .i32⟩ : BufTy).Contents (Elt F) :=
  constantI S_ 32 0#32

def val_main_v29 : (⟨S131072, .i32⟩ : BufTy).Contents (Elt F) :=
  broadcastInDim S131072 ![] bcast_S_S131072 (val_main_c_2 (F := F))

def val_main_v30 : (⟨S131072, .i1⟩ : BufTy).Contents (Elt F) :=
  cmpi .slt (x3) (val_main_v29 (F := F))

def val_main_c_3 : (⟨S_, .i32⟩ : BufTy).Contents (Elt F) :=
  constantI S_ 32 65536#32

def val_main_v31 : (⟨S131072, .i32⟩ : BufTy).Contents (Elt F) :=
  broadcastInDim S131072 ![] bcast_S_S131072 (val_main_c_3 (F := F))

def val_main_v32 : (⟨S131072, .i32⟩ : BufTy).Contents (Elt F) :=
  addi (x3) (val_main_v31 (F := F))

def val_main_v33 : (⟨S131072, .i32⟩ : BufTy).Contents (Elt F) :=
  select (val_main_v30 (F := F) x3) (val_main_v32 (F := F) x3) (x3)

def val_main_v34 : (⟨S131072x1, .i32⟩ : BufTy).Contents (Elt F) :=
  broadcastInDim S131072x1 ![0] bcast_S131072_S131072x1_0 (val_main_v33 (F := F) x3)

def val_main_v35 : (⟨S131072x512, .f32⟩ : BufTy).Contents (Elt F) :=
  Host.gather gather_S65536x512_S131072x1_S131072x512_1_0_n_n_0_1_1512 (val_main_v21 (F := F) x0 x21) (val_main_v34 (F := F) x3)

def val_main_v36 : (⟨S131072x512, .f32⟩ : BufTy).Contents (Elt F) :=
  addf (val_main_v28 (F := F) x0 x2 x21) (val_main_v35 (F := F) x0 x3 x21)

def val_main_v37 : (⟨S131072x512, .f32⟩ : BufTy).Contents (Elt F) :=
  addf (val_main_v36 (F := F) x0 x2 x3 x21) (val_main_v17 (F := F) x1 x22)

def val_main_v38 : (⟨S131072x512, .f32⟩ : BufTy).Contents (Elt F) :=
  Host.tanh (val_main_v37 (F := F) x0 x1 x2 x3 x21 x22)

def val_main_v39 : (⟨S1x512x512, .f32⟩ : BufTy).Contents (Elt F) :=
  extractStridedSlice S1x512x512 ![0, 0, 0] (x23) slices_S2x512x512_S1x512x512_0_0_0

def val_main_v40 : (⟨S512x512, .f32⟩ : BufTy).Contents (Elt F) :=
  shapeCast _ (val_main_v39 (F := F) x23) shapeCasts_S1x512x512_S512x512

def val_main_v41 : (⟨S512x512, .f32⟩ : BufTy).Contents (Elt F) :=
  transpose S512x512 [1, 0] (val_main_v40 (F := F) x23) transposes_S512x512_S512x512_1_0

def val_main_v42 : (⟨S131072x512, .f32⟩ : BufTy).Contents (Elt F) :=
  Host.dotGeneral dot_S131072x512_S512x512_S131072x512_1_0_0_1_n_n none (val_main_v38 (F := F) x0 x1 x2 x3 x21 x22) (val_main_v41 (F := F) x23)

def val_main_v43 : (⟨S1x512, .f32⟩ : BufTy).Contents (Elt F) :=
  extractStridedSlice S1x512 ![0, 0] (x24) slices_S2x512_S1x512_0_0

def val_main_v44 : (⟨S512, .f32⟩ : BufTy).Contents (Elt F) :=
  shapeCast _ (val_main_v43 (F := F) x24) shapeCasts_S1x512_S512

def val_main_v45 : (⟨S1x512, .f32⟩ : BufTy).Contents (Elt F) :=
  broadcastInDim S1x512 ![1] bcast_S512_S1x512_1 (val_main_v44 (F := F) x24)

def val_main_v46 : (⟨S131072x512, .f32⟩ : BufTy).Contents (Elt F) :=
  broadcastInDim S131072x512 ![0, 1] bcast_S1x512_S131072x512_0_1 (val_main_v45 (F := F) x24)

def val_main_v47 : (⟨S131072x512, .f32⟩ : BufTy).Contents (Elt F) :=
  addf (val_main_v42 (F := F) x0 x1 x2 x3 x21 x22 x23) (val_main_v46 (F := F) x24)

def val_main_cst_4 : (⟨S_, .f32⟩ : BufTy).Contents (Elt F) :=
  constant S_ .f32 0x00000000#32

def val_main_v48 : (⟨S65536x512, .f32⟩ : BufTy).Contents (Elt F) :=
  broadcastInDim S65536x512 ![] bcast_S_S65536x512 (val_main_cst_4 (F := F))

def val_main_c_5 : (⟨S_, .i32⟩ : BufTy).Contents (Elt F) :=
  constantI S_ 32 0#32

def val_main_v49 : (⟨S131072, .i32⟩ : BufTy).Contents (Elt F) :=
  broadcastInDim S131072 ![] bcast_S_S131072 (val_main_c_5 (F := F))

def val_main_v50 : (⟨S131072, .i1⟩ : BufTy).Contents (Elt F) :=
  cmpi .slt (x3) (val_main_v49 (F := F))

def val_main_c_6 : (⟨S_, .i32⟩ : BufTy).Contents (Elt F) :=
  constantI S_ 32 65536#32

def val_main_v51 : (⟨S131072, .i32⟩ : BufTy).Contents (Elt F) :=
  broadcastInDim S131072 ![] bcast_S_S131072 (val_main_c_6 (F := F))

def val_main_v52 : (⟨S131072, .i32⟩ : BufTy).Contents (Elt F) :=
  addi (x3) (val_main_v51 (F := F))

def val_main_v53 : (⟨S131072, .i32⟩ : BufTy).Contents (Elt F) :=
  select (val_main_v50 (F := F) x3) (val_main_v52 (F := F) x3) (x3)

def val_main_v54 : (⟨S131072x1, .i32⟩ : BufTy).Contents (Elt F) :=
  broadcastInDim S131072x1 ![0] bcast_S131072_S131072x1_0 (val_main_v53 (F := F) x3)

def val_main_v55 : (⟨S65536x512, .f32⟩ : BufTy).Contents (Elt F) :=
  Host.scatterAdd scatter_S65536x512_S131072x1_S131072x512_1_0_0_1 (val_main_v48 (F := F)) (val_main_v54 (F := F) x3) (val_main_v47 (F := F) x0 x1 x2 x3 x21 x22 x23 x24)

def val_main_c_7 : (⟨S_, .i32⟩ : BufTy).Contents (Elt F) :=
  constantI S_ 32 0#32

def val_main_v56 : (⟨S131072, .i32⟩ : BufTy).Contents (Elt F) :=
  broadcastInDim S131072 ![] bcast_S_S131072 (val_main_c_7 (F := F))

def val_main_v57 : (⟨S131072, .i1⟩ : BufTy).Contents (Elt F) :=
  cmpi .slt (x2) (val_main_v56 (F := F))

def val_main_c_8 : (⟨S_, .i32⟩ : BufTy).Contents (Elt F) :=
  constantI S_ 32 65536#32

def val_main_v58 : (⟨S131072, .i32⟩ : BufTy).Contents (Elt F) :=
  broadcastInDim S131072 ![] bcast_S_S131072 (val_main_c_8 (F := F))

def val_main_v59 : (⟨S131072, .i32⟩ : BufTy).Contents (Elt F) :=
  addi (x2) (val_main_v58 (F := F))

def val_main_v60 : (⟨S131072, .i32⟩ : BufTy).Contents (Elt F) :=
  select (val_main_v57 (F := F) x2) (val_main_v59 (F := F) x2) (x2)

def val_main_v61 : (⟨S131072x1, .i32⟩ : BufTy).Contents (Elt F) :=
  broadcastInDim S131072x1 ![0] bcast_S131072_S131072x1_0 (val_main_v60 (F := F) x2)

def val_main_v62 : (⟨S65536x512, .f32⟩ : BufTy).Contents (Elt F) :=
  Host.scatterAdd scatter_S65536x512_S131072x1_S131072x512_1_0_0_1 (val_main_v55 (F := F) x0 x1 x2 x3 x21 x22 x23 x24) (val_main_v61 (F := F) x2) (val_main_v47 (F := F) x0 x1 x2 x3 x21 x22 x23 x24)

def val_main_v63 : (⟨S1x768x512, .f32⟩ : BufTy).Contents (Elt F) :=
  extractStridedSlice S1x768x512 ![0, 0, 0] (x25) slices_S2x768x512_S1x768x512_0_0_0

def val_main_v64 : (⟨S768x512, .f32⟩ : BufTy).Contents (Elt F) :=
  shapeCast _ (val_main_v63 (F := F) x25) shapeCasts_S1x768x512_S768x512

def val_main_v65 : (⟨S512x768, .f32⟩ : BufTy).Contents (Elt F) :=
  transpose S512x768 [1, 0] (val_main_v64 (F := F) x25) transposes_S768x512_S512x768_1_0

def val_main_v66 : (⟨S65536x768, .f32⟩ : BufTy).Contents (Elt F) :=
  Host.dotGeneral dot_S65536x512_S512x768_S65536x768_1_0_0_1_n_n none (val_main_v62 (F := F) x0 x1 x2 x3 x21 x22 x23 x24) (val_main_v65 (F := F) x25)

def val_main_v67 : (⟨S1x768, .f32⟩ : BufTy).Contents (Elt F) :=
  extractStridedSlice S1x768 ![0, 0] (x27) slices_S2x768_S1x768_0_0

def val_main_v68 : (⟨S768, .f32⟩ : BufTy).Contents (Elt F) :=
  shapeCast _ (val_main_v67 (F := F) x27) shapeCasts_S1x768_S768

def val_main_v69 : (⟨S1x768, .f32⟩ : BufTy).Contents (Elt F) :=
  broadcastInDim S1x768 ![1] bcast_S768_S1x768_1 (val_main_v68 (F := F) x27)

def val_main_v70 : (⟨S65536x768, .f32⟩ : BufTy).Contents (Elt F) :=
  broadcastInDim S65536x768 ![0, 1] bcast_S1x768_S65536x768_0_1 (val_main_v69 (F := F) x27)

def val_main_v71 : (⟨S65536x768, .f32⟩ : BufTy).Contents (Elt F) :=
  addf (val_main_v66 (F := F) x0 x1 x2 x3 x21 x22 x23 x24 x25) (val_main_v70 (F := F) x27)

def val_main_v72 : (⟨S1x768x256, .f32⟩ : BufTy).Contents (Elt F) :=
  extractStridedSlice S1x768x256 ![0, 0, 0] (x26) slices_S2x768x256_S1x768x256_0_0_0

def val_main_v73 : (⟨S768x256, .f32⟩ : BufTy).Contents (Elt F) :=
  shapeCast _ (val_main_v72 (F := F) x26) shapeCasts_S1x768x256_S768x256

def val_main_v74 : (⟨S256x768, .f32⟩ : BufTy).Contents (Elt F) :=
  transpose S256x768 [1, 0] (val_main_v73 (F := F) x26) transposes_S768x256_S256x768_1_0

def val_main_v75 : (⟨S65536x768, .f32⟩ : BufTy).Contents (Elt F) :=
  Host.dotGeneral dot_S65536x256_S256x768_S65536x768_1_0_0_1_n_n none (x0) (val_main_v74 (F := F) x26)

def val_main_v76 : (⟨S1x768, .f32⟩ : BufTy).Contents (Elt F) :=
  extractStridedSlice S1x768 ![0, 0] (x28) slices_S2x768_S1x768_0_0

def val_main_v77 : (⟨S768, .f32⟩ : BufTy).Contents (Elt F) :=
  shapeCast _ (val_main_v76 (F := F) x28) shapeCasts_S1x768_S768

def val_main_v78 : (⟨S1x768, .f32⟩ : BufTy).Contents (Elt F) :=
  broadcastInDim S1x768 ![1] bcast_S768_S1x768_1 (val_main_v77 (F := F) x28)

def val_main_v79 : (⟨S65536x768, .f32⟩ : BufTy).Contents (Elt F) :=
  broadcastInDim S65536x768 ![0, 1] bcast_S1x768_S65536x768_0_1 (val_main_v78 (F := F) x28)

def val_main_v80 : (⟨S65536x768, .f32⟩ : BufTy).Contents (Elt F) :=
  addf (val_main_v75 (F := F) x0 x26) (val_main_v79 (F := F) x28)

def val_main_v81 : (⟨S65536x256, .f32⟩ : BufTy).Contents (Elt F) :=
  extractStridedSlice S65536x256 ![0, 0] (val_main_v71 (F := F) x0 x1 x2 x3 x21 x22 x23 x24 x25 x27) slices_S65536x768_S65536x256_0_0

def val_main_v82 : (⟨S65536x256, .f32⟩ : BufTy).Contents (Elt F) :=
  extractStridedSlice S65536x256 ![0, 256] (val_main_v71 (F := F) x0 x1 x2 x3 x21 x22 x23 x24 x25 x27) slices_S65536x768_S65536x256_0_256

def val_main_v83 : (⟨S65536x256, .f32⟩ : BufTy).Contents (Elt F) :=
  extractStridedSlice S65536x256 ![0, 512] (val_main_v71 (F := F) x0 x1 x2 x3 x21 x22 x23 x24 x25 x27) slices_S65536x768_S65536x256_0_512

def val_main_v84 : (⟨S65536x256, .f32⟩ : BufTy).Contents (Elt F) :=
  extractStridedSlice S65536x256 ![0, 0] (val_main_v80 (F := F) x0 x26 x28) slices_S65536x768_S65536x256_0_0

def val_main_v85 : (⟨S65536x256, .f32⟩ : BufTy).Contents (Elt F) :=
  extractStridedSlice S65536x256 ![0, 256] (val_main_v80 (F := F) x0 x26 x28) slices_S65536x768_S65536x256_0_256

def val_main_v86 : (⟨S65536x256, .f32⟩ : BufTy).Contents (Elt F) :=
  extractStridedSlice S65536x256 ![0, 512] (val_main_v80 (F := F) x0 x26 x28) slices_S65536x768_S65536x256_0_512

def val_main_v87 : (⟨S65536x256, .f32⟩ : BufTy).Contents (Elt F) :=
  addf (val_main_v81 (F := F) x0 x1 x2 x3 x21 x22 x23 x24 x25 x27) (val_main_v84 (F := F) x0 x26 x28)

def val_main_v88 : (⟨S65536x256, .f32⟩ : BufTy).Contents (Elt F) :=
  Host.negf (val_main_v87 (F := F) x0 x1 x2 x3 x21 x22 x23 x24 x25 x26 x27 x28)

def val_main_v89 : (⟨S65536x256, .f32⟩ : BufTy).Contents (Elt F) :=
  Host.exp (val_main_v88 (F := F) x0 x1 x2 x3 x21 x22 x23 x24 x25 x26 x27 x28)

def val_main_cst_9 : (⟨S_, .f32⟩ : BufTy).Contents (Elt F) :=
  constant S_ .f32 0x3F800000#32

def val_main_v90 : (⟨S65536x256, .f32⟩ : BufTy).Contents (Elt F) :=
  broadcastInDim S65536x256 ![] bcast_S_S65536x256 (val_main_cst_9 (F := F))

def val_main_v91 : (⟨S65536x256, .f32⟩ : BufTy).Contents (Elt F) :=
  addf (val_main_v90 (F := F)) (val_main_v89 (F := F) x0 x1 x2 x3 x21 x22 x23 x24 x25 x26 x27 x28)

def val_main_cst_10 : (⟨S_, .f32⟩ : BufTy).Contents (Elt F) :=
  constant S_ .f32 0x3F800000#32

def val_main_v92 : (⟨S65536x256, .f32⟩ : BufTy).Contents (Elt F) :=
  broadcastInDim S65536x256 ![] bcast_S_S65536x256 (val_main_cst_10 (F := F))

def val_main_v93 : (⟨S65536x256, .f32⟩ : BufTy).Contents (Elt F) :=
  Host.divf (val_main_v92 (F := F)) (val_main_v91 (F := F) x0 x1 x2 x3 x21 x22 x23 x24 x25 x26 x27 x28)

def val_main_v94 : (⟨S65536x256, .f32⟩ : BufTy).Contents (Elt F) :=
  addf (val_main_v82 (F := F) x0 x1 x2 x3 x21 x22 x23 x24 x25 x27) (val_main_v85 (F := F) x0 x26 x28)

def val_main_v95 : (⟨S65536x256, .f32⟩ : BufTy).Contents (Elt F) :=
  Host.negf (val_main_v94 (F := F) x0 x1 x2 x3 x21 x22 x23 x24 x25 x26 x27 x28)

def val_main_v96 : (⟨S65536x256, .f32⟩ : BufTy).Contents (Elt F) :=
  Host.exp (val_main_v95 (F := F) x0 x1 x2 x3 x21 x22 x23 x24 x25 x26 x27 x28)

def val_main_cst_11 : (⟨S_, .f32⟩ : BufTy).Contents (Elt F) :=
  constant S_ .f32 0x3F800000#32

def val_main_v97 : (⟨S65536x256, .f32⟩ : BufTy).Contents (Elt F) :=
  broadcastInDim S65536x256 ![] bcast_S_S65536x256 (val_main_cst_11 (F := F))

def val_main_v98 : (⟨S65536x256, .f32⟩ : BufTy).Contents (Elt F) :=
  addf (val_main_v97 (F := F)) (val_main_v96 (F := F) x0 x1 x2 x3 x21 x22 x23 x24 x25 x26 x27 x28)

def val_main_cst_12 : (⟨S_, .f32⟩ : BufTy).Contents (Elt F) :=
  constant S_ .f32 0x3F800000#32

def val_main_v99 : (⟨S65536x256, .f32⟩ : BufTy).Contents (Elt F) :=
  broadcastInDim S65536x256 ![] bcast_S_S65536x256 (val_main_cst_12 (F := F))

def val_main_v100 : (⟨S65536x256, .f32⟩ : BufTy).Contents (Elt F) :=
  Host.divf (val_main_v99 (F := F)) (val_main_v98 (F := F) x0 x1 x2 x3 x21 x22 x23 x24 x25 x26 x27 x28)

def val_main_v101 : (⟨S65536x256, .f32⟩ : BufTy).Contents (Elt F) :=
  mulf (val_main_v93 (F := F) x0 x1 x2 x3 x21 x22 x23 x24 x25 x26 x27 x28) (val_main_v86 (F := F) x0 x26 x28)

def val_main_v102 : (⟨S65536x256, .f32⟩ : BufTy).Contents (Elt F) :=
  addf (val_main_v83 (F := F) x0 x1 x2 x3 x21 x22 x23 x24 x25 x27) (val_main_v101 (F := F) x0 x1 x2 x3 x21 x22 x23 x24 x25 x26 x27 x28)

def val_main_v103 : (⟨S65536x256, .f32⟩ : BufTy).Contents (Elt F) :=
  Host.tanh (val_main_v102 (F := F) x0 x1 x2 x3 x21 x22 x23 x24 x25 x26 x27 x28)

def val_main_cst_13 : (⟨S_, .f32⟩ : BufTy).Contents (Elt F) :=
  constant S_ .f32 0x3F800000#32

def val_main_v104 : (⟨S65536x256, .f32⟩ : BufTy).Contents (Elt F) :=
  broadcastInDim S65536x256 ![] bcast_S_S65536x256 (val_main_cst_13 (F := F))

def val_main_v105 : (⟨S65536x256, .f32⟩ : BufTy).Contents (Elt F) :=
  subf (val_main_v104 (F := F)) (val_main_v100 (F := F) x0 x1 x2 x3 x21 x22 x23 x24 x25 x26 x27 x28)

def val_main_v106 : (⟨S65536x256, .f32⟩ : BufTy).Contents (Elt F) :=
  mulf (val_main_v105 (F := F) x0 x1 x2 x3 x21 x22 x23 x24 x25 x26 x27 x28) (val_main_v103 (F := F) x0 x1 x2 x3 x21 x22 x23 x24 x25 x26 x27 x28)

def val_main_v107 : (⟨S65536x256, .f32⟩ : BufTy).Contents (Elt F) :=
  mulf (val_main_v100 (F := F) x0 x1 x2 x3 x21 x22 x23 x24 x25 x26 x27 x28) (x0)

def val_main_v108 : (⟨S65536x256, .f32⟩ : BufTy).Contents (Elt F) :=
  addf (val_main_v106 (F := F) x0 x1 x2 x3 x21 x22 x23 x24 x25 x26 x27 x28) (val_main_v107 (F := F) x0 x1 x2 x3 x21 x22 x23 x24 x25 x26 x27 x28)

def val_main_v109 : (⟨S65536x1, .i1⟩ : BufTy).Contents (Elt F) :=
  broadcastInDim S65536x1 ![0] bcast_S65536_S65536x1_0 (val_main_v13 (F := F) x4 x5)

def val_main_call0_v0 : (⟨S65536x256, .i1⟩ : BufTy).Contents (Elt F) :=
  broadcastInDim S65536x256 ![0, 1] bcast_S65536x1_S65536x256_0_1 (val_main_v109 (F := F) x4 x5)

def val_main_v110 : (⟨S65536x256, .f32⟩ : BufTy).Contents (Elt F) :=
  select (val_main_call0_v0 (F := F) x4 x5) (val_main_v108 (F := F) x0 x1 x2 x3 x21 x22 x23 x24 x25 x26 x27 x28) (x0)

def val_main_v111 : (⟨S1x512x256, .f32⟩ : BufTy).Contents (Elt F) :=
  extractStridedSlice S1x512x256 ![1, 0, 0] (x22) slices_S2x512x256_S1x512x256_1_0_0

def val_main_v112 : (⟨S512x256, .f32⟩ : BufTy).Contents (Elt F) :=
  shapeCast _ (val_main_v111 (F := F) x22) shapeCasts_S1x512x256_S512x256

def val_main_v113 : (⟨S256x512, .f32⟩ : BufTy).Contents (Elt F) :=
  transpose S256x512 [1, 0] (val_main_v112 (F := F) x22) transposes_S512x256_S256x512_1_0

def val_main_v114 : (⟨S131072x512, .f32⟩ : BufTy).Contents (Elt F) :=
  Host.dotGeneral dot_S131072x256_S256x512_S131072x512_1_0_0_1_n_n none (x1) (val_main_v113 (F := F) x22)

def val_main_v115 : (⟨S1x512x256, .f32⟩ : BufTy).Contents (Elt F) :=
  extractStridedSlice S1x512x256 ![1, 0, 0] (x21) slices_S2x512x256_S1x512x256_1_0_0

def val_main_v116 : (⟨S512x256, .f32⟩ : BufTy).Contents (Elt F) :=
  shapeCast _ (val_main_v115 (F := F) x21) shapeCasts_S1x512x256_S512x256

def val_main_v117 : (⟨S256x512, .f32⟩ : BufTy).Contents (Elt F) :=
  transpose S256x512 [1, 0] (val_main_v116 (F := F) x21) transposes_S512x256_S256x512_1_0

def val_main_v118 : (⟨S65536x512, .f32⟩ : BufTy).Contents (Elt F) :=
  Host.dotGeneral dot_S65536x256_S256x512_S65536x512_1_0_0_1_n_n none (val_main_v110 (F := F) x0 x1 x2 x3 x4 x5 x21 x22 x23 x24 x25 x26 x27 x28) (val_main_v117 (F := F) x21)

def val_main_c_14 : (⟨S_, .i32⟩ : BufTy).Contents (Elt F) :=
  constantI S_ 32 0#32

def val_main_v119 : (⟨S131072, .i32⟩ : BufTy).Contents (Elt F) :=
  broadcastInDim S131072 ![] bcast_S_S131072 (val_main_c_14 (F := F))

def val_main_v120 : (⟨S131072, .i1⟩ : BufTy).Contents (Elt F) :=
  cmpi .slt (x2) (val_main_v119 (F := F))

def val_main_c_15 : (⟨S_, .i32⟩ : BufTy).Contents (Elt F) :=
  constantI S_ 32 65536#32

def val_main_v121 : (⟨S131072, .i32⟩ : BufTy).Contents (Elt F) :=
  broadcastInDim S131072 ![] bcast_S_S131072 (val_main_c_15 (F := F))

def val_main_v122 : (⟨S131072, .i32⟩ : BufTy).Contents (Elt F) :=
  addi (x2) (val_main_v121 (F := F))

def val_main_v123 : (⟨S131072, .i32⟩ : BufTy).Contents (Elt F) :=
  select (val_main_v120 (F := F) x2) (val_main_v122 (F := F) x2) (x2)

def val_main_v124 : (⟨S131072x1, .i32⟩ : BufTy).Contents (Elt F) :=
  broadcastInDim S131072x1 ![0] bcast_S131072_S131072x1_0 (val_main_v123 (F := F) x2)

def val_main_v125 : (⟨S131072x512, .f32⟩ : BufTy).Contents (Elt F) :=
  Host.gather gather_S65536x512_S131072x1_S131072x512_1_0_n_n_0_1_1512 (val_main_v118 (F := F) x0 x1 x2 x3 x4 x5 x21 x22 x23 x24 x25 x26 x27 x28) (val_main_v124 (F := F) x2)

def val_main_c_16 : (⟨S_, .i32⟩ : BufTy).Contents (Elt F) :=
  constantI S_ 32 0#32

def val_main_v126 : (⟨S131072, .i32⟩ : BufTy).Contents (Elt F) :=
  broadcastInDim S131072 ![] bcast_S_S131072 (val_main_c_16 (F := F))

def val_main_v127 : (⟨S131072, .i1⟩ : BufTy).Contents (Elt F) :=
  cmpi .slt (x3) (val_main_v126 (F := F))

def val_main_c_17 : (⟨S_, .i32⟩ : BufTy).Contents (Elt F) :=
  constantI S_ 32 65536#32

def val_main_v128 : (⟨S131072, .i32⟩ : BufTy).Contents (Elt F) :=
  broadcastInDim S131072 ![] bcast_S_S131072 (val_main_c_17 (F := F))

def val_main_v129 : (⟨S131072, .i32⟩ : BufTy).Contents (Elt F) :=
  addi (x3) (val_main_v128 (F := F))

def val_main_v130 : (⟨S131072, .i32⟩ : BufTy).Contents (Elt F) :=
  select (val_main_v127 (F := F) x3) (val_main_v129 (F := F) x3) (x3)

def val_main_v131 : (⟨S131072x1, .i32⟩ : BufTy).Contents (Elt F) :=
  broadcastInDim S131072x1 ![0] bcast_S131072_S131072x1_0 (val_main_v130 (F := F) x3)

def val_main_v132 : (⟨S131072x512, .f32⟩ : BufTy).Contents (Elt F) :=
  Host.gather gather_S65536x512_S131072x1_S131072x512_1_0_n_n_0_1_1512 (val_main_v118 (F := F) x0 x1 x2 x3 x4 x5 x21 x22 x23 x24 x25 x26 x27 x28) (val_main_v131 (F := F) x3)

def val_main_v133 : (⟨S131072x512, .f32⟩ : BufTy).Contents (Elt F) :=
  addf (val_main_v125 (F := F) x0 x1 x2 x3 x4 x5 x21 x22 x23 x24 x25 x26 x27 x28) (val_main_v132 (F := F) x0 x1 x2 x3 x4 x5 x21 x22 x23 x24 x25 x26 x27 x28)

def val_main_v134 : (⟨S131072x512, .f32⟩ : BufTy).Contents (Elt F) :=
  addf (val_main_v133 (F := F) x0 x1 x2 x3 x4 x5 x21 x22 x23 x24 x25 x26 x27 x28) (val_main_v114 (F := F) x1 x22)

def val_main_v135 : (⟨S131072x512, .f32⟩ : BufTy).Contents (Elt F) :=
  Host.tanh (val_main_v134 (F := F) x0 x1 x2 x3 x4 x5 x21 x22 x23 x24 x25 x26 x27 x28)

def val_main_v136 : (⟨S1x512x512, .f32⟩ : BufTy).Contents (Elt F) :=
  extractStridedSlice S1x512x512 ![1, 0, 0] (x23) slices_S2x512x512_S1x512x512_1_0_0

def val_main_v137 : (⟨S512x512, .f32⟩ : BufTy).Contents (Elt F) :=
  shapeCast _ (val_main_v136 (F := F) x23) shapeCasts_S1x512x512_S512x512

def val_main_v138 : (⟨S512x512, .f32⟩ : BufTy).Contents (Elt F) :=
  transpose S512x512 [1, 0] (val_main_v137 (F := F) x23) transposes_S512x512_S512x512_1_0

def val_main_v139 : (⟨S131072x512, .f32⟩ : BufTy).Contents (Elt F) :=
  Host.dotGeneral dot_S131072x512_S512x512_S131072x512_1_0_0_1_n_n none (val_main_v135 (F := F) x0 x1 x2 x3 x4 x5 x21 x22 x23 x24 x25 x26 x27 x28) (val_main_v138 (F := F) x23)

def val_main_v140 : (⟨S1x512, .f32⟩ : BufTy).Contents (Elt F) :=
  extractStridedSlice S1x512 ![1, 0] (x24) slices_S2x512_S1x512_1_0

def val_main_v141 : (⟨S512, .f32⟩ : BufTy).Contents (Elt F) :=
  shapeCast _ (val_main_v140 (F := F) x24) shapeCasts_S1x512_S512

def val_main_v142 : (⟨S1x512, .f32⟩ : BufTy).Contents (Elt F) :=
  broadcastInDim S1x512 ![1] bcast_S512_S1x512_1 (val_main_v141 (F := F) x24)

def val_main_v143 : (⟨S131072x512, .f32⟩ : BufTy).Contents (Elt F) :=
  broadcastInDim S131072x512 ![0, 1] bcast_S1x512_S131072x512_0_1 (val_main_v142 (F := F) x24)

def val_main_v144 : (⟨S131072x512, .f32⟩ : BufTy).Contents (Elt F) :=
  addf (val_main_v139 (F := F) x0 x1 x2 x3 x4 x5 x21 x22 x23 x24 x25 x26 x27 x28) (val_main_v143 (F := F) x24)

def val_main_cst_18 : (⟨S_, .f32⟩ : BufTy).Contents (Elt F) :=
  constant S_ .f32 0x00000000#32

def val_main_v145 : (⟨S65536x512, .f32⟩ : BufTy).Contents (Elt F) :=
  broadcastInDim S65536x512 ![] bcast_S_S65536x512 (val_main_cst_18 (F := F))

def val_main_c_19 : (⟨S_, .i32⟩ : BufTy).Contents (Elt F) :=
  constantI S_ 32 0#32

def val_main_v146 : (⟨S131072, .i32⟩ : BufTy).Contents (Elt F) :=
  broadcastInDim S131072 ![] bcast_S_S131072 (val_main_c_19 (F := F))

def val_main_v147 : (⟨S131072, .i1⟩ : BufTy).Contents (Elt F) :=
  cmpi .slt (x3) (val_main_v146 (F := F))

def val_main_c_20 : (⟨S_, .i32⟩ : BufTy).Contents (Elt F) :=
  constantI S_ 32 65536#32

def val_main_v148 : (⟨S131072, .i32⟩ : BufTy).Contents (Elt F) :=
  broadcastInDim S131072 ![] bcast_S_S131072 (val_main_c_20 (F := F))

def val_main_v149 : (⟨S131072, .i32⟩ : BufTy).Contents (Elt F) :=
  addi (x3) (val_main_v148 (F := F))

def val_main_v150 : (⟨S131072, .i32⟩ : BufTy).Contents (Elt F) :=
  select (val_main_v147 (F := F) x3) (val_main_v149 (F := F) x3) (x3)

def val_main_v151 : (⟨S131072x1, .i32⟩ : BufTy).Contents (Elt F) :=
  broadcastInDim S131072x1 ![0] bcast_S131072_S131072x1_0 (val_main_v150 (F := F) x3)

def val_main_v152 : (⟨S65536x512, .f32⟩ : BufTy).Contents (Elt F) :=
  Host.scatterAdd scatter_S65536x512_S131072x1_S131072x512_1_0_0_1 (val_main_v145 (F := F)) (val_main_v151 (F := F) x3) (val_main_v144 (F := F) x0 x1 x2 x3 x4 x5 x21 x22 x23 x24 x25 x26 x27 x28)

def val_main_c_21 : (⟨S_, .i32⟩ : BufTy).Contents (Elt F) :=
  constantI S_ 32 0#32

def val_main_v153 : (⟨S131072, .i32⟩ : BufTy).Contents (Elt F) :=
  broadcastInDim S131072 ![] bcast_S_S131072 (val_main_c_21 (F := F))

def val_main_v154 : (⟨S131072, .i1⟩ : BufTy).Contents (Elt F) :=
  cmpi .slt (x2) (val_main_v153 (F := F))

def val_main_c_22 : (⟨S_, .i32⟩ : BufTy).Contents (Elt F) :=
  constantI S_ 32 65536#32

def val_main_v155 : (⟨S131072, .i32⟩ : BufTy).Contents (Elt F) :=
  broadcastInDim S131072 ![] bcast_S_S131072 (val_main_c_22 (F := F))

def val_main_v156 : (⟨S131072, .i32⟩ : BufTy).Contents (Elt F) :=
  addi (x2) (val_main_v155 (F := F))

def val_main_v157 : (⟨S131072, .i32⟩ : BufTy).Contents (Elt F) :=
  select (val_main_v154 (F := F) x2) (val_main_v156 (F := F) x2) (x2)

def val_main_v158 : (⟨S131072x1, .i32⟩ : BufTy).Contents (Elt F) :=
  broadcastInDim S131072x1 ![0] bcast_S131072_S131072x1_0 (val_main_v157 (F := F) x2)

def val_main_v159 : (⟨S65536x512, .f32⟩ : BufTy).Contents (Elt F) :=
  Host.scatterAdd scatter_S65536x512_S131072x1_S131072x512_1_0_0_1 (val_main_v152 (F := F) x0 x1 x2 x3 x4 x5 x21 x22 x23 x24 x25 x26 x27 x28) (val_main_v158 (F := F) x2) (val_main_v144 (F := F) x0 x1 x2 x3 x4 x5 x21 x22 x23 x24 x25 x26 x27 x28)

def val_main_v160 : (⟨S1x768x512, .f32⟩ : BufTy).Contents (Elt F) :=
  extractStridedSlice S1x768x512 ![1, 0, 0] (x25) slices_S2x768x512_S1x768x512_1_0_0

def val_main_v161 : (⟨S768x512, .f32⟩ : BufTy).Contents (Elt F) :=
  shapeCast _ (val_main_v160 (F := F) x25) shapeCasts_S1x768x512_S768x512

def val_main_v162 : (⟨S512x768, .f32⟩ : BufTy).Contents (Elt F) :=
  transpose S512x768 [1, 0] (val_main_v161 (F := F) x25) transposes_S768x512_S512x768_1_0

def val_main_v163 : (⟨S65536x768, .f32⟩ : BufTy).Contents (Elt F) :=
  Host.dotGeneral dot_S65536x512_S512x768_S65536x768_1_0_0_1_n_n none (val_main_v159 (F := F) x0 x1 x2 x3 x4 x5 x21 x22 x23 x24 x25 x26 x27 x28) (val_main_v162 (F := F) x25)

def val_main_v164 : (⟨S1x768, .f32⟩ : BufTy).Contents (Elt F) :=
  extractStridedSlice S1x768 ![1, 0] (x27) slices_S2x768_S1x768_1_0

def val_main_v165 : (⟨S768, .f32⟩ : BufTy).Contents (Elt F) :=
  shapeCast _ (val_main_v164 (F := F) x27) shapeCasts_S1x768_S768

def val_main_v166 : (⟨S1x768, .f32⟩ : BufTy).Contents (Elt F) :=
  broadcastInDim S1x768 ![1] bcast_S768_S1x768_1 (val_main_v165 (F := F) x27)

def val_main_v167 : (⟨S65536x768, .f32⟩ : BufTy).Contents (Elt F) :=
  broadcastInDim S65536x768 ![0, 1] bcast_S1x768_S65536x768_0_1 (val_main_v166 (F := F) x27)

def val_main_v168 : (⟨S65536x768, .f32⟩ : BufTy).Contents (Elt F) :=
  addf (val_main_v163 (F := F) x0 x1 x2 x3 x4 x5 x21 x22 x23 x24 x25 x26 x27 x28) (val_main_v167 (F := F) x27)

def val_main_v169 : (⟨S1x768x256, .f32⟩ : BufTy).Contents (Elt F) :=
  extractStridedSlice S1x768x256 ![1, 0, 0] (x26) slices_S2x768x256_S1x768x256_1_0_0

def val_main_v170 : (⟨S768x256, .f32⟩ : BufTy).Contents (Elt F) :=
  shapeCast _ (val_main_v169 (F := F) x26) shapeCasts_S1x768x256_S768x256

def val_main_v171 : (⟨S256x768, .f32⟩ : BufTy).Contents (Elt F) :=
  transpose S256x768 [1, 0] (val_main_v170 (F := F) x26) transposes_S768x256_S256x768_1_0

def val_main_v172 : (⟨S65536x768, .f32⟩ : BufTy).Contents (Elt F) :=
  Host.dotGeneral dot_S65536x256_S256x768_S65536x768_1_0_0_1_n_n none (val_main_v110 (F := F) x0 x1 x2 x3 x4 x5 x21 x22 x23 x24 x25 x26 x27 x28) (val_main_v171 (F := F) x26)

def val_main_v173 : (⟨S1x768, .f32⟩ : BufTy).Contents (Elt F) :=
  extractStridedSlice S1x768 ![1, 0] (x28) slices_S2x768_S1x768_1_0

def val_main_v174 : (⟨S768, .f32⟩ : BufTy).Contents (Elt F) :=
  shapeCast _ (val_main_v173 (F := F) x28) shapeCasts_S1x768_S768

def val_main_v175 : (⟨S1x768, .f32⟩ : BufTy).Contents (Elt F) :=
  broadcastInDim S1x768 ![1] bcast_S768_S1x768_1 (val_main_v174 (F := F) x28)

def val_main_v176 : (⟨S65536x768, .f32⟩ : BufTy).Contents (Elt F) :=
  broadcastInDim S65536x768 ![0, 1] bcast_S1x768_S65536x768_0_1 (val_main_v175 (F := F) x28)

def val_main_v177 : (⟨S65536x768, .f32⟩ : BufTy).Contents (Elt F) :=
  addf (val_main_v172 (F := F) x0 x1 x2 x3 x4 x5 x21 x22 x23 x24 x25 x26 x27 x28) (val_main_v176 (F := F) x28)

def val_main_v178 : (⟨S65536x256, .f32⟩ : BufTy).Contents (Elt F) :=
  extractStridedSlice S65536x256 ![0, 0] (val_main_v168 (F := F) x0 x1 x2 x3 x4 x5 x21 x22 x23 x24 x25 x26 x27 x28) slices_S65536x768_S65536x256_0_0

def val_main_v179 : (⟨S65536x256, .f32⟩ : BufTy).Contents (Elt F) :=
  extractStridedSlice S65536x256 ![0, 256] (val_main_v168 (F := F) x0 x1 x2 x3 x4 x5 x21 x22 x23 x24 x25 x26 x27 x28) slices_S65536x768_S65536x256_0_256

def val_main_v180 : (⟨S65536x256, .f32⟩ : BufTy).Contents (Elt F) :=
  extractStridedSlice S65536x256 ![0, 512] (val_main_v168 (F := F) x0 x1 x2 x3 x4 x5 x21 x22 x23 x24 x25 x26 x27 x28) slices_S65536x768_S65536x256_0_512

def val_main_v181 : (⟨S65536x256, .f32⟩ : BufTy).Contents (Elt F) :=
  extractStridedSlice S65536x256 ![0, 0] (val_main_v177 (F := F) x0 x1 x2 x3 x4 x5 x21 x22 x23 x24 x25 x26 x27 x28) slices_S65536x768_S65536x256_0_0

def val_main_v182 : (⟨S65536x256, .f32⟩ : BufTy).Contents (Elt F) :=
  extractStridedSlice S65536x256 ![0, 256] (val_main_v177 (F := F) x0 x1 x2 x3 x4 x5 x21 x22 x23 x24 x25 x26 x27 x28) slices_S65536x768_S65536x256_0_256

def val_main_v183 : (⟨S65536x256, .f32⟩ : BufTy).Contents (Elt F) :=
  extractStridedSlice S65536x256 ![0, 512] (val_main_v177 (F := F) x0 x1 x2 x3 x4 x5 x21 x22 x23 x24 x25 x26 x27 x28) slices_S65536x768_S65536x256_0_512

def val_main_v184 : (⟨S65536x256, .f32⟩ : BufTy).Contents (Elt F) :=
  addf (val_main_v178 (F := F) x0 x1 x2 x3 x4 x5 x21 x22 x23 x24 x25 x26 x27 x28) (val_main_v181 (F := F) x0 x1 x2 x3 x4 x5 x21 x22 x23 x24 x25 x26 x27 x28)

def val_main_v185 : (⟨S65536x256, .f32⟩ : BufTy).Contents (Elt F) :=
  Host.negf (val_main_v184 (F := F) x0 x1 x2 x3 x4 x5 x21 x22 x23 x24 x25 x26 x27 x28)

def val_main_v186 : (⟨S65536x256, .f32⟩ : BufTy).Contents (Elt F) :=
  Host.exp (val_main_v185 (F := F) x0 x1 x2 x3 x4 x5 x21 x22 x23 x24 x25 x26 x27 x28)

def val_main_cst_23 : (⟨S_, .f32⟩ : BufTy).Contents (Elt F) :=
  constant S_ .f32 0x3F800000#32

def val_main_v187 : (⟨S65536x256, .f32⟩ : BufTy).Contents (Elt F) :=
  broadcastInDim S65536x256 ![] bcast_S_S65536x256 (val_main_cst_23 (F := F))

def val_main_v188 : (⟨S65536x256, .f32⟩ : BufTy).Contents (Elt F) :=
  addf (val_main_v187 (F := F)) (val_main_v186 (F := F) x0 x1 x2 x3 x4 x5 x21 x22 x23 x24 x25 x26 x27 x28)

def val_main_cst_24 : (⟨S_, .f32⟩ : BufTy).Contents (Elt F) :=
  constant S_ .f32 0x3F800000#32

def val_main_v189 : (⟨S65536x256, .f32⟩ : BufTy).Contents (Elt F) :=
  broadcastInDim S65536x256 ![] bcast_S_S65536x256 (val_main_cst_24 (F := F))

def val_main_v190 : (⟨S65536x256, .f32⟩ : BufTy).Contents (Elt F) :=
  Host.divf (val_main_v189 (F := F)) (val_main_v188 (F := F) x0 x1 x2 x3 x4 x5 x21 x22 x23 x24 x25 x26 x27 x28)

def val_main_v191 : (⟨S65536x256, .f32⟩ : BufTy).Contents (Elt F) :=
  addf (val_main_v179 (F := F) x0 x1 x2 x3 x4 x5 x21 x22 x23 x24 x25 x26 x27 x28) (val_main_v182 (F := F) x0 x1 x2 x3 x4 x5 x21 x22 x23 x24 x25 x26 x27 x28)

def val_main_v192 : (⟨S65536x256, .f32⟩ : BufTy).Contents (Elt F) :=
  Host.negf (val_main_v191 (F := F) x0 x1 x2 x3 x4 x5 x21 x22 x23 x24 x25 x26 x27 x28)

def val_main_v193 : (⟨S65536x256, .f32⟩ : BufTy).Contents (Elt F) :=
  Host.exp (val_main_v192 (F := F) x0 x1 x2 x3 x4 x5 x21 x22 x23 x24 x25 x26 x27 x28)

def val_main_cst_25 : (⟨S_, .f32⟩ : BufTy).Contents (Elt F) :=
  constant S_ .f32 0x3F800000#32

def val_main_v194 : (⟨S65536x256, .f32⟩ : BufTy).Contents (Elt F) :=
  broadcastInDim S65536x256 ![] bcast_S_S65536x256 (val_main_cst_25 (F := F))

def val_main_v195 : (⟨S65536x256, .f32⟩ : BufTy).Contents (Elt F) :=
  addf (val_main_v194 (F := F)) (val_main_v193 (F := F) x0 x1 x2 x3 x4 x5 x21 x22 x23 x24 x25 x26 x27 x28)

def val_main_cst_26 : (⟨S_, .f32⟩ : BufTy).Contents (Elt F) :=
  constant S_ .f32 0x3F800000#32

def val_main_v196 : (⟨S65536x256, .f32⟩ : BufTy).Contents (Elt F) :=
  broadcastInDim S65536x256 ![] bcast_S_S65536x256 (val_main_cst_26 (F := F))

def val_main_v197 : (⟨S65536x256, .f32⟩ : BufTy).Contents (Elt F) :=
  Host.divf (val_main_v196 (F := F)) (val_main_v195 (F := F) x0 x1 x2 x3 x4 x5 x21 x22 x23 x24 x25 x26 x27 x28)

def val_main_v198 : (⟨S65536x256, .f32⟩ : BufTy).Contents (Elt F) :=
  mulf (val_main_v190 (F := F) x0 x1 x2 x3 x4 x5 x21 x22 x23 x24 x25 x26 x27 x28) (val_main_v183 (F := F) x0 x1 x2 x3 x4 x5 x21 x22 x23 x24 x25 x26 x27 x28)

def val_main_v199 : (⟨S65536x256, .f32⟩ : BufTy).Contents (Elt F) :=
  addf (val_main_v180 (F := F) x0 x1 x2 x3 x4 x5 x21 x22 x23 x24 x25 x26 x27 x28) (val_main_v198 (F := F) x0 x1 x2 x3 x4 x5 x21 x22 x23 x24 x25 x26 x27 x28)

def val_main_v200 : (⟨S65536x256, .f32⟩ : BufTy).Contents (Elt F) :=
  Host.tanh (val_main_v199 (F := F) x0 x1 x2 x3 x4 x5 x21 x22 x23 x24 x25 x26 x27 x28)

def val_main_cst_27 : (⟨S_, .f32⟩ : BufTy).Contents (Elt F) :=
  constant S_ .f32 0x3F800000#32

def val_main_v201 : (⟨S65536x256, .f32⟩ : BufTy).Contents (Elt F) :=
  broadcastInDim S65536x256 ![] bcast_S_S65536x256 (val_main_cst_27 (F := F))

def val_main_v202 : (⟨S65536x256, .f32⟩ : BufTy).Contents (Elt F) :=
  subf (val_main_v201 (F := F)) (val_main_v197 (F := F) x0 x1 x2 x3 x4 x5 x21 x22 x23 x24 x25 x26 x27 x28)

def val_main_v203 : (⟨S65536x256, .f32⟩ : BufTy).Contents (Elt F) :=
  mulf (val_main_v202 (F := F) x0 x1 x2 x3 x4 x5 x21 x22 x23 x24 x25 x26 x27 x28) (val_main_v200 (F := F) x0 x1 x2 x3 x4 x5 x21 x22 x23 x24 x25 x26 x27 x28)

def val_main_v204 : (⟨S65536x256, .f32⟩ : BufTy).Contents (Elt F) :=
  mulf (val_main_v197 (F := F) x0 x1 x2 x3 x4 x5 x21 x22 x23 x24 x25 x26 x27 x28) (val_main_v110 (F := F) x0 x1 x2 x3 x4 x5 x21 x22 x23 x24 x25 x26 x27 x28)

def val_main_v205 : (⟨S65536x256, .f32⟩ : BufTy).Contents (Elt F) :=
  addf (val_main_v203 (F := F) x0 x1 x2 x3 x4 x5 x21 x22 x23 x24 x25 x26 x27 x28) (val_main_v204 (F := F) x0 x1 x2 x3 x4 x5 x21 x22 x23 x24 x25 x26 x27 x28)

def val_main_v206 : (⟨S65536x1, .i1⟩ : BufTy).Contents (Elt F) :=
  broadcastInDim S65536x1 ![0] bcast_S65536_S65536x1_0 (val_main_v13 (F := F) x4 x5)

def val_main_call1_v0 : (⟨S65536x256, .i1⟩ : BufTy).Contents (Elt F) :=
  broadcastInDim S65536x256 ![0, 1] bcast_S65536x1_S65536x256_0_1 (val_main_v206 (F := F) x4 x5)

def val_main_v207 : (⟨S65536x256, .f32⟩ : BufTy).Contents (Elt F) :=
  select (val_main_call1_v0 (F := F) x4 x5) (val_main_v205 (F := F) x0 x1 x2 x3 x4 x5 x21 x22 x23 x24 x25 x26 x27 x28) (val_main_v110 (F := F) x0 x1 x2 x3 x4 x5 x21 x22 x23 x24 x25 x26 x27 x28)

def val_main_v208 : (⟨S256x512, .f32⟩ : BufTy).Contents (Elt F) :=
  transpose S256x512 [1, 0] (x9) transposes_S512x256_S256x512_1_0

def val_main_v209 : (⟨S65536x512, .f32⟩ : BufTy).Contents (Elt F) :=
  Host.dotGeneral dot_S65536x256_S256x512_S65536x512_1_0_0_1_n_n none (val_main_v207 (F := F) x0 x1 x2 x3 x4 x5 x21 x22 x23 x24 x25 x26 x27 x28) (val_main_v208 (F := F) x9)

def val_main_v210 : (⟨S1x512, .f32⟩ : BufTy).Contents (Elt F) :=
  broadcastInDim S1x512 ![1] bcast_S512_S1x512_1 (x10)
abbrev idx_main_v210 (i : S1x512.Idx) : S512.Idx := fun a => match a with
  | ⟨0, _⟩ => ⟨(i 1).val, (i 1).isLt⟩
theorem val_main_v210_apply (i : S1x512.Idx) :
    val_main_v210 (F := F) x10 i = x10 (idx_main_v210 i) := by
  unfold val_main_v210
  exact broadcastInDim_apply _ bcast_S512_S1x512_1 x10 i (idx_main_v210 i) (fun a => match a with
    | ⟨0, _⟩ => by show (i 1).val = if (512 : Nat) = 1 then 0 else (i 1).val; rw [if_neg (by decide)])

def val_main_v211 : (⟨S65536x512, .f32⟩ : BufTy).Contents (Elt F) :=
  broadcastInDim S65536x512 ![0, 1] bcast_S1x512_S65536x512_0_1 (val_main_v210 (F := F) x10)
abbrev idx_main_v211 (i : S65536x512.Idx) : S1x512.Idx := fun a => match a with
  | ⟨0, _⟩ => ⟨0, Nat.one_pos⟩
  | ⟨1, _⟩ => ⟨(i 1).val, (i 1).isLt⟩
theorem val_main_v211_apply (i : S65536x512.Idx) :
    val_main_v211 (F := F) x10 i = val_main_v210 (F := F) x10 (idx_main_v211 i) := by
  unfold val_main_v211
  generalize val_main_v210 (F := F) x10 = y
  exact broadcastInDim_apply _ bcast_S1x512_S65536x512_0_1 y i (idx_main_v211 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v212 : (⟨S65536x512, .f32⟩ : BufTy).Contents (Elt F) :=
  addf (val_main_v209 (F := F) x0 x1 x2 x3 x4 x5 x9 x21 x22 x23 x24 x25 x26 x27 x28) (val_main_v211 (F := F) x10)

def val_main_v213 : (⟨S65536x512, .f32⟩ : BufTy).Contents (Elt F) :=
  Host.negf (val_main_v212 (F := F) x0 x1 x2 x3 x4 x5 x9 x10 x21 x22 x23 x24 x25 x26 x27 x28)

def val_main_v214 : (⟨S65536x512, .f32⟩ : BufTy).Contents (Elt F) :=
  Host.exp (val_main_v213 (F := F) x0 x1 x2 x3 x4 x5 x9 x10 x21 x22 x23 x24 x25 x26 x27 x28)

def val_main_cst_28 : (⟨S_, .f32⟩ : BufTy).Contents (Elt F) :=
  constant S_ .f32 0x3F800000#32
theorem val_main_cst_28_apply (i : S_.Idx) :
    val_main_cst_28 (F := F) i = FloatOps.ofBits .f32 0x3F800000#32 := rfl

def val_main_v215 : (⟨S65536x512, .f32⟩ : BufTy).Contents (Elt F) :=
  broadcastInDim S65536x512 ![] bcast_S_S65536x512 (val_main_cst_28 (F := F))
abbrev idx_main_v215 (i : S65536x512.Idx) : S_.Idx := fun a => a.elim0
theorem val_main_v215_apply (i : S65536x512.Idx) :
    val_main_v215 (F := F) i = val_main_cst_28 (F := F) (idx_main_v215 i) := by
  unfold val_main_v215
  generalize val_main_cst_28 (F := F) = y
  exact broadcastInDim_apply _ bcast_S_S65536x512 y i (idx_main_v215 i) (fun a => a.elim0)

def val_main_v216 : (⟨S65536x512, .f32⟩ : BufTy).Contents (Elt F) :=
  addf (val_main_v215 (F := F)) (val_main_v214 (F := F) x0 x1 x2 x3 x4 x5 x9 x10 x21 x22 x23 x24 x25 x26 x27 x28)

def val_main_cst_29 : (⟨S_, .f32⟩ : BufTy).Contents (Elt F) :=
  constant S_ .f32 0x3F800000#32

def val_main_v217 : (⟨S65536x512, .f32⟩ : BufTy).Contents (Elt F) :=
  broadcastInDim S65536x512 ![] bcast_S_S65536x512 (val_main_cst_29 (F := F))

def val_main_v218 : (⟨S65536x512, .f32⟩ : BufTy).Contents (Elt F) :=
  Host.divf (val_main_v217 (F := F)) (val_main_v216 (F := F) x0 x1 x2 x3 x4 x5 x9 x10 x21 x22 x23 x24 x25 x26 x27 x28)

def val_main_v219 : (⟨S256x512, .f32⟩ : BufTy).Contents (Elt F) :=
  transpose S256x512 [1, 0] (x7) transposes_S512x256_S256x512_1_0

def val_main_v220 : (⟨S65536x512, .f32⟩ : BufTy).Contents (Elt F) :=
  Host.dotGeneral dot_S65536x256_S256x512_S65536x512_1_0_0_1_n_n none (val_main_v207 (F := F) x0 x1 x2 x3 x4 x5 x21 x22 x23 x24 x25 x26 x27 x28) (val_main_v219 (F := F) x7)

def val_main_v221 : (⟨S1x512, .f32⟩ : BufTy).Contents (Elt F) :=
  broadcastInDim S1x512 ![1] bcast_S512_S1x512_1 (x8)

def val_main_v222 : (⟨S65536x512, .f32⟩ : BufTy).Contents (Elt F) :=
  broadcastInDim S65536x512 ![0, 1] bcast_S1x512_S65536x512_0_1 (val_main_v221 (F := F) x8)

def val_main_v223 : (⟨S65536x512, .f32⟩ : BufTy).Contents (Elt F) :=
  addf (val_main_v220 (F := F) x0 x1 x2 x3 x4 x5 x7 x21 x22 x23 x24 x25 x26 x27 x28) (val_main_v222 (F := F) x8)

def val_main_v224 : (⟨S65536x512, .f32⟩ : BufTy).Contents (Elt F) :=
  mulf (val_main_v223 (F := F) x0 x1 x2 x3 x4 x5 x7 x8 x21 x22 x23 x24 x25 x26 x27 x28) (val_main_v218 (F := F) x0 x1 x2 x3 x4 x5 x9 x10 x21 x22 x23 x24 x25 x26 x27 x28)

def val_main_v225 : (⟨S512x512, .f32⟩ : BufTy).Contents (Elt F) :=
  Host.dotGeneral dot_S512x65536_S65536x512_S512x512_1_0_0_1_n_n none (val_main_v6 (F := F) x4) (val_main_v224 (F := F) x0 x1 x2 x3 x4 x5 x7 x8 x9 x10 x21 x22 x23 x24 x25 x26 x27 x28)

def val_main_v226 : (⟨S512x65, .f32⟩ : BufTy).Contents (Elt F) :=
  transpose S512x65 [1, 0] (x15) transposes_S65x512_S512x65_1_0

def val_main_v227 : (⟨S512x65, .f32⟩ : BufTy).Contents (Elt F) :=
  Host.dotGeneral dot_S512x512_S512x65_S512x65_1_0_0_1_n_n none (val_main_v225 (F := F) x0 x1 x2 x3 x4 x5 x7 x8 x9 x10 x21 x22 x23 x24 x25 x26 x27 x28) (val_main_v226 (F := F) x15)

def val_main_v228 : (⟨S1x65, .f32⟩ : BufTy).Contents (Elt F) :=
  broadcastInDim S1x65 ![1] bcast_S65_S1x65_1 (x16)

def val_main_v229 : (⟨S512x65, .f32⟩ : BufTy).Contents (Elt F) :=
  broadcastInDim S512x65 ![0, 1] bcast_S1x65_S512x65_0_1 (val_main_v228 (F := F) x16)

def val_main_v230 : (⟨S512x65, .f32⟩ : BufTy).Contents (Elt F) :=
  addf (val_main_v227 (F := F) x0 x1 x2 x3 x4 x5 x7 x8 x9 x10 x15 x21 x22 x23 x24 x25 x26 x27 x28) (val_main_v229 (F := F) x16)

def val_main_c_30 : (⟨S_, .i32⟩ : BufTy).Contents (Elt F) :=
  constantI S_ 32 1#32

def val_main_v231 : (⟨S512, .i32⟩ : BufTy).Contents (Elt F) :=
  broadcastInDim S512 ![] bcast_S_S512 (val_main_c_30 (F := F))

def val_main_v232 : (⟨S512, .i32⟩ : BufTy).Contents (Elt F) :=
  addi (x6) (val_main_v231 (F := F))

def val_main_call2_cst : (⟨S_, .f32⟩ : BufTy).Contents (Elt F) :=
  constant S_ .f32 0xFF800000#32

def val_main_call2_v0 : (⟨S512, .f32⟩ : BufTy).Contents (Elt F) :=
  Host.reduce FloatOps.maximumf (val_main_v230 (F := F) x0 x1 x2 x3 x4 x5 x7 x8 x9 x10 x15 x16 x21 x22 x23 x24 x25 x26 x27 x28) (val_main_call2_cst (F := F)) reducesTo_S512x65_S512_d1 h_S_

def val_main_call2_cst_0 : (⟨S_, .f32⟩ : BufTy).Contents (Elt F) :=
  constant S_ .f32 0xFF800000#32

def val_main_call2_v1 : (⟨S512, .f32⟩ : BufTy).Contents (Elt F) :=
  broadcastInDim S512 ![] bcast_S_S512 (val_main_call2_cst_0 (F := F))

def val_main_call2_v2 : (⟨S512, .f32⟩ : BufTy).Contents (Elt F) :=
  maximumf (val_main_call2_v1 (F := F)) (val_main_call2_v0 (F := F) x0 x1 x2 x3 x4 x5 x7 x8 x9 x10 x15 x16 x21 x22 x23 x24 x25 x26 x27 x28)

def val_main_call2_v3 : (⟨S512x1, .f32⟩ : BufTy).Contents (Elt F) :=
  broadcastInDim S512x1 ![0] bcast_S512_S512x1_0 (val_main_call2_v2 (F := F) x0 x1 x2 x3 x4 x5 x7 x8 x9 x10 x15 x16 x21 x22 x23 x24 x25 x26 x27 x28)

def val_main_call2_v4 : (⟨S512x65, .f32⟩ : BufTy).Contents (Elt F) :=
  broadcastInDim S512x65 ![0, 1] bcast_S512x1_S512x65_0_1 (val_main_call2_v3 (F := F) x0 x1 x2 x3 x4 x5 x7 x8 x9 x10 x15 x16 x21 x22 x23 x24 x25 x26 x27 x28)

def val_main_call2_v5 : (⟨S512x65, .f32⟩ : BufTy).Contents (Elt F) :=
  subf (val_main_v230 (F := F) x0 x1 x2 x3 x4 x5 x7 x8 x9 x10 x15 x16 x21 x22 x23 x24 x25 x26 x27 x28) (val_main_call2_v4 (F := F) x0 x1 x2 x3 x4 x5 x7 x8 x9 x10 x15 x16 x21 x22 x23 x24 x25 x26 x27 x28)

def val_main_call2_v6 : (⟨S512x65, .f32⟩ : BufTy).Contents (Elt F) :=
  Host.exp (val_main_call2_v5 (F := F) x0 x1 x2 x3 x4 x5 x7 x8 x9 x10 x15 x16 x21 x22 x23 x24 x25 x26 x27 x28)

def val_main_call2_cst_1 : (⟨S_, .f32⟩ : BufTy).Contents (Elt F) :=
  constant S_ .f32 0x00000000#32

def val_main_call2_v7 : (⟨S512, .f32⟩ : BufTy).Contents (Elt F) :=
  Host.reduceAdd (val_main_call2_v6 (F := F) x0 x1 x2 x3 x4 x5 x7 x8 x9 x10 x15 x16 x21 x22 x23 x24 x25 x26 x27 x28) (val_main_call2_cst_1 (F := F)) reducesTo_S512x65_S512_d1 h_S_

def val_main_call2_v8 : (⟨S512x1, .f32⟩ : BufTy).Contents (Elt F) :=
  broadcastInDim S512x1 ![0] bcast_S512_S512x1_0 (val_main_call2_v7 (F := F) x0 x1 x2 x3 x4 x5 x7 x8 x9 x10 x15 x16 x21 x22 x23 x24 x25 x26 x27 x28)

def val_main_call2_v9 : (⟨S512x1, .f32⟩ : BufTy).Contents (Elt F) :=
  Host.log (val_main_call2_v8 (F := F) x0 x1 x2 x3 x4 x5 x7 x8 x9 x10 x15 x16 x21 x22 x23 x24 x25 x26 x27 x28)

def val_main_call2_v10 : (⟨S512x65, .f32⟩ : BufTy).Contents (Elt F) :=
  broadcastInDim S512x65 ![0, 1] bcast_S512x1_S512x65_0_1 (val_main_call2_v9 (F := F) x0 x1 x2 x3 x4 x5 x7 x8 x9 x10 x15 x16 x21 x22 x23 x24 x25 x26 x27 x28)

def val_main_v233 : (⟨S512x65, .f32⟩ : BufTy).Contents (Elt F) :=
  subf (val_main_call2_v5 (F := F) x0 x1 x2 x3 x4 x5 x7 x8 x9 x10 x15 x16 x21 x22 x23 x24 x25 x26 x27 x28) (val_main_call2_v10 (F := F) x0 x1 x2 x3 x4 x5 x7 x8 x9 x10 x15 x16 x21 x22 x23 x24 x25 x26 x27 x28)

def val_main_v234 : (⟨S512, .i32⟩ : BufTy).Contents (Elt F) :=
  iotaInDim S512 32 0

def val_main_c_31 : (⟨S_, .i32⟩ : BufTy).Contents (Elt F) :=
  constantI S_ 32 0#32

def val_main_v235 : (⟨S512, .i32⟩ : BufTy).Contents (Elt F) :=
  broadcastInDim S512 ![] bcast_S_S512 (val_main_c_31 (F := F))

def val_main_v236 : (⟨S512, .i1⟩ : BufTy).Contents (Elt F) :=
  cmpi .slt (val_main_v234 (F := F)) (val_main_v235 (F := F))

def val_main_c_32 : (⟨S_, .i32⟩ : BufTy).Contents (Elt F) :=
  constantI S_ 32 512#32

def val_main_v237 : (⟨S512, .i32⟩ : BufTy).Contents (Elt F) :=
  broadcastInDim S512 ![] bcast_S_S512 (val_main_c_32 (F := F))

def val_main_v238 : (⟨S512, .i32⟩ : BufTy).Contents (Elt F) :=
  addi (val_main_v234 (F := F)) (val_main_v237 (F := F))

def val_main_v239 : (⟨S512, .i32⟩ : BufTy).Contents (Elt F) :=
  select (val_main_v236 (F := F)) (val_main_v238 (F := F)) (val_main_v234 (F := F))

def val_main_c_33 : (⟨S_, .i32⟩ : BufTy).Contents (Elt F) :=
  constantI S_ 32 0#32

def val_main_v240 : (⟨S512, .i32⟩ : BufTy).Contents (Elt F) :=
  broadcastInDim S512 ![] bcast_S_S512 (val_main_c_33 (F := F))

def val_main_v241 : (⟨S512, .i1⟩ : BufTy).Contents (Elt F) :=
  cmpi .slt (val_main_v232 (F := F) x6) (val_main_v240 (F := F))

def val_main_c_34 : (⟨S_, .i32⟩ : BufTy).Contents (Elt F) :=
  constantI S_ 32 65#32

def val_main_v242 : (⟨S512, .i32⟩ : BufTy).Contents (Elt F) :=
  broadcastInDim S512 ![] bcast_S_S512 (val_main_c_34 (F := F))

def val_main_v243 : (⟨S512, .i32⟩ : BufTy).Contents (Elt F) :=
  addi (val_main_v232 (F := F) x6) (val_main_v242 (F := F))

def val_main_v244 : (⟨S512, .i32⟩ : BufTy).Contents (Elt F) :=
  select (val_main_v241 (F := F) x6) (val_main_v243 (F := F) x6) (val_main_v232 (F := F) x6)

def val_main_v245 : (⟨S512x1, .i32⟩ : BufTy).Contents (Elt F) :=
  broadcastInDim S512x1 ![0] bcast_S512_S512x1_0 (val_main_v239 (F := F))

def val_main_v246 : (⟨S512x1, .i32⟩ : BufTy).Contents (Elt F) :=
  broadcastInDim S512x1 ![0] bcast_S512_S512x1_0 (val_main_v244 (F := F) x6)

def val_main_v247 : (⟨S512x2, .i32⟩ : BufTy).Contents (Elt F) :=
  concatenate S512x2 1 [⟨S512x1, (val_main_v245 (F := F))⟩, ⟨S512x1, (val_main_v246 (F := F) x6)⟩] concatenates_S512x1_S512x1_S512x2_d1

def val_main_v248 : (⟨S512, .f32⟩ : BufTy).Contents (Elt F) :=
  Host.gather gather_S512x65_S512x2_S512_n_01_n_n_01_1_11 (val_main_v233 (F := F) x0 x1 x2 x3 x4 x5 x7 x8 x9 x10 x15 x16 x21 x22 x23 x24 x25 x26 x27 x28) (val_main_v247 (F := F) x6)

def val_main_v249 : (⟨S512, .f32⟩ : BufTy).Contents (Elt F) :=
  Host.negf (val_main_v248 (F := F) x0 x1 x2 x3 x4 x5 x6 x7 x8 x9 x10 x15 x16 x21 x22 x23 x24 x25 x26 x27 x28)

def val_main_cst_35 : (⟨S_, .f32⟩ : BufTy).Contents (Elt F) :=
  constant S_ .f32 0x00000000#32

def val_main_call3_v0 : (⟨S_, .f32⟩ : BufTy).Contents (Elt F) :=
  id (val_main_cst_35 (F := F))

def val_main_call3_v1 : (⟨S512, .f32⟩ : BufTy).Contents (Elt F) :=
  broadcastInDim S512 ![] bcast_S_S512 (val_main_call3_v0 (F := F))

def val_main_v250 : (⟨S512, .f32⟩ : BufTy).Contents (Elt F) :=
  select (x5) (val_main_v249 (F := F) x0 x1 x2 x3 x4 x5 x6 x7 x8 x9 x10 x15 x16 x21 x22 x23 x24 x25 x26 x27 x28) (val_main_call3_v1 (F := F))

def val_main_cst_36 : (⟨S_, .f32⟩ : BufTy).Contents (Elt F) :=
  constant S_ .f32 0x00000000#32

def val_main_v251 : (⟨S_, .f32⟩ : BufTy).Contents (Elt F) :=
  Host.reduceAdd (val_main_v250 (F := F) x0 x1 x2 x3 x4 x5 x6 x7 x8 x9 x10 x15 x16 x21 x22 x23 x24 x25 x26 x27 x28) (val_main_cst_36 (F := F)) reducesTo_S512_S_d0 h_S_

def val_main_cst_37 : (⟨S_, .f32⟩ : BufTy).Contents (Elt F) :=
  constant S_ .f32 0x44000000#32

def val_main_v252 : (⟨S_, .f32⟩ : BufTy).Contents (Elt F) :=
  Host.divf (val_main_v251 (F := F) x0 x1 x2 x3 x4 x5 x6 x7 x8 x9 x10 x15 x16 x21 x22 x23 x24 x25 x26 x27 x28) (val_main_cst_37 (F := F))

def val_main_c_38 : (⟨S_, .i32⟩ : BufTy).Contents (Elt F) :=
  constantI S_ 32 1#32

def val_main_v253 : (⟨S512, .i32⟩ : BufTy).Contents (Elt F) :=
  broadcastInDim S512 ![] bcast_S_S512 (val_main_c_38 (F := F))

def val_main_v254 : (⟨S512, .i32⟩ : BufTy).Contents (Elt F) :=
  subi (val_main_v232 (F := F) x6) (val_main_v253 (F := F))

def val_main_c_39 : (⟨S_, .i32⟩ : BufTy).Contents (Elt F) :=
  constantI S_ 32 0#32

def val_main_v255 : (⟨S512, .i32⟩ : BufTy).Contents (Elt F) :=
  broadcastInDim S512 ![] bcast_S_S512 (val_main_c_39 (F := F))

def val_main_v256 : (⟨S512, .i1⟩ : BufTy).Contents (Elt F) :=
  cmpi .slt (val_main_v254 (F := F) x6) (val_main_v255 (F := F))

def val_main_c_40 : (⟨S_, .i32⟩ : BufTy).Contents (Elt F) :=
  constantI S_ 32 64#32

def val_main_v257 : (⟨S512, .i32⟩ : BufTy).Contents (Elt F) :=
  broadcastInDim S512 ![] bcast_S_S512 (val_main_c_40 (F := F))

def val_main_v258 : (⟨S512, .i32⟩ : BufTy).Contents (Elt F) :=
  addi (val_main_v254 (F := F) x6) (val_main_v257 (F := F))

def val_main_v259 : (⟨S512, .i32⟩ : BufTy).Contents (Elt F) :=
  select (val_main_v256 (F := F) x6) (val_main_v258 (F := F) x6) (val_main_v254 (F := F) x6)

def val_main_v260 : (⟨S512x1, .i32⟩ : BufTy).Contents (Elt F) :=
  broadcastInDim S512x1 ![0] bcast_S512_S512x1_0 (val_main_v259 (F := F) x6)

def val_main_v261 : (⟨S512x256, .f32⟩ : BufTy).Contents (Elt F) :=
  Host.gather gather_S64x256_S512x1_S512x256_1_0_n_n_0_1_1256 (x17) (val_main_v260 (F := F) x6)

def val_main_v262 : (⟨S256x512, .f32⟩ : BufTy).Contents (Elt F) :=
  transpose S256x512 [1, 0] (x13) transposes_S512x256_S256x512_1_0

def val_main_v263 : (⟨S65536x512, .f32⟩ : BufTy).Contents (Elt F) :=
  Host.dotGeneral dot_S65536x256_S256x512_S65536x512_1_0_0_1_n_n none (val_main_v207 (F := F) x0 x1 x2 x3 x4 x5 x21 x22 x23 x24 x25 x26 x27 x28) (val_main_v262 (F := F) x13)

def val_main_v264 : (⟨S1x512, .f32⟩ : BufTy).Contents (Elt F) :=
  broadcastInDim S1x512 ![1] bcast_S512_S1x512_1 (x14)

def val_main_v265 : (⟨S65536x512, .f32⟩ : BufTy).Contents (Elt F) :=
  broadcastInDim S65536x512 ![0, 1] bcast_S1x512_S65536x512_0_1 (val_main_v264 (F := F) x14)

def val_main_v266 : (⟨S65536x512, .f32⟩ : BufTy).Contents (Elt F) :=
  addf (val_main_v263 (F := F) x0 x1 x2 x3 x4 x5 x13 x21 x22 x23 x24 x25 x26 x27 x28) (val_main_v265 (F := F) x14)

def val_main_v267 : (⟨S65536x512, .f32⟩ : BufTy).Contents (Elt F) :=
  Host.negf (val_main_v266 (F := F) x0 x1 x2 x3 x4 x5 x13 x14 x21 x22 x23 x24 x25 x26 x27 x28)

def val_main_v268 : (⟨S65536x512, .f32⟩ : BufTy).Contents (Elt F) :=
  Host.exp (val_main_v267 (F := F) x0 x1 x2 x3 x4 x5 x13 x14 x21 x22 x23 x24 x25 x26 x27 x28)

def val_main_cst_41 : (⟨S_, .f32⟩ : BufTy).Contents (Elt F) :=
  constant S_ .f32 0x3F800000#32

def val_main_v269 : (⟨S65536x512, .f32⟩ : BufTy).Contents (Elt F) :=
  broadcastInDim S65536x512 ![] bcast_S_S65536x512 (val_main_cst_41 (F := F))

def val_main_v270 : (⟨S65536x512, .f32⟩ : BufTy).Contents (Elt F) :=
  addf (val_main_v269 (F := F)) (val_main_v268 (F := F) x0 x1 x2 x3 x4 x5 x13 x14 x21 x22 x23 x24 x25 x26 x27 x28)

def val_main_cst_42 : (⟨S_, .f32⟩ : BufTy).Contents (Elt F) :=
  constant S_ .f32 0x3F800000#32

def val_main_v271 : (⟨S65536x512, .f32⟩ : BufTy).Contents (Elt F) :=
  broadcastInDim S65536x512 ![] bcast_S_S65536x512 (val_main_cst_42 (F := F))

def val_main_v272 : (⟨S65536x512, .f32⟩ : BufTy).Contents (Elt F) :=
  Host.divf (val_main_v271 (F := F)) (val_main_v270 (F := F) x0 x1 x2 x3 x4 x5 x13 x14 x21 x22 x23 x24 x25 x26 x27 x28)

def val_main_v273 : (⟨S256x512, .f32⟩ : BufTy).Contents (Elt F) :=
  transpose S256x512 [1, 0] (x11) transposes_S512x256_S256x512_1_0

def val_main_v274 : (⟨S65536x512, .f32⟩ : BufTy).Contents (Elt F) :=
  Host.dotGeneral dot_S65536x256_S256x512_S65536x512_1_0_0_1_n_n none (val_main_v207 (F := F) x0 x1 x2 x3 x4 x5 x21 x22 x23 x24 x25 x26 x27 x28) (val_main_v273 (F := F) x11)

def val_main_v275 : (⟨S1x512, .f32⟩ : BufTy).Contents (Elt F) :=
  broadcastInDim S1x512 ![1] bcast_S512_S1x512_1 (x12)

def val_main_v276 : (⟨S65536x512, .f32⟩ : BufTy).Contents (Elt F) :=
  broadcastInDim S65536x512 ![0, 1] bcast_S1x512_S65536x512_0_1 (val_main_v275 (F := F) x12)

def val_main_v277 : (⟨S65536x512, .f32⟩ : BufTy).Contents (Elt F) :=
  addf (val_main_v274 (F := F) x0 x1 x2 x3 x4 x5 x11 x21 x22 x23 x24 x25 x26 x27 x28) (val_main_v276 (F := F) x12)

def val_main_v278 : (⟨S65536x512, .f32⟩ : BufTy).Contents (Elt F) :=
  mulf (val_main_v277 (F := F) x0 x1 x2 x3 x4 x5 x11 x12 x21 x22 x23 x24 x25 x26 x27 x28) (val_main_v272 (F := F) x0 x1 x2 x3 x4 x5 x13 x14 x21 x22 x23 x24 x25 x26 x27 x28)

def val_main_v279 : (⟨S512x512, .f32⟩ : BufTy).Contents (Elt F) :=
  Host.dotGeneral dot_S512x65536_S65536x512_S512x512_1_0_0_1_n_n none (val_main_v6 (F := F) x4) (val_main_v278 (F := F) x0 x1 x2 x3 x4 x5 x11 x12 x13 x14 x21 x22 x23 x24 x25 x26 x27 x28)

def val_main_v280 : (⟨S256x256, .f32⟩ : BufTy).Contents (Elt F) :=
  transpose S256x256 [1, 0] (x18) transposes_S256x256_S256x256_1_0

def val_main_v281 : (⟨S512x256, .f32⟩ : BufTy).Contents (Elt F) :=
  Host.dotGeneral dot_S512x256_S256x256_S512x256_1_0_0_1_n_n none (val_main_v261 (F := F) x6 x17) (val_main_v280 (F := F) x18)

def val_main_v282 : (⟨S1x256, .f32⟩ : BufTy).Contents (Elt F) :=
  broadcastInDim S1x256 ![1] bcast_S256_S1x256_1 (x19)

def val_main_v283 : (⟨S512x256, .f32⟩ : BufTy).Contents (Elt F) :=
  broadcastInDim S512x256 ![0, 1] bcast_S1x256_S512x256_0_1 (val_main_v282 (F := F) x19)

def val_main_v284 : (⟨S512x256, .f32⟩ : BufTy).Contents (Elt F) :=
  addf (val_main_v281 (F := F) x6 x17 x18) (val_main_v283 (F := F) x19)

def val_main_v285 : (⟨S512x256, .f32⟩ : BufTy).Contents (Elt F) :=
  transpose S512x256 [1, 0] (x20) transposes_S256x512_S512x256_1_0

def val_main_v286 : (⟨S512x256, .f32⟩ : BufTy).Contents (Elt F) :=
  Host.dotGeneral dot_S512x512_S512x256_S512x256_1_0_0_1_n_n none (val_main_v279 (F := F) x0 x1 x2 x3 x4 x5 x11 x12 x13 x14 x21 x22 x23 x24 x25 x26 x27 x28) (val_main_v285 (F := F) x20)

def val_main_v287 : (⟨S512x256, .f32⟩ : BufTy).Contents (Elt F) :=
  addf (val_main_v284 (F := F) x6 x17 x18 x19) (val_main_v286 (F := F) x0 x1 x2 x3 x4 x5 x11 x12 x13 x14 x20 x21 x22 x23 x24 x25 x26 x27 x28)
end Cert.ReferenceIdeal.ReadP

end
-- ==== Proof.OwnerRange.lean ====
import Idealize.ShloMosaic.PureOps

namespace Cert.GNN

open Idealize.ShloMosaic

def OwnerInRange (A4 : (⟨1, ![65536]⟩ : Shape).Idx → BitVec 32) : Prop :=
  ∀ i : (⟨1, ![65536]⟩ : Shape).Idx, 0 ≤ (A4 i).toInt ∧ (A4 i).toInt < 512

end Cert.GNN
-- ==== Proof.UpdPoint.lean ====
import Idealize.ShloMosaic.PureOps.Ideal.Laws
import Idealize.ShloMosaic.Lib.StableHlo.Predicate
import Idealize.ShloMosaic.Lib.Affine

namespace Cert.GNN

open Idealize.ShloMosaic

theorem bit_pos_iff (b : BitVec 1) : BitVec.ofBool (decide ((0 : EReal) < 0 + (1 : EReal) * (((b.toNat : ℝ)) : EReal))) = b := by
  rcases BitVec.eq_zero_or_eq_one b with h | h <;> subst h <;> simp

theorem word_eq_ofNat (w : BitVec 32) (h0 : 0 ≤ w.toInt) (h1 : w.toInt < 512) : w = BitVec.ofNat 32 w.toInt.toNat := by
  have e : ((w.toInt.toNat : Nat) : Int) = w.toInt := Int.toNat_of_nonneg h0
  calc w = BitVec.ofInt 32 w.toInt := (BitVec.ofInt_toInt).symm
    _ = BitVec.ofInt 32 ((w.toInt.toNat : Nat) : Int) := by rw [e]
    _ = BitVec.ofNat 32 w.toInt.toNat := BitVec.ofInt_natCast _ _

theorem eq_ofNat_iff (w : BitVec 32) (h0 : 0 ≤ w.toInt) (h1 : w.toInt < 512) (k : Fin 512) :
    w = BitVec.ofNat 32 k.val ↔ k.val = w.toInt.toNat := by
  constructor
  · intro e
    have : w.toInt = (k.val : Int) := by rw [e]; exact StableHlo.Predicate.toInt_ofNat_small k.val (by have := k.isLt; omega)
    omega
  · intro e
    rw [e]; exact word_eq_ofNat w h0 h1

theorem onehot_sum_pos (w : BitVec 32) (h0 : 0 ≤ w.toInt) (h1 : w.toInt < 512) (g : Fin 512 → BitVec 1) :
    BitVec.ofBool (decide ((0 : EReal) < 0 + ∑ k : Fin 512,
        ((((IntOp.cmpi .eq w (BitVec.ofNat 32 k.val)).toNat : ℝ)) : EReal) * ((((g k).toNat : ℝ)) : EReal)))
      = g ⟨w.toInt.toNat, by omega⟩ := by
  have hs : ∑ k : Fin 512, ((((IntOp.cmpi .eq w (BitVec.ofNat 32 k.val)).toNat : ℝ)) : EReal) * ((((g k).toNat : ℝ)) : EReal)
      = (1 : EReal) * ((((g ⟨w.toInt.toNat, by omega⟩).toNat : ℝ)) : EReal) := by
    rw [Finset.sum_eq_single (⟨w.toInt.toNat, by omega⟩ : Fin 512)]
    · have e : IntOp.cmpi .eq w (BitVec.ofNat 32 w.toInt.toNat) = 1#1 := IntOp.cmpi_eq.2 (word_eq_ofNat w h0 h1)
      rw [e]; simp
    · intro k _ hk
      have e : IntOp.cmpi .eq w (BitVec.ofNat 32 k.val) = 0#1 := by
        rcases BitVec.eq_zero_or_eq_one (IntOp.cmpi .eq w (BitVec.ofNat 32 k.val)) with h | h
        · exact h
        · exact absurd (Fin.ext ((eq_ofNat_iff w h0 h1 k).1 (IntOp.cmpi_eq.1 h))) hk
      rw [e]; simp
    · intro h; exact absurd (Finset.mem_univ _) h
  rw [hs]
  exact bit_pos_iff _

theorem wrap_clamp (w : BitVec 32) (h0 : 0 ≤ w.toInt) (h1 : w.toInt < 512) :
    min (Scalar.select (IntOp.cmpi .slt w 0#32) (IntOp.addi w 512#32) w).toInt.toNat (512 - 1) = w.toInt.toNat := by
  have e : IntOp.cmpi .slt w 0#32 = 0#1 := by
    rcases BitVec.eq_zero_or_eq_one (IntOp.cmpi .slt w 0#32) with h | h
    · exact h
    · have := IntOp.cmpi_slt.1 h
      rw [show (0#32 : BitVec 32).toInt = 0 from by decide] at this
      omega
  rw [e]
  show min (if (0#1 : BitVec 1) = 1 then IntOp.addi w 512#32 else w).toInt.toNat (512 - 1) = _
  rw [if_neg (by decide)]
  omega

end Cert.GNN
-- ==== Proof.UpdLookup.lean ====
import proofs.«404942_j76501957477039_1_alg».proof.KernelIdeal
import proofs.«404942_j76501957477039_1_alg».proof.Proof.Gen.KernelIdeal
import proofs.«404942_j76501957477039_1_alg».proof.Proof.OwnerRange
import proofs.«404942_j76501957477039_1_alg».proof.Proof.UpdPoint
import Idealize.ShloMosaic.PureOps.Ideal

namespace Cert.GNN

open Idealize.ShloMosaic Idealize.ShloMosaic.StableHlo
open Cert.KernelIdeal Cert.KernelIdeal.Facts₀

abbrev wrapped (A4 : (⟨S65536, .i32⟩ : BufTy).Contents (Elt Ideal)) : (⟨S65536, .i32⟩ : BufTy).Contents (Elt Ideal) :=
  select (cmpi .slt A4 (broadcastInDim S65536 ![] bcast_S_S65536 (constantI S_ 32 0#32)))
         (addi A4 (broadcastInDim S65536 ![] bcast_S_S65536 (constantI S_ 32 512#32))) A4

theorem take_coll : gather_S512_S65536x1_S65536_n_0_n_n_0_1_1.collapsedSliceDims = [0] := rfl
theorem take_batch : gather_S512_S65536x1_S65536_n_0_n_n_0_1_1.operandBatchingDims = [] := rfl
theorem take_map : gather_S512_S65536x1_S65536_n_0_n_n_0_1_1.startIndexMap = [0] := rfl
theorem take_ivd : gather_S512_S65536x1_S65536_n_0_n_n_0_1_1.indexVectorDim = 1 := rfl

theorem take_apply (A5 : (⟨S512, .i1⟩ : BufTy).Contents (Elt Ideal)) (I : (⟨S65536x1, .i32⟩ : BufTy).Contents (Elt Ideal)) (p : Fin 65536) :
    Host.gather gather_S512_S65536x1_S65536_n_0_n_n_0_1_1 A5 I (Shape.Idx.ofFin p)
      = A5 (Shape.Idx.ofFin ⟨min (I (Predicate.ixP p)).toInt.toNat (512 - 1), by omega⟩) :=
  Predicate.gather_take (N := 512) (n := 65536) (w := 32) gather_S512_S65536x1_S65536_n_0_n_n_0_1_1
    take_coll take_batch take_map take_ivd A5 I p (by decide)

theorem column_apply (W : (⟨S65536, .i32⟩ : BufTy).Contents (Elt Ideal)) (p : Fin 65536) :
    (broadcastInDim S65536x1 ![0] bcast_S65536_S65536x1_0 W) (Predicate.ixP p) = W (Shape.Idx.ofFin p) :=
  Predicate.bcast_col1 (n := 65536) bcast_S65536_S65536x1_0 W p

theorem lookup_of (A5 : (⟨S512, .i1⟩ : BufTy).Contents (Elt Ideal)) (I : (⟨S65536x1, .i32⟩ : BufTy).Contents (Elt Ideal)) (p : Fin 65536)
    (k : Fin 512) (hI : min (I (Predicate.ixP p)).toInt.toNat (512 - 1) = k.val) :
    Host.gather gather_S512_S65536x1_S65536_n_0_n_n_0_1_1 A5 I (Shape.Idx.ofFin p) = A5 (Shape.Idx.ofFin k) :=
  (take_apply A5 I p).trans (congrArg A5 (congrArg Shape.Idx.ofFin (Fin.ext hI)))

theorem lookup_apply (A4 : (⟨S65536, .i32⟩ : BufTy).Contents (Elt Ideal)) (A5 : (⟨S512, .i1⟩ : BufTy).Contents (Elt Ideal))
    (hr : OwnerInRange A4) (p : Fin 65536) :
    Host.gather gather_S512_S65536x1_S65536_n_0_n_n_0_1_1 A5
        (broadcastInDim S65536x1 ![0] bcast_S65536_S65536x1_0 (wrapped A4)) (Shape.Idx.ofFin p)
      = A5 (Shape.Idx.ofFin ⟨(A4 (Shape.Idx.ofFin p)).toInt.toNat, by have := hr (Shape.Idx.ofFin p); omega⟩) := by
  refine lookup_of A5 _ p _ ?_
  rw [column_apply]
  exact wrap_clamp (A4 (Shape.Idx.ofFin p)) (hr _).1 (hr _).2

end Cert.GNN
-- ==== Proof.Upd.lean ====
import proofs.«404942_j76501957477039_1_alg».proof.KernelIdeal
import proofs.«404942_j76501957477039_1_alg».proof.Proof.Gen.KernelIdeal
import proofs.«404942_j76501957477039_1_alg».proof.Proof.RefRead
import proofs.«404942_j76501957477039_1_alg».proof.Proof.OwnerRange
import proofs.«404942_j76501957477039_1_alg».proof.Proof.UpdPoint
import proofs.«404942_j76501957477039_1_alg».proof.Proof.UpdLookup

namespace Cert.GNN

open Idealize.ShloMosaic Idealize.ShloMosaic.StableHlo
open Cert.ReferenceIdeal.ReadP

theorem idx_owner (n : Cert.ReferenceIdeal.S65536.Idx) (k : Fin 512) :
    idx_main_v0 (idx_main_v3 (idx_main_v11 n k)) = n :=
  funext fun a => Fin.ext (by match a with | ⟨0, _⟩ => rfl)

theorem idx_running (n : Cert.ReferenceIdeal.S65536.Idx) (k : Fin 512) :
    idx_main_v7 (idx_main_v9 (idx_main_v11 n k)) = Shape.Idx.ofFin k :=
  funext fun a => Fin.ext (by match a with | ⟨0, _⟩ => rfl)

theorem term_apply (A4 : (⟨Cert.ReferenceIdeal.S65536, .i32⟩ : BufTy).Contents (Elt Ideal))
    (A5 : (⟨Cert.ReferenceIdeal.S512, .i1⟩ : BufTy).Contents (Elt Ideal)) (n : Cert.ReferenceIdeal.S65536.Idx) (k : Fin 512) :
    val_main_v10 (F := Ideal) A4 A5 (idx_main_v11 n k)
      = ((((IntOp.cmpi .eq (A4 n) (BitVec.ofNat 32 k.val)).toNat : ℝ)) : EReal) * ((((A5 (Shape.Idx.ofFin k)).toNat : ℝ)) : EReal) := by
  rw [val_main_v10_apply, val_main_v6_apply, val_main_v5_apply, val_main_v3_apply, val_main_v0_apply, val_main_v4_apply,
    val_main_v2_apply, val_main_v1_apply, val_main_v9_apply, val_main_v8_apply, val_main_v7_apply, idx_owner, idx_running]
  rfl

theorem summed_apply (A4 : (⟨Cert.ReferenceIdeal.S65536, .i32⟩ : BufTy).Contents (Elt Ideal))
    (A5 : (⟨Cert.ReferenceIdeal.S512, .i1⟩ : BufTy).Contents (Elt Ideal)) (hr : OwnerInRange A4) (n : Cert.ReferenceIdeal.S65536.Idx) :
    val_main_v13 (F := Ideal) A4 A5 n = A5 (Shape.Idx.ofFin ⟨(A4 n).toInt.toNat, by have := hr n; omega⟩) := by
  rw [val_main_v13_apply, val_main_v11_apply, val_main_v12_apply, val_main_cst_0_apply, val_main_cst_apply,
    Finset.sum_congr rfl (fun k _ => term_apply A4 A5 n k)]
  show BitVec.ofBool (decide (Ideal.ofBits .f32 0x00000000#32 < Ideal.ofBits .f32 0x00000000#32 + ∑ k : Fin 512,
      ((((IntOp.cmpi .eq (A4 n) (BitVec.ofNat 32 k.val)).toNat : ℝ)) : EReal) * ((((A5 (Shape.Idx.ofFin k)).toNat : ℝ)) : EReal))) = _
  rw [Ideal.ofBits_zero_f32]
  exact onehot_sum_pos (A4 n) (hr n).1 (hr n).2 (fun k => A5 (Shape.Idx.ofFin k))

open Cert.KernelIdeal Cert.KernelIdeal.Facts₀ in

theorem upd_eq (A4 : (⟨Cert.KernelIdeal.S65536, .i32⟩ : BufTy).Contents (Elt Ideal)) (A5 : (⟨Cert.KernelIdeal.S512, .i1⟩ : BufTy).Contents (Elt Ideal))
    (hr : OwnerInRange A4) :
    Host.gather gather_S512_S65536x1_S65536_n_0_n_n_0_1_1 A5
        (broadcastInDim S65536x1 ![0] bcast_S65536_S65536x1_0
          (select (cmpi .slt A4 (broadcastInDim S65536 ![] bcast_S_S65536 (constantI S_ 32 0#32)))
                  (addi A4 (broadcastInDim S65536 ![] bcast_S_S65536 (constantI S_ 32 512#32))) A4))
      = val_main_v13 (F := Ideal) A4 A5 := by
  funext n
  obtain ⟨p, rfl⟩ : ∃ p : Fin 65536, n = Shape.Idx.ofFin p := ⟨n 0, Shape.Idx.eq_ofFin n⟩
  exact (lookup_apply A4 A5 hr p).trans (summed_apply A4 A5 hr (Shape.Idx.ofFin p)).symm

end Cert.GNN
-- ==== Proof.KStep_hostOps0.lean ====
import proofs.«404942_j76501957477039_1_alg».proof.Proof.Gen.KernelIdeal.Launch
import proofs.«404942_j76501957477039_1_alg».proof.Proof.RefRead
import proofs.«404942_j76501957477039_1_alg».proof.Proof.Upd

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps0_main_v6 (V : Valuation τ sig (Elt Ideal)) (A4 : (⟨S65536, .i32⟩ : BufTy).Contents (Elt Ideal)) (A5 : (⟨S512, .i1⟩ : BufTy).Contents (Elt Ideal)) (h_main_arg5 : V (Proc.devRef .tc main_arg5) = A5) (h_main_arg4 : V (Proc.devRef .tc main_arg4) = A4) (hr : Cert.GNN.OwnerInRange A4) :
    after (hostOps0 (F := Ideal)) V (Proc.devRef .tc main_v6) = Cert.ReferenceIdeal.ReadP.val_main_v13 (F := Ideal) A4 A5 := by
  after_results_simp
  all_goals (try simp only [h_main_arg5, h_main_arg4])
  all_goals (try simp only [TRef.ofBuf, TRef.toBuf, cast_eq])
  all_goals exact Cert.GNN.upd_eq A4 A5 hr
theorem hostOps0_main_v7 (V : Valuation τ sig (Elt F))   :
    after (hostOps0 (F := F)) V (Proc.devRef .tc main_v7) = broadcastInDim S512 ![] bcast_S_S512 (constant (F := F) S_ .f32 0x00000000#32) := by
  after_results_simp
  all_goals (try simp only [TRef.ofBuf, TRef.toBuf, cast_eq])
  all_goals (try rfl)
theorem hostOps0_main_v10 (V : Valuation τ sig (Elt F)) (A22 : (⟨S2x512x256, .f32⟩ : BufTy).Contents (Elt F)) (h_main_arg22 : V (Proc.devRef .tc main_arg22) = A22) :
    after (hostOps0 (F := F)) V (Proc.devRef .tc main_v10) = Cert.ReferenceIdeal.ReadP.val_main_v16 (F := F) A22 := by
  after_results_simp
  all_goals (try simp only [h_main_arg22])
  all_goals (try simp only [TRef.ofBuf, TRef.toBuf, cast_eq])
  all_goals (try rfl)

end Cert.GNN.KStep

end
-- ==== Proof.KStep_hostOps1.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps1_main_v14 (V : Valuation τ sig (Elt F)) (A21 : (⟨S2x512x256, .f32⟩ : BufTy).Contents (Elt F)) (h_main_arg21 : V (Proc.devRef .tc main_arg21) = A21) :
    after (hostOps1 (F := F)) V (Proc.devRef .tc main_v14) = Cert.ReferenceIdeal.ReadP.val_main_v20 (F := F) A21 := by
  after_results_simp
  all_goals (try simp only [h_main_arg21])
  all_goals (try simp only [TRef.ofBuf, TRef.toBuf, cast_eq])
  all_goals (try rfl)

end Cert.GNN.KStep

end
-- ==== Proof.KStep_hostOps2.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps2_main_v31 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A21 : (⟨S2x512x256, .f32⟩ : BufTy).Contents (Elt F)) (A22 : (⟨S2x512x256, .f32⟩ : BufTy).Contents (Elt F)) (h_main_v15 : V (Proc.devRef .tc main_v15) = Cert.ReferenceIdeal.ReadP.val_main_v21 (F := F) A0 A21) (h_main_arg2 : V (Proc.devRef .tc main_arg2) = A2) (h_main_arg3 : V (Proc.devRef .tc main_arg3) = A3) (h_main_v11 : V (Proc.devRef .tc main_v11) = Cert.ReferenceIdeal.ReadP.val_main_v17 (F := F) A1 A22) :
    after (hostOps2 (F := F)) V (Proc.devRef .tc main_v31) = Cert.ReferenceIdeal.ReadP.val_main_v37 (F := F) A0 A1 A2 A3 A21 A22 := by
  after_results_simp
  all_goals (try simp only [h_main_v15, h_main_arg2, h_main_arg3, h_main_v11])
  all_goals (try simp only [TRef.ofBuf, TRef.toBuf, cast_eq])
  all_goals (try rfl)
theorem hostOps2_main_v35 (V : Valuation τ sig (Elt F)) (A24 : (⟨S2x512, .f32⟩ : BufTy).Contents (Elt F)) (h_main_arg24 : V (Proc.devRef .tc main_arg24) = A24) :
    after (hostOps2 (F := F)) V (Proc.devRef .tc main_v35) = Cert.ReferenceIdeal.ReadP.val_main_v44 (F := F) A24 := by
  after_results_simp
  all_goals (try simp only [h_main_arg24])
  all_goals (try simp only [TRef.ofBuf, TRef.toBuf, cast_eq])
  all_goals (try rfl)
theorem hostOps2_main_v36 (V : Valuation τ sig (Elt F)) (A23 : (⟨S2x512x512, .f32⟩ : BufTy).Contents (Elt F)) (h_main_arg23 : V (Proc.devRef .tc main_arg23) = A23) :
    after (hostOps2 (F := F)) V (Proc.devRef .tc main_v36) = Cert.ReferenceIdeal.ReadP.val_main_v41 (F := F) A23 := by
  after_results_simp
  all_goals (try simp only [h_main_arg23])
  all_goals (try simp only [TRef.ofBuf, TRef.toBuf, cast_eq])
  all_goals (try rfl)

end Cert.GNN.KStep

end
-- ==== Proof.KStep_hostOps3.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps3_main_v52 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (h_main_arg3 : V (Proc.devRef .tc main_arg3) = A3) (h_main_v37 : V (Proc.devRef .tc main_v37) = Cert.ReferenceIdeal.ReadP.val_main_v47 (F := F) A0 A1 A2 A3 A21 A22 A23 A24) (h_main_arg2 : V (Proc.devRef .tc main_arg2) = A2) :
    after (hostOps3 (F := F)) V (Proc.devRef .tc main_v52) = Cert.ReferenceIdeal.ReadP.val_main_v62 (F := F) A0 A1 A2 A3 A21 A22 A23 A24 := by
  after_results_simp
  all_goals (try simp only [h_main_arg3, h_main_v37, h_main_arg2])
  all_goals (try simp only [TRef.ofBuf, TRef.toBuf, cast_eq])
  all_goals (try rfl)
theorem hostOps3_main_v56 (V : Valuation τ sig (Elt F)) (A27 : (⟨S2x768, .f32⟩ : BufTy).Contents (Elt F)) (h_main_arg27 : V (Proc.devRef .tc main_arg27) = A27) :
    after (hostOps3 (F := F)) V (Proc.devRef .tc main_v56) = Cert.ReferenceIdeal.ReadP.val_main_v68 (F := F) A27 := by
  after_results_simp
  all_goals (try simp only [h_main_arg27])
  all_goals (try simp only [TRef.ofBuf, TRef.toBuf, cast_eq])
  all_goals (try rfl)
theorem hostOps3_main_v57 (V : Valuation τ sig (Elt F)) (A25 : (⟨S2x768x512, .f32⟩ : BufTy).Contents (Elt F)) (h_main_arg25 : V (Proc.devRef .tc main_arg25) = A25) :
    after (hostOps3 (F := F)) V (Proc.devRef .tc main_v57) = Cert.ReferenceIdeal.ReadP.val_main_v65 (F := F) A25 := by
  after_results_simp
  all_goals (try simp only [h_main_arg25])
  all_goals (try simp only [TRef.ofBuf, TRef.toBuf, cast_eq])
  all_goals (try rfl)

end Cert.GNN.KStep

end
-- ==== Proof.KStep_hostOps4.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps4_main_v62 (V : Valuation τ sig (Elt F)) (A28 : (⟨S2x768, .f32⟩ : BufTy).Contents (Elt F)) (h_main_arg28 : V (Proc.devRef .tc main_arg28) = A28) :
    after (hostOps4 (F := F)) V (Proc.devRef .tc main_v62) = Cert.ReferenceIdeal.ReadP.val_main_v77 (F := F) A28 := by
  after_results_simp
  all_goals (try simp only [h_main_arg28])
  all_goals (try simp only [TRef.ofBuf, TRef.toBuf, cast_eq])
  all_goals (try rfl)
theorem hostOps4_main_v63 (V : Valuation τ sig (Elt F)) (A26 : (⟨S2x768x256, .f32⟩ : BufTy).Contents (Elt F)) (h_main_arg26 : V (Proc.devRef .tc main_arg26) = A26) :
    after (hostOps4 (F := F)) V (Proc.devRef .tc main_v63) = Cert.ReferenceIdeal.ReadP.val_main_v74 (F := F) A26 := by
  after_results_simp
  all_goals (try simp only [h_main_arg26])
  all_goals (try simp only [TRef.ofBuf, TRef.toBuf, cast_eq])
  all_goals (try rfl)

end Cert.GNN.KStep

end
-- ==== Proof.KStep_hostOps5.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps5_main_v92 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v58 : V (Proc.devRef .tc main_v58) = Cert.ReferenceIdeal.ReadP.val_main_v71 (F := F) A0 A1 A2 A3 A21 A22 A23 A24 A25 A27) (h_main_v64 : V (Proc.devRef .tc main_v64) = Cert.ReferenceIdeal.ReadP.val_main_v80 (F := F) A0 A26 A28) (h_main_arg0 : V (Proc.devRef .tc main_arg0) = A0) :
    after (hostOps5 (F := F)) V (Proc.devRef .tc main_v92) = Cert.ReferenceIdeal.ReadP.val_main_v108 (F := F) A0 A1 A2 A3 A21 A22 A23 A24 A25 A26 A27 A28 := by
  after_results_simp
  all_goals (try simp only [h_main_v58, h_main_v64, h_main_arg0])
  all_goals (try simp only [TRef.ofBuf, TRef.toBuf, cast_eq])
  all_goals (try rfl)
theorem hostOps5_main_v93 (V : Valuation τ sig (Elt F)) (A4 : (⟨S65536, .i32⟩ : BufTy).Contents (Elt F)) (A5 : (⟨S512, .i1⟩ : BufTy).Contents (Elt F)) (h_main_v6 : V (Proc.devRef .tc main_v6) = Cert.ReferenceIdeal.ReadP.val_main_v13 (F := F) A4 A5) :
    after (hostOps5 (F := F)) V (Proc.devRef .tc main_v93) = Cert.ReferenceIdeal.ReadP.val_main_v109 (F := F) A4 A5 := by
  after_results_simp
  all_goals (try simp only [h_main_v6])
  all_goals (try simp only [TRef.ofBuf, TRef.toBuf, cast_eq])
  all_goals (try rfl)

end Cert.GNN.KStep

end
-- ==== Proof.KStep_hostOps5_1.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps5_1_main_v94 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v93 : V (Proc.devRef .tc main_v93) = Cert.ReferenceIdeal.ReadP.val_main_v109 (F := F) A4 A5) (h_main_v92 : V (Proc.devRef .tc main_v92) = Cert.ReferenceIdeal.ReadP.val_main_v108 (F := F) A0 A1 A2 A3 A21 A22 A23 A24 A25 A26 A27 A28) (h_main_arg0 : V (Proc.devRef .tc main_arg0) = A0) :
    after (hostOps5_1 (F := F)) V (Proc.devRef .tc main_v94) = Cert.ReferenceIdeal.ReadP.val_main_v110 (F := F) A0 A1 A2 A3 A4 A5 A21 A22 A23 A24 A25 A26 A27 A28 := by
  after_results_simp
  all_goals (try simp only [h_main_v93, h_main_v92, h_main_arg0])
  all_goals (try simp only [TRef.ofBuf, TRef.toBuf, cast_eq])
  all_goals (try rfl)

end Cert.GNN.KStep

end
-- ==== Proof.KStep_hostOps5_2.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps5_2_main_v97 (V : Valuation τ sig (Elt F)) (A22 : (⟨S2x512x256, .f32⟩ : BufTy).Contents (Elt F)) (h_main_arg22 : V (Proc.devRef .tc main_arg22) = A22) :
    after (hostOps5_2 (F := F)) V (Proc.devRef .tc main_v97) = Cert.ReferenceIdeal.ReadP.val_main_v113 (F := F) A22 := by
  after_results_simp
  all_goals (try simp only [h_main_arg22])
  all_goals (try simp only [TRef.ofBuf, TRef.toBuf, cast_eq])
  all_goals (try rfl)

end Cert.GNN.KStep

end
-- ==== Proof.KStep_hostOps6.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps6_main_v101 (V : Valuation τ sig (Elt F)) (A21 : (⟨S2x512x256, .f32⟩ : BufTy).Contents (Elt F)) (h_main_arg21 : V (Proc.devRef .tc main_arg21) = A21) :
    after (hostOps6 (F := F)) V (Proc.devRef .tc main_v101) = Cert.ReferenceIdeal.ReadP.val_main_v117 (F := F) A21 := by
  after_results_simp
  all_goals (try simp only [h_main_arg21])
  all_goals (try simp only [TRef.ofBuf, TRef.toBuf, cast_eq])
  all_goals (try rfl)

end Cert.GNN.KStep

end
-- ==== Proof.KStep_hostOps7.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps7_main_v118 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v102 : V (Proc.devRef .tc main_v102) = Cert.ReferenceIdeal.ReadP.val_main_v118 (F := F) A0 A1 A2 A3 A4 A5 A21 A22 A23 A24 A25 A26 A27 A28) (h_main_arg2 : V (Proc.devRef .tc main_arg2) = A2) (h_main_arg3 : V (Proc.devRef .tc main_arg3) = A3) (h_main_v98 : V (Proc.devRef .tc main_v98) = Cert.ReferenceIdeal.ReadP.val_main_v114 (F := F) A1 A22) :
    after (hostOps7 (F := F)) V (Proc.devRef .tc main_v118) = Cert.ReferenceIdeal.ReadP.val_main_v134 (F := F) A0 A1 A2 A3 A4 A5 A21 A22 A23 A24 A25 A26 A27 A28 := by
  after_results_simp
  all_goals (try simp only [h_main_v102, h_main_arg2, h_main_arg3, h_main_v98])
  all_goals (try simp only [TRef.ofBuf, TRef.toBuf, cast_eq])
  all_goals (try rfl)
theorem hostOps7_main_v122 (V : Valuation τ sig (Elt F)) (A24 : (⟨S2x512, .f32⟩ : BufTy).Contents (Elt F)) (h_main_arg24 : V (Proc.devRef .tc main_arg24) = A24) :
    after (hostOps7 (F := F)) V (Proc.devRef .tc main_v122) = Cert.ReferenceIdeal.ReadP.val_main_v141 (F := F) A24 := by
  after_results_simp
  all_goals (try simp only [h_main_arg24])
  all_goals (try simp only [TRef.ofBuf, TRef.toBuf, cast_eq])
  all_goals (try rfl)
theorem hostOps7_main_v123 (V : Valuation τ sig (Elt F)) (A23 : (⟨S2x512x512, .f32⟩ : BufTy).Contents (Elt F)) (h_main_arg23 : V (Proc.devRef .tc main_arg23) = A23) :
    after (hostOps7 (F := F)) V (Proc.devRef .tc main_v123) = Cert.ReferenceIdeal.ReadP.val_main_v138 (F := F) A23 := by
  after_results_simp
  all_goals (try simp only [h_main_arg23])
  all_goals (try simp only [TRef.ofBuf, TRef.toBuf, cast_eq])
  all_goals (try rfl)

end Cert.GNN.KStep

end
-- ==== Proof.KStep_hostOps8.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps8_main_v139 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_arg3 : V (Proc.devRef .tc main_arg3) = A3) (h_main_v124 : V (Proc.devRef .tc main_v124) = Cert.ReferenceIdeal.ReadP.val_main_v144 (F := F) A0 A1 A2 A3 A4 A5 A21 A22 A23 A24 A25 A26 A27 A28) (h_main_arg2 : V (Proc.devRef .tc main_arg2) = A2) :
    after (hostOps8 (F := F)) V (Proc.devRef .tc main_v139) = Cert.ReferenceIdeal.ReadP.val_main_v159 (F := F) A0 A1 A2 A3 A4 A5 A21 A22 A23 A24 A25 A26 A27 A28 := by
  after_results_simp
  all_goals (try simp only [h_main_arg3, h_main_v124, h_main_arg2])
  all_goals (try simp only [TRef.ofBuf, TRef.toBuf, cast_eq])
  all_goals (try rfl)
theorem hostOps8_main_v143 (V : Valuation τ sig (Elt F)) (A27 : (⟨S2x768, .f32⟩ : BufTy).Contents (Elt F)) (h_main_arg27 : V (Proc.devRef .tc main_arg27) = A27) :
    after (hostOps8 (F := F)) V (Proc.devRef .tc main_v143) = Cert.ReferenceIdeal.ReadP.val_main_v165 (F := F) A27 := by
  after_results_simp
  all_goals (try simp only [h_main_arg27])
  all_goals (try simp only [TRef.ofBuf, TRef.toBuf, cast_eq])
  all_goals (try rfl)
theorem hostOps8_main_v144 (V : Valuation τ sig (Elt F)) (A25 : (⟨S2x768x512, .f32⟩ : BufTy).Contents (Elt F)) (h_main_arg25 : V (Proc.devRef .tc main_arg25) = A25) :
    after (hostOps8 (F := F)) V (Proc.devRef .tc main_v144) = Cert.ReferenceIdeal.ReadP.val_main_v162 (F := F) A25 := by
  after_results_simp
  all_goals (try simp only [h_main_arg25])
  all_goals (try simp only [TRef.ofBuf, TRef.toBuf, cast_eq])
  all_goals (try rfl)

end Cert.GNN.KStep

end
-- ==== Proof.KStep_hostOps9.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps9_main_v149 (V : Valuation τ sig (Elt F)) (A28 : (⟨S2x768, .f32⟩ : BufTy).Contents (Elt F)) (h_main_arg28 : V (Proc.devRef .tc main_arg28) = A28) :
    after (hostOps9 (F := F)) V (Proc.devRef .tc main_v149) = Cert.ReferenceIdeal.ReadP.val_main_v174 (F := F) A28 := by
  after_results_simp
  all_goals (try simp only [h_main_arg28])
  all_goals (try simp only [TRef.ofBuf, TRef.toBuf, cast_eq])
  all_goals (try rfl)
theorem hostOps9_main_v150 (V : Valuation τ sig (Elt F)) (A26 : (⟨S2x768x256, .f32⟩ : BufTy).Contents (Elt F)) (h_main_arg26 : V (Proc.devRef .tc main_arg26) = A26) :
    after (hostOps9 (F := F)) V (Proc.devRef .tc main_v150) = Cert.ReferenceIdeal.ReadP.val_main_v171 (F := F) A26 := by
  after_results_simp
  all_goals (try simp only [h_main_arg26])
  all_goals (try simp only [TRef.ofBuf, TRef.toBuf, cast_eq])
  all_goals (try rfl)

end Cert.GNN.KStep

end
-- ==== Proof.KStep_hostOps10.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps10_main_v179 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v145 : V (Proc.devRef .tc main_v145) = Cert.ReferenceIdeal.ReadP.val_main_v168 (F := F) A0 A1 A2 A3 A4 A5 A21 A22 A23 A24 A25 A26 A27 A28) (h_main_v151 : V (Proc.devRef .tc main_v151) = Cert.ReferenceIdeal.ReadP.val_main_v177 (F := F) A0 A1 A2 A3 A4 A5 A21 A22 A23 A24 A25 A26 A27 A28) (h_main_v94 : V (Proc.devRef .tc main_v94) = Cert.ReferenceIdeal.ReadP.val_main_v110 (F := F) A0 A1 A2 A3 A4 A5 A21 A22 A23 A24 A25 A26 A27 A28) :
    after (hostOps10 (F := F)) V (Proc.devRef .tc main_v179) = Cert.ReferenceIdeal.ReadP.val_main_v205 (F := F) A0 A1 A2 A3 A4 A5 A21 A22 A23 A24 A25 A26 A27 A28 := by
  after_results_simp
  all_goals (try simp only [h_main_v145, h_main_v151, h_main_v94])
  all_goals (try simp only [TRef.ofBuf, TRef.toBuf, cast_eq])
  all_goals (try rfl)
theorem hostOps10_main_v180 (V : Valuation τ sig (Elt F)) (A4 : (⟨S65536, .i32⟩ : BufTy).Contents (Elt F)) (A5 : (⟨S512, .i1⟩ : BufTy).Contents (Elt F)) (h_main_v6 : V (Proc.devRef .tc main_v6) = Cert.ReferenceIdeal.ReadP.val_main_v13 (F := F) A4 A5) :
    after (hostOps10 (F := F)) V (Proc.devRef .tc main_v180) = Cert.ReferenceIdeal.ReadP.val_main_v206 (F := F) A4 A5 := by
  after_results_simp
  all_goals (try simp only [h_main_v6])
  all_goals (try simp only [TRef.ofBuf, TRef.toBuf, cast_eq])
  all_goals (try rfl)

end Cert.GNN.KStep

end
-- ==== Proof.KStep_hostOps10_1.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps10_1_main_v181 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v180 : V (Proc.devRef .tc main_v180) = Cert.ReferenceIdeal.ReadP.val_main_v206 (F := F) A4 A5) (h_main_v179 : V (Proc.devRef .tc main_v179) = Cert.ReferenceIdeal.ReadP.val_main_v205 (F := F) A0 A1 A2 A3 A4 A5 A21 A22 A23 A24 A25 A26 A27 A28) (h_main_v94 : V (Proc.devRef .tc main_v94) = Cert.ReferenceIdeal.ReadP.val_main_v110 (F := F) A0 A1 A2 A3 A4 A5 A21 A22 A23 A24 A25 A26 A27 A28) :
    after (hostOps10_1 (F := F)) V (Proc.devRef .tc main_v181) = Cert.ReferenceIdeal.ReadP.val_main_v207 (F := F) A0 A1 A2 A3 A4 A5 A21 A22 A23 A24 A25 A26 A27 A28 := by
  after_results_simp
  all_goals (try simp only [h_main_v180, h_main_v179, h_main_v94])
  all_goals (try simp only [TRef.ofBuf, TRef.toBuf, cast_eq])
  all_goals (try rfl)

end Cert.GNN.KStep

end
-- ==== Proof.KStep_hostOps10_2.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps10_2_main_v182 (V : Valuation τ sig (Elt F)) (A7 : (⟨S512x256, .f32⟩ : BufTy).Contents (Elt F)) (h_main_arg7 : V (Proc.devRef .tc main_arg7) = A7) :
    after (hostOps10_2 (F := F)) V (Proc.devRef .tc main_v182) = Cert.ReferenceIdeal.ReadP.val_main_v219 (F := F) A7 := by
  after_results_simp
  all_goals (try simp only [h_main_arg7])
  all_goals (try simp only [TRef.ofBuf, TRef.toBuf, cast_eq])
  all_goals (try rfl)
theorem hostOps10_2_main_v183 (V : Valuation τ sig (Elt F)) (A9 : (⟨S512x256, .f32⟩ : BufTy).Contents (Elt F)) (h_main_arg9 : V (Proc.devRef .tc main_arg9) = A9) :
    after (hostOps10_2 (F := F)) V (Proc.devRef .tc main_v183) = Cert.ReferenceIdeal.ReadP.val_main_v208 (F := F) A9 := by
  after_results_simp
  all_goals (try simp only [h_main_arg9])
  all_goals (try simp only [TRef.ofBuf, TRef.toBuf, cast_eq])
  all_goals (try rfl)
theorem hostOps10_2_main_v184 (V : Valuation τ sig (Elt F)) (A11 : (⟨S512x256, .f32⟩ : BufTy).Contents (Elt F)) (h_main_arg11 : V (Proc.devRef .tc main_arg11) = A11) :
    after (hostOps10_2 (F := F)) V (Proc.devRef .tc main_v184) = Cert.ReferenceIdeal.ReadP.val_main_v273 (F := F) A11 := by
  after_results_simp
  all_goals (try simp only [h_main_arg11])
  all_goals (try simp only [TRef.ofBuf, TRef.toBuf, cast_eq])
  all_goals (try rfl)
theorem hostOps10_2_main_v185 (V : Valuation τ sig (Elt F)) (A13 : (⟨S512x256, .f32⟩ : BufTy).Contents (Elt F)) (h_main_arg13 : V (Proc.devRef .tc main_arg13) = A13) :
    after (hostOps10_2 (F := F)) V (Proc.devRef .tc main_v185) = Cert.ReferenceIdeal.ReadP.val_main_v262 (F := F) A13 := by
  after_results_simp
  all_goals (try simp only [h_main_arg13])
  all_goals (try simp only [TRef.ofBuf, TRef.toBuf, cast_eq])
  all_goals (try rfl)
theorem hostOps10_2_main_v186 (V : Valuation τ sig (Elt F)) (A4 : (⟨S65536, .i32⟩ : BufTy).Contents (Elt F)) (h_main_arg4 : V (Proc.devRef .tc main_arg4) = A4) :
    after (hostOps10_2 (F := F)) V (Proc.devRef .tc main_v186) = (fun i => shapeCast S1x65536 A4 shapeCasts_S65536_S1x65536 i) := by
  after_results_simp
  all_goals (try simp only [h_main_arg4])
  all_goals (try simp only [TRef.ofBuf, TRef.toBuf, cast_eq])
  all_goals (try rfl)

end Cert.GNN.KStep

end
-- ==== Proof.KStep_hostOps11.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps11_main_v192 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A7 : (⟨S512x256, .f32⟩ : BufTy).Contents (Elt F)) (A8 : (⟨S512, .f32⟩ : BufTy).Contents (Elt F)) (A9 : (⟨S512x256, .f32⟩ : BufTy).Contents (Elt F)) (A10 : (⟨S512, .f32⟩ : BufTy).Contents (Elt F)) (A15 : (⟨S65x512, .f32⟩ : BufTy).Contents (Elt F)) (A16 : (⟨S65, .f32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v187_0 : V (Proc.devRef .tc main_v187_0) = Cert.ReferenceIdeal.ReadP.val_main_v225 (F := F) A0 A1 A2 A3 A4 A5 A7 A8 A9 A10 A21 A22 A23 A24 A25 A26 A27 A28) (h_main_arg15 : V (Proc.devRef .tc main_arg15) = A15) (h_main_arg16 : V (Proc.devRef .tc main_arg16) = A16) :
    after (hostOps11 (F := F)) V (Proc.devRef .tc main_v192) = Cert.ReferenceIdeal.ReadP.val_main_v230 (F := F) A0 A1 A2 A3 A4 A5 A7 A8 A9 A10 A15 A16 A21 A22 A23 A24 A25 A26 A27 A28 := by
  after_results_simp
  all_goals (try simp only [h_main_v187_0, h_main_arg15, h_main_arg16])
  all_goals (try simp only [TRef.ofBuf, TRef.toBuf, cast_eq])
  all_goals (try rfl)
theorem hostOps11_main_v194 (V : Valuation τ sig (Elt F)) (A6 : (⟨S512, .i32⟩ : BufTy).Contents (Elt F)) (h_main_arg6 : V (Proc.devRef .tc main_arg6) = A6) :
    after (hostOps11 (F := F)) V (Proc.devRef .tc main_v194) = Cert.ReferenceIdeal.ReadP.val_main_v232 (F := F) A6 := by
  after_results_simp
  all_goals (try simp only [h_main_arg6])
  all_goals (try simp only [TRef.ofBuf, TRef.toBuf, cast_eq])
  all_goals (try rfl)

end Cert.GNN.KStep

end
-- ==== Proof.KStep_hostOps11_1.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps11_1_main_v195 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A7 : (⟨S512x256, .f32⟩ : BufTy).Contents (Elt F)) (A8 : (⟨S512, .f32⟩ : BufTy).Contents (Elt F)) (A9 : (⟨S512x256, .f32⟩ : BufTy).Contents (Elt F)) (A10 : (⟨S512, .f32⟩ : BufTy).Contents (Elt F)) (A15 : (⟨S65x512, .f32⟩ : BufTy).Contents (Elt F)) (A16 : (⟨S65, .f32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v192 : V (Proc.devRef .tc main_v192) = Cert.ReferenceIdeal.ReadP.val_main_v230 (F := F) A0 A1 A2 A3 A4 A5 A7 A8 A9 A10 A15 A16 A21 A22 A23 A24 A25 A26 A27 A28) :
    after (hostOps11_1 (F := F)) V (Proc.devRef .tc main_v195) = Cert.ReferenceIdeal.ReadP.val_main_v233 (F := F) A0 A1 A2 A3 A4 A5 A7 A8 A9 A10 A15 A16 A21 A22 A23 A24 A25 A26 A27 A28 := by
  after_results_simp
  all_goals (try simp only [h_main_v192])
  all_goals (try simp only [TRef.ofBuf, TRef.toBuf, cast_eq])
  all_goals (try rfl)

end Cert.GNN.KStep

end
-- ==== Proof.KStep_hostOps11_2.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps11_2_main_v211 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A6 : (⟨S512, .i32⟩ : BufTy).Contents (Elt F)) (A7 : (⟨S512x256, .f32⟩ : BufTy).Contents (Elt F)) (A8 : (⟨S512, .f32⟩ : BufTy).Contents (Elt F)) (A9 : (⟨S512x256, .f32⟩ : BufTy).Contents (Elt F)) (A10 : (⟨S512, .f32⟩ : BufTy).Contents (Elt F)) (A15 : (⟨S65x512, .f32⟩ : BufTy).Contents (Elt F)) (A16 : (⟨S65, .f32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v195 : V (Proc.devRef .tc main_v195) = Cert.ReferenceIdeal.ReadP.val_main_v233 (F := F) A0 A1 A2 A3 A4 A5 A7 A8 A9 A10 A15 A16 A21 A22 A23 A24 A25 A26 A27 A28) (h_main_v194 : V (Proc.devRef .tc main_v194) = Cert.ReferenceIdeal.ReadP.val_main_v232 (F := F) A6) :
    after (hostOps11_2 (F := F)) V (Proc.devRef .tc main_v211) = Cert.ReferenceIdeal.ReadP.val_main_v249 (F := F) A0 A1 A2 A3 A4 A5 A6 A7 A8 A9 A10 A15 A16 A21 A22 A23 A24 A25 A26 A27 A28 := by
  after_results
  all_goals (try simp only [h_main_v195, h_main_v194])
  all_goals (repeat (first | rw [h_main_v195] | rw [h_main_v194]))
  all_goals (try simp only [TRef.ofBuf, TRef.toBuf, cast_eq])
  all_goals (try rfl)
theorem hostOps11_2_main_cst_34 (V : Valuation τ sig (Elt F))   :
    after (hostOps11_2 (F := F)) V (Proc.devRef .tc main_cst_34) = Cert.ReferenceIdeal.ReadP.val_main_cst_35 (F := F) := by
  after_results_simp
  all_goals (try simp only [TRef.ofBuf, TRef.toBuf, cast_eq])
  all_goals (try rfl)

end Cert.GNN.KStep

end
-- ==== Proof.KStep_hostOps11_3.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps11_3_main_v212 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A6 : (⟨S512, .i32⟩ : BufTy).Contents (Elt F)) (A7 : (⟨S512x256, .f32⟩ : BufTy).Contents (Elt F)) (A8 : (⟨S512, .f32⟩ : BufTy).Contents (Elt F)) (A9 : (⟨S512x256, .f32⟩ : BufTy).Contents (Elt F)) (A10 : (⟨S512, .f32⟩ : BufTy).Contents (Elt F)) (A15 : (⟨S65x512, .f32⟩ : BufTy).Contents (Elt F)) (A16 : (⟨S65, .f32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_arg5 : V (Proc.devRef .tc main_arg5) = A5) (h_main_v211 : V (Proc.devRef .tc main_v211) = Cert.ReferenceIdeal.ReadP.val_main_v249 (F := F) A0 A1 A2 A3 A4 A5 A6 A7 A8 A9 A10 A15 A16 A21 A22 A23 A24 A25 A26 A27 A28) (h_main_cst_34 : V (Proc.devRef .tc main_cst_34) = Cert.ReferenceIdeal.ReadP.val_main_cst_35 (F := F)) :
    after (hostOps11_3 (F := F)) V (Proc.devRef .tc main_v212) = Cert.ReferenceIdeal.ReadP.val_main_v250 (F := F) A0 A1 A2 A3 A4 A5 A6 A7 A8 A9 A10 A15 A16 A21 A22 A23 A24 A25 A26 A27 A28 := by
  after_results_simp
  all_goals (try simp only [h_main_arg5, h_main_v211, h_main_cst_34])
  all_goals (try simp only [TRef.ofBuf, TRef.toBuf, cast_eq])
  all_goals (try rfl)

end Cert.GNN.KStep

end
-- ==== Proof.KStep_hostOps11_4.lean ====
import proofs.«404942_j76501957477039_1_alg».proof.Proof.Gen.KernelIdeal.Launch
import proofs.«404942_j76501957477039_1_alg».proof.Proof.RefRead

set_option maxRecDepth 16384
set_option maxHeartbeats 2000000

noncomputable section

namespace Cert.GNN.KStep

open Cert.KernelIdeal Cert.KernelIdeal.Gen Idealize.ShloMosaic Idealize.ShloMosaic.TcCoe Idealize.SL.Sem Idealize.ShloMosaic.StableHlo

variable {F : FTy → Type} [FloatOps F]

theorem hostOps11_4_main_v214 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A6 : (⟨S512, .i32⟩ : BufTy).Contents (Elt F)) (A7 : (⟨S512x256, .f32⟩ : BufTy).Contents (Elt F)) (A8 : (⟨S512, .f32⟩ : BufTy).Contents (Elt F)) (A9 : (⟨S512x256, .f32⟩ : BufTy).Contents (Elt F)) (A10 : (⟨S512, .f32⟩ : BufTy).Contents (Elt F)) (A15 : (⟨S65x512, .f32⟩ : BufTy).Contents (Elt F)) (A16 : (⟨S65, .f32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_v212 : V (Proc.devRef .tc main_v212) = Cert.ReferenceIdeal.ReadP.val_main_v250 (F := F) A0 A1 A2 A3 A4 A5 A6 A7 A8 A9 A10 A15 A16 A21 A22 A23 A24 A25 A26 A27 A28) :
    after (hostOps11_4 (F := F)) V (Proc.devRef .tc main_v214) = Cert.ReferenceIdeal.ReadP.val_main_v252 (F := F) A0 A1 A2 A3 A4 A5 A6 A7 A8 A9 A10 A15 A16 A21 A22 A23 A24 A25 A26 A27 A28 := by
  after_results_simp
  all_goals (try simp only [h_main_v212])
  all_goals (try simp only [TRef.ofBuf, TRef.toBuf, cast_eq])
  all_goals (try rfl)
theorem hostOps11_4_main_v231 (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A6 : (⟨S512, .i32⟩ : BufTy).Contents (Elt F)) (A11 : (⟨S512x256, .f32⟩ : BufTy).Contents (Elt F)) (A12 : (⟨S512, .f32⟩ : BufTy).Contents (Elt F)) (A13 : (⟨S512x256, .f32⟩ : BufTy).Contents (Elt F)) (A14 : (⟨S512, .f32⟩ : BufTy).Contents (Elt F)) (A17 : (⟨S64x256, .f32⟩ : BufTy).Contents (Elt F)) (A18 : (⟨S256x256, .f32⟩ : BufTy).Contents (Elt F)) (A19 : (⟨S256, .f32⟩ : BufTy).Contents (Elt F)) (A20 : (⟨S256x512, .f32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F)) (h_main_arg17 : V (Proc.devRef .tc main_arg17) = A17) (h_main_v194 : V (Proc.devRef .tc main_v194) = Cert.ReferenceIdeal.ReadP.val_main_v232 (F := F) A6) (h_main_arg18 : V (Proc.devRef .tc main_arg18) = A18) (h_main_arg19 : V (Proc.devRef .tc main_arg19) = A19) (h_main_v187_1 : V (Proc.devRef .tc main_v187_1) = Cert.ReferenceIdeal.ReadP.val_main_v279 (F := F) A0 A1 A2 A3 A4 A5 A11 A12 A13 A14 A21 A22 A23 A24 A25 A26 A27 A28) (h_main_arg20 : V (Proc.devRef .tc main_arg20) = A20) :
    after (hostOps11_4 (F := F)) V (Proc.devRef .tc main_v231) = Cert.ReferenceIdeal.ReadP.val_main_v287 (F := F) A0 A1 A2 A3 A4 A5 A6 A11 A12 A13 A14 A17 A18 A19 A20 A21 A22 A23 A24 A25 A26 A27 A28 := by
  after_results_simp
  all_goals (try simp only [h_main_arg17, h_main_v194, h_main_arg18, h_main_arg19, h_main_v187_1, h_main_arg20])
  all_goals (try simp only [TRef.ofBuf, TRef.toBuf, cast_eq])
  all_goals (try rfl)

end Cert.GNN.KStep

end
-- ==== Proof.LibMatProd.lean ====
import Idealize.ShloMosaic.PureOps.Ideal
import Idealize.ShloMosaic.Lib.ValueIdx
import Mathlib.Data.EReal.Basic
import Mathlib.Algebra.BigOperators.Group.Finset.Basic

open Idealize.ShloMosaic Idealize.ShloMosaic.ValueIdx

namespace MatProd

noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.LibDotPlain.lean ====
import Idealize.ShloMosaic.PureOps.Ideal
import Idealize.ShloMosaic.PureOps.Ideal.Laws
import Idealize.ShloMosaic.PureOps.Contract
import Idealize.ShloMosaic.Lib.ValueIdx
import proofs.«404942_j76501957477039_1_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.DenseLib.lean ====
import Idealize.ShloMosaic.PureOps.Ideal
import Idealize.ShloMosaic.PureOps.Ideal.Laws
import Idealize.ShloMosaic.PureOps.Contract
import Idealize.ShloMosaic.PureOps.Vector
import Idealize.ShloMosaic.Lib.ValueIdx
import Idealize.ShloMosaic.Lib.ValueLayout
import Idealize.ShloMosaic.Lib.Pipeline.Value
import proofs.«404942_j76501957477039_1_alg».proof.Proof.LibDotPlain

noncomputable section

namespace Cert.GNN.Dense

open Idealize.ShloMosaic Idealize.ShloMosaic.ValueIdx MatProd

def denseFn {R K N : Nat} (X : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => mmP X W i + b (ix1 (i 1))

theorem denseFn_apply {R K N : Nat} (X : (⟨2, ![R, K]⟩ : Shape).Idx → EReal) (W : (⟨2, ![K, N]⟩ : Shape).Idx → EReal)
    (b : (⟨1, ![N]⟩ : Shape).Idx → EReal) (r : Fin R) (s : Fin N) :
    denseFn X W b (ix2 r s) = (∑ j : Fin K, X (ix2 r j) * W (ix2 j s)) + b (ix1 s) := rfl

theorem denseFn_row {B R K N : Nat} (x : (⟨2, ![B, K]⟩ : Shape).Idx → EReal) (X : (⟨2, ![R, K]⟩ : Shape).Idx → EReal)
    (W : (⟨2, ![K, N]⟩ : Shape).Idx → EReal) (b : (⟨1, ![N]⟩ : Shape).Idx → EReal)
    (p : Fin B) (r : Fin R) (s : Fin N) (h : ∀ k : Fin K, x (ix2 p k) = X (ix2 r k)) :
    denseFn x W b (ix2 p s) = denseFn X W b (ix2 r s) := by
  rw [denseFn_apply, denseFn_apply]
  exact congrArg (· + b (ix1 s)) (Finset.sum_congr rfl fun k _ => by rw [h k])

theorem denseFn_at {B R K N : Nat} (x0 : (⟨2, ![B, K]⟩ : Shape).Idx → EReal) (x1 : (⟨2, ![K, N]⟩ : Shape).Idx → EReal)
    (x2 : (⟨1, ![N]⟩ : Shape).Idx → EReal) (X : (⟨2, ![R, K]⟩ : Shape).Idx → EReal)
    (W : (⟨2, ![K, N]⟩ : Shape).Idx → EReal) (b : (⟨1, ![N]⟩ : Shape).Idx → EReal)
    (j : (⟨2, ![B, N]⟩ : Shape).Idx) (i : (⟨2, ![R, N]⟩ : Shape).Idx)
    (h0 : ∀ k : Fin K, x0 (ix2 (j 0) k) = X (ix2 (i 0) k)) (h1 : x1 = W) (h2 : x2 = b)
    (hq : (i 1).val = (j 1).val) : denseFn x0 x1 x2 j = denseFn X W b i := by
  subst h1 h2
  have hi : i = ix2 (i 0) (j 1) := (eq_ix2 i).trans (congrArg (ix2 (i 0)) (Fin.ext hq))
  rw [eq_ix2 j, hi]
  exact denseFn_row x0 X x1 x2 (j 0) (i 0) (j 1) h0

theorem unit_eq {B K N : Nat} (d : DotDims ⟨2, ![B, K]⟩ ⟨2, ![K, N]⟩ ⟨2, ![B, N]⟩)
    (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision)
    (x0 : FVec Ideal ⟨2, ![B, K]⟩ φ₁) (x1 : FVec Ideal ⟨2, ![K, N]⟩ φ₂) (x2 : FVec Ideal ⟨1, ![N]⟩ .f32)
    (h1 : (⟨1, ![N]⟩ : Shape).ShapeCasts ⟨2, ![1, N]⟩) (h2 : (⟨2, ![1, N]⟩ : Shape).Broadcasts ⟨2, ![B, N]⟩) :
    addf (FloatOps.matmul d prec x0 x1 (constant ⟨2, ![B, N]⟩ .f32 0x00000000#32))
        (broadcastTo ⟨2, ![B, N]⟩ (shapeCast ⟨2, ![1, N]⟩ x2 h1) h2) = denseFn x0 x1 x2 := by
  funext j
  obtain ⟨p, q, rfl⟩ : ∃ (p : Fin B) (q : Fin N), j = ix2 p q := ⟨j 0, j 1, eq_ix2 j⟩
  rw [addf_apply, DotPlain.matmul_zero_eq d hlc hrc hln hrn hlb hrb prec x0 x1, broadcastTo_1b_ab_apply,
    shapeCast_a_1a_apply]
  rfl

theorem bias_bcast_apply {R N : Nat} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => show (0 : Nat) = if (1 : Nat) = 1 then 0 else p.val; rw [if_pos rfl]
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

theorem host_eq {R K N : Nat} (d : DotDims ⟨2, ![R, K]⟩ ⟨2, ![K, N]⟩ ⟨2, ![R, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (X : FVec Ideal ⟨2, ![R, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral d prec X W) (broadcastInDim ⟨2, ![R, N]⟩ ![0, 1] h2 (broadcastInDim ⟨2, ![1, N]⟩ ![1] h1 b))
      = denseFn X W b := by
  have e1 : Host.dotGeneral d prec X W = mmP X W := DotPlain.dotGeneral_eq d hlc hrc hln hrn hlb hrb prec .single X W
  funext j
  obtain ⟨p, q, rfl⟩ : ∃ (p : Fin R) (q : Fin N), j = ix2 p q := ⟨j 0, j 1, eq_ix2 j⟩
  rw [addf_apply, e1, bias_bcast_apply b h1 h2 p q]
  rfl

theorem zero_bcast_apply {N : Nat} (h : (⟨0, ![]⟩ : Shape).BroadcastsInDim ⟨1, ![N]⟩ ![])
    (i : (⟨1, ![N]⟩ : Shape).Idx) :
    broadcastInDim ⟨1, ![N]⟩ ![] h (constant (F := Ideal) ⟨0, ![]⟩ .f32 0x00000000#32) i = 0 := by
  rw [broadcastInDim_apply _ h _ i ix0 (fun a => a.elim0), constant_apply, Ideal.ofBits_zero_f32]

theorem host_eq_of_zero {R K N : Nat} (d : DotDims ⟨2, ![R, K]⟩ ⟨2, ![K, N]⟩ ⟨2, ![R, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (X : FVec Ideal ⟨2, ![R, K]⟩ .f32) (W : FVec Ideal ⟨2, ![K, N]⟩ .f32) (b : (⟨1, ![N]⟩ : Shape).Idx → EReal)
    (hb : ∀ i, b i = 0) : Host.dotGeneral d prec X W = denseFn X W b := by
  have e1 : Host.dotGeneral d prec X W = mmP X W := DotPlain.dotGeneral_eq d hlc hrc hln hrn hlb hrb prec .single X W
  funext j
  rw [e1]
  show mmP X W j = mmP X W j + b (ix1 (j 1))
  rw [hb, add_zero]

theorem zeros2 : (![0, 0] : Fin 2 → Nat) = fun _ => 0 := funext fun a => by fin_cases a <;> rfl
theorem zeros1 : (![0] : Fin 1 → Nat) = fun _ => 0 := funext fun a => by fin_cases a <;> rfl

theorem truncf_eq {s : Shape} {φ ψ : FTy} (x : FVec Ideal s φ) (h : ψ.bits < φ.bits) :
    (truncf ψ x h : s.Idx → EReal) = x := rfl

def tanhV {s : Shape} (x : s.Idx → EReal) : s.Idx → EReal := fun i => Ideal.tanh (x i)

theorem tanh_eq {s : Shape} {φ : FTy} (x : FVec Ideal s φ) : tanh x = tanhV x := rfl

theorem hostTanh_eq {s : Shape} {φ : FTy} (x : FVec Ideal s φ) : Host.tanh x = tanhV x := rfl

end Cert.GNN.Dense

end
-- ==== Proof.Dense0.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay0_eq (x0 : Vec Ideal S2048x256 .f32) (x1 : Vec Ideal S256x512 .f32) (x2 : Vec Ideal S512 .f32) :
    k0_pay1 (F := Ideal) x0 x1 x2 = denseFn x0 x1 x2 := by
  unfold k0_pay1
  simp only [shapeCast_self]
  exact unit_eq dot_S2048x256_S256x512_S2048x512_1_0_0_1_n_n rfl rfl rfl rfl rfl rfl none
    (truncf .bf16 x0 bitsLt_bf16_f32) (truncf .bf16 x1 bitsLt_bf16_f32) x2 shapeCasts_S512_S1x512 broadcasts_S1x512_S2048x512

theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem flushed0_eq (c : Dev nD) (t : Fin cfg0.N) :
    (dat0 (F := Ideal) V c).flushed 3 t = ((cfg0.win 3).blk t).view.read (Elt Ideal)
      (denseFn (R := 131072) (K := 256) (N := 512) (V c main_arg1) (V c main_v10) (V c main_v7)) := by
  show (cfg0.win 3).cut (grid0.coords t) ((dat0 V c).after 3 t) = _
  rw [after0_3]
  unfold out0_3
  rw [View.canon_unit_zero zeros2]
  simp only [View.ld_unit_zero (S := S2048x256) zeros2, View.ld_unit_zero (S := S256x512) zeros2,
    View.ld_unit_zero (S := S512) zeros1]
  rw [pay0_eq]
  obtain ⟨e0, e1, e2, e3, e4, e5, e6⟩ := idx_facts0 t
  funext j
  show denseFn (R := 2048) (K := 256) (N := 512) (iblk0 V c 0 t) (iblk0 V c 1 t) (iblk0 V c 2 t) j
    = denseFn (R := 131072) (K := 256) (N := 512) (V c main_arg1) (V c main_v10) (V c main_v7) (((cfg0.win 3).blk t).view.emb j)
  refine denseFn_at (B := 2048) (R := 131072) (K := 256) (N := 512) (iblk0 V c 0 t) (iblk0 V c 1 t) (iblk0 V c 2 t)
    (V c main_arg1) (V c main_v10) (V c main_v7) j (((cfg0.win 3).blk t).view.emb j) (fun k => ?_) (funext fun y => ?_) (funext fun y => ?_) ?_
  · show (V c main_arg1 (((cfg0.win 0).blk t).view.emb (ix2 (j 0) k))) = (V c main_arg1 (ix2 ((((cfg0.win 3).blk t).view.emb j) 0) k))
    refine congrArg (fun z => (V c main_arg1 z)) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 256 + 1 * k.val = k.val; omega
  · show V c main_v10 (((cfg0.win 1).blk t).view.emb y) = V c main_v10 y
    refine congrArg (V c main_v10) (funext fun a => Fin.ext ?_)
    match a with
    | ⟨0, _⟩ => show win0_1.index t (0 : Fin 2) * 256 + 1 * (y 0).val = (y 0).val; omega
    | ⟨1, _⟩ => show win0_1.index t (1 : Fin 2) * 512 + 1 * (y 1).val = (y 1).val; omega
  · show V c main_v7 (((cfg0.win 2).blk t).view.emb y) = V c main_v7 y
    refine congrArg (V c main_v7) (funext fun a => Fin.ext ?_)
    match a with
    | ⟨0, _⟩ => show win0_2.index t (0 : Fin 1) * 512 + 1 * (y 0).val = (y 0).val; omega
  · show win0_3.index t (1 : Fin 2) * 512 + 1 * (j 1).val = (j 1).val; omega

theorem mem_blk0 (t : Fin cfg0.N) (i : S131072x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v11).slice (win0_3.rect t)).set ↔ _
  rw [View.set_slice_whole, Rect.mem_set_unit]
  exact Iff.rfl

theorem cover0 (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 64 := N_0
  let t : Fin cfg0.N := ⟨(i 0).val / 2048, by rw [hN]; omega⟩
  obtain ⟨e0, e1, e2, e3, e4, e5, e6⟩ := idx_facts0 t
  have ht : t.val = (i 0).val / 2048 := rfl
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

theorem dense0_arr (c : Dev nD)
    (hb : V c main_v7 = broadcastInDim S512 ![] bcast_S_S512 (constant (F := Ideal) S_ .f32 0x00000000#32)) :
    (dat0 (F := Ideal) V c).arrAt 3 cfg0.N
      = Host.dotGeneral (F := Ideal) (φ₁ := .f32) (φ₂ := .f32) Cert.ReferenceIdeal.dot_S131072x256_S256x512_S131072x512_1_0_0_1_n_n none (V c main_arg1) (V c main_v10) :=
  ((dat0 V c).arrAt_eq_of_cover 3 _ (fun t _ => flushed0_eq V c t) cover0).trans
    (host_eq_of_zero Cert.ReferenceIdeal.dot_S131072x256_S256x512_S131072x512_1_0_0_1_n_n rfl rfl rfl rfl rfl rfl none
      (V c main_arg1) (V c main_v10) (V c main_v7) (fun i => by rw [hb]; exact zero_bcast_apply bcast_S_S512 i)).symm

end Cert.GNN

end
-- ==== Proof.Dense1.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay1_eq (x0 : Vec Ideal S2048x256 .f32) (x1 : Vec Ideal S256x512 .f32) (x2 : Vec Ideal S512 .f32) :
    k1_pay1 (F := Ideal) x0 x1 x2 = denseFn x0 x1 x2 := by
  unfold k1_pay1
  simp only [shapeCast_self]
  exact unit_eq dot_S2048x256_S256x512_S2048x512_1_0_0_1_n_n rfl rfl rfl rfl rfl rfl none
    (truncf .bf16 x0 bitsLt_bf16_f32) (truncf .bf16 x1 bitsLt_bf16_f32) x2 shapeCasts_S512_S1x512 broadcasts_S1x512_S2048x512

theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

theorem flushed1_eq (c : Dev nD) (t : Fin cfg1.N) :
    (dat1 (F := Ideal) V c).flushed 3 t = ((cfg1.win 3).blk t).view.read (Elt Ideal)
      (denseFn (R := 65536) (K := 256) (N := 512) (V c main_arg0) (V c main_v14) (V c main_v7)) := by
  show (cfg1.win 3).cut (grid1.coords t) ((dat1 V c).after 3 t) = _
  rw [after1_3]
  unfold out1_3
  rw [View.canon_unit_zero zeros2]
  simp only [View.ld_unit_zero (S := S2048x256) zeros2, View.ld_unit_zero (S := S256x512) zeros2,
    View.ld_unit_zero (S := S512) zeros1]
  rw [pay1_eq]
  obtain ⟨e0, e1, e2, e3, e4, e5, e6⟩ := idx_facts1 t
  funext j
  show denseFn (R := 2048) (K := 256) (N := 512) (iblk1 V c 0 t) (iblk1 V c 1 t) (iblk1 V c 2 t) j
    = denseFn (R := 65536) (K := 256) (N := 512) (V c main_arg0) (V c main_v14) (V c main_v7) (((cfg1.win 3).blk t).view.emb j)
  refine denseFn_at (B := 2048) (R := 65536) (K := 256) (N := 512) (iblk1 V c 0 t) (iblk1 V c 1 t) (iblk1 V c 2 t)
    (V c main_arg0) (V c main_v14) (V c main_v7) j (((cfg1.win 3).blk t).view.emb j) (fun k => ?_) (funext fun y => ?_) (funext fun y => ?_) ?_
  · show (V c main_arg0 (((cfg1.win 0).blk t).view.emb (ix2 (j 0) k))) = (V c main_arg0 (ix2 ((((cfg1.win 3).blk t).view.emb j) 0) k))
    refine congrArg (fun z => (V c main_arg0 z)) (funext fun a => Fin.ext ?_)
    match a with
    | ⟨0, _⟩ => show win1_0.index t (0 : Fin 2) * 2048 + 1 * (j 0).val = win1_3.index t (0 : Fin 2) * 2048 + 1 * (j 0).val; omega
    | ⟨1, _⟩ => show win1_0.index t (1 : Fin 2) * 256 + 1 * k.val = k.val; omega
  · show V c main_v14 (((cfg1.win 1).blk t).view.emb y) = V c main_v14 y
    refine congrArg (V c main_v14) (funext fun a => Fin.ext ?_)
    match a with
    | ⟨0, _⟩ => show win1_1.index t (0 : Fin 2) * 256 + 1 * (y 0).val = (y 0).val; omega
    | ⟨1, _⟩ => show win1_1.index t (1 : Fin 2) * 512 + 1 * (y 1).val = (y 1).val; omega
  · show V c main_v7 (((cfg1.win 2).blk t).view.emb y) = V c main_v7 y
    refine congrArg (V c main_v7) (funext fun a => Fin.ext ?_)
    match a with
    | ⟨0, _⟩ => show win1_2.index t (0 : Fin 1) * 512 + 1 * (y 0).val = (y 0).val; omega
  · show win1_3.index t (1 : Fin 2) * 512 + 1 * (j 1).val = (j 1).val; omega

theorem mem_blk1 (t : Fin cfg1.N) (i : S65536x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v15).slice (win1_3.rect t)).set ↔ _
  rw [View.set_slice_whole, Rect.mem_set_unit]
  exact Iff.rfl

theorem cover1 (i : S65536x512.Idx) :
    ∃ t : Fin cfg1.N, (cfg1.win 3).flush t = true ∧ i ∈ ((cfg1.win 3).blk t).view.set := by
  have hi0 : (i 0).val < 65536 := (i 0).isLt
  have hi1 : (i 1).val < 512 := (i 1).isLt
  have hN : cfg1.N = 32 := N_1
  let t : Fin cfg1.N := ⟨(i 0).val / 2048, by rw [hN]; omega⟩
  obtain ⟨e0, e1, e2, e3, e4, e5, e6⟩ := idx_facts1 t
  have ht : t.val = (i 0).val / 2048 := rfl
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 512 ≤ (i 1).val ∧ (i 1).val < win1_3.index t (1 : Fin 2) * 512 + 512; omega

theorem dense1_arr (c : Dev nD)
    (hb : V c main_v7 = broadcastInDim S512 ![] bcast_S_S512 (constant (F := Ideal) S_ .f32 0x00000000#32)) :
    (dat1 (F := Ideal) V c).arrAt 3 cfg1.N
      = Host.dotGeneral (F := Ideal) (φ₁ := .f32) (φ₂ := .f32) Cert.ReferenceIdeal.dot_S65536x256_S256x512_S65536x512_1_0_0_1_n_n none (V c main_arg0) (V c main_v14) :=
  ((dat1 V c).arrAt_eq_of_cover 3 _ (fun t _ => flushed1_eq V c t) cover1).trans
    (host_eq_of_zero Cert.ReferenceIdeal.dot_S65536x256_S256x512_S65536x512_1_0_0_1_n_n rfl rfl rfl rfl rfl rfl none
      (V c main_arg0) (V c main_v14) (V c main_v7) (fun i => by rw [hb]; exact zero_bcast_apply bcast_S_S512 i)).symm

end Cert.GNN

end
-- ==== Proof.Dense2.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay2_eq (x0 : Vec Ideal S2048x512 .f32) (x1 : Vec Ideal S512x512 .f32) (x2 : Vec Ideal S512 .f32) :
    k2_pay1 (F := Ideal) x0 x1 x2 = denseFn (tanhV x0) x1 x2 := by
  unfold k2_pay1
  simp only [shapeCast_self]
  exact unit_eq dot_S2048x512_S512x512_S2048x512_1_0_0_1_n_n rfl rfl rfl rfl rfl rfl none
    (truncf .bf16 (tanh x0) bitsLt_bf16_f32) (truncf .bf16 x1 bitsLt_bf16_f32) x2 shapeCasts_S512_S1x512 broadcasts_S1x512_S2048x512

theorem idx_facts2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

theorem flushed2_eq (c : Dev nD) (t : Fin cfg2.N) :
    (dat2 (F := Ideal) V c).flushed 3 t = ((cfg2.win 3).blk t).view.read (Elt Ideal)
      (denseFn (R := 131072) (K := 512) (N := 512) (tanhV (V c main_v31)) (V c main_v36) (V c main_v35)) := by
  show (cfg2.win 3).cut (grid2.coords t) ((dat2 V c).after 3 t) = _
  rw [after2_3]
  unfold out2_3
  rw [View.canon_unit_zero zeros2]
  simp only [View.ld_unit_zero (S := S2048x512) zeros2, View.ld_unit_zero (S := S512x512) zeros2,
    View.ld_unit_zero (S := S512) zeros1]
  rw [pay2_eq]
  obtain ⟨e0, e1, e2, e3, e4, e5, e6⟩ := idx_facts2 t
  funext j
  show denseFn (R := 2048) (K := 512) (N := 512) (tanhV (iblk2 V c 0 t)) (iblk2 V c 1 t) (iblk2 V c 2 t) j
    = denseFn (R := 131072) (K := 512) (N := 512) (tanhV (V c main_v31)) (V c main_v36) (V c main_v35) (((cfg2.win 3).blk t).view.emb j)
  refine denseFn_at (B := 2048) (R := 131072) (K := 512) (N := 512) (tanhV (iblk2 V c 0 t)) (iblk2 V c 1 t) (iblk2 V c 2 t)
    (tanhV (V c main_v31)) (V c main_v36) (V c main_v35) j (((cfg2.win 3).blk t).view.emb j) (fun k => ?_) (funext fun y => ?_) (funext fun y => ?_) ?_
  · show Ideal.tanh (V c main_v31 (((cfg2.win 0).blk t).view.emb (ix2 (j 0) k))) = Ideal.tanh (V c main_v31 (ix2 ((((cfg2.win 3).blk t).view.emb j) 0) k))
    refine congrArg (fun z => Ideal.tanh (V c main_v31 z)) (funext fun a => Fin.ext ?_)
    match a with
    | ⟨0, _⟩ => show win2_0.index t (0 : Fin 2) * 2048 + 1 * (j 0).val = win2_3.index t (0 : Fin 2) * 2048 + 1 * (j 0).val; omega
    | ⟨1, _⟩ => show win2_0.index t (1 : Fin 2) * 512 + 1 * k.val = k.val; omega
  · show V c main_v36 (((cfg2.win 1).blk t).view.emb y) = V c main_v36 y
    refine congrArg (V c main_v36) (funext fun a => Fin.ext ?_)
    match a with
    | ⟨0, _⟩ => show win2_1.index t (0 : Fin 2) * 512 + 1 * (y 0).val = (y 0).val; omega
    | ⟨1, _⟩ => show win2_1.index t (1 : Fin 2) * 512 + 1 * (y 1).val = (y 1).val; omega
  · show V c main_v35 (((cfg2.win 2).blk t).view.emb y) = V c main_v35 y
    refine congrArg (V c main_v35) (funext fun a => Fin.ext ?_)
    match a with
    | ⟨0, _⟩ => show win2_2.index t (0 : Fin 1) * 512 + 1 * (y 0).val = (y 0).val; omega
  · show win2_3.index t (1 : Fin 2) * 512 + 1 * (j 1).val = (j 1).val; omega

theorem mem_blk2 (t : Fin cfg2.N) (i : S131072x512.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v37).slice (win2_3.rect t)).set ↔ _
  rw [View.set_slice_whole, Rect.mem_set_unit]
  exact Iff.rfl

theorem cover2 (i : S131072x512.Idx) :
    ∃ t : Fin cfg2.N, (cfg2.win 3).flush t = true ∧ i ∈ ((cfg2.win 3).blk t).view.set := by
  have hi0 : (i 0).val < 131072 := (i 0).isLt
  have hi1 : (i 1).val < 512 := (i 1).isLt
  have hN : cfg2.N = 64 := N_2
  let t : Fin cfg2.N := ⟨(i 0).val / 2048, by rw [hN]; omega⟩
  obtain ⟨e0, e1, e2, e3, e4, e5, e6⟩ := idx_facts2 t
  have ht : t.val = (i 0).val / 2048 := rfl
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 512 ≤ (i 1).val ∧ (i 1).val < win2_3.index t (1 : Fin 2) * 512 + 512; omega

theorem dense2_arr (c : Dev nD) :
    (dat2 (F := Ideal) V c).arrAt 3 cfg2.N
      = addf (F := Ideal) (Host.dotGeneral (F := Ideal) (φ₁ := .f32) (φ₂ := .f32) Cert.ReferenceIdeal.dot_S131072x512_S512x512_S131072x512_1_0_0_1_n_n none (Host.tanh (F := Ideal) (φ := .f32) (V c main_v31)) (V c main_v36))
          (broadcastInDim Cert.ReferenceIdeal.S131072x512 ![0, 1] Cert.ReferenceIdeal.Facts₀.bcast_S1x512_S131072x512_0_1
            (broadcastInDim Cert.ReferenceIdeal.S1x512 ![1] Cert.ReferenceIdeal.Facts₀.bcast_S512_S1x512_1 (V c main_v35))) :=
  ((dat2 V c).arrAt_eq_of_cover 3 _ (fun t _ => flushed2_eq V c t) cover2).trans
    (host_eq Cert.ReferenceIdeal.dot_S131072x512_S512x512_S131072x512_1_0_0_1_n_n rfl rfl rfl rfl rfl rfl none
      (Host.tanh (F := Ideal) (φ := .f32) (V c main_v31)) (V c main_v36) (V c main_v35) Cert.ReferenceIdeal.Facts₀.bcast_S512_S1x512_1
      Cert.ReferenceIdeal.Facts₀.bcast_S1x512_S131072x512_0_1).symm

end Cert.GNN

end
-- ==== Proof.Dense3.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay3_eq (x0 : Vec Ideal S2048x512 .f32) (x1 : Vec Ideal S512x768 .f32) (x2 : Vec Ideal S768 .f32) :
    k3_pay1 (F := Ideal) x0 x1 x2 = denseFn x0 x1 x2 := by
  unfold k3_pay1
  simp only [shapeCast_self]
  exact unit_eq dot_S2048x512_S512x768_S2048x768_1_0_0_1_n_n rfl rfl rfl rfl rfl rfl none
    (truncf .bf16 x0 bitsLt_bf16_f32) (truncf .bf16 x1 bitsLt_bf16_f32) x2 shapeCasts_S768_S1x768 broadcasts_S1x768_S2048x768

theorem idx_facts3 : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

theorem flushed3_eq (c : Dev nD) (t : Fin cfg3.N) :
    (dat3 (F := Ideal) V c).flushed 3 t = ((cfg3.win 3).blk t).view.read (Elt Ideal)
      (denseFn (R := 65536) (K := 512) (N := 768) (V c main_v52) (V c main_v57) (V c main_v56)) := by
  show (cfg3.win 3).cut (grid3.coords t) ((dat3 V c).after 3 t) = _
  rw [after3_3]
  unfold out3_3
  rw [View.canon_unit_zero zeros2]
  simp only [View.ld_unit_zero (S := S2048x512) zeros2, View.ld_unit_zero (S := S512x768) zeros2,
    View.ld_unit_zero (S := S768) zeros1]
  rw [pay3_eq]
  obtain ⟨e0, e1, e2, e3, e4, e5, e6⟩ := idx_facts3 t
  funext j
  show denseFn (R := 2048) (K := 512) (N := 768) (iblk3 V c 0 t) (iblk3 V c 1 t) (iblk3 V c 2 t) j
    = denseFn (R := 65536) (K := 512) (N := 768) (V c main_v52) (V c main_v57) (V c main_v56) (((cfg3.win 3).blk t).view.emb j)
  refine denseFn_at (B := 2048) (R := 65536) (K := 512) (N := 768) (iblk3 V c 0 t) (iblk3 V c 1 t) (iblk3 V c 2 t)
    (V c main_v52) (V c main_v57) (V c main_v56) j (((cfg3.win 3).blk t).view.emb j) (fun k => ?_) (funext fun y => ?_) (funext fun y => ?_) ?_
  · show (V c main_v52 (((cfg3.win 0).blk t).view.emb (ix2 (j 0) k))) = (V c main_v52 (ix2 ((((cfg3.win 3).blk t).view.emb j) 0) k))
    refine congrArg (fun z => (V c main_v52 z)) (funext fun a => Fin.ext ?_)
    match a with
    | ⟨0, _⟩ => show win3_0.index t (0 : Fin 2) * 2048 + 1 * (j 0).val = win3_3.index t (0 : Fin 2) * 2048 + 1 * (j 0).val; omega
    | ⟨1, _⟩ => show win3_0.index t (1 : Fin 2) * 512 + 1 * k.val = k.val; omega
  · show V c main_v57 (((cfg3.win 1).blk t).view.emb y) = V c main_v57 y
    refine congrArg (V c main_v57) (funext fun a => Fin.ext ?_)
    match a with
    | ⟨0, _⟩ => show win3_1.index t (0 : Fin 2) * 512 + 1 * (y 0).val = (y 0).val; omega
    | ⟨1, _⟩ => show win3_1.index t (1 : Fin 2) * 768 + 1 * (y 1).val = (y 1).val; omega
  · show V c main_v56 (((cfg3.win 2).blk t).view.emb y) = V c main_v56 y
    refine congrArg (V c main_v56) (funext fun a => Fin.ext ?_)
    match a with
    | ⟨0, _⟩ => show win3_2.index t (0 : Fin 1) * 768 + 1 * (y 0).val = (y 0).val; omega
  · show win3_3.index t (1 : Fin 2) * 768 + 1 * (j 1).val = (j 1).val; omega

theorem mem_blk3 (t : Fin cfg3.N) (i : S65536x768.Idx) :
    i ∈ ((cfg3.win 3).blk t).view.set ↔ ∀ a : Fin 2, win3_3.index t a * S2048x768.size a ≤ (i a).val ∧ (i a).val < win3_3.index t a * S2048x768.size a + S2048x768.size a := by
  show i ∈ ((View.whole main_v58).slice (win3_3.rect t)).set ↔ _
  rw [View.set_slice_whole, Rect.mem_set_unit]
  exact Iff.rfl

theorem cover3 (i : S65536x768.Idx) :
    ∃ t : Fin cfg3.N, (cfg3.win 3).flush t = true ∧ i ∈ ((cfg3.win 3).blk t).view.set := by
  have hi0 : (i 0).val < 65536 := (i 0).isLt
  have hi1 : (i 1).val < 768 := (i 1).isLt
  have hN : cfg3.N = 32 := N_3
  let t : Fin cfg3.N := ⟨(i 0).val / 2048, by rw [hN]; omega⟩
  obtain ⟨e0, e1, e2, e3, e4, e5, e6⟩ := idx_facts3 t
  have ht : t.val = (i 0).val / 2048 := rfl
  refine ⟨t, flush3_3 t, ?_⟩
  rw [mem_blk3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 768 ≤ (i 1).val ∧ (i 1).val < win3_3.index t (1 : Fin 2) * 768 + 768; omega

theorem dense3_arr (c : Dev nD) :
    (dat3 (F := Ideal) V c).arrAt 3 cfg3.N
      = addf (F := Ideal) (Host.dotGeneral (F := Ideal) (φ₁ := .f32) (φ₂ := .f32) Cert.ReferenceIdeal.dot_S65536x512_S512x768_S65536x768_1_0_0_1_n_n none (V c main_v52) (V c main_v57))
          (broadcastInDim Cert.ReferenceIdeal.S65536x768 ![0, 1] Cert.ReferenceIdeal.Facts₀.bcast_S1x768_S65536x768_0_1
            (broadcastInDim Cert.ReferenceIdeal.S1x768 ![1] Cert.ReferenceIdeal.Facts₀.bcast_S768_S1x768_1 (V c main_v56))) :=
  ((dat3 V c).arrAt_eq_of_cover 3 _ (fun t _ => flushed3_eq V c t) cover3).trans
    (host_eq Cert.ReferenceIdeal.dot_S65536x512_S512x768_S65536x768_1_0_0_1_n_n rfl rfl rfl rfl rfl rfl none
      (V c main_v52) (V c main_v57) (V c main_v56) Cert.ReferenceIdeal.Facts₀.bcast_S768_S1x768_1
      Cert.ReferenceIdeal.Facts₀.bcast_S1x768_S65536x768_0_1).symm

end Cert.GNN

end
-- ==== Proof.Dense4.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay4_eq (x0 : Vec Ideal S2048x256 .f32) (x1 : Vec Ideal S256x768 .f32) (x2 : Vec Ideal S768 .f32) :
    k4_pay1 (F := Ideal) x0 x1 x2 = denseFn x0 x1 x2 := by
  unfold k4_pay1
  simp only [shapeCast_self]
  exact unit_eq dot_S2048x256_S256x768_S2048x768_1_0_0_1_n_n rfl rfl rfl rfl rfl rfl none
    (truncf .bf16 x0 bitsLt_bf16_f32) (truncf .bf16 x1 bitsLt_bf16_f32) x2 shapeCasts_S768_S1x768 broadcasts_S1x768_S2048x768

theorem idx_facts4 : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0 :=
  (by decide +kernel : ∀ t : Fin grid4.N, _)

theorem flushed4_eq (c : Dev nD) (t : Fin cfg4.N) :
    (dat4 (F := Ideal) V c).flushed 3 t = ((cfg4.win 3).blk t).view.read (Elt Ideal)
      (denseFn (R := 65536) (K := 256) (N := 768) (V c main_arg0) (V c main_v63) (V c main_v62)) := by
  show (cfg4.win 3).cut (grid4.coords t) ((dat4 V c).after 3 t) = _
  rw [after4_3]
  unfold out4_3
  rw [View.canon_unit_zero zeros2]
  simp only [View.ld_unit_zero (S := S2048x256) zeros2, View.ld_unit_zero (S := S256x768) zeros2,
    View.ld_unit_zero (S := S768) zeros1]
  rw [pay4_eq]
  obtain ⟨e0, e1, e2, e3, e4, e5, e6⟩ := idx_facts4 t
  funext j
  show denseFn (R := 2048) (K := 256) (N := 768) (iblk4 V c 0 t) (iblk4 V c 1 t) (iblk4 V c 2 t) j
    = denseFn (R := 65536) (K := 256) (N := 768) (V c main_arg0) (V c main_v63) (V c main_v62) (((cfg4.win 3).blk t).view.emb j)
  refine denseFn_at (B := 2048) (R := 65536) (K := 256) (N := 768) (iblk4 V c 0 t) (iblk4 V c 1 t) (iblk4 V c 2 t)
    (V c main_arg0) (V c main_v63) (V c main_v62) j (((cfg4.win 3).blk t).view.emb j) (fun k => ?_) (funext fun y => ?_) (funext fun y => ?_) ?_
  · show (V c main_arg0 (((cfg4.win 0).blk t).view.emb (ix2 (j 0) k))) = (V c main_arg0 (ix2 ((((cfg4.win 3).blk t).view.emb j) 0) k))
    refine congrArg (fun z => (V c main_arg0 z)) (funext fun a => Fin.ext ?_)
    match a with
    | ⟨0, _⟩ => show win4_0.index t (0 : Fin 2) * 2048 + 1 * (j 0).val = win4_3.index t (0 : Fin 2) * 2048 + 1 * (j 0).val; omega
    | ⟨1, _⟩ => show win4_0.index t (1 : Fin 2) * 256 + 1 * k.val = k.val; omega
  · show V c main_v63 (((cfg4.win 1).blk t).view.emb y) = V c main_v63 y
    refine congrArg (V c main_v63) (funext fun a => Fin.ext ?_)
    match a with
    | ⟨0, _⟩ => show win4_1.index t (0 : Fin 2) * 256 + 1 * (y 0).val = (y 0).val; omega
    | ⟨1, _⟩ => show win4_1.index t (1 : Fin 2) * 768 + 1 * (y 1).val = (y 1).val; omega
  · show V c main_v62 (((cfg4.win 2).blk t).view.emb y) = V c main_v62 y
    refine congrArg (V c main_v62) (funext fun a => Fin.ext ?_)
    match a with
    | ⟨0, _⟩ => show win4_2.index t (0 : Fin 1) * 768 + 1 * (y 0).val = (y 0).val; omega
  · show win4_3.index t (1 : Fin 2) * 768 + 1 * (j 1).val = (j 1).val; omega

theorem mem_blk4 (t : Fin cfg4.N) (i : S65536x768.Idx) :
    i ∈ ((cfg4.win 3).blk t).view.set ↔ ∀ a : Fin 2, win4_3.index t a * S2048x768.size a ≤ (i a).val ∧ (i a).val < win4_3.index t a * S2048x768.size a + S2048x768.size a := by
  show i ∈ ((View.whole main_v64).slice (win4_3.rect t)).set ↔ _
  rw [View.set_slice_whole, Rect.mem_set_unit]
  exact Iff.rfl

theorem cover4 (i : S65536x768.Idx) :
    ∃ t : Fin cfg4.N, (cfg4.win 3).flush t = true ∧ i ∈ ((cfg4.win 3).blk t).view.set := by
  have hi0 : (i 0).val < 65536 := (i 0).isLt
  have hi1 : (i 1).val < 768 := (i 1).isLt
  have hN : cfg4.N = 32 := N_4
  let t : Fin cfg4.N := ⟨(i 0).val / 2048, by rw [hN]; omega⟩
  obtain ⟨e0, e1, e2, e3, e4, e5, e6⟩ := idx_facts4 t
  have ht : t.val = (i 0).val / 2048 := rfl
  refine ⟨t, flush4_3 t, ?_⟩
  rw [mem_blk4]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 768 ≤ (i 1).val ∧ (i 1).val < win4_3.index t (1 : Fin 2) * 768 + 768; omega

theorem dense4_arr (c : Dev nD) :
    (dat4 (F := Ideal) V c).arrAt 3 cfg4.N
      = addf (F := Ideal) (Host.dotGeneral (F := Ideal) (φ₁ := .f32) (φ₂ := .f32) Cert.ReferenceIdeal.dot_S65536x256_S256x768_S65536x768_1_0_0_1_n_n none (V c main_arg0) (V c main_v63))
          (broadcastInDim Cert.ReferenceIdeal.S65536x768 ![0, 1] Cert.ReferenceIdeal.Facts₀.bcast_S1x768_S65536x768_0_1
            (broadcastInDim Cert.ReferenceIdeal.S1x768 ![1] Cert.ReferenceIdeal.Facts₀.bcast_S768_S1x768_1 (V c main_v62))) :=
  ((dat4 V c).arrAt_eq_of_cover 3 _ (fun t _ => flushed4_eq V c t) cover4).trans
    (host_eq Cert.ReferenceIdeal.dot_S65536x256_S256x768_S65536x768_1_0_0_1_n_n rfl rfl rfl rfl rfl rfl none
      (V c main_arg0) (V c main_v63) (V c main_v62) Cert.ReferenceIdeal.Facts₀.bcast_S768_S1x768_1
      Cert.ReferenceIdeal.Facts₀.bcast_S1x768_S65536x768_0_1).symm

end Cert.GNN

end
-- ==== Proof.Dense5.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay5_eq (x0 : Vec Ideal S2048x256 .f32) (x1 : Vec Ideal S256x512 .f32) (x2 : Vec Ideal S512 .f32) :
    k5_pay1 (F := Ideal) x0 x1 x2 = denseFn x0 x1 x2 := by
  unfold k5_pay1
  simp only [shapeCast_self]
  exact unit_eq dot_S2048x256_S256x512_S2048x512_1_0_0_1_n_n rfl rfl rfl rfl rfl rfl none
    (truncf .bf16 x0 bitsLt_bf16_f32) (truncf .bf16 x1 bitsLt_bf16_f32) x2 shapeCasts_S512_S1x512 broadcasts_S1x512_S2048x512

theorem idx_facts5 : ∀ t : Fin cfg5.N, win5_0.index t (0 : Fin 2) = t.val ∧ win5_0.index t (1 : Fin 2) = 0
    ∧ win5_1.index t (0 : Fin 2) = 0 ∧ win5_1.index t (1 : Fin 2) = 0 ∧ win5_2.index t (0 : Fin 1) = 0
    ∧ win5_3.index t (0 : Fin 2) = t.val ∧ win5_3.index t (1 : Fin 2) = 0 :=
  (by decide +kernel : ∀ t : Fin grid5.N, _)

theorem flushed5_eq (c : Dev nD) (t : Fin cfg5.N) :
    (dat5 (F := Ideal) V c).flushed 3 t = ((cfg5.win 3).blk t).view.read (Elt Ideal)
      (denseFn (R := 131072) (K := 256) (N := 512) (V c main_arg1) (V c main_v97) (V c main_v7)) := by
  show (cfg5.win 3).cut (grid5.coords t) ((dat5 V c).after 3 t) = _
  rw [after5_3]
  unfold out5_3
  rw [View.canon_unit_zero zeros2]
  simp only [View.ld_unit_zero (S := S2048x256) zeros2, View.ld_unit_zero (S := S256x512) zeros2,
    View.ld_unit_zero (S := S512) zeros1]
  rw [pay5_eq]
  obtain ⟨e0, e1, e2, e3, e4, e5, e6⟩ := idx_facts5 t
  funext j
  show denseFn (R := 2048) (K := 256) (N := 512) (iblk5 V c 0 t) (iblk5 V c 1 t) (iblk5 V c 2 t) j
    = denseFn (R := 131072) (K := 256) (N := 512) (V c main_arg1) (V c main_v97) (V c main_v7) (((cfg5.win 3).blk t).view.emb j)
  refine denseFn_at (B := 2048) (R := 131072) (K := 256) (N := 512) (iblk5 V c 0 t) (iblk5 V c 1 t) (iblk5 V c 2 t)
    (V c main_arg1) (V c main_v97) (V c main_v7) j (((cfg5.win 3).blk t).view.emb j) (fun k => ?_) (funext fun y => ?_) (funext fun y => ?_) ?_
  · show (V c main_arg1 (((cfg5.win 0).blk t).view.emb (ix2 (j 0) k))) = (V c main_arg1 (ix2 ((((cfg5.win 3).blk t).view.emb j) 0) k))
    refine congrArg (fun z => (V c main_arg1 z)) (funext fun a => Fin.ext ?_)
    match a with
    | ⟨0, _⟩ => show win5_0.index t (0 : Fin 2) * 2048 + 1 * (j 0).val = win5_3.index t (0 : Fin 2) * 2048 + 1 * (j 0).val; omega
    | ⟨1, _⟩ => show win5_0.index t (1 : Fin 2) * 256 + 1 * k.val = k.val; omega
  · show V c main_v97 (((cfg5.win 1).blk t).view.emb y) = V c main_v97 y
    refine congrArg (V c main_v97) (funext fun a => Fin.ext ?_)
    match a with
    | ⟨0, _⟩ => show win5_1.index t (0 : Fin 2) * 256 + 1 * (y 0).val = (y 0).val; omega
    | ⟨1, _⟩ => show win5_1.index t (1 : Fin 2) * 512 + 1 * (y 1).val = (y 1).val; omega
  · show V c main_v7 (((cfg5.win 2).blk t).view.emb y) = V c main_v7 y
    refine congrArg (V c main_v7) (funext fun a => Fin.ext ?_)
    match a with
    | ⟨0, _⟩ => show win5_2.index t (0 : Fin 1) * 512 + 1 * (y 0).val = (y 0).val; omega
  · show win5_3.index t (1 : Fin 2) * 512 + 1 * (j 1).val = (j 1).val; omega

theorem mem_blk5 (t : Fin cfg5.N) (i : S131072x512.Idx) :
    i ∈ ((cfg5.win 3).blk t).view.set ↔ ∀ a : Fin 2, win5_3.index t a * S2048x512.size a ≤ (i a).val ∧ (i a).val < win5_3.index t a * S2048x512.size a + S2048x512.size a := by
  show i ∈ ((View.whole main_v98).slice (win5_3.rect t)).set ↔ _
  rw [View.set_slice_whole, Rect.mem_set_unit]
  exact Iff.rfl

theorem cover5 (i : S131072x512.Idx) :
    ∃ t : Fin cfg5.N, (cfg5.win 3).flush t = true ∧ i ∈ ((cfg5.win 3).blk t).view.set := by
  have hi0 : (i 0).val < 131072 := (i 0).isLt
  have hi1 : (i 1).val < 512 := (i 1).isLt
  have hN : cfg5.N = 64 := N_5
  let t : Fin cfg5.N := ⟨(i 0).val / 2048, by rw [hN]; omega⟩
  obtain ⟨e0, e1, e2, e3, e4, e5, e6⟩ := idx_facts5 t
  have ht : t.val = (i 0).val / 2048 := rfl
  refine ⟨t, flush5_3 t, ?_⟩
  rw [mem_blk5]
  intro a
  match a with
  | ⟨0, _⟩ => show win5_3.index t (0 : Fin 2) * 2048 ≤ (i 0).val ∧ (i 0).val < win5_3.index t (0 : Fin 2) * 2048 + 2048; omega
  | ⟨1, _⟩ => show win5_3.index t (1 : Fin 2) * 512 ≤ (i 1).val ∧ (i 1).val < win5_3.index t (1 : Fin 2) * 512 + 512; omega

theorem dense5_arr (c : Dev nD)
    (hb : V c main_v7 = broadcastInDim S512 ![] bcast_S_S512 (constant (F := Ideal) S_ .f32 0x00000000#32)) :
    (dat5 (F := Ideal) V c).arrAt 3 cfg5.N
      = Host.dotGeneral (F := Ideal) (φ₁ := .f32) (φ₂ := .f32) Cert.ReferenceIdeal.dot_S131072x256_S256x512_S131072x512_1_0_0_1_n_n none (V c main_arg1) (V c main_v97) :=
  ((dat5 V c).arrAt_eq_of_cover 3 _ (fun t _ => flushed5_eq V c t) cover5).trans
    (host_eq_of_zero Cert.ReferenceIdeal.dot_S131072x256_S256x512_S131072x512_1_0_0_1_n_n rfl rfl rfl rfl rfl rfl none
      (V c main_arg1) (V c main_v97) (V c main_v7) (fun i => by rw [hb]; exact zero_bcast_apply bcast_S_S512 i)).symm

end Cert.GNN

end
-- ==== Proof.Dense6.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay6_eq (x0 : Vec Ideal S2048x256 .f32) (x1 : Vec Ideal S256x512 .f32) (x2 : Vec Ideal S512 .f32) :
    k6_pay1 (F := Ideal) x0 x1 x2 = denseFn x0 x1 x2 := by
  unfold k6_pay1
  simp only [shapeCast_self]
  exact unit_eq dot_S2048x256_S256x512_S2048x512_1_0_0_1_n_n rfl rfl rfl rfl rfl rfl none
    (truncf .bf16 x0 bitsLt_bf16_f32) (truncf .bf16 x1 bitsLt_bf16_f32) x2 shapeCasts_S512_S1x512 broadcasts_S1x512_S2048x512

theorem idx_facts6 : ∀ t : Fin cfg6.N, win6_0.index t (0 : Fin 2) = t.val ∧ win6_0.index t (1 : Fin 2) = 0
    ∧ win6_1.index t (0 : Fin 2) = 0 ∧ win6_1.index t (1 : Fin 2) = 0 ∧ win6_2.index t (0 : Fin 1) = 0
    ∧ win6_3.index t (0 : Fin 2) = t.val ∧ win6_3.index t (1 : Fin 2) = 0 :=
  (by decide +kernel : ∀ t : Fin grid6.N, _)

theorem flushed6_eq (c : Dev nD) (t : Fin cfg6.N) :
    (dat6 (F := Ideal) V c).flushed 3 t = ((cfg6.win 3).blk t).view.read (Elt Ideal)
      (denseFn (R := 65536) (K := 256) (N := 512) (V c main_v94) (V c main_v101) (V c main_v7)) := by
  show (cfg6.win 3).cut (grid6.coords t) ((dat6 V c).after 3 t) = _
  rw [after6_3]
  unfold out6_3
  rw [View.canon_unit_zero zeros2]
  simp only [View.ld_unit_zero (S := S2048x256) zeros2, View.ld_unit_zero (S := S256x512) zeros2,
    View.ld_unit_zero (S := S512) zeros1]
  rw [pay6_eq]
  obtain ⟨e0, e1, e2, e3, e4, e5, e6⟩ := idx_facts6 t
  funext j
  show denseFn (R := 2048) (K := 256) (N := 512) (iblk6 V c 0 t) (iblk6 V c 1 t) (iblk6 V c 2 t) j
    = denseFn (R := 65536) (K := 256) (N := 512) (V c main_v94) (V c main_v101) (V c main_v7) (((cfg6.win 3).blk t).view.emb j)
  refine denseFn_at (B := 2048) (R := 65536) (K := 256) (N := 512) (iblk6 V c 0 t) (iblk6 V c 1 t) (iblk6 V c 2 t)
    (V c main_v94) (V c main_v101) (V c main_v7) j (((cfg6.win 3).blk t).view.emb j) (fun k => ?_) (funext fun y => ?_) (funext fun y => ?_) ?_
  · show (V c main_v94 (((cfg6.win 0).blk t).view.emb (ix2 (j 0) k))) = (V c main_v94 (ix2 ((((cfg6.win 3).blk t).view.emb j) 0) k))
    refine congrArg (fun z => (V c main_v94 z)) (funext fun a => Fin.ext ?_)
    match a with
    | ⟨0, _⟩ => show win6_0.index t (0 : Fin 2) * 2048 + 1 * (j 0).val = win6_3.index t (0 : Fin 2) * 2048 + 1 * (j 0).val; omega
    | ⟨1, _⟩ => show win6_0.index t (1 : Fin 2) * 256 + 1 * k.val = k.val; omega
  · show V c main_v101 (((cfg6.win 1).blk t).view.emb y) = V c main_v101 y
    refine congrArg (V c main_v101) (funext fun a => Fin.ext ?_)
    match a with
    | ⟨0, _⟩ => show win6_1.index t (0 : Fin 2) * 256 + 1 * (y 0).val = (y 0).val; omega
    | ⟨1, _⟩ => show win6_1.index t (1 : Fin 2) * 512 + 1 * (y 1).val = (y 1).val; omega
  · show V c main_v7 (((cfg6.win 2).blk t).view.emb y) = V c main_v7 y
    refine congrArg (V c main_v7) (funext fun a => Fin.ext ?_)
    match a with
    | ⟨0, _⟩ => show win6_2.index t (0 : Fin 1) * 512 + 1 * (y 0).val = (y 0).val; omega
  · show win6_3.index t (1 : Fin 2) * 512 + 1 * (j 1).val = (j 1).val; omega

theorem mem_blk6 (t : Fin cfg6.N) (i : S65536x512.Idx) :
    i ∈ ((cfg6.win 3).blk t).view.set ↔ ∀ a : Fin 2, win6_3.index t a * S2048x512.size a ≤ (i a).val ∧ (i a).val < win6_3.index t a * S2048x512.size a + S2048x512.size a := by
  show i ∈ ((View.whole main_v102).slice (win6_3.rect t)).set ↔ _
  rw [View.set_slice_whole, Rect.mem_set_unit]
  exact Iff.rfl

theorem cover6 (i : S65536x512.Idx) :
    ∃ t : Fin cfg6.N, (cfg6.win 3).flush t = true ∧ i ∈ ((cfg6.win 3).blk t).view.set := by
  have hi0 : (i 0).val < 65536 := (i 0).isLt
  have hi1 : (i 1).val < 512 := (i 1).isLt
  have hN : cfg6.N = 32 := N_6
  let t : Fin cfg6.N := ⟨(i 0).val / 2048, by rw [hN]; omega⟩
  obtain ⟨e0, e1, e2, e3, e4, e5, e6⟩ := idx_facts6 t
  have ht : t.val = (i 0).val / 2048 := rfl
  refine ⟨t, flush6_3 t, ?_⟩
  rw [mem_blk6]
  intro a
  match a with
  | ⟨0, _⟩ => show win6_3.index t (0 : Fin 2) * 2048 ≤ (i 0).val ∧ (i 0).val < win6_3.index t (0 : Fin 2) * 2048 + 2048; omega
  | ⟨1, _⟩ => show win6_3.index t (1 : Fin 2) * 512 ≤ (i 1).val ∧ (i 1).val < win6_3.index t (1 : Fin 2) * 512 + 512; omega

theorem dense6_arr (c : Dev nD)
    (hb : V c main_v7 = broadcastInDim S512 ![] bcast_S_S512 (constant (F := Ideal) S_ .f32 0x00000000#32)) :
    (dat6 (F := Ideal) V c).arrAt 3 cfg6.N
      = Host.dotGeneral (F := Ideal) (φ₁ := .f32) (φ₂ := .f32) Cert.ReferenceIdeal.dot_S65536x256_S256x512_S65536x512_1_0_0_1_n_n none (V c main_v94) (V c main_v101) :=
  ((dat6 V c).arrAt_eq_of_cover 3 _ (fun t _ => flushed6_eq V c t) cover6).trans
    (host_eq_of_zero Cert.ReferenceIdeal.dot_S65536x256_S256x512_S65536x512_1_0_0_1_n_n rfl rfl rfl rfl rfl rfl none
      (V c main_v94) (V c main_v101) (V c main_v7) (fun i => by rw [hb]; exact zero_bcast_apply bcast_S_S512 i)).symm

end Cert.GNN

end
-- ==== Proof.Dense7.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay7_eq (x0 : Vec Ideal S2048x512 .f32) (x1 : Vec Ideal S512x512 .f32) (x2 : Vec Ideal S512 .f32) :
    k7_pay1 (F := Ideal) x0 x1 x2 = denseFn (tanhV x0) x1 x2 := by
  unfold k7_pay1
  simp only [shapeCast_self]
  exact unit_eq dot_S2048x512_S512x512_S2048x512_1_0_0_1_n_n rfl rfl rfl rfl rfl rfl none
    (truncf .bf16 (tanh x0) bitsLt_bf16_f32) (truncf .bf16 x1 bitsLt_bf16_f32) x2 shapeCasts_S512_S1x512 broadcasts_S1x512_S2048x512

theorem idx_facts7 : ∀ t : Fin cfg7.N, win7_0.index t (0 : Fin 2) = t.val ∧ win7_0.index t (1 : Fin 2) = 0
    ∧ win7_1.index t (0 : Fin 2) = 0 ∧ win7_1.index t (1 : Fin 2) = 0 ∧ win7_2.index t (0 : Fin 1) = 0
    ∧ win7_3.index t (0 : Fin 2) = t.val ∧ win7_3.index t (1 : Fin 2) = 0 :=
  (by decide +kernel : ∀ t : Fin grid7.N, _)

theorem flushed7_eq (c : Dev nD) (t : Fin cfg7.N) :
    (dat7 (F := Ideal) V c).flushed 3 t = ((cfg7.win 3).blk t).view.read (Elt Ideal)
      (denseFn (R := 131072) (K := 512) (N := 512) (tanhV (V c main_v118)) (V c main_v123) (V c main_v122)) := by
  show (cfg7.win 3).cut (grid7.coords t) ((dat7 V c).after 3 t) = _
  rw [after7_3]
  unfold out7_3
  rw [View.canon_unit_zero zeros2]
  simp only [View.ld_unit_zero (S := S2048x512) zeros2, View.ld_unit_zero (S := S512x512) zeros2,
    View.ld_unit_zero (S := S512) zeros1]
  rw [pay7_eq]
  obtain ⟨e0, e1, e2, e3, e4, e5, e6⟩ := idx_facts7 t
  funext j
  show denseFn (R := 2048) (K := 512) (N := 512) (tanhV (iblk7 V c 0 t)) (iblk7 V c 1 t) (iblk7 V c 2 t) j
    = denseFn (R := 131072) (K := 512) (N := 512) (tanhV (V c main_v118)) (V c main_v123) (V c main_v122) (((cfg7.win 3).blk t).view.emb j)
  refine denseFn_at (B := 2048) (R := 131072) (K := 512) (N := 512) (tanhV (iblk7 V c 0 t)) (iblk7 V c 1 t) (iblk7 V c 2 t)
    (tanhV (V c main_v118)) (V c main_v123) (V c main_v122) j (((cfg7.win 3).blk t).view.emb j) (fun k => ?_) (funext fun y => ?_) (funext fun y => ?_) ?_
  · show Ideal.tanh (V c main_v118 (((cfg7.win 0).blk t).view.emb (ix2 (j 0) k))) = Ideal.tanh (V c main_v118 (ix2 ((((cfg7.win 3).blk t).view.emb j) 0) k))
    refine congrArg (fun z => Ideal.tanh (V c main_v118 z)) (funext fun a => Fin.ext ?_)
    match a with
    | ⟨0, _⟩ => show win7_0.index t (0 : Fin 2) * 2048 + 1 * (j 0).val = win7_3.index t (0 : Fin 2) * 2048 + 1 * (j 0).val; omega
    | ⟨1, _⟩ => show win7_0.index t (1 : Fin 2) * 512 + 1 * k.val = k.val; omega
  · show V c main_v123 (((cfg7.win 1).blk t).view.emb y) = V c main_v123 y
    refine congrArg (V c main_v123) (funext fun a => Fin.ext ?_)
    match a with
    | ⟨0, _⟩ => show win7_1.index t (0 : Fin 2) * 512 + 1 * (y 0).val = (y 0).val; omega
    | ⟨1, _⟩ => show win7_1.index t (1 : Fin 2) * 512 + 1 * (y 1).val = (y 1).val; omega
  · show V c main_v122 (((cfg7.win 2).blk t).view.emb y) = V c main_v122 y
    refine congrArg (V c main_v122) (funext fun a => Fin.ext ?_)
    match a with
    | ⟨0, _⟩ => show win7_2.index t (0 : Fin 1) * 512 + 1 * (y 0).val = (y 0).val; omega
  · show win7_3.index t (1 : Fin 2) * 512 + 1 * (j 1).val = (j 1).val; omega

theorem mem_blk7 (t : Fin cfg7.N) (i : S131072x512.Idx) :
    i ∈ ((cfg7.win 3).blk t).view.set ↔ ∀ a : Fin 2, win7_3.index t a * S2048x512.size a ≤ (i a).val ∧ (i a).val < win7_3.index t a * S2048x512.size a + S2048x512.size a := by
  show i ∈ ((View.whole main_v124).slice (win7_3.rect t)).set ↔ _
  rw [View.set_slice_whole, Rect.mem_set_unit]
  exact Iff.rfl

theorem cover7 (i : S131072x512.Idx) :
    ∃ t : Fin cfg7.N, (cfg7.win 3).flush t = true ∧ i ∈ ((cfg7.win 3).blk t).view.set := by
  have hi0 : (i 0).val < 131072 := (i 0).isLt
  have hi1 : (i 1).val < 512 := (i 1).isLt
  have hN : cfg7.N = 64 := N_7
  let t : Fin cfg7.N := ⟨(i 0).val / 2048, by rw [hN]; omega⟩
  obtain ⟨e0, e1, e2, e3, e4, e5, e6⟩ := idx_facts7 t
  have ht : t.val = (i 0).val / 2048 := rfl
  refine ⟨t, flush7_3 t, ?_⟩
  rw [mem_blk7]
  intro a
  match a with
  | ⟨0, _⟩ => show win7_3.index t (0 : Fin 2) * 2048 ≤ (i 0).val ∧ (i 0).val < win7_3.index t (0 : Fin 2) * 2048 + 2048; omega
  | ⟨1, _⟩ => show win7_3.index t (1 : Fin 2) * 512 ≤ (i 1).val ∧ (i 1).val < win7_3.index t (1 : Fin 2) * 512 + 512; omega

theorem dense7_arr (c : Dev nD) :
    (dat7 (F := Ideal) V c).arrAt 3 cfg7.N
      = addf (F := Ideal) (Host.dotGeneral (F := Ideal) (φ₁ := .f32) (φ₂ := .f32) Cert.ReferenceIdeal.dot_S131072x512_S512x512_S131072x512_1_0_0_1_n_n none (Host.tanh (F := Ideal) (φ := .f32) (V c main_v118)) (V c main_v123))
          (broadcastInDim Cert.ReferenceIdeal.S131072x512 ![0, 1] Cert.ReferenceIdeal.Facts₀.bcast_S1x512_S131072x512_0_1
            (broadcastInDim Cert.ReferenceIdeal.S1x512 ![1] Cert.ReferenceIdeal.Facts₀.bcast_S512_S1x512_1 (V c main_v122))) :=
  ((dat7 V c).arrAt_eq_of_cover 3 _ (fun t _ => flushed7_eq V c t) cover7).trans
    (host_eq Cert.ReferenceIdeal.dot_S131072x512_S512x512_S131072x512_1_0_0_1_n_n rfl rfl rfl rfl rfl rfl none
      (Host.tanh (F := Ideal) (φ := .f32) (V c main_v118)) (V c main_v123) (V c main_v122) Cert.ReferenceIdeal.Facts₀.bcast_S512_S1x512_1
      Cert.ReferenceIdeal.Facts₀.bcast_S1x512_S131072x512_0_1).symm

end Cert.GNN

end
-- ==== Proof.Dense8.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay8_eq (x0 : Vec Ideal S2048x512 .f32) (x1 : Vec Ideal S512x768 .f32) (x2 : Vec Ideal S768 .f32) :
    k8_pay1 (F := Ideal) x0 x1 x2 = denseFn x0 x1 x2 := by
  unfold k8_pay1
  simp only [shapeCast_self]
  exact unit_eq dot_S2048x512_S512x768_S2048x768_1_0_0_1_n_n rfl rfl rfl rfl rfl rfl none
    (truncf .bf16 x0 bitsLt_bf16_f32) (truncf .bf16 x1 bitsLt_bf16_f32) x2 shapeCasts_S768_S1x768 broadcasts_S1x768_S2048x768

theorem idx_facts8 : ∀ t : Fin cfg8.N, win8_0.index t (0 : Fin 2) = t.val ∧ win8_0.index t (1 : Fin 2) = 0
    ∧ win8_1.index t (0 : Fin 2) = 0 ∧ win8_1.index t (1 : Fin 2) = 0 ∧ win8_2.index t (0 : Fin 1) = 0
    ∧ win8_3.index t (0 : Fin 2) = t.val ∧ win8_3.index t (1 : Fin 2) = 0 :=
  (by decide +kernel : ∀ t : Fin grid8.N, _)

theorem flushed8_eq (c : Dev nD) (t : Fin cfg8.N) :
    (dat8 (F := Ideal) V c).flushed 3 t = ((cfg8.win 3).blk t).view.read (Elt Ideal)
      (denseFn (R := 65536) (K := 512) (N := 768) (V c main_v139) (V c main_v144) (V c main_v143)) := by
  show (cfg8.win 3).cut (grid8.coords t) ((dat8 V c).after 3 t) = _
  rw [after8_3]
  unfold out8_3
  rw [View.canon_unit_zero zeros2]
  simp only [View.ld_unit_zero (S := S2048x512) zeros2, View.ld_unit_zero (S := S512x768) zeros2,
    View.ld_unit_zero (S := S768) zeros1]
  rw [pay8_eq]
  obtain ⟨e0, e1, e2, e3, e4, e5, e6⟩ := idx_facts8 t
  funext j
  show denseFn (R := 2048) (K := 512) (N := 768) (iblk8 V c 0 t) (iblk8 V c 1 t) (iblk8 V c 2 t) j
    = denseFn (R := 65536) (K := 512) (N := 768) (V c main_v139) (V c main_v144) (V c main_v143) (((cfg8.win 3).blk t).view.emb j)
  refine denseFn_at (B := 2048) (R := 65536) (K := 512) (N := 768) (iblk8 V c 0 t) (iblk8 V c 1 t) (iblk8 V c 2 t)
    (V c main_v139) (V c main_v144) (V c main_v143) j (((cfg8.win 3).blk t).view.emb j) (fun k => ?_) (funext fun y => ?_) (funext fun y => ?_) ?_
  · show (V c main_v139 (((cfg8.win 0).blk t).view.emb (ix2 (j 0) k))) = (V c main_v139 (ix2 ((((cfg8.win 3).blk t).view.emb j) 0) k))
    refine congrArg (fun z => (V c main_v139 z)) (funext fun a => Fin.ext ?_)
    match a with
    | ⟨0, _⟩ => show win8_0.index t (0 : Fin 2) * 2048 + 1 * (j 0).val = win8_3.index t (0 : Fin 2) * 2048 + 1 * (j 0).val; omega
    | ⟨1, _⟩ => show win8_0.index t (1 : Fin 2) * 512 + 1 * k.val = k.val; omega
  · show V c main_v144 (((cfg8.win 1).blk t).view.emb y) = V c main_v144 y
    refine congrArg (V c main_v144) (funext fun a => Fin.ext ?_)
    match a with
    | ⟨0, _⟩ => show win8_1.index t (0 : Fin 2) * 512 + 1 * (y 0).val = (y 0).val; omega
    | ⟨1, _⟩ => show win8_1.index t (1 : Fin 2) * 768 + 1 * (y 1).val = (y 1).val; omega
  · show V c main_v143 (((cfg8.win 2).blk t).view.emb y) = V c main_v143 y
    refine congrArg (V c main_v143) (funext fun a => Fin.ext ?_)
    match a with
    | ⟨0, _⟩ => show win8_2.index t (0 : Fin 1) * 768 + 1 * (y 0).val = (y 0).val; omega
  · show win8_3.index t (1 : Fin 2) * 768 + 1 * (j 1).val = (j 1).val; omega

theorem mem_blk8 (t : Fin cfg8.N) (i : S65536x768.Idx) :
    i ∈ ((cfg8.win 3).blk t).view.set ↔ ∀ a : Fin 2, win8_3.index t a * S2048x768.size a ≤ (i a).val ∧ (i a).val < win8_3.index t a * S2048x768.size a + S2048x768.size a := by
  show i ∈ ((View.whole main_v145).slice (win8_3.rect t)).set ↔ _
  rw [View.set_slice_whole, Rect.mem_set_unit]
  exact Iff.rfl

theorem cover8 (i : S65536x768.Idx) :
    ∃ t : Fin cfg8.N, (cfg8.win 3).flush t = true ∧ i ∈ ((cfg8.win 3).blk t).view.set := by
  have hi0 : (i 0).val < 65536 := (i 0).isLt
  have hi1 : (i 1).val < 768 := (i 1).isLt
  have hN : cfg8.N = 32 := N_8
  let t : Fin cfg8.N := ⟨(i 0).val / 2048, by rw [hN]; omega⟩
  obtain ⟨e0, e1, e2, e3, e4, e5, e6⟩ := idx_facts8 t
  have ht : t.val = (i 0).val / 2048 := rfl
  refine ⟨t, flush8_3 t, ?_⟩
  rw [mem_blk8]
  intro a
  match a with
  | ⟨0, _⟩ => show win8_3.index t (0 : Fin 2) * 2048 ≤ (i 0).val ∧ (i 0).val < win8_3.index t (0 : Fin 2) * 2048 + 2048; omega
  | ⟨1, _⟩ => show win8_3.index t (1 : Fin 2) * 768 ≤ (i 1).val ∧ (i 1).val < win8_3.index t (1 : Fin 2) * 768 + 768; omega

theorem dense8_arr (c : Dev nD) :
    (dat8 (F := Ideal) V c).arrAt 3 cfg8.N
      = addf (F := Ideal) (Host.dotGeneral (F := Ideal) (φ₁ := .f32) (φ₂ := .f32) Cert.ReferenceIdeal.dot_S65536x512_S512x768_S65536x768_1_0_0_1_n_n none (V c main_v139) (V c main_v144))
          (broadcastInDim Cert.ReferenceIdeal.S65536x768 ![0, 1] Cert.ReferenceIdeal.Facts₀.bcast_S1x768_S65536x768_0_1
            (broadcastInDim Cert.ReferenceIdeal.S1x768 ![1] Cert.ReferenceIdeal.Facts₀.bcast_S768_S1x768_1 (V c main_v143))) :=
  ((dat8 V c).arrAt_eq_of_cover 3 _ (fun t _ => flushed8_eq V c t) cover8).trans
    (host_eq Cert.ReferenceIdeal.dot_S65536x512_S512x768_S65536x768_1_0_0_1_n_n rfl rfl rfl rfl rfl rfl none
      (V c main_v139) (V c main_v144) (V c main_v143) Cert.ReferenceIdeal.Facts₀.bcast_S768_S1x768_1
      Cert.ReferenceIdeal.Facts₀.bcast_S1x768_S65536x768_0_1).symm

end Cert.GNN

end
-- ==== Proof.Dense9.lean ====
import proofs.«404942_j76501957477039_1_alg».proof.Proof.Gen.KernelIdeal.Frame
import proofs.«404942_j76501957477039_1_alg».proof.Proof.Gen.ReferenceIdeal
import proofs.«404942_j76501957477039_1_alg».proof.Proof.DenseLib
import Idealize.ShloMosaic.Lib.Pipeline.Value
import Idealize.ShloMosaic.Lib.Tactic

set_option maxRecDepth 16384

noncomputable section

namespace Cert.GNN

open Idealize.ShloMosaic Idealize.ShloMosaic.TcCoe Idealize.SL.Sem Idealize.ShloMosaic.ValueIdx
open Idealize.ShloMosaic.Pipeline (Dat)
open Cert.KernelIdeal Cert.KernelIdeal.Gen
open Cert.GNN.Dense

variable (V : (c : Dev nD) → (b : Ref sig .tc) → Buf (Elt Ideal) ((c : Thread nD τ).loc b))

theorem pay9_eq (x0 : Vec Ideal S2048x256 .f32) (x1 : Vec Ideal S256x768 .f32) (x2 : Vec Ideal S768 .f32) :
    k9_pay1 (F := Ideal) x0 x1 x2 = denseFn x0 x1 x2 := by
  unfold k9_pay1
  simp only [shapeCast_self]
  exact unit_eq dot_S2048x256_S256x768_S2048x768_1_0_0_1_n_n rfl rfl rfl rfl rfl rfl none
    (truncf .bf16 x0 bitsLt_bf16_f32) (truncf .bf16 x1 bitsLt_bf16_f32) x2 shapeCasts_S768_S1x768 broadcasts_S1x768_S2048x768

theorem idx_facts9 : ∀ t : Fin cfg9.N, win9_0.index t (0 : Fin 2) = t.val ∧ win9_0.index t (1 : Fin 2) = 0
    ∧ win9_1.index t (0 : Fin 2) = 0 ∧ win9_1.index t (1 : Fin 2) = 0 ∧ win9_2.index t (0 : Fin 1) = 0
    ∧ win9_3.index t (0 : Fin 2) = t.val ∧ win9_3.index t (1 : Fin 2) = 0 :=
  (by decide +kernel : ∀ t : Fin grid9.N, _)

theorem flushed9_eq (c : Dev nD) (t : Fin cfg9.N) :
    (dat9 (F := Ideal) V c).flushed 3 t = ((cfg9.win 3).blk t).view.read (Elt Ideal)
      (denseFn (R := 65536) (K := 256) (N := 768) (V c main_v94) (V c main_v150) (V c main_v149)) := by
  show (cfg9.win 3).cut (grid9.coords t) ((dat9 V c).after 3 t) = _
  rw [after9_3]
  unfold out9_3
  rw [View.canon_unit_zero zeros2]
  simp only [View.ld_unit_zero (S := S2048x256) zeros2, View.ld_unit_zero (S := S256x768) zeros2,
    View.ld_unit_zero (S := S768) zeros1]
  rw [pay9_eq]
  obtain ⟨e0, e1, e2, e3, e4, e5, e6⟩ := idx_facts9 t
  funext j
  show denseFn (R := 2048) (K := 256) (N := 768) (iblk9 V c 0 t) (iblk9 V c 1 t) (iblk9 V c 2 t) j
    = denseFn (R := 65536) (K := 256) (N := 768) (V c main_v94) (V c main_v150) (V c main_v149) (((cfg9.win 3).blk t).view.emb j)
  refine denseFn_at (B := 2048) (R := 65536) (K := 256) (N := 768) (iblk9 V c 0 t) (iblk9 V c 1 t) (iblk9 V c 2 t)
    (V c main_v94) (V c main_v150) (V c main_v149) j (((cfg9.win 3).blk t).view.emb j) (fun k => ?_) (funext fun y => ?_) (funext fun y => ?_) ?_
  · show (V c main_v94 (((cfg9.win 0).blk t).view.emb (ix2 (j 0) k))) = (V c main_v94 (ix2 ((((cfg9.win 3).blk t).view.emb j) 0) k))
    refine congrArg (fun z => (V c main_v94 z)) (funext fun a => Fin.ext ?_)
    match a with
    | ⟨0, _⟩ => show win9_0.index t (0 : Fin 2) * 2048 + 1 * (j 0).val = win9_3.index t (0 : Fin 2) * 2048 + 1 * (j 0).val; omega
    | ⟨1, _⟩ => show win9_0.index t (1 : Fin 2) * 256 + 1 * k.val = k.val; omega
  · show V c main_v150 (((cfg9.win 1).blk t).view.emb y) = V c main_v150 y
    refine congrArg (V c main_v150) (funext fun a => Fin.ext ?_)
    match a with
    | ⟨0, _⟩ => show win9_1.index t (0 : Fin 2) * 256 + 1 * (y 0).val = (y 0).val; omega
    | ⟨1, _⟩ => show win9_1.index t (1 : Fin 2) * 768 + 1 * (y 1).val = (y 1).val; omega
  · show V c main_v149 (((cfg9.win 2).blk t).view.emb y) = V c main_v149 y
    refine congrArg (V c main_v149) (funext fun a => Fin.ext ?_)
    match a with
    | ⟨0, _⟩ => show win9_2.index t (0 : Fin 1) * 768 + 1 * (y 0).val = (y 0).val; omega
  · show win9_3.index t (1 : Fin 2) * 768 + 1 * (j 1).val = (j 1).val; omega

theorem mem_blk9 (t : Fin cfg9.N) (i : S65536x768.Idx) :
    i ∈ ((cfg9.win 3).blk t).view.set ↔ ∀ a : Fin 2, win9_3.index t a * S2048x768.size a ≤ (i a).val ∧ (i a).val < win9_3.index t a * S2048x768.size a + S2048x768.size a := by
  show i ∈ ((View.whole main_v151).slice (win9_3.rect t)).set ↔ _
  rw [View.set_slice_whole, Rect.mem_set_unit]
  exact Iff.rfl

theorem cover9 (i : S65536x768.Idx) :
    ∃ t : Fin cfg9.N, (cfg9.win 3).flush t = true ∧ i ∈ ((cfg9.win 3).blk t).view.set := by
  have hi0 : (i 0).val < 65536 := (i 0).isLt
  have hi1 : (i 1).val < 768 := (i 1).isLt
  have hN : cfg9.N = 32 := N_9
  let t : Fin cfg9.N := ⟨(i 0).val / 2048, by rw [hN]; omega⟩
  obtain ⟨e0, e1, e2, e3, e4, e5, e6⟩ := idx_facts9 t
  have ht : t.val = (i 0).val / 2048 := rfl
  refine ⟨t, flush9_3 t, ?_⟩
  rw [mem_blk9]
  intro a
  match a with
  | ⟨0, _⟩ => show win9_3.index t (0 : Fin 2) * 2048 ≤ (i 0).val ∧ (i 0).val < win9_3.index t (0 : Fin 2) * 2048 + 2048; omega
  | ⟨1, _⟩ => show win9_3.index t (1 : Fin 2) * 768 ≤ (i 1).val ∧ (i 1).val < win9_3.index t (1 : Fin 2) * 768 + 768; omega

theorem dense9_arr (c : Dev nD) :
    (dat9 (F := Ideal) V c).arrAt 3 cfg9.N
      = addf (F := Ideal) (Host.dotGeneral (F := Ideal) (φ₁ := .f32) (φ₂ := .f32) Cert.ReferenceIdeal.dot_S65536x256_S256x768_S65536x768_1_0_0_1_n_n none (V c main_v94) (V c main_v150))
          (broadcastInDim Cert.ReferenceIdeal.S65536x768 ![0, 1] Cert.ReferenceIdeal.Facts₀.bcast_S1x768_S65536x768_0_1
            (broadcastInDim Cert.ReferenceIdeal.S1x768 ![1] Cert.ReferenceIdeal.Facts₀.bcast_S768_S1x768_1 (V c main_v149))) :=
  ((dat9 V c).arrAt_eq_of_cover 3 _ (fun t _ => flushed9_eq V c t) cover9).trans
    (host_eq Cert.ReferenceIdeal.dot_S65536x256_S256x768_S65536x768_1_0_0_1_n_n rfl rfl rfl rfl rfl rfl none
      (V c main_v94) (V c main_v150) (V c main_v149) Cert.ReferenceIdeal.Facts₀.bcast_S768_S1x768_1
      Cert.ReferenceIdeal.Facts₀.bcast_S1x768_S65536x768_0_1).symm

end Cert.GNN

end
-- ==== Proof.Agg10Pieces.lean ====
import proofs.«404942_j76501957477039_1_alg».proof.Proof.Gen.KernelIdeal.Frame
import Idealize.ShloMosaic.Lib.Pipeline.Value
import Idealize.ShloMosaic.Lib.Tactic

noncomputable section

namespace Cert.GNN.Agg10

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

section Pieces

variable (c : Dev nD) (i : grid10.Coords)
  (a1 : Memref sig .tc .vmem S1024x256 .f32) (h1 : a1.IsWhole) (a2 : Memref sig .tc .vmem S1x1024 .i32) (h2 : a2.IsWhole)
  (a3 : Memref sig .tc .vmem S256x512 .f32) (h3 : a3.IsWhole) (a4 : Memref sig .tc .vmem S512 .f32) (h4 : a4.IsWhole)
  (a5 : Memref sig .tc .vmem S256x512 .f32) (h5 : a5.IsWhole) (a6 : Memref sig .tc .vmem S512 .f32) (h6 : a6.IsWhole)
  (a7 : Memref sig .tc .vmem S256x512 .f32) (h7 : a7.IsWhole) (a8 : Memref sig .tc .vmem S512 .f32) (h8 : a8.IsWhole)
  (a9 : Memref sig .tc .vmem S256x512 .f32) (h9 : a9.IsWhole) (a10 : Memref sig .tc .vmem S512 .f32) (h10 : a10.IsWhole)
  (a11 : Memref sig .tc .vmem S512x512 .f32) (h11 : a11.IsWhole) (a12 : Memref sig .tc .vmem S512x512 .f32) (h12 : a12.IsWhole)
  (x0 : Vec F S1024x256 .f32) (x1 : Vec F S1x1024 .i32) (x2 : Vec F S256x512 .f32) (x3 : Vec F S512 .f32)
  (x4 : Vec F S256x512 .f32) (x5 : Vec F S512 .f32) (x6 : Vec F S256x512 .f32) (x7 : Vec F S512 .f32)
  (x8 : Vec F S256x512 .f32) (x9 : Vec F S512 .f32)

theorem out_B_10 (hc : ¬cond10_0 i) (xo10 xo11 : Vec F S512x512 .f32) :
    out10_B_10 c i a1 h1 a2 h2 a3 h3 a4 h4 a5 h5 a6 h6 a7 h7 a8 h8 a9 h9 a10 h10 a11 h11 a12 h12 hc x0 x1 x2 x3 x4 x5 x6 x7 x8 x9 xo10 xo11
      = k10_pay2 (k10_pay7 x0 x2 x4 x3 x5) x1 xo10 := by
  unfold out10_B_10
  rw [View.read_writes_eq_canon _ _ _ (cover10_B_10 c i a1 h1 a2 h2 a3 h3 a4 h4 a5 h5 a6 h6 a7 h7 a8 h8 a9 h9 a10 h10 a11 h11 a12 h12 hc x0 x1 x2 x3 x4 x5 x6 x7 x8 x9 xo10 xo11)]
  unfold kernelRun10_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x256) hz2, View.ld_unit_zero (S := S1x1024) hz2, View.ld_unit_zero (S := S256x512) hz2, View.ld_unit_zero (S := S512) hz1, View.ld_unit_zero (S := S512x512) hz2]

theorem out_B_11 (hc : ¬cond10_0 i) (xo10 xo11 : Vec F S512x512 .f32) :
    out10_B_11 c i a1 h1 a2 h2 a3 h3 a4 h4 a5 h5 a6 h6 a7 h7 a8 h8 a9 h9 a10 h10 a11 h11 a12 h12 hc x0 x1 x2 x3 x4 x5 x6 x7 x8 x9 xo10 xo11
      = k10_pay3 (k10_pay8 x0 x6 x7) (k10_pay9 x0 x8) x9 x1 xo11 := by
  unfold out10_B_11
  rw [View.read_writes_eq_canon _ _ _ (cover10_B_11 c i a1 h1 a2 h2 a3 h3 a4 h4 a5 h5 a6 h6 a7 h7 a8 h8 a9 h9 a10 h10 a11 h11 a12 h12 hc x0 x1 x2 x3 x4 x5 x6 x7 x8 x9 xo10 xo11)]
  unfold kernelRun10_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x256) hz2, View.ld_unit_zero (S := S1x1024) hz2, View.ld_unit_zero (S := S256x512) hz2, View.ld_unit_zero (S := S512) hz1, View.ld_unit_zero (S := S512x512) hz2]

theorem out_A_10 (hc : cond10_0 i) :
    out10_A_10 c i a1 h1 a2 h2 a3 h3 a4 h4 a5 h5 a6 h6 a7 h7 a8 h8 a9 h9 a10 h10 a11 h11 a12 h12 hc x0 x1 x2 x3 x4 x5 x6 x7 x8 x9
      = k10_pay2 (k10_pay7 x0 x2 x4 x3 x5) x1 (k10_pay4 (F := F)) := by
  unfold out10_A_10
  rw [View.read_writes_eq_canon _ _ _ (cover10_A_10 c i a1 h1 a2 h2 a3 h3 a4 h4 a5 h5 a6 h6 a7 h7 a8 h8 a9 h9 a10 h10 a11 h11 a12 h12 hc x0 x1 x2 x3 x4 x5 x6 x7 x8 x9)]
  unfold kernelRun10_A
  dsimp only
  sl_unfold_words
  rw [View.canon_cons_unit_zero (S := S512x512) hz2, View.readCov_unit_zero (S := S512x512) _ hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x256) hz2, View.ld_unit_zero (S := S1x1024) hz2, View.ld_unit_zero (S := S256x512) hz2, View.ld_unit_zero (S := S512) hz1, View.ld_unit_zero (S := S512x512) hz2]

theorem out_A_11 (hc : cond10_0 i) :
    out10_A_11 c i a1 h1 a2 h2 a3 h3 a4 h4 a5 h5 a6 h6 a7 h7 a8 h8 a9 h9 a10 h10 a11 h11 a12 h12 hc x0 x1 x2 x3 x4 x5 x6 x7 x8 x9
      = k10_pay3 (k10_pay8 x0 x6 x7) (k10_pay9 x0 x8) x9 x1 (k10_pay5 (F := F)) := by
  unfold out10_A_11
  rw [View.read_writes_eq_canon _ _ _ (cover10_A_11 c i a1 h1 a2 h2 a3 h3 a4 h4 a5 h5 a6 h6 a7 h7 a8 h8 a9 h9 a10 h10 a11 h11 a12 h12 hc x0 x1 x2 x3 x4 x5 x6 x7 x8 x9)]
  unfold kernelRun10_A
  dsimp only
  sl_unfold_words
  rw [View.canon_cons_unit_zero (S := S512x512) hz2, View.readCov_unit_zero (S := S512x512) _ hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S1024x256) hz2, View.ld_unit_zero (S := S1x1024) hz2, View.ld_unit_zero (S := S256x512) hz2, View.ld_unit_zero (S := S512) hz1, View.ld_unit_zero (S := S512x512) hz2]

end Pieces

end Cert.GNN.Agg10

end
-- ==== Proof.AggSpec.lean ====
import Idealize.ShloMosaic.PureOps.Ideal
import Idealize.ShloMosaic.Lib.ValueIdx
import proofs.«404942_j76501957477039_1_alg».proof.Proof.LibMatProd

noncomputable section

namespace Cert.GNN

open Idealize.ShloMosaic Idealize.ShloMosaic.ValueIdx MatProd

def gated (X : (⟨2, ![65536, 256]⟩ : Shape).Idx → EReal) (TW : (⟨2, ![256, 512]⟩ : Shape).Idx → EReal) (TB : (⟨1, ![512]⟩ : Shape).Idx → EReal)
    (GW : (⟨2, ![256, 512]⟩ : Shape).Idx → EReal) (GB : (⟨1, ![512]⟩ : Shape).Idx → EReal) : (⟨2, ![65536, 512]⟩ : Shape).Idx → EReal :=
  fun i => (mmP X TW i + TB (ix1 (i 1))) * Ideal.logistic (mmP X GW i + GB (ix1 (i 1)))

def ownerMask (O : (⟨2, ![1, 65536]⟩ : Shape).Idx → BitVec 32) : (⟨2, ![512, 65536]⟩ : Shape).Idx → EReal :=
  fun i => if BitVec.ofNat 32 (i 0).val = O (ix2 0 (i 1)) then 1 else 0

def aggSum (X : (⟨2, ![65536, 256]⟩ : Shape).Idx → EReal) (O : (⟨2, ![1, 65536]⟩ : Shape).Idx → BitVec 32)
    (TW : (⟨2, ![256, 512]⟩ : Shape).Idx → EReal) (TB : (⟨1, ![512]⟩ : Shape).Idx → EReal)
    (GW : (⟨2, ![256, 512]⟩ : Shape).Idx → EReal) (GB : (⟨1, ![512]⟩ : Shape).Idx → EReal) : (⟨2, ![512, 512]⟩ : Shape).Idx → EReal :=
  mmP (ownerMask O) (gated X TW TB GW GB)

end Cert.GNN
-- ==== Proof.Agg10Pay.lean ====
import proofs.«404942_j76501957477039_1_alg».proof.Proof.Gen.KernelIdeal.Skeleton
import proofs.«404942_j76501957477039_1_alg».proof.Proof.AggSpec
import proofs.«404942_j76501957477039_1_alg».proof.Proof.LibDotPlain
import Idealize.ShloMosaic.Lib.ValueLayout
import Idealize.ShloMosaic.Lib.StableHlo.Predicate

noncomputable section

namespace Cert.GNN.Agg10

open Idealize.ShloMosaic Idealize.ShloMosaic.ValueIdx MatProd
open Cert.KernelIdeal Cert.KernelIdeal.Gen

def gatedTile (X : S1024x256.Idx → EReal) (TW : S256x512.Idx → EReal) (TB : S512.Idx → EReal)
    (GW : S256x512.Idx → EReal) (GB : S512.Idx → EReal) : S1024x512.Idx → EReal :=
  fun i => (mmP X TW i + TB (ix1 (i 1))) * Ideal.logistic (mmP X GW i + GB (ix1 (i 1)))

def maskTile (O : S1x1024.Idx → BitVec 32) : S512x1024.Idx → EReal :=
  fun i => if BitVec.ofNat 32 (i 0).val = O (ix2 (0 : Fin 1) (i 1)) then 1 else 0

theorem bias_apply (v : FVec Ideal S512 .f32) (j : Fin 1024) (a : Fin 512) :
    broadcastTo S1024x512 (shapeCast S1x512 v shapeCasts_S512_S1x512) broadcasts_S1x512_S1024x512 (ix2 j a) = v (ix1 a) :=
  (broadcastTo_1b_ab_apply (shapeCast S1x512 v shapeCasts_S512_S1x512) broadcasts_S1x512_S1024x512 j a).trans
    (shapeCast_a_1a_apply v shapeCasts_S512_S1x512 (0 : Fin 1) a)

theorem pay6_eq (x0 : FVec Ideal S1024x256 .f32) : (k10_pay6 (F := Ideal) x0 : S1024x256.Idx → EReal) = x0 := by
  unfold k10_pay6
  exact shapeCast_self x0 shapeCasts_S1024x256_S1024x256

theorem mm_rows (x0 : FVec Ideal S1024x256 .f32) (W : FVec Ideal S256x512 .f32) :
    (matmul (F := Ideal) dot_S1024x256_S256x512_S1024x512_1_0_0_1_n_n none (k10_pay6 (F := Ideal) x0)
      (truncf .bf16 (shapeCast S256x512 W shapeCasts_S256x512_S256x512) bitsLt_bf16_f32)
      (constant (F := Ideal) S1024x512 .f32 0x00000000#32) : S1024x512.Idx → EReal) = mmP x0 W := by
  have e1 : (truncf .bf16 (shapeCast S256x512 W shapeCasts_S256x512_S256x512) bitsLt_bf16_f32 : FVec Ideal S256x512 .bf16) = W :=
    shapeCast_self W shapeCasts_S256x512_S256x512
  rw [e1, pay6_eq]
  exact Idealize.ShloMosaic.DotPlain.matmul_zero_eq dot_S1024x256_S256x512_S1024x512_1_0_0_1_n_n rfl rfl rfl rfl rfl rfl none x0 W

theorem pay7_eq (x0 : FVec Ideal S1024x256 .f32) (x2 x4 : FVec Ideal S256x512 .f32) (x3 x5 : FVec Ideal S512 .f32) :
    (k10_pay7 (F := Ideal) x0 x2 x4 x3 x5 : S1024x512.Idx → EReal) = gatedTile x0 x2 x3 x4 x5 := by
  funext i
  obtain ⟨j, a, rfl⟩ : ∃ (j : Fin 1024) (a : Fin 512), i = ix2 j a := ⟨i 0, i 1, eq_ix2 i⟩
  unfold k10_pay7 gatedTile
  refine congrArg₂ (· * ·) (congrArg₂ (· + ·) (congrFun (mm_rows x0 x2) (ix2 j a)) (bias_apply x3 j a)) ?_
  exact congrArg Ideal.logistic (congrArg₂ (· + ·) (congrFun (mm_rows x0 x4) (ix2 j a)) (bias_apply x5 j a))

theorem pay8_apply (x0 : FVec Ideal S1024x256 .f32) (x6 : FVec Ideal S256x512 .f32) (x7 : FVec Ideal S512 .f32)
    (j : Fin 1024) (a : Fin 512) :
    (k10_pay8 (F := Ideal) x0 x6 x7 : S1024x512.Idx → EReal) (ix2 j a) = mmP x0 x6 (ix2 j a) + x7 (ix1 a) := by
  unfold k10_pay8
  exact congrArg₂ (· + ·) (congrFun (mm_rows x0 x6) (ix2 j a)) (bias_apply x7 j a)

theorem pay9_eq (x0 : FVec Ideal S1024x256 .f32) (x8 : FVec Ideal S256x512 .f32) :
    (k10_pay9 (F := Ideal) x0 x8 : S1024x512.Idx → EReal) = mmP x0 x8 := by
  unfold k10_pay9
  dsimp only
  exact mm_rows x0 x8

theorem pay1_eq (x1 : Vec Ideal S1x1024 .i32) : (k10_pay1 (F := Ideal) x1 : S512x1024.Idx → EReal) = maskTile x1 := by
  funext i
  obtain ⟨b, j, rfl⟩ : ∃ (b : Fin 512) (j : Fin 1024), i = ix2 b j := ⟨i 0, i 1, eq_ix2 i⟩
  unfold k10_pay1 maskTile
  dsimp only
  have hb : broadcastTo S512x1024 (shapeCast S1x1024 (shapeCast S1x1024 x1 shapeCasts_S1x1024_S1x1024) shapeCasts_S1x1024_S1x1024)
      broadcasts_S1x1024_S512x1024 (ix2 b j) = x1 (ix2 (0 : Fin 1) j) := by
    rw [shapeCast_self, shapeCast_self]
    exact broadcastTo_1b_ab_apply x1 broadcasts_S1x1024_S512x1024 b j
  have hi : iota .tc S512x1024 32 [0] iota_S512x1024_d0_w32 (ix2 b j) = BitVec.ofNat 32 b.val :=
    iota_single_apply .tc S512x1024 32 0 iota_S512x1024_d0_w32 (ix2 b j)
  show ((((IntOp.cmpi .eq (iota .tc S512x1024 32 [0] iota_S512x1024_d0_w32 (ix2 b j))
      (broadcastTo S512x1024 (shapeCast S1x1024 (shapeCast S1x1024 x1 shapeCasts_S1x1024_S1x1024) shapeCasts_S1x1024_S1x1024)
        broadcasts_S1x1024_S512x1024 (ix2 b j))).setWidth 32).toInt : ℝ) : EReal) = _
  rw [hb, hi]
  by_cases h : BitVec.ofNat 32 b.val = x1 (ix2 (0 : Fin 1) j)
  · rw [if_pos h, (Idealize.ShloMosaic.StableHlo.Predicate.cmpi_eq_iff).mpr h]
    norm_num
  · rw [if_neg h]
    have : IntOp.cmpi .eq (BitVec.ofNat 32 b.val) (x1 (ix2 (0 : Fin 1) j)) = 0#1 :=
      eq_zero_of_ne_one (fun hc => h ((Idealize.ShloMosaic.StableHlo.Predicate.cmpi_eq_iff).mp hc))
    rw [this]
    norm_num

theorem pay2_apply (D : FVec Ideal S1024x512 .bf16) (x1 : Vec Ideal S1x1024 .i32) (prev : FVec Ideal S512x512 .f32)
    (b a : Fin 512) :
    (k10_pay2 (F := Ideal) D x1 prev : S512x512.Idx → EReal) (ix2 b a)
      = prev (ix2 b a) + ∑ j : Fin 1024, maskTile x1 (ix2 b j) * D (ix2 j a) := by
  unfold k10_pay2
  refine congrArg₂ (· + ·) (congrFun (shapeCast_self prev shapeCasts_S512x512_S512x512) (ix2 b a)) ?_
  rw [pay1_eq]
  exact congrFun (Idealize.ShloMosaic.DotPlain.matmul_zero_eq dot_S512x1024_S1024x512_S512x512_1_0_0_1_n_n rfl rfl rfl rfl rfl rfl none
    (maskTile x1) D) (ix2 b a)

theorem pay3_apply (x0 : FVec Ideal S1024x256 .f32) (x6 x8 : FVec Ideal S256x512 .f32) (x7 x9 : FVec Ideal S512 .f32)
    (x1 : Vec Ideal S1x1024 .i32) (prev : FVec Ideal S512x512 .f32) (b a : Fin 512) :
    (k10_pay3 (F := Ideal) (k10_pay8 (F := Ideal) x0 x6 x7) (k10_pay9 (F := Ideal) x0 x8) x9 x1 prev : S512x512.Idx → EReal) (ix2 b a)
      = prev (ix2 b a) + ∑ j : Fin 1024, maskTile x1 (ix2 b j) * gatedTile x0 x6 x7 x8 x9 (ix2 j a) := by
  unfold k10_pay3
  refine congrArg₂ (· + ·) (congrFun (shapeCast_self prev shapeCasts_S512x512_S512x512) (ix2 b a)) ?_
  rw [pay1_eq]
  refine (congrFun (Idealize.ShloMosaic.DotPlain.matmul_zero_eq dot_S512x1024_S1024x512_S512x512_1_0_0_1_n_n rfl rfl rfl rfl rfl rfl none
    (maskTile x1) _) (ix2 b a)).trans ?_
  refine Finset.sum_congr rfl fun j _ => congrArg (maskTile x1 (ix2 b j) * ·) ?_
  show (k10_pay8 (F := Ideal) x0 x6 x7 : S1024x512.Idx → EReal) (ix2 j a)
      * Ideal.logistic ((k10_pay9 (F := Ideal) x0 x8 : S1024x512.Idx → EReal) (ix2 j a)
        + broadcastTo S1024x512 (shapeCast S1x512 x9 shapeCasts_S512_S1x512) broadcasts_S1x512_S1024x512 (ix2 j a)) = _
  rw [pay8_apply, pay9_eq, bias_apply]
  rfl

theorem pay4_apply (i : S512x512.Idx) : (k10_pay4 (F := Ideal) : S512x512.Idx → EReal) i = 0 := by
  unfold k10_pay4
  exact Ideal.ofBits_zero_f32

theorem pay5_apply (i : S512x512.Idx) : (k10_pay5 (F := Ideal) : S512x512.Idx → EReal) i = 0 := by
  unfold k10_pay5
  exact Ideal.ofBits_zero_f32

end Cert.GNN.Agg10

end
-- ==== Proof.Agg10.lean ====
import proofs.«404942_j76501957477039_1_alg».proof.Proof.Agg10Pieces
import proofs.«404942_j76501957477039_1_alg».proof.Proof.Agg10Pay
import Idealize.ShloMosaic.Lib.Pipeline.Value
import Mathlib.Algebra.BigOperators.Fin

noncomputable section

namespace Cert.GNN.Agg10

open Idealize.ShloMosaic Idealize.ShloMosaic.TcCoe Idealize.ShloMosaic.ValueIdx MatProd
open Idealize.ShloMosaic.Pipeline (Dat)
open Cert.KernelIdeal Cert.KernelIdeal.Gen

def term (M : (⟨2, ![512, 65536]⟩ : Shape).Idx → EReal) (G : (⟨2, ![65536, 512]⟩ : Shape).Idx → EReal)
    (b a : Fin 512) (k : ℕ) : EReal :=
  if h : k < 65536 then M (ix2 b ⟨k, h⟩) * G (ix2 ⟨k, h⟩ a) else 0

theorem mmP_eq_sum_range (M : (⟨2, ![512, 65536]⟩ : Shape).Idx → EReal) (G : (⟨2, ![65536, 512]⟩ : Shape).Idx → EReal)
    (b a : Fin 512) : mmP M G (ix2 b a) = ∑ k ∈ Finset.range 65536, term M G b a k := by
  rw [mmP_apply, Finset.sum_range]
  refine Finset.sum_congr rfl fun j _ => ?_
  unfold term
  rw [dif_pos j.isLt]

theorem tile_sum (M : (⟨2, ![512, 65536]⟩ : Shape).Idx → EReal) (G : (⟨2, ![65536, 512]⟩ : Shape).Idx → EReal)
    (b a : Fin 512) (t : ℕ) (ht : t < 64) (Mt : S512x1024.Idx → EReal) (Gt : S1024x512.Idx → EReal)
    (hM : ∀ (j : Fin 1024) (h : 1024 * t + j.val < 65536), Mt (ix2 b j) = M (ix2 b ⟨1024 * t + j.val, h⟩))
    (hG : ∀ (j : Fin 1024) (h : 1024 * t + j.val < 65536), Gt (ix2 j a) = G (ix2 ⟨1024 * t + j.val, h⟩ a)) :
    ∑ j : Fin 1024, Mt (ix2 b j) * Gt (ix2 j a) = ∑ s ∈ Finset.range 1024, term M G b a (1024 * t + s) := by
  rw [Finset.sum_range]
  refine Finset.sum_congr rfl fun j _ => ?_
  have h : 1024 * t + j.val < 65536 := by have := j.isLt; omega
  unfold term
  rw [dif_pos h, hM j h, hG j h]

theorem acc_step (M : (⟨2, ![512, 65536]⟩ : Shape).Idx → EReal) (G : (⟨2, ![65536, 512]⟩ : Shape).Idx → EReal)
    (b a : Fin 512) (t : ℕ) (ht : t < 64) (Mt : S512x1024.Idx → EReal) (Gt : S1024x512.Idx → EReal)
    (hM : ∀ (j : Fin 1024) (h : 1024 * t + j.val < 65536), Mt (ix2 b j) = M (ix2 b ⟨1024 * t + j.val, h⟩))
    (hG : ∀ (j : Fin 1024) (h : 1024 * t + j.val < 65536), Gt (ix2 j a) = G (ix2 ⟨1024 * t + j.val, h⟩ a))
    (p : EReal) (hp : p = ∑ k ∈ Finset.range (1024 * t), term M G b a k) :
    p + ∑ j : Fin 1024, Mt (ix2 b j) * Gt (ix2 j a) = ∑ k ∈ Finset.range (1024 * (t + 1)), term M G b a k := by
  rw [hp, tile_sum M G b a t ht Mt Gt hM hG, Nat.mul_add, Nat.mul_one, Finset.sum_range_add]

theorem maskTile_blk (O : (⟨2, ![1, 65536]⟩ : Shape).Idx → BitVec 32) (Ot : S1x1024.Idx → BitVec 32) (t : ℕ)
    (hO : ∀ (j : Fin 1024) (h : 1024 * t + j.val < 65536), Ot (ix2 (0 : Fin 1) j) = O (ix2 (0 : Fin 1) ⟨1024 * t + j.val, h⟩))
    (b : Fin 512) (j : Fin 1024) (h : 1024 * t + j.val < 65536) :
    maskTile Ot (ix2 b j) = ownerMask O (ix2 b ⟨1024 * t + j.val, h⟩) := by
  show (if BitVec.ofNat 32 b.val = Ot (ix2 (0 : Fin 1) j) then (1 : EReal) else 0)
    = if BitVec.ofNat 32 b.val = O (ix2 (0 : Fin 1) ⟨1024 * t + j.val, h⟩) then (1 : EReal) else 0
  rw [hO j h]

theorem gatedTile_blk (X : (⟨2, ![65536, 256]⟩ : Shape).Idx → EReal) (Xt : S1024x256.Idx → EReal)
    (TW : (⟨2, ![256, 512]⟩ : Shape).Idx → EReal) (TB : (⟨1, ![512]⟩ : Shape).Idx → EReal)
    (GW : (⟨2, ![256, 512]⟩ : Shape).Idx → EReal) (GB : (⟨1, ![512]⟩ : Shape).Idx → EReal)
    (n : Fin 65536) (j : Fin 1024) (hX : ∀ k : Fin 256, Xt (ix2 j k) = X (ix2 n k)) (a : Fin 512) :
    gatedTile Xt TW TB GW GB (ix2 j a) = gated X TW TB GW GB (ix2 n a) := by
  have hm : ∀ W : (⟨2, ![256, 512]⟩ : Shape).Idx → EReal, mmP Xt W (ix2 j a) = mmP X W (ix2 n a) := fun W => by
    rw [mmP_apply, mmP_apply]
    exact Finset.sum_congr rfl fun k _ => by rw [hX k]
  show (mmP Xt TW (ix2 j a) + TB (ix1 a)) * Ideal.logistic (mmP Xt GW (ix2 j a) + GB (ix1 a))
    = (mmP X TW (ix2 n a) + TB (ix1 a)) * Ideal.logistic (mmP X GW (ix2 n a) + GB (ix1 a))
  rw [hm, hm]

variable (V : (c : Dev nD) → (b : Ref sig .tc) → Buf (Elt Ideal) ((c : Thread nD τ).loc b))

theorem idx_facts : ∀ t : Fin cfg10.N,
    win10_0.index t (0 : Fin 2) = t.val ∧ win10_0.index t (1 : Fin 2) = 0
    ∧ win10_1.index t (0 : Fin 2) = 0 ∧ win10_1.index t (1 : Fin 2) = t.val
    ∧ win10_2.index t (0 : Fin 2) = 0 ∧ win10_2.index t (1 : Fin 2) = 0 ∧ win10_3.index t (0 : Fin 1) = 0
    ∧ win10_4.index t (0 : Fin 2) = 0 ∧ win10_4.index t (1 : Fin 2) = 0 ∧ win10_5.index t (0 : Fin 1) = 0
    ∧ win10_6.index t (0 : Fin 2) = 0 ∧ win10_6.index t (1 : Fin 2) = 0 ∧ win10_7.index t (0 : Fin 1) = 0
    ∧ win10_8.index t (0 : Fin 2) = 0 ∧ win10_8.index t (1 : Fin 2) = 0 ∧ win10_9.index t (0 : Fin 1) = 0
    ∧ win10_10.index t (0 : Fin 2) = 0 ∧ win10_10.index t (1 : Fin 2) = 0
    ∧ win10_11.index t (0 : Fin 2) = 0 ∧ win10_11.index t (1 : Fin 2) = 0 :=
  (by decide +kernel : ∀ t : Fin grid10.N, _)

abbrev xblk (c : Dev nD) (t : Fin cfg10.N) : Vec Ideal S1024x256 .f32 := iblk10 V c 0 t
abbrev oblk (c : Dev nD) (t : Fin cfg10.N) : Vec Ideal S1x1024 .i32 := iblk10 V c 1 t
abbrev wblk2 (c : Dev nD) (t : Fin cfg10.N) : Vec Ideal S256x512 .f32 := iblk10 V c 2 t
abbrev bblk3 (c : Dev nD) (t : Fin cfg10.N) : Vec Ideal S512 .f32 := iblk10 V c 3 t
abbrev wblk4 (c : Dev nD) (t : Fin cfg10.N) : Vec Ideal S256x512 .f32 := iblk10 V c 4 t
abbrev bblk5 (c : Dev nD) (t : Fin cfg10.N) : Vec Ideal S512 .f32 := iblk10 V c 5 t
abbrev wblk6 (c : Dev nD) (t : Fin cfg10.N) : Vec Ideal S256x512 .f32 := iblk10 V c 6 t
abbrev bblk7 (c : Dev nD) (t : Fin cfg10.N) : Vec Ideal S512 .f32 := iblk10 V c 7 t
abbrev wblk8 (c : Dev nD) (t : Fin cfg10.N) : Vec Ideal S256x512 .f32 := iblk10 V c 8 t
abbrev bblk9 (c : Dev nD) (t : Fin cfg10.N) : Vec Ideal S512 .f32 := iblk10 V c 9 t

abbrev nodesArr (c : Dev nD) : (⟨2, ![65536, 256]⟩ : Shape).Idx → EReal := V c main_v181
abbrev ownerArr (c : Dev nD) : (⟨2, ![1, 65536]⟩ : Shape).Idx → BitVec 32 := V c main_v186
abbrev wArr2 (c : Dev nD) : (⟨2, ![256, 512]⟩ : Shape).Idx → EReal := V c main_v182
abbrev bArr3 (c : Dev nD) : (⟨1, ![512]⟩ : Shape).Idx → EReal := V c main_arg8
abbrev wArr4 (c : Dev nD) : (⟨2, ![256, 512]⟩ : Shape).Idx → EReal := V c main_v183
abbrev bArr5 (c : Dev nD) : (⟨1, ![512]⟩ : Shape).Idx → EReal := V c main_arg10
abbrev wArr6 (c : Dev nD) : (⟨2, ![256, 512]⟩ : Shape).Idx → EReal := V c main_v184
abbrev bArr7 (c : Dev nD) : (⟨1, ![512]⟩ : Shape).Idx → EReal := V c main_arg12
abbrev wArr8 (c : Dev nD) : (⟨2, ![256, 512]⟩ : Shape).Idx → EReal := V c main_v185
abbrev bArr9 (c : Dev nD) : (⟨1, ![512]⟩ : Shape).Idx → EReal := V c main_arg14

theorem xblk_apply (c : Dev nD) (t : Fin cfg10.N) (j : Fin 1024) (k : Fin 256) (h : 1024 * t.val + j.val < 65536) :
    xblk V c t (ix2 j k) = nodesArr V c (ix2 ⟨1024 * t.val + j.val, h⟩ k) := by
  obtain ⟨e0, e1, -⟩ := idx_facts t
  show V c main_v181 (((cfg10.win 0).blk t).view.emb (ix2 j k)) = V c main_v181 (ix2 ⟨1024 * t.val + j.val, h⟩ k)
  refine congrArg (V c main_v181) (funext fun a => Fin.ext ?_)
  match a with
  | ⟨0, _⟩ => show win10_0.index t (0 : Fin 2) * 1024 + 1 * j.val = 1024 * t.val + j.val; omega
  | ⟨1, _⟩ => show win10_0.index t (1 : Fin 2) * 256 + 1 * k.val = k.val; omega

theorem oblk_apply (c : Dev nD) (t : Fin cfg10.N) (j : Fin 1024) (h : 1024 * t.val + j.val < 65536) :
    oblk V c t (ix2 (0 : Fin 1) j) = ownerArr V c (ix2 (0 : Fin 1) ⟨1024 * t.val + j.val, h⟩) := by
  obtain ⟨-, -, e0, e1, -⟩ := idx_facts t
  show V c main_v186 (((cfg10.win 1).blk t).view.emb (ix2 (0 : Fin 1) j)) = V c main_v186 (ix2 (0 : Fin 1) ⟨1024 * t.val + j.val, h⟩)
  refine congrArg (V c main_v186) (funext fun a => Fin.ext ?_)
  match a with
  | ⟨0, _⟩ => show win10_1.index t (0 : Fin 2) * 1 + 1 * 0 = 0; omega
  | ⟨1, _⟩ => show win10_1.index t (1 : Fin 2) * 1024 + 1 * j.val = 1024 * t.val + j.val; omega

theorem wblk2_eq (c : Dev nD) (t : Fin cfg10.N) : wblk2 V c t = wArr2 V c := by
  obtain ⟨-, -, -, -, e0, e1, -⟩ := idx_facts t
  funext y
  show V c main_v182 (((cfg10.win 2).blk t).view.emb y) = V c main_v182 y
  refine congrArg (V c main_v182) (funext fun a => Fin.ext ?_)
  match a with
  | ⟨0, _⟩ => show win10_2.index t (0 : Fin 2) * 256 + 1 * (y 0).val = (y 0).val; omega
  | ⟨1, _⟩ => show win10_2.index t (1 : Fin 2) * 512 + 1 * (y 1).val = (y 1).val; omega

theorem bblk3_eq (c : Dev nD) (t : Fin cfg10.N) : bblk3 V c t = bArr3 V c := by
  obtain ⟨-, -, -, -, -, -, e0, -⟩ := idx_facts t
  funext y
  show V c main_arg8 (((cfg10.win 3).blk t).view.emb y) = V c main_arg8 y
  refine congrArg (V c main_arg8) (funext fun a => Fin.ext ?_)
  match a with
  | ⟨0, _⟩ => show win10_3.index t (0 : Fin 1) * 512 + 1 * (y 0).val = (y 0).val; omega

theorem wblk4_eq (c : Dev nD) (t : Fin cfg10.N) : wblk4 V c t = wArr4 V c := by
  obtain ⟨-, -, -, -, -, -, -, e0, e1, -⟩ := idx_facts t
  funext y
  show V c main_v183 (((cfg10.win 4).blk t).view.emb y) = V c main_v183 y
  refine congrArg (V c main_v183) (funext fun a => Fin.ext ?_)
  match a with
  | ⟨0, _⟩ => show win10_4.index t (0 : Fin 2) * 256 + 1 * (y 0).val = (y 0).val; omega
  | ⟨1, _⟩ => show win10_4.index t (1 : Fin 2) * 512 + 1 * (y 1).val = (y 1).val; omega

theorem bblk5_eq (c : Dev nD) (t : Fin cfg10.N) : bblk5 V c t = bArr5 V c := by
  obtain ⟨-, -, -, -, -, -, -, -, -, e0, -⟩ := idx_facts t
  funext y
  show V c main_arg10 (((cfg10.win 5).blk t).view.emb y) = V c main_arg10 y
  refine congrArg (V c main_arg10) (funext fun a => Fin.ext ?_)
  match a with
  | ⟨0, _⟩ => show win10_5.index t (0 : Fin 1) * 512 + 1 * (y 0).val = (y 0).val; omega

theorem wblk6_eq (c : Dev nD) (t : Fin cfg10.N) : wblk6 V c t = wArr6 V c := by
  obtain ⟨-, -, -, -, -, -, -, -, -, -, e0, e1, -⟩ := idx_facts t
  funext y
  show V c main_v184 (((cfg10.win 6).blk t).view.emb y) = V c main_v184 y
  refine congrArg (V c main_v184) (funext fun a => Fin.ext ?_)
  match a with
  | ⟨0, _⟩ => show win10_6.index t (0 : Fin 2) * 256 + 1 * (y 0).val = (y 0).val; omega
  | ⟨1, _⟩ => show win10_6.index t (1 : Fin 2) * 512 + 1 * (y 1).val = (y 1).val; omega

theorem bblk7_eq (c : Dev nD) (t : Fin cfg10.N) : bblk7 V c t = bArr7 V c := by
  obtain ⟨-, -, -, -, -, -, -, -, -, -, -, -, e0, -⟩ := idx_facts t
  funext y
  show V c main_arg12 (((cfg10.win 7).blk t).view.emb y) = V c main_arg12 y
  refine congrArg (V c main_arg12) (funext fun a => Fin.ext ?_)
  match a with
  | ⟨0, _⟩ => show win10_7.index t (0 : Fin 1) * 512 + 1 * (y 0).val = (y 0).val; omega

theorem wblk8_eq (c : Dev nD) (t : Fin cfg10.N) : wblk8 V c t = wArr8 V c := by
  obtain ⟨-, -, -, -, -, -, -, -, -, -, -, -, -, e0, e1, -⟩ := idx_facts t
  funext y
  show V c main_v185 (((cfg10.win 8).blk t).view.emb y) = V c main_v185 y
  refine congrArg (V c main_v185) (funext fun a => Fin.ext ?_)
  match a with
  | ⟨0, _⟩ => show win10_8.index t (0 : Fin 2) * 256 + 1 * (y 0).val = (y 0).val; omega
  | ⟨1, _⟩ => show win10_8.index t (1 : Fin 2) * 512 + 1 * (y 1).val = (y 1).val; omega

theorem bblk9_eq (c : Dev nD) (t : Fin cfg10.N) : bblk9 V c t = bArr9 V c := by
  obtain ⟨-, -, -, -, -, -, -, -, -, -, -, -, -, -, -, e0, -⟩ := idx_facts t
  funext y
  show V c main_arg14 (((cfg10.win 9).blk t).view.emb y) = V c main_arg14 y
  refine congrArg (V c main_arg14) (funext fun a => Fin.ext ?_)
  match a with
  | ⟨0, _⟩ => show win10_9.index t (0 : Fin 1) * 512 + 1 * (y 0).val = (y 0).val; omega

abbrev maskArr (c : Dev nD) : (⟨2, ![512, 65536]⟩ : Shape).Idx → EReal := ownerMask (ownerArr V c)
abbrev gatedDec (c : Dev nD) : (⟨2, ![65536, 512]⟩ : Shape).Idx → EReal :=
  gated (nodesArr V c) (wArr2 V c) (bArr3 V c) (wArr4 V c) (bArr5 V c)
abbrev gatedInit (c : Dev nD) : (⟨2, ![65536, 512]⟩ : Shape).Idx → EReal :=
  gated (nodesArr V c) (wArr6 V c) (bArr7 V c) (wArr8 V c) (bArr9 V c)

theorem hMask (c : Dev nD) (t : Fin cfg10.N) (b : Fin 512) (j : Fin 1024) (h : 1024 * t.val + j.val < 65536) :
    maskTile (oblk V c t) (ix2 b j) = maskArr V c (ix2 b ⟨1024 * t.val + j.val, h⟩) :=
  maskTile_blk (ownerArr V c) (oblk V c t) t.val (fun j h => oblk_apply V c t j h) b j h

theorem hDec (c : Dev nD) (t : Fin cfg10.N) (a : Fin 512) (j : Fin 1024) (h : 1024 * t.val + j.val < 65536) :
    gatedTile (xblk V c t) (wblk2 V c t) (bblk3 V c t) (wblk4 V c t) (bblk5 V c t) (ix2 j a)
      = gatedDec V c (ix2 ⟨1024 * t.val + j.val, h⟩ a) := by
  rw [wblk2_eq, bblk3_eq, wblk4_eq, bblk5_eq]
  exact gatedTile_blk (nodesArr V c) (xblk V c t) (wArr2 V c) (bArr3 V c) (wArr4 V c) (bArr5 V c) ⟨1024 * t.val + j.val, h⟩ j
    (fun k => xblk_apply V c t j k h) a

theorem hInit (c : Dev nD) (t : Fin cfg10.N) (a : Fin 512) (j : Fin 1024) (h : 1024 * t.val + j.val < 65536) :
    gatedTile (xblk V c t) (wblk6 V c t) (bblk7 V c t) (wblk8 V c t) (bblk9 V c t) (ix2 j a)
      = gatedInit V c (ix2 ⟨1024 * t.val + j.val, h⟩ a) := by
  rw [wblk6_eq, bblk7_eq, wblk8_eq, bblk9_eq]
  exact gatedTile_blk (nodesArr V c) (xblk V c t) (wArr6 V c) (bArr7 V c) (wArr8 V c) (bArr9 V c) ⟨1024 * t.val + j.val, h⟩ j
    (fun k => xblk_apply V c t j k h) a

theorem stepA (c : Dev nD) (t : Fin cfg10.N) (h0 : t.val % 64 = 0) :
    outsAt10 V c t.val t.isLt
      = (k10_pay2 (F := Ideal) (k10_pay7 (F := Ideal) (xblk V c t) (wblk2 V c t) (wblk4 V c t) (bblk3 V c t) (bblk5 V c t)) (oblk V c t) (k10_pay4 (F := Ideal)),
         k10_pay3 (F := Ideal) (k10_pay8 (F := Ideal) (xblk V c t) (wblk6 V c t) (bblk7 V c t)) (k10_pay9 (F := Ideal) (xblk V c t) (wblk8 V c t)) (bblk9 V c t) (oblk V c t) (k10_pay5 (F := Ideal))) := by
  rw [outsAt10_A V c t h0]
  exact congrArg₂ Prod.mk
    (out_A_10 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t)
      (xblk V c t) (oblk V c t) (wblk2 V c t) (bblk3 V c t) (wblk4 V c t) (bblk5 V c t) (wblk6 V c t) (bblk7 V c t) (wblk8 V c t) (bblk9 V c t) ((hcond10_0 t).mpr h0))
    (out_A_11 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t)
      (xblk V c t) (oblk V c t) (wblk2 V c t) (bblk3 V c t) (wblk4 V c t) (bblk5 V c t) (wblk6 V c t) (bblk7 V c t) (wblk8 V c t) (bblk9 V c t) ((hcond10_0 t).mpr h0))

theorem stepB (c : Dev nD) (t : Fin cfg10.N) (h0 : ¬t.val % 64 = 0) :
    outsAt10 V c t.val t.isLt
      = (k10_pay2 (F := Ideal) (k10_pay7 (F := Ideal) (xblk V c t) (wblk2 V c t) (wblk4 V c t) (bblk3 V c t) (bblk5 V c t)) (oblk V c t)
            (outsAt10 V c (t.val - 1) (Nat.lt_of_le_of_lt (Nat.sub_le _ _) t.isLt)).1,
         k10_pay3 (F := Ideal) (k10_pay8 (F := Ideal) (xblk V c t) (wblk6 V c t) (bblk7 V c t)) (k10_pay9 (F := Ideal) (xblk V c t) (wblk8 V c t)) (bblk9 V c t) (oblk V c t)
            (outsAt10 V c (t.val - 1) (Nat.lt_of_le_of_lt (Nat.sub_le _ _) t.isLt)).2) := by
  rw [outsAt10_B V c t h0]
  exact congrArg₂ Prod.mk
    (out_B_10 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t)
      (xblk V c t) (oblk V c t) (wblk2 V c t) (bblk3 V c t) (wblk4 V c t) (bblk5 V c t) (wblk6 V c t) (bblk7 V c t) (wblk8 V c t) (bblk9 V c t) (fun h => h0 ((hcond10_0 t).mp h))
      (outsAt10 V c (t.val - 1) (Nat.lt_of_le_of_lt (Nat.sub_le _ _) t.isLt)).1 (outsAt10 V c (t.val - 1) (Nat.lt_of_le_of_lt (Nat.sub_le _ _) t.isLt)).2)
    (out_B_11 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t)
      (xblk V c t) (oblk V c t) (wblk2 V c t) (bblk3 V c t) (wblk4 V c t) (bblk5 V c t) (wblk6 V c t) (bblk7 V c t) (wblk8 V c t) (bblk9 V c t) (fun h => h0 ((hcond10_0 t).mp h))
      (outsAt10 V c (t.val - 1) (Nat.lt_of_le_of_lt (Nat.sub_le _ _) t.isLt)).1 (outsAt10 V c (t.val - 1) (Nat.lt_of_le_of_lt (Nat.sub_le _ _) t.isLt)).2)

theorem dec_step (c : Dev nD) (t : Fin cfg10.N) (prev : FVec Ideal S512x512 .f32) (b a : Fin 512)
    (hp : prev (ix2 b a) = ∑ k ∈ Finset.range (1024 * t.val), term (maskArr V c) (gatedDec V c) b a k) :
    (k10_pay2 (F := Ideal) (k10_pay7 (F := Ideal) (xblk V c t) (wblk2 V c t) (wblk4 V c t) (bblk3 V c t) (bblk5 V c t)) (oblk V c t) prev : S512x512.Idx → EReal) (ix2 b a)
      = ∑ k ∈ Finset.range (1024 * (t.val + 1)), term (maskArr V c) (gatedDec V c) b a k := by
  have ht : t.val < 64 := lt_of_lt_of_eq t.isLt N_10
  refine (pay2_apply (k10_pay7 (F := Ideal) (xblk V c t) (wblk2 V c t) (wblk4 V c t) (bblk3 V c t) (bblk5 V c t)) (oblk V c t) prev b a).trans ?_
  rw [pay7_eq (xblk V c t) (wblk2 V c t) (wblk4 V c t) (bblk3 V c t) (bblk5 V c t)]
  exact acc_step (maskArr V c) (gatedDec V c) b a t.val ht (maskTile (oblk V c t))
    (gatedTile (xblk V c t) (wblk2 V c t) (bblk3 V c t) (wblk4 V c t) (bblk5 V c t))
    (fun j h => hMask V c t b j h) (fun j h => hDec V c t a j h) (prev (ix2 b a)) hp

theorem init_step (c : Dev nD) (t : Fin cfg10.N) (prev : FVec Ideal S512x512 .f32) (b a : Fin 512)
    (hp : prev (ix2 b a) = ∑ k ∈ Finset.range (1024 * t.val), term (maskArr V c) (gatedInit V c) b a k) :
    (k10_pay3 (F := Ideal) (k10_pay8 (F := Ideal) (xblk V c t) (wblk6 V c t) (bblk7 V c t)) (k10_pay9 (F := Ideal) (xblk V c t) (wblk8 V c t)) (bblk9 V c t) (oblk V c t) prev : S512x512.Idx → EReal) (ix2 b a)
      = ∑ k ∈ Finset.range (1024 * (t.val + 1)), term (maskArr V c) (gatedInit V c) b a k := by
  have ht : t.val < 64 := lt_of_lt_of_eq t.isLt N_10
  refine (pay3_apply (xblk V c t) (wblk6 V c t) (wblk8 V c t) (bblk7 V c t) (bblk9 V c t) (oblk V c t) prev b a).trans ?_
  exact acc_step (maskArr V c) (gatedInit V c) b a t.val ht (maskTile (oblk V c t))
    (gatedTile (xblk V c t) (wblk6 V c t) (bblk7 V c t) (wblk8 V c t) (bblk9 V c t))
    (fun j h => hMask V c t b j h) (fun j h => hInit V c t a j h) (prev (ix2 b a)) hp

theorem outsAt_apply (c : Dev nD) : ∀ (n : ℕ) (h : n < cfg10.N) (b a : Fin 512),
    ((outsAt10 V c n h).1 : S512x512.Idx → EReal) (ix2 b a)
        = ∑ k ∈ Finset.range (1024 * (n + 1)), term (maskArr V c) (gatedDec V c) b a k
    ∧ ((outsAt10 V c n h).2 : S512x512.Idx → EReal) (ix2 b a)
        = ∑ k ∈ Finset.range (1024 * (n + 1)), term (maskArr V c) (gatedInit V c) b a k
  | 0, h, b, a => by
    rw [stepA V c ⟨0, h⟩ rfl]
    exact ⟨dec_step V c ⟨0, h⟩ (k10_pay4 (F := Ideal)) b a ((pay4_apply (ix2 b a)).trans (by rw [Nat.mul_zero, Finset.sum_range_zero])),
      init_step V c ⟨0, h⟩ (k10_pay5 (F := Ideal)) b a ((pay5_apply (ix2 b a)).trans (by rw [Nat.mul_zero, Finset.sum_range_zero]))⟩
  | n + 1, h, b, a => by
    have hN : cfg10.N = 64 := N_10
    have hB : ¬(⟨n + 1, h⟩ : Fin cfg10.N).val % 64 = 0 := by dsimp only; omega
    obtain ⟨ih1, ih2⟩ := outsAt_apply c n (Nat.lt_of_succ_lt h) b a
    rw [stepB V c ⟨n + 1, h⟩ hB]
    exact ⟨dec_step V c ⟨n + 1, h⟩ _ b a ih1, init_step V c ⟨n + 1, h⟩ _ b a ih2⟩

abbrev aggDec (c : Dev nD) : (⟨2, ![512, 512]⟩ : Shape).Idx → EReal :=
  aggSum (V c main_v181) (V c main_v186) (V c main_v182) (V c main_arg8) (V c main_v183) (V c main_arg10)
abbrev aggInit (c : Dev nD) : (⟨2, ![512, 512]⟩ : Shape).Idx → EReal :=
  aggSum (V c main_v181) (V c main_v186) (V c main_v184) (V c main_arg12) (V c main_v185) (V c main_arg14)

theorem last_eq (c : Dev nD) (t : Fin cfg10.N) (ht : t.val = 63) :
    ((outsAt10 V c t.val t.isLt).1 : S512x512.Idx → EReal) = aggDec V c
    ∧ ((outsAt10 V c t.val t.isLt).2 : S512x512.Idx → EReal) = aggInit V c := by
  refine ⟨funext fun i => ?_, funext fun i => ?_⟩
  · obtain ⟨b, a, rfl⟩ : ∃ (b a : Fin 512), i = ix2 b a := ⟨i 0, i 1, eq_ix2 i⟩
    rw [(outsAt_apply V c t.val t.isLt b a).1, ht]
    exact (mmP_eq_sum_range (maskArr V c) (gatedDec V c) b a).symm
  · obtain ⟨b, a, rfl⟩ : ∃ (b a : Fin 512), i = ix2 b a := ⟨i 0, i 1, eq_ix2 i⟩
    rw [(outsAt_apply V c t.val t.isLt b a).2, ht]
    exact (mmP_eq_sum_range (maskArr V c) (gatedInit V c) b a).symm

theorem cut_eq_read10 (t : Fin cfg10.N) (G : (⟨2, ![512, 512]⟩ : Shape).Idx → EReal) :
    (cfg10.win 10).cut (grid10.coords t) G = ((cfg10.win 10).blk t).view.read (Elt Ideal) G := by
  obtain ⟨-, -, -, -, -, -, -, -, -, -, -, -, -, -, -, -, e0, e1, -⟩ := idx_facts t
  funext y
  show G ((cfg10.win 10).xinj (grid10.coords t) y) = G (((cfg10.win 10).blk t).view.emb y)
  refine congrArg G (funext fun a => Fin.ext ?_)
  match a with
  | ⟨0, _⟩ => show (y 0).val = win10_10.index t (0 : Fin 2) * 512 + 1 * (y 0).val; omega
  | ⟨1, _⟩ => show (y 1).val = win10_10.index t (1 : Fin 2) * 512 + 1 * (y 1).val; omega

theorem cut_eq_read11 (t : Fin cfg10.N) (G : (⟨2, ![512, 512]⟩ : Shape).Idx → EReal) :
    (cfg10.win 11).cut (grid10.coords t) G = ((cfg10.win 11).blk t).view.read (Elt Ideal) G := by
  obtain ⟨-, -, -, -, -, -, -, -, -, -, -, -, -, -, -, -, -, -, e0, e1⟩ := idx_facts t
  funext y
  show G ((cfg10.win 11).xinj (grid10.coords t) y) = G (((cfg10.win 11).blk t).view.emb y)
  refine congrArg G (funext fun a => Fin.ext ?_)
  match a with
  | ⟨0, _⟩ => show (y 0).val = win10_11.index t (0 : Fin 2) * 512 + 1 * (y 0).val; omega
  | ⟨1, _⟩ => show (y 1).val = win10_11.index t (1 : Fin 2) * 512 + 1 * (y 1).val; omega

theorem flushed10_eq (c : Dev nD) (t : Fin cfg10.N) (hf : (cfg10.win 10).flush t = true) :
    (dat10 V c).flushed 10 t = ((cfg10.win 10).blk t).view.read (Elt Ideal) (aggDec V c) := by
  have hN : cfg10.N = 64 := N_10
  have ht : t.val = 63 := by have := (flush10_10 t).mp hf; have := t.isLt; omega
  show (cfg10.win 10).cut (grid10.coords t) ((dat10 V c).after 10 t) = _
  rw [after10_10, (last_eq V c t ht).1]
  exact cut_eq_read10 t (aggDec V c)

theorem flushed11_eq (c : Dev nD) (t : Fin cfg10.N) (hf : (cfg10.win 11).flush t = true) :
    (dat10 V c).flushed 11 t = ((cfg10.win 11).blk t).view.read (Elt Ideal) (aggInit V c) := by
  have hN : cfg10.N = 64 := N_10
  have ht : t.val = 63 := by have := (flush10_11 t).mp hf; have := t.isLt; omega
  show (cfg10.win 11).cut (grid10.coords t) ((dat10 V c).after 11 t) = _
  rw [after10_11, (last_eq V c t ht).2]
  exact cut_eq_read11 t (aggInit V c)

abbrev tLast : Fin cfg10.N := ⟨63, by rw [show cfg10.N = 64 from N_10]; decide⟩

theorem cover10 (i : S512x512.Idx) : ∃ t : Fin cfg10.N, (cfg10.win 10).flush t = true ∧ i ∈ ((cfg10.win 10).blk t).view.set := by
  refine ⟨tLast, (flush10_10 tLast).mpr rfl, ?_⟩
  obtain ⟨-, -, -, -, -, -, -, -, -, -, -, -, -, -, -, -, e0, e1, -⟩ := idx_facts tLast
  show i ∈ ((View.whole main_v187_0).slice (win10_10.rect tLast)).set
  rw [View.set_slice_whole, Rect.mem_set_unit]
  intro a
  have h0 : (i 0).val < 512 := (i 0).isLt
  have h1 : (i 1).val < 512 := (i 1).isLt
  match a with
  | ⟨0, _⟩ => show win10_10.index tLast (0 : Fin 2) * 512 ≤ (i 0).val ∧ (i 0).val < win10_10.index tLast (0 : Fin 2) * 512 + 512; omega
  | ⟨1, _⟩ => show win10_10.index tLast (1 : Fin 2) * 512 ≤ (i 1).val ∧ (i 1).val < win10_10.index tLast (1 : Fin 2) * 512 + 512; omega

theorem cover11 (i : S512x512.Idx) : ∃ t : Fin cfg10.N, (cfg10.win 11).flush t = true ∧ i ∈ ((cfg10.win 11).blk t).view.set := by
  refine ⟨tLast, (flush10_11 tLast).mpr rfl, ?_⟩
  obtain ⟨-, -, -, -, -, -, -, -, -, -, -, -, -, -, -, -, -, -, e0, e1⟩ := idx_facts tLast
  show i ∈ ((View.whole main_v187_1).slice (win10_11.rect tLast)).set
  rw [View.set_slice_whole, Rect.mem_set_unit]
  intro a
  have h0 : (i 0).val < 512 := (i 0).isLt
  have h1 : (i 1).val < 512 := (i 1).isLt
  match a with
  | ⟨0, _⟩ => show win10_11.index tLast (0 : Fin 2) * 512 ≤ (i 0).val ∧ (i 0).val < win10_11.index tLast (0 : Fin 2) * 512 + 512; omega
  | ⟨1, _⟩ => show win10_11.index tLast (1 : Fin 2) * 512 ≤ (i 1).val ∧ (i 1).val < win10_11.index tLast (1 : Fin 2) * 512 + 512; omega

end Cert.GNN.Agg10

namespace Cert.GNN

open Idealize.ShloMosaic Idealize.ShloMosaic.TcCoe
open Cert.KernelIdeal Cert.KernelIdeal.Gen Cert.GNN.Agg10

variable (V : (c : Dev nD) → (b : Ref sig .tc) → Buf (Elt Ideal) ((c : Thread nD τ).loc b))

theorem agg_dec_arr (c : Dev nD) :
    (Cert.KernelIdeal.Gen.dat10 (F := Ideal) V c).arrAt 10 Cert.KernelIdeal.cfg10.N
      = aggSum (V c main_v181) (V c main_v186) (V c main_v182) (V c main_arg8) (V c main_v183) (V c main_arg10) :=
  (dat10 V c).arrAt_eq_of_cover 10 (aggDec V c) (flushed10_eq V c) cover10

theorem agg_init_arr (c : Dev nD) :
    (Cert.KernelIdeal.Gen.dat10 (F := Ideal) V c).arrAt 11 Cert.KernelIdeal.cfg10.N
      = aggSum (V c main_v181) (V c main_v186) (V c main_v184) (V c main_arg12) (V c main_v185) (V c main_arg14) :=
  (dat10 V c).arrAt_eq_of_cover 11 (aggInit V c) (flushed11_eq V c) cover11

end Cert.GNN

end
-- ==== Proof.AggRef.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«404942_j76501957477039_1_alg».proof.Proof.AggSpec
import proofs.«404942_j76501957477039_1_alg».proof.Proof.LibDotPlain
import proofs.«404942_j76501957477039_1_alg».proof.Proof.RefRead

noncomputable section

namespace Cert.GNN

open Idealize.ShloMosaic Idealize.ShloMosaic.ValueIdx MatProd
open Cert.ReferenceIdeal Cert.ReferenceIdeal.Gen Cert.ReferenceIdeal.ReadP

theorem uitofp_cmpi_eq (x y : BitVec 32) :
    (FloatOps.uitofp (F := Ideal) .f32 (IntOp.cmpi .eq x y) : Ideal .f32) = if y = x then (1 : EReal) else 0 := by
  show (((IntOp.cmpi .eq x y).toNat : ℝ) : EReal) = _
  by_cases h : y = x
  · subst h; rw [if_pos rfl]; simp [IntOp.cmpi]
  · rw [if_neg h]
    have h' : (x == y) = false := by
      rw [beq_eq_false_iff_ne]; exact fun e => h e.symm
    simp [IntOp.cmpi, h']

theorem cast_row (A4 : (⟨1, ![65536]⟩ : Shape).Idx → BitVec 32) (hsc : (⟨1, ![65536]⟩ : Shape).ShapeCasts ⟨2, ![1, 65536]⟩)
    (n : Fin 65536) : shapeCast ⟨2, ![1, 65536]⟩ A4 hsc (ix2 (0 : Fin 1) n) = A4 (ix1 n) :=
  shapeCast_apply A4 hsc _ _ (by
    rw [Shape.rowMajor_val_two, Shape.rowMajor_val_one]; show n.val = 0 * 65536 + n.val; omega)

theorem ownerMask_eq_ref (A4 : (⟨S65536, .i32⟩ : BufTy).Contents (Elt Ideal)) (hsc : S65536.ShapeCasts S1x65536) :
    ownerMask (shapeCast S1x65536 A4 hsc) = val_main_v6 (F := Ideal) A4 := by
  funext i
  rw [val_main_v6_apply, val_main_v5_apply, val_main_v3_apply, val_main_v0_apply, val_main_v4_apply, val_main_v2_apply,
    val_main_v1_apply]
  have e : shapeCast S1x65536 A4 hsc (ix2 (0 : Fin 1) (i 1)) = A4 (ix1 (i 1)) := cast_row A4 hsc (i 1)
  have e' : A4 (idx_main_v0 (idx_main_v3 i)) = A4 (ix1 (i 1)) :=
    congrArg A4 (funext fun a => match a with | ⟨0, _⟩ => rfl)
  show (if BitVec.ofNat 32 (i 0).val = shapeCast S1x65536 A4 hsc (ix2 (0 : Fin 1) (i 1)) then (1 : EReal) else 0) = _
  rw [e, e']
  exact (uitofp_cmpi_eq _ _).symm

theorem gate_pointwise {s : Shape} (D1 B1 C D2 B2 : FVec Ideal s .f32) (i : s.Idx) :
    mulf (F := Ideal) (addf D1 B1) (Host.divf C (addf C (Host.exp (Host.negf (addf D2 B2))))) i
      = (D1 i + B1 i) * Ideal.div (C i) (C i + Ideal.exp (-(D2 i + B2 i))) := rfl

theorem bias_apply (B : (⟨S512, .f32⟩ : BufTy).Contents (Elt Ideal)) (i : S65536x512.Idx) :
    (broadcastInDim S65536x512 ![0, 1] bcast_S1x512_S65536x512_0_1 (broadcastInDim S1x512 ![1] bcast_S512_S1x512_1 B)) i = B (ix1 (i 1)) := by
  show val_main_v211 (F := Ideal) B i = _
  rw [val_main_v211_apply, val_main_v210_apply]
  exact congrArg B (funext fun a => match a with | ⟨0, _⟩ => rfl)

theorem one_apply (i : S65536x512.Idx) : (broadcastInDim S65536x512 ![] bcast_S_S65536x512 (constant (F := Ideal) S_ .f32 0x3F800000#32)) i = (1 : EReal) := by
  show val_main_v215 (F := Ideal) i = _
  rw [val_main_v215_apply, val_main_cst_28_apply]
  exact Ideal.ofBits_one_f32

theorem gated_eq_ref (X : (⟨S65536x256, .f32⟩ : BufTy).Contents (Elt Ideal))
    (TW GW : (⟨S256x512, .f32⟩ : BufTy).Contents (Elt Ideal)) (TB GB : (⟨S512, .f32⟩ : BufTy).Contents (Elt Ideal)) :
    gated X TW TB GW GB
      = (mulf (F := Ideal) (addf (F := Ideal) (Host.dotGeneral (F := Ideal) (φ₁ := .f32) (φ₂ := .f32) dot_S65536x256_S256x512_S65536x512_1_0_0_1_n_n none X TW) (broadcastInDim S65536x512 ![0, 1] bcast_S1x512_S65536x512_0_1 (broadcastInDim S1x512 ![1] bcast_S512_S1x512_1 TB)))
        (Host.divf (F := Ideal) (broadcastInDim S65536x512 ![] bcast_S_S65536x512 (constant (F := Ideal) S_ .f32 0x3F800000#32))
          (addf (F := Ideal) (broadcastInDim S65536x512 ![] bcast_S_S65536x512 (constant (F := Ideal) S_ .f32 0x3F800000#32))
            (Host.exp (F := Ideal) (Host.negf (F := Ideal) (addf (F := Ideal) (Host.dotGeneral (F := Ideal) (φ₁ := .f32) (φ₂ := .f32) dot_S65536x256_S256x512_S65536x512_1_0_0_1_n_n none X GW) (broadcastInDim S65536x512 ![0, 1] bcast_S1x512_S65536x512_0_1 (broadcastInDim S1x512 ![1] bcast_S512_S1x512_1 GB)))))))) := by
  funext i
  have hT : Host.dotGeneral (F := Ideal) (φ₁ := .f32) (φ₂ := .f32) dot_S65536x256_S256x512_S65536x512_1_0_0_1_n_n none X TW = mmP X TW :=
    DotPlain.dotGeneral_eq dot_S65536x256_S256x512_S65536x512_1_0_0_1_n_n rfl rfl rfl rfl rfl rfl (φ₁ := .f32) (φ₂ := .f32) none .single X TW
  have hG : Host.dotGeneral (F := Ideal) (φ₁ := .f32) (φ₂ := .f32) dot_S65536x256_S256x512_S65536x512_1_0_0_1_n_n none X GW = mmP X GW :=
    DotPlain.dotGeneral_eq dot_S65536x256_S256x512_S65536x512_1_0_0_1_n_n rfl rfl rfl rfl rfl rfl (φ₁ := .f32) (φ₂ := .f32) none .single X GW
  refine Eq.trans ?_ (gate_pointwise _ _ _ _ _ i).symm
  rw [hT, hG, bias_apply TB i, bias_apply GB i, one_apply i]
  rfl

theorem aggSum_eq_ref_dec (X : (⟨S65536x256, .f32⟩ : BufTy).Contents (Elt Ideal)) (A4 : (⟨S65536, .i32⟩ : BufTy).Contents (Elt Ideal))
    (TW GW : (⟨S256x512, .f32⟩ : BufTy).Contents (Elt Ideal)) (TB GB : (⟨S512, .f32⟩ : BufTy).Contents (Elt Ideal))
    {hsc : S65536.ShapeCasts S1x65536} :
    aggSum X (shapeCast S1x65536 A4 hsc) TW TB GW GB
      = Host.dotGeneral (F := Ideal) (φ₁ := .f32) (φ₂ := .f32) dot_S512x65536_S65536x512_S512x512_1_0_0_1_n_n none (val_main_v6 (F := Ideal) A4)
      (mulf (F := Ideal) (addf (F := Ideal) (Host.dotGeneral (F := Ideal) (φ₁ := .f32) (φ₂ := .f32) dot_S65536x256_S256x512_S65536x512_1_0_0_1_n_n none X TW) (broadcastInDim S65536x512 ![0, 1] bcast_S1x512_S65536x512_0_1 (broadcastInDim S1x512 ![1] bcast_S512_S1x512_1 TB)))
        (Host.divf (F := Ideal) (broadcastInDim S65536x512 ![] bcast_S_S65536x512 (constant (F := Ideal) S_ .f32 0x3F800000#32))
          (addf (F := Ideal) (broadcastInDim S65536x512 ![] bcast_S_S65536x512 (constant (F := Ideal) S_ .f32 0x3F800000#32))
            (Host.exp (F := Ideal) (Host.negf (F := Ideal) (addf (F := Ideal) (Host.dotGeneral (F := Ideal) (φ₁ := .f32) (φ₂ := .f32) dot_S65536x256_S256x512_S65536x512_1_0_0_1_n_n none X GW) (broadcastInDim S65536x512 ![0, 1] bcast_S1x512_S65536x512_0_1 (broadcastInDim S1x512 ![1] bcast_S512_S1x512_1 GB)))))))) := by
  unfold aggSum
  refine (congrArg₂ mmP (ownerMask_eq_ref A4 hsc) (gated_eq_ref X TW GW TB GB)).trans ?_
  exact (DotPlain.dotGeneral_eq dot_S512x65536_S65536x512_S512x512_1_0_0_1_n_n rfl rfl rfl rfl rfl rfl (φ₁ := .f32) (φ₂ := .f32) none .single _ _).symm

theorem aggSum_eq_ref_init (X : (⟨S65536x256, .f32⟩ : BufTy).Contents (Elt Ideal)) (A4 : (⟨S65536, .i32⟩ : BufTy).Contents (Elt Ideal))
    (TW GW : (⟨S256x512, .f32⟩ : BufTy).Contents (Elt Ideal)) (TB GB : (⟨S512, .f32⟩ : BufTy).Contents (Elt Ideal))
    {hsc : S65536.ShapeCasts S1x65536} :
    aggSum X (shapeCast S1x65536 A4 hsc) TW TB GW GB
      = Host.dotGeneral (F := Ideal) (φ₁ := .f32) (φ₂ := .f32) dot_S512x65536_S65536x512_S512x512_1_0_0_1_n_n none (val_main_v6 (F := Ideal) A4)
      (mulf (F := Ideal) (addf (F := Ideal) (Host.dotGeneral (F := Ideal) (φ₁ := .f32) (φ₂ := .f32) dot_S65536x256_S256x512_S65536x512_1_0_0_1_n_n none X TW) (broadcastInDim S65536x512 ![0, 1] bcast_S1x512_S65536x512_0_1 (broadcastInDim S1x512 ![1] bcast_S512_S1x512_1 TB)))
        (Host.divf (F := Ideal) (broadcastInDim S65536x512 ![] bcast_S_S65536x512 (constant (F := Ideal) S_ .f32 0x3F800000#32))
          (addf (F := Ideal) (broadcastInDim S65536x512 ![] bcast_S_S65536x512 (constant (F := Ideal) S_ .f32 0x3F800000#32))
            (Host.exp (F := Ideal) (Host.negf (F := Ideal) (addf (F := Ideal) (Host.dotGeneral (F := Ideal) (φ₁ := .f32) (φ₂ := .f32) dot_S65536x256_S256x512_S65536x512_1_0_0_1_n_n none X GW) (broadcastInDim S65536x512 ![0, 1] bcast_S1x512_S65536x512_0_1 (broadcastInDim S1x512 ![1] bcast_S512_S1x512_1 GB)))))))) :=
  aggSum_eq_ref_dec X A4 TW GW TB GB

theorem aggSum_eq_val_main_v225 (x0 : (⟨S65536x256, .f32⟩ : BufTy).Contents (Elt Ideal)) (x1 : (⟨S131072x256, .f32⟩ : BufTy).Contents (Elt Ideal)) (x2 x3 : (⟨S131072, .i32⟩ : BufTy).Contents (Elt Ideal)) (x4 : (⟨S65536, .i32⟩ : BufTy).Contents (Elt Ideal)) (x5 : (⟨S512, .i1⟩ : BufTy).Contents (Elt Ideal)) (x7 : (⟨S512x256, .f32⟩ : BufTy).Contents (Elt Ideal)) (x8 : (⟨S512, .f32⟩ : BufTy).Contents (Elt Ideal)) (x9 : (⟨S512x256, .f32⟩ : BufTy).Contents (Elt Ideal)) (x10 : (⟨S512, .f32⟩ : BufTy).Contents (Elt Ideal)) (x21 x22 : (⟨S2x512x256, .f32⟩ : BufTy).Contents (Elt Ideal)) (x23 : (⟨S2x512x512, .f32⟩ : BufTy).Contents (Elt Ideal)) (x24 : (⟨S2x512, .f32⟩ : BufTy).Contents (Elt Ideal)) (x25 : (⟨S2x768x512, .f32⟩ : BufTy).Contents (Elt Ideal)) (x26 : (⟨S2x768x256, .f32⟩ : BufTy).Contents (Elt Ideal)) (x27 x28 : (⟨S2x768, .f32⟩ : BufTy).Contents (Elt Ideal)) {hsc : S65536.ShapeCasts S1x65536} :
    aggSum (val_main_v207 (F := Ideal) x0 x1 x2 x3 x4 x5 x21 x22 x23 x24 x25 x26 x27 x28) (shapeCast S1x65536 x4 hsc)
        (val_main_v219 (F := Ideal) x7) x8 (val_main_v208 (F := Ideal) x9) x10
      = val_main_v225 (F := Ideal) x0 x1 x2 x3 x4 x5 x7 x8 x9 x10 x21 x22 x23 x24 x25 x26 x27 x28 :=
  aggSum_eq_ref_dec _ x4 _ _ x8 x10

theorem aggSum_eq_val_main_v279 (x0 : (⟨S65536x256, .f32⟩ : BufTy).Contents (Elt Ideal)) (x1 : (⟨S131072x256, .f32⟩ : BufTy).Contents (Elt Ideal)) (x2 x3 : (⟨S131072, .i32⟩ : BufTy).Contents (Elt Ideal)) (x4 : (⟨S65536, .i32⟩ : BufTy).Contents (Elt Ideal)) (x5 : (⟨S512, .i1⟩ : BufTy).Contents (Elt Ideal)) (x11 : (⟨S512x256, .f32⟩ : BufTy).Contents (Elt Ideal)) (x12 : (⟨S512, .f32⟩ : BufTy).Contents (Elt Ideal)) (x13 : (⟨S512x256, .f32⟩ : BufTy).Contents (Elt Ideal)) (x14 : (⟨S512, .f32⟩ : BufTy).Contents (Elt Ideal)) (x21 x22 : (⟨S2x512x256, .f32⟩ : BufTy).Contents (Elt Ideal)) (x23 : (⟨S2x512x512, .f32⟩ : BufTy).Contents (Elt Ideal)) (x24 : (⟨S2x512, .f32⟩ : BufTy).Contents (Elt Ideal)) (x25 : (⟨S2x768x512, .f32⟩ : BufTy).Contents (Elt Ideal)) (x26 : (⟨S2x768x256, .f32⟩ : BufTy).Contents (Elt Ideal)) (x27 x28 : (⟨S2x768, .f32⟩ : BufTy).Contents (Elt Ideal)) {hsc : S65536.ShapeCasts S1x65536} :
    aggSum (val_main_v207 (F := Ideal) x0 x1 x2 x3 x4 x5 x21 x22 x23 x24 x25 x26 x27 x28) (shapeCast S1x65536 x4 hsc)
        (val_main_v273 (F := Ideal) x11) x12 (val_main_v262 (F := Ideal) x13) x14
      = val_main_v279 (F := Ideal) x0 x1 x2 x3 x4 x5 x11 x12 x13 x14 x21 x22 x23 x24 x25 x26 x27 x28 :=
  aggSum_eq_ref_init _ x4 _ _ x12 x14

end Cert.GNN
-- ==== Proof.KChain.lean ====
import proofs.«404942_j76501957477039_1_alg».proof.Proof.KStep_hostOps0
import proofs.«404942_j76501957477039_1_alg».proof.Proof.KStep_hostOps1
import proofs.«404942_j76501957477039_1_alg».proof.Proof.KStep_hostOps2
import proofs.«404942_j76501957477039_1_alg».proof.Proof.KStep_hostOps3
import proofs.«404942_j76501957477039_1_alg».proof.Proof.KStep_hostOps4
import proofs.«404942_j76501957477039_1_alg».proof.Proof.KStep_hostOps5
import proofs.«404942_j76501957477039_1_alg».proof.Proof.KStep_hostOps5_1
import proofs.«404942_j76501957477039_1_alg».proof.Proof.KStep_hostOps5_2
import proofs.«404942_j76501957477039_1_alg».proof.Proof.KStep_hostOps6
import proofs.«404942_j76501957477039_1_alg».proof.Proof.KStep_hostOps7
import proofs.«404942_j76501957477039_1_alg».proof.Proof.KStep_hostOps8
import proofs.«404942_j76501957477039_1_alg».proof.Proof.KStep_hostOps9
import proofs.«404942_j76501957477039_1_alg».proof.Proof.KStep_hostOps10
import proofs.«404942_j76501957477039_1_alg».proof.Proof.KStep_hostOps10_1
import proofs.«404942_j76501957477039_1_alg».proof.Proof.KStep_hostOps10_2
import proofs.«404942_j76501957477039_1_alg».proof.Proof.KStep_hostOps11
import proofs.«404942_j76501957477039_1_alg».proof.Proof.KStep_hostOps11_1
import proofs.«404942_j76501957477039_1_alg».proof.Proof.KStep_hostOps11_2
import proofs.«404942_j76501957477039_1_alg».proof.Proof.KStep_hostOps11_3
import proofs.«404942_j76501957477039_1_alg».proof.Proof.KStep_hostOps11_4
import proofs.«404942_j76501957477039_1_alg».proof.Proof.Gen.KernelIdeal.Frame
import proofs.«404942_j76501957477039_1_alg».proof.Proof.Dense0
import proofs.«404942_j76501957477039_1_alg».proof.Proof.Dense1
import proofs.«404942_j76501957477039_1_alg».proof.Proof.Dense2
import proofs.«404942_j76501957477039_1_alg».proof.Proof.Dense3
import proofs.«404942_j76501957477039_1_alg».proof.Proof.Dense4
import proofs.«404942_j76501957477039_1_alg».proof.Proof.Dense5
import proofs.«404942_j76501957477039_1_alg».proof.Proof.Dense6
import proofs.«404942_j76501957477039_1_alg».proof.Proof.Dense7
import proofs.«404942_j76501957477039_1_alg».proof.Proof.Dense8
import proofs.«404942_j76501957477039_1_alg».proof.Proof.Dense9
import proofs.«404942_j76501957477039_1_alg».proof.Proof.Agg10
import proofs.«404942_j76501957477039_1_alg».proof.Proof.AggRef

set_option maxRecDepth 16384
set_option maxHeartbeats 2000000

noncomputable section

namespace Cert.GNN.KChain

open Cert.KernelIdeal Cert.KernelIdeal.Gen Idealize.ShloMosaic Idealize.ShloMosaic.TcCoe Idealize.SL.Sem Idealize.ShloMosaic.StableHlo
open Cert.GNN.KStep

variable (m : (ℓ : Loc nD τ sig) → Buf (Elt Ideal) ℓ) (ρ : Dev nD → PrngReg)

section Writes
variable {F : FTy → Type} [FloatOps F]

theorem hostOps0_writes : (hostOps0 (F := F)).Forall fun op => op.writes ⊆ (([main_c, main_v0, main_v1, main_c_0, main_v2, main_v3, main_v4, main_v5, main_v6, main_cst, main_v7, main_v8, main_v9, main_v10] : List (Ref sig .tc)).map (Proc.devRef (τ := τ) .tc)).toFinset := by
  simp only [hostOps0, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps1_writes : (hostOps1 (F := F)).Forall fun op => op.writes ⊆ (([main_v12, main_v13, main_v14] : List (Ref sig .tc)).map (Proc.devRef (τ := τ) .tc)).toFinset := by
  simp only [hostOps1, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps2_writes : (hostOps2 (F := F)).Forall fun op => op.writes ⊆ (([main_c_1, main_v16, main_v17, main_c_2, main_v18, main_v19, main_v20, main_v21, main_v22, main_c_3, main_v23, main_v24, main_c_4, main_v25, main_v26, main_v27, main_v28, main_v29, main_v30, main_v31, main_v32, main_v33, main_v34, main_v35, main_v36] : List (Ref sig .tc)).map (Proc.devRef (τ := τ) .tc)).toFinset := by
  simp only [hostOps2, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps3_writes : (hostOps3 (F := F)).Forall fun op => op.writes ⊆ (([main_cst_5, main_v38, main_c_6, main_v39, main_v40, main_c_7, main_v41, main_v42, main_v43, main_v44, main_v45, main_c_8, main_v46, main_v47, main_c_9, main_v48, main_v49, main_v50, main_v51, main_v52, main_v53, main_v54, main_v55, main_v56, main_v57] : List (Ref sig .tc)).map (Proc.devRef (τ := τ) .tc)).toFinset := by
  simp only [hostOps3, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps4_writes : (hostOps4 (F := F)).Forall fun op => op.writes ⊆ (([main_v59, main_v60, main_v61, main_v62, main_v63] : List (Ref sig .tc)).map (Proc.devRef (τ := τ) .tc)).toFinset := by
  simp only [hostOps4, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps5_writes : (hostOps5 (F := F)).Forall fun op => op.writes ⊆ (([main_v65, main_v66, main_v67, main_v68, main_v69, main_v70, main_v71, main_v72, main_v73, main_cst_10, main_v74, main_v75, main_cst_11, main_v76, main_v77, main_v78, main_v79, main_v80, main_cst_12, main_v81, main_v82, main_cst_13, main_v83, main_v84, main_v85, main_v86, main_v87, main_cst_14, main_v88, main_v89, main_v90, main_v91, main_v92, main_v93] : List (Ref sig .tc)).map (Proc.devRef (τ := τ) .tc)).toFinset := by
  simp only [hostOps5, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps5_1_writes : (hostOps5_1 (F := F)).Forall fun op => op.writes ⊆ (([main_call0_v0, main_v94] : List (Ref sig .tc)).map (Proc.devRef (τ := τ) .tc)).toFinset := by
  simp only [hostOps5_1, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps5_2_writes : (hostOps5_2 (F := F)).Forall fun op => op.writes ⊆ (([main_v95, main_v96, main_v97] : List (Ref sig .tc)).map (Proc.devRef (τ := τ) .tc)).toFinset := by
  simp only [hostOps5_2, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps6_writes : (hostOps6 (F := F)).Forall fun op => op.writes ⊆ (([main_v99, main_v100, main_v101] : List (Ref sig .tc)).map (Proc.devRef (τ := τ) .tc)).toFinset := by
  simp only [hostOps6, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps7_writes : (hostOps7 (F := F)).Forall fun op => op.writes ⊆ (([main_c_15, main_v103, main_v104, main_c_16, main_v105, main_v106, main_v107, main_v108, main_v109, main_c_17, main_v110, main_v111, main_c_18, main_v112, main_v113, main_v114, main_v115, main_v116, main_v117, main_v118, main_v119, main_v120, main_v121, main_v122, main_v123] : List (Ref sig .tc)).map (Proc.devRef (τ := τ) .tc)).toFinset := by
  simp only [hostOps7, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps8_writes : (hostOps8 (F := F)).Forall fun op => op.writes ⊆ (([main_cst_19, main_v125, main_c_20, main_v126, main_v127, main_c_21, main_v128, main_v129, main_v130, main_v131, main_v132, main_c_22, main_v133, main_v134, main_c_23, main_v135, main_v136, main_v137, main_v138, main_v139, main_v140, main_v141, main_v142, main_v143, main_v144] : List (Ref sig .tc)).map (Proc.devRef (τ := τ) .tc)).toFinset := by
  simp only [hostOps8, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps9_writes : (hostOps9 (F := F)).Forall fun op => op.writes ⊆ (([main_v146, main_v147, main_v148, main_v149, main_v150] : List (Ref sig .tc)).map (Proc.devRef (τ := τ) .tc)).toFinset := by
  simp only [hostOps9, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps10_writes : (hostOps10 (F := F)).Forall fun op => op.writes ⊆ (([main_v152, main_v153, main_v154, main_v155, main_v156, main_v157, main_v158, main_v159, main_v160, main_cst_24, main_v161, main_v162, main_cst_25, main_v163, main_v164, main_v165, main_v166, main_v167, main_cst_26, main_v168, main_v169, main_cst_27, main_v170, main_v171, main_v172, main_v173, main_v174, main_cst_28, main_v175, main_v176, main_v177, main_v178, main_v179, main_v180] : List (Ref sig .tc)).map (Proc.devRef (τ := τ) .tc)).toFinset := by
  simp only [hostOps10, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps10_1_writes : (hostOps10_1 (F := F)).Forall fun op => op.writes ⊆ (([main_call1_v0, main_v181] : List (Ref sig .tc)).map (Proc.devRef (τ := τ) .tc)).toFinset := by
  simp only [hostOps10_1, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps10_2_writes : (hostOps10_2 (F := F)).Forall fun op => op.writes ⊆ (([main_v182, main_v183, main_v184, main_v185, main_v186] : List (Ref sig .tc)).map (Proc.devRef (τ := τ) .tc)).toFinset := by
  simp only [hostOps10_2, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps11_writes : (hostOps11 (F := F)).Forall fun op => op.writes ⊆ (([main_v188, main_v189, main_v190, main_v191, main_v192, main_c_29, main_v193, main_v194] : List (Ref sig .tc)).map (Proc.devRef (τ := τ) .tc)).toFinset := by
  simp only [hostOps11, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps11_1_writes : (hostOps11_1 (F := F)).Forall fun op => op.writes ⊆ (([main_call2_cst, main_call2_v0, main_call2_cst_0, main_call2_v1, main_call2_v2, main_call2_v3, main_call2_v4, main_call2_v5, main_call2_v6, main_call2_cst_1, main_call2_v7, main_call2_v8, main_call2_v9, main_call2_v10, main_v195] : List (Ref sig .tc)).map (Proc.devRef (τ := τ) .tc)).toFinset := by
  simp only [hostOps11_1, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps11_2_writes : (hostOps11_2 (F := F)).Forall fun op => op.writes ⊆ (([main_v196, main_c_30, main_v197, main_v198, main_c_31, main_v199, main_v200, main_v201, main_c_32, main_v202, main_v203, main_c_33, main_v204, main_v205, main_v206, main_v207, main_v208, main_v209, main_v210, main_v211, main_cst_34] : List (Ref sig .tc)).map (Proc.devRef (τ := τ) .tc)).toFinset := by
  simp only [hostOps11_2, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps11_3_writes : (hostOps11_3 (F := F)).Forall fun op => op.writes ⊆ (([main_call3_v0, main_call3_v1, main_v212] : List (Ref sig .tc)).map (Proc.devRef (τ := τ) .tc)).toFinset := by
  simp only [hostOps11_3, List.Forall, nullary_writes, unary_writes, binary_writes, ternary_writes, quaternary_writes, reshape_writes,
    Finset.singleton_subset_iff, List.mem_toFinset, List.map_cons, List.map_nil, List.mem_cons, List.mem_nil_iff, true_or, or_true, and_self, or_false]

theorem hostOps11_4_writes : (hostOps11_4 (F := F)).Forall fun op => op.writes ⊆ (([main_cst_35, main_v213, main_cst_36, main_v214, main_c_37, main_v215, main_v216, main_c_38, main_v217, main_v218, main_c_39, main_v219, main_v220, main_v221, main_v222, main_v223, main_v224, main_v225, main_v226, main_v227, main_v228, main_v229, main_v230, main_v231] : List (Ref sig .tc)).map (Proc.devRef (τ := τ) .tc)).toFinset := by
  simp only [hostOps11_4, List.Forall, nullary_writes, unary_writes, binary_writes, ternary_writes, quaternary_writes, reshape_writes,
    Finset.singleton_subset_iff, List.mem_toFinset, List.map_cons, List.map_nil, List.mem_cons, List.mem_nil_iff, true_or, or_true, and_self, or_false]
end Writes

/-- The arguments of @main. -/
noncomputable def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- A region leaves a buffer as entered unless one of its output windows names it. -/
theorem keep_of_inputs {V' V : Valuation τ sig (Elt Ideal)} {n : ℕ} {ar : Fin n → Ref sig .tc} {out : Fin n → Bool}
    {L : List (Ref sig .tc)} {b : Ref sig .tc} (hL : ∀ w, out w = true → ar w ∈ L) (hb : b ∉ L)
    (harr : ∀ w, out w = false → V' (Proc.devRef .tc (ar w)) = V (Proc.devRef .tc (ar w)))
    (hne : (∀ w, ar w ≠ b) → V' (Proc.devRef .tc b) = V (Proc.devRef .tc b)) :
    V' (Proc.devRef .tc b) = V (Proc.devRef .tc b) := by
  by_cases h : ∃ w, ar w = b
  · obtain ⟨w, rfl⟩ := h
    exact harr w (Bool.eq_false_iff.mpr fun ht => hb (hL w ht))
  · exact hne fun w e => h ⟨w, e⟩

/-! No segment writes an argument: at every boundary it holds its launch contents. -/

theorem arg_at0 (c : Dev nD) (b : Ref sig .tc) (hb : b ∈ args := by decide) :
    W0 m ρ c (Proc.devRef .tc b) = m ((c.tc : Thread nD τ).loc b) := rfl
theorem arg_at1 (c : Dev nD) (b : Ref sig .tc) (hb : b ∈ args := by decide) :
    W1 m ρ c (Proc.devRef .tc b) = m ((c.tc : Thread nD τ).loc b) :=
  (after_of_writes_sub (hostOps0 (F := Ideal)) _ hostOps0_writes ((by decide +kernel : ∀ b ∈ args, b ∉ _) b hb)).trans (arg_at0 m ρ c b hb)
theorem arg_at2 (c : Dev nD) (b : Ref sig .tc) (hb : b ∈ args := by decide) :
    W2 m ρ c (Proc.devRef .tc b) = m ((c.tc : Thread nD τ).loc b) :=
  (keep_of_inputs (ar := Pipeline.arrRef spec0) (out := fun w => (cfg0.win w).isOut) (L := [main_v11]) (by decide +kernel)
      ((by decide +kernel : ∀ b ∈ args, b ∉ [main_v11]) b hb)
      (fun w hw => (W2_arr m ρ c w).trans (((dat0 (V1 m ρ) c).arrAt_in w hw _).trans (A_eq0 (V1 m ρ) c w)))
      (W2_of_ne m ρ c b)).trans (arg_at1 m ρ c b hb)
theorem arg_at3 (c : Dev nD) (b : Ref sig .tc) (hb : b ∈ args := by decide) :
    W3 m ρ c (Proc.devRef .tc b) = m ((c.tc : Thread nD τ).loc b) :=
  (after_of_writes_sub (hostOps1 (F := Ideal)) _ hostOps1_writes ((by decide +kernel : ∀ b ∈ args, b ∉ _) b hb)).trans (arg_at2 m ρ c b hb)
theorem arg_at4 (c : Dev nD) (b : Ref sig .tc) (hb : b ∈ args := by decide) :
    W4 m ρ c (Proc.devRef .tc b) = m ((c.tc : Thread nD τ).loc b) :=
  (keep_of_inputs (ar := Pipeline.arrRef spec1) (out := fun w => (cfg1.win w).isOut) (L := [main_v15]) (by decide +kernel)
      ((by decide +kernel : ∀ b ∈ args, b ∉ [main_v15]) b hb)
      (fun w hw => (W4_arr m ρ c w).trans (((dat1 (V3 m ρ) c).arrAt_in w hw _).trans (A_eq1 (V3 m ρ) c w)))
      (W4_of_ne m ρ c b)).trans (arg_at3 m ρ c b hb)
theorem arg_at5 (c : Dev nD) (b : Ref sig .tc) (hb : b ∈ args := by decide) :
    W5 m ρ c (Proc.devRef .tc b) = m ((c.tc : Thread nD τ).loc b) :=
  (after_of_writes_sub (hostOps2 (F := Ideal)) _ hostOps2_writes ((by decide +kernel : ∀ b ∈ args, b ∉ _) b hb)).trans (arg_at4 m ρ c b hb)
theorem arg_at6 (c : Dev nD) (b : Ref sig .tc) (hb : b ∈ args := by decide) :
    W6 m ρ c (Proc.devRef .tc b) = m ((c.tc : Thread nD τ).loc b) :=
  (keep_of_inputs (ar := Pipeline.arrRef spec2) (out := fun w => (cfg2.win w).isOut) (L := [main_v37]) (by decide +kernel)
      ((by decide +kernel : ∀ b ∈ args, b ∉ [main_v37]) b hb)
      (fun w hw => (W6_arr m ρ c w).trans (((dat2 (V5 m ρ) c).arrAt_in w hw _).trans (A_eq2 (V5 m ρ) c w)))
      (W6_of_ne m ρ c b)).trans (arg_at5 m ρ c b hb)
theorem arg_at7 (c : Dev nD) (b : Ref sig .tc) (hb : b ∈ args := by decide) :
    W7 m ρ c (Proc.devRef .tc b) = m ((c.tc : Thread nD τ).loc b) :=
  (after_of_writes_sub (hostOps3 (F := Ideal)) _ hostOps3_writes ((by decide +kernel : ∀ b ∈ args, b ∉ _) b hb)).trans (arg_at6 m ρ c b hb)
theorem arg_at8 (c : Dev nD) (b : Ref sig .tc) (hb : b ∈ args := by decide) :
    W8 m ρ c (Proc.devRef .tc b) = m ((c.tc : Thread nD τ).loc b) :=
  (keep_of_inputs (ar := Pipeline.arrRef spec3) (out := fun w => (cfg3.win w).isOut) (L := [main_v58]) (by decide +kernel)
      ((by decide +kernel : ∀ b ∈ args, b ∉ [main_v58]) b hb)
      (fun w hw => (W8_arr m ρ c w).trans (((dat3 (V7 m ρ) c).arrAt_in w hw _).trans (A_eq3 (V7 m ρ) c w)))
      (W8_of_ne m ρ c b)).trans (arg_at7 m ρ c b hb)
theorem arg_at9 (c : Dev nD) (b : Ref sig .tc) (hb : b ∈ args := by decide) :
    W9 m ρ c (Proc.devRef .tc b) = m ((c.tc : Thread nD τ).loc b) :=
  (after_of_writes_sub (hostOps4 (F := Ideal)) _ hostOps4_writes ((by decide +kernel : ∀ b ∈ args, b ∉ _) b hb)).trans (arg_at8 m ρ c b hb)
theorem arg_at10 (c : Dev nD) (b : Ref sig .tc) (hb : b ∈ args := by decide) :
    W10 m ρ c (Proc.devRef .tc b) = m ((c.tc : Thread nD τ).loc b) :=
  (keep_of_inputs (ar := Pipeline.arrRef spec4) (out := fun w => (cfg4.win w).isOut) (L := [main_v64]) (by decide +kernel)
      ((by decide +kernel : ∀ b ∈ args, b ∉ [main_v64]) b hb)
      (fun w hw => (W10_arr m ρ c w).trans (((dat4 (V9 m ρ) c).arrAt_in w hw _).trans (A_eq4 (V9 m ρ) c w)))
      (W10_of_ne m ρ c b)).trans (arg_at9 m ρ c b hb)
theorem arg_at11 (c : Dev nD) (b : Ref sig .tc) (hb : b ∈ args := by decide) :
    W11 m ρ c (Proc.devRef .tc b) = m ((c.tc : Thread nD τ).loc b) :=
  (after_of_writes_sub (hostOps5 (F := Ideal)) _ hostOps5_writes ((by decide +kernel : ∀ b ∈ args, b ∉ _) b hb)).trans (arg_at10 m ρ c b hb)
theorem arg_at12 (c : Dev nD) (b : Ref sig .tc) (hb : b ∈ args := by decide) :
    W12 m ρ c (Proc.devRef .tc b) = m ((c.tc : Thread nD τ).loc b) :=
  (after_of_writes_sub (hostOps5_1 (F := Ideal)) _ hostOps5_1_writes ((by decide +kernel : ∀ b ∈ args, b ∉ _) b hb)).trans (arg_at11 m ρ c b hb)
theorem arg_at13 (c : Dev nD) (b : Ref sig .tc) (hb : b ∈ args := by decide) :
    W13 m ρ c (Proc.devRef .tc b) = m ((c.tc : Thread nD τ).loc b) :=
  (after_of_writes_sub (hostOps5_2 (F := Ideal)) _ hostOps5_2_writes ((by decide +kernel : ∀ b ∈ args, b ∉ _) b hb)).trans (arg_at12 m ρ c b hb)
theorem arg_at14 (c : Dev nD) (b : Ref sig .tc) (hb : b ∈ args := by decide) :
    W14 m ρ c (Proc.devRef .tc b) = m ((c.tc : Thread nD τ).loc b) :=
  (keep_of_inputs (ar := Pipeline.arrRef spec5) (out := fun w => (cfg5.win w).isOut) (L := [main_v98]) (by decide +kernel)
      ((by decide +kernel : ∀ b ∈ args, b ∉ [main_v98]) b hb)
      (fun w hw => (W14_arr m ρ c w).trans (((dat5 (V13 m ρ) c).arrAt_in w hw _).trans (A_eq5 (V13 m ρ) c w)))
      (W14_of_ne m ρ c b)).trans (arg_at13 m ρ c b hb)
theorem arg_at15 (c : Dev nD) (b : Ref sig .tc) (hb : b ∈ args := by decide) :
    W15 m ρ c (Proc.devRef .tc b) = m ((c.tc : Thread nD τ).loc b) :=
  (after_of_writes_sub (hostOps6 (F := Ideal)) _ hostOps6_writes ((by decide +kernel : ∀ b ∈ args, b ∉ _) b hb)).trans (arg_at14 m ρ c b hb)
theorem arg_at16 (c : Dev nD) (b : Ref sig .tc) (hb : b ∈ args := by decide) :
    W16 m ρ c (Proc.devRef .tc b) = m ((c.tc : Thread nD τ).loc b) :=
  (keep_of_inputs (ar := Pipeline.arrRef spec6) (out := fun w => (cfg6.win w).isOut) (L := [main_v102]) (by decide +kernel)
      ((by decide +kernel : ∀ b ∈ args, b ∉ [main_v102]) b hb)
      (fun w hw => (W16_arr m ρ c w).trans (((dat6 (V15 m ρ) c).arrAt_in w hw _).trans (A_eq6 (V15 m ρ) c w)))
      (W16_of_ne m ρ c b)).trans (arg_at15 m ρ c b hb)
theorem arg_at17 (c : Dev nD) (b : Ref sig .tc) (hb : b ∈ args := by decide) :
    W17 m ρ c (Proc.devRef .tc b) = m ((c.tc : Thread nD τ).loc b) :=
  (after_of_writes_sub (hostOps7 (F := Ideal)) _ hostOps7_writes ((by decide +kernel : ∀ b ∈ args, b ∉ _) b hb)).trans (arg_at16 m ρ c b hb)
theorem arg_at18 (c : Dev nD) (b : Ref sig .tc) (hb : b ∈ args := by decide) :
    W18 m ρ c (Proc.devRef .tc b) = m ((c.tc : Thread nD τ).loc b) :=
  (keep_of_inputs (ar := Pipeline.arrRef spec7) (out := fun w => (cfg7.win w).isOut) (L := [main_v124]) (by decide +kernel)
      ((by decide +kernel : ∀ b ∈ args, b ∉ [main_v124]) b hb)
      (fun w hw => (W18_arr m ρ c w).trans (((dat7 (V17 m ρ) c).arrAt_in w hw _).trans (A_eq7 (V17 m ρ) c w)))
      (W18_of_ne m ρ c b)).trans (arg_at17 m ρ c b hb)
theorem arg_at19 (c : Dev nD) (b : Ref sig .tc) (hb : b ∈ args := by decide) :
    W19 m ρ c (Proc.devRef .tc b) = m ((c.tc : Thread nD τ).loc b) :=
  (after_of_writes_sub (hostOps8 (F := Ideal)) _ hostOps8_writes ((by decide +kernel : ∀ b ∈ args, b ∉ _) b hb)).trans (arg_at18 m ρ c b hb)
theorem arg_at20 (c : Dev nD) (b : Ref sig .tc) (hb : b ∈ args := by decide) :
    W20 m ρ c (Proc.devRef .tc b) = m ((c.tc : Thread nD τ).loc b) :=
  (keep_of_inputs (ar := Pipeline.arrRef spec8) (out := fun w => (cfg8.win w).isOut) (L := [main_v145]) (by decide +kernel)
      ((by decide +kernel : ∀ b ∈ args, b ∉ [main_v145]) b hb)
      (fun w hw => (W20_arr m ρ c w).trans (((dat8 (V19 m ρ) c).arrAt_in w hw _).trans (A_eq8 (V19 m ρ) c w)))
      (W20_of_ne m ρ c b)).trans (arg_at19 m ρ c b hb)
theorem arg_at21 (c : Dev nD) (b : Ref sig .tc) (hb : b ∈ args := by decide) :
    W21 m ρ c (Proc.devRef .tc b) = m ((c.tc : Thread nD τ).loc b) :=
  (after_of_writes_sub (hostOps9 (F := Ideal)) _ hostOps9_writes ((by decide +kernel : ∀ b ∈ args, b ∉ _) b hb)).trans (arg_at20 m ρ c b hb)
theorem arg_at22 (c : Dev nD) (b : Ref sig .tc) (hb : b ∈ args := by decide) :
    W22 m ρ c (Proc.devRef .tc b) = m ((c.tc : Thread nD τ).loc b) :=
  (keep_of_inputs (ar := Pipeline.arrRef spec9) (out := fun w => (cfg9.win w).isOut) (L := [main_v151]) (by decide +kernel)
      ((by decide +kernel : ∀ b ∈ args, b ∉ [main_v151]) b hb)
      (fun w hw => (W22_arr m ρ c w).trans (((dat9 (V21 m ρ) c).arrAt_in w hw _).trans (A_eq9 (V21 m ρ) c w)))
      (W22_of_ne m ρ c b)).trans (arg_at21 m ρ c b hb)
theorem arg_at23 (c : Dev nD) (b : Ref sig .tc) (hb : b ∈ args := by decide) :
    W23 m ρ c (Proc.devRef .tc b) = m ((c.tc : Thread nD τ).loc b) :=
  (after_of_writes_sub (hostOps10 (F := Ideal)) _ hostOps10_writes ((by decide +kernel : ∀ b ∈ args, b ∉ _) b hb)).trans (arg_at22 m ρ c b hb)
theorem arg_at24 (c : Dev nD) (b : Ref sig .tc) (hb : b ∈ args := by decide) :
    W24 m ρ c (Proc.devRef .tc b) = m ((c.tc : Thread nD τ).loc b) :=
  (after_of_writes_sub (hostOps10_1 (F := Ideal)) _ hostOps10_1_writes ((by decide +kernel : ∀ b ∈ args, b ∉ _) b hb)).trans (arg_at23 m ρ c b hb)
theorem arg_at25 (c : Dev nD) (b : Ref sig .tc) (hb : b ∈ args := by decide) :
    W25 m ρ c (Proc.devRef .tc b) = m ((c.tc : Thread nD τ).loc b) :=
  (after_of_writes_sub (hostOps10_2 (F := Ideal)) _ hostOps10_2_writes ((by decide +kernel : ∀ b ∈ args, b ∉ _) b hb)).trans (arg_at24 m ρ c b hb)
theorem arg_at26 (c : Dev nD) (b : Ref sig .tc) (hb : b ∈ args := by decide) :
    W26 m ρ c (Proc.devRef .tc b) = m ((c.tc : Thread nD τ).loc b) :=
  (keep_of_inputs (ar := Pipeline.arrRef spec10) (out := fun w => (cfg10.win w).isOut) (L := [main_v187_0, main_v187_1]) (by decide +kernel)
      ((by decide +kernel : ∀ b ∈ args, b ∉ [main_v187_0, main_v187_1]) b hb)
      (fun w hw => (W26_arr m ρ c w).trans (((dat10 (V25 m ρ) c).arrAt_in w hw _).trans (A_eq10 (V25 m ρ) c w)))
      (W26_of_ne m ρ c b)).trans (arg_at25 m ρ c b hb)
theorem arg_at27 (c : Dev nD) (b : Ref sig .tc) (hb : b ∈ args := by decide) :
    W27 m ρ c (Proc.devRef .tc b) = m ((c.tc : Thread nD τ).loc b) :=
  (after_of_writes_sub (hostOps11 (F := Ideal)) _ hostOps11_writes ((by decide +kernel : ∀ b ∈ args, b ∉ _) b hb)).trans (arg_at26 m ρ c b hb)
theorem arg_at28 (c : Dev nD) (b : Ref sig .tc) (hb : b ∈ args := by decide) :
    W28 m ρ c (Proc.devRef .tc b) = m ((c.tc : Thread nD τ).loc b) :=
  (after_of_writes_sub (hostOps11_1 (F := Ideal)) _ hostOps11_1_writes ((by decide +kernel : ∀ b ∈ args, b ∉ _) b hb)).trans (arg_at27 m ρ c b hb)
theorem arg_at29 (c : Dev nD) (b : Ref sig .tc) (hb : b ∈ args := by decide) :
    W29 m ρ c (Proc.devRef .tc b) = m ((c.tc : Thread nD τ).loc b) :=
  (after_of_writes_sub (hostOps11_2 (F := Ideal)) _ hostOps11_2_writes ((by decide +kernel : ∀ b ∈ args, b ∉ _) b hb)).trans (arg_at28 m ρ c b hb)
theorem arg_at30 (c : Dev nD) (b : Ref sig .tc) (hb : b ∈ args := by decide) :
    W30 m ρ c (Proc.devRef .tc b) = m ((c.tc : Thread nD τ).loc b) :=
  (after_of_writes_sub (hostOps11_3 (F := Ideal)) _ hostOps11_3_writes ((by decide +kernel : ∀ b ∈ args, b ∉ _) b hb)).trans (arg_at29 m ρ c b hb)
theorem arg_at31 (c : Dev nD) (b : Ref sig .tc) (hb : b ∈ args := by decide) :
    W31 m ρ c (Proc.devRef .tc b) = m ((c.tc : Thread nD τ).loc b) :=
  (after_of_writes_sub (hostOps11_4 (F := Ideal)) _ hostOps11_4_writes ((by decide +kernel : ∀ b ∈ args, b ∉ _) b hb)).trans (arg_at30 m ρ c b hb)

variable (hr : ∀ c : Dev nD, Cert.GNN.OwnerInRange (m ((c.tc : Thread nD τ).loc main_arg4)))
include hr

theorem main_v6_at1 (c : Dev nD) : W1 m ρ c (Proc.devRef .tc main_v6) = Cert.ReferenceIdeal.ReadP.val_main_v13 (F := Ideal) (m ((c.tc : Thread nD τ).loc main_arg4)) (m ((c.tc : Thread nD τ).loc main_arg5)) :=
  hostOps0_main_v6 (W0 m ρ c) (m ((c.tc : Thread nD τ).loc main_arg4)) (m ((c.tc : Thread nD τ).loc main_arg5)) (arg_at0 m ρ c main_arg5) (arg_at0 m ρ c main_arg4) (hr c)
theorem main_v7_at1 (c : Dev nD) : W1 m ρ c (Proc.devRef .tc main_v7) = broadcastInDim S512 ![] bcast_S_S512 (constant (F := Ideal) S_ .f32 0x00000000#32) :=
  hostOps0_main_v7 (W0 m ρ c)
theorem main_v10_at1 (c : Dev nD) : W1 m ρ c (Proc.devRef .tc main_v10) = Cert.ReferenceIdeal.ReadP.val_main_v16 (F := Ideal) (m ((c.tc : Thread nD τ).loc main_arg22)) :=
  hostOps0_main_v10 (W0 m ρ c) (m ((c.tc : Thread nD τ).loc main_arg22)) (arg_at0 m ρ c main_arg22)
theorem main_v6_at2 (c : Dev nD) : W2 m ρ c (Proc.devRef .tc main_v6) = Cert.ReferenceIdeal.ReadP.val_main_v13 (F := Ideal) (m ((c.tc : Thread nD τ).loc main_arg4)) (m ((c.tc : Thread nD τ).loc main_arg5)) :=
  (W2_of_ne m ρ c main_v6 (by decide)).trans (main_v6_at1 m ρ hr c)
theorem main_v7_at2 (c : Dev nD) : W2 m ρ c (Proc.devRef .tc main_v7) = broadcastInDim S512 ![] bcast_S_S512 (constant (F := Ideal) S_ .f32 0x00000000#32) :=
  ((W2_arr m ρ c 2).trans (((dat0 (V1 m ρ) c).arrAt_in 2 rfl _).trans (A_eq0 (V1 m ρ) c 2))).trans (main_v7_at1 m ρ hr c)
theorem main_v11_at2 (c : Dev nD) : W2 m ρ c (Proc.devRef .tc main_v11) = Cert.ReferenceIdeal.ReadP.val_main_v17 (F := Ideal) (m ((c.tc : Thread nD τ).loc main_arg1)) (m ((c.tc : Thread nD τ).loc main_arg22)) :=
  (W2_arr m ρ c 3).trans ((Cert.GNN.dense0_arr (V1 m ρ) c (main_v7_at1 m ρ hr c)).trans (by
    rw [show (V1 m ρ) c main_arg1 = _ from arg_at1 m ρ c main_arg1, show (V1 m ρ) c main_v10 = _ from main_v10_at1 m ρ hr c]
    rfl))
theorem main_v6_at3 (c : Dev nD) : W3 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps1 (F := Ideal)) _ hostOps1_writes (r := main_v6) (by decide)).trans (main_v6_at2 m ρ hr c)
theorem main_v7_at3 (c : Dev nD) : W3 m ρ c (Proc.devRef .tc main_v7) = broadcastInDim S512 ![] bcast_S_S512 (constant (F := Ideal) S_ .f32 0x00000000#32) :=
  (after_of_writes_sub (hostOps1 (F := Ideal)) _ hostOps1_writes (r := main_v7) (by decide)).trans (main_v7_at2 m ρ hr c)
theorem main_v11_at3 (c : Dev nD) : W3 m ρ c (Proc.devRef .tc main_v11) = Cert.ReferenceIdeal.ReadP.val_main_v17 (F := Ideal) (m ((c.tc : Thread nD τ).loc main_arg1)) (m ((c.tc : Thread nD τ).loc main_arg22)) :=
  (after_of_writes_sub (hostOps1 (F := Ideal)) _ hostOps1_writes (r := main_v11) (by decide)).trans (main_v11_at2 m ρ hr c)
theorem main_v14_at3 (c : Dev nD) : W3 m ρ c (Proc.devRef .tc main_v14) = Cert.ReferenceIdeal.ReadP.val_main_v20 (F := Ideal) (m ((c.tc : Thread nD τ).loc main_arg21)) :=
  hostOps1_main_v14 (W2 m ρ c) (m ((c.tc : Thread nD τ).loc main_arg21)) (arg_at2 m ρ c main_arg21)
theorem main_v6_at4 (c : Dev nD) : W4 m ρ c (Proc.devRef .tc main_v6) = Cert.ReferenceIdeal.ReadP.val_main_v13 (F := Ideal) (m ((c.tc : Thread nD τ).loc main_arg4)) (m ((c.tc : Thread nD τ).loc main_arg5)) :=
  (W4_of_ne m ρ c main_v6 (by decide)).trans (main_v6_at3 m ρ hr c)
theorem main_v7_at4 (c : Dev nD) : W4 m ρ c (Proc.devRef .tc main_v7) = broadcastInDim S512 ![] bcast_S_S512 (constant (F := Ideal) S_ .f32 0x00000000#32) :=
  ((W4_arr m ρ c 2).trans (((dat1 (V3 m ρ) c).arrAt_in 2 rfl _).trans (A_eq1 (V3 m ρ) c 2))).trans (main_v7_at3 m ρ hr c)
theorem main_v11_at4 (c : Dev nD) : W4 m ρ c (Proc.devRef .tc main_v11) = Cert.ReferenceIdeal.ReadP.val_main_v17 (F := Ideal) (m ((c.tc : Thread nD τ).loc main_arg1)) (m ((c.tc : Thread nD τ).loc main_arg22)) :=
  (W4_of_ne m ρ c main_v11 (by decide)).trans (main_v11_at3 m ρ hr c)
theorem main_v15_at4 (c : Dev nD) : W4 m ρ c (Proc.devRef .tc main_v15) = Cert.ReferenceIdeal.ReadP.val_main_v21 (F := Ideal) (m ((c.tc : Thread nD τ).loc main_arg0)) (m ((c.tc : Thread nD τ).loc main_arg21)) :=
  (W4_arr m ρ c 3).trans ((Cert.GNN.dense1_arr (V3 m ρ) c (main_v7_at3 m ρ hr c)).trans (by
    rw [show (V3 m ρ) c main_arg0 = _ from arg_at3 m ρ c main_arg0, show (V3 m ρ) c main_v14 = _ from main_v14_at3 m ρ hr c]
    rfl))
theorem main_v6_at5 (c : Dev nD) : W5 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps2 (F := Ideal)) _ hostOps2_writes (r := main_v6) (by decide)).trans (main_v6_at4 m ρ hr c)
theorem main_v7_at5 (c : Dev nD) : W5 m ρ c (Proc.devRef .tc main_v7) = broadcastInDim S512 ![] bcast_S_S512 (constant (F := Ideal) S_ .f32 0x00000000#32) :=
  (after_of_writes_sub (hostOps2 (F := Ideal)) _ hostOps2_writes (r := main_v7) (by decide)).trans (main_v7_at4 m ρ hr c)
theorem main_v31_at5 (c : Dev nD) : W5 m ρ c (Proc.devRef .tc main_v31) = Cert.ReferenceIdeal.ReadP.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) :=
  hostOps2_main_v31 (W4 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (main_v15_at4 m ρ hr c) (arg_at4 m ρ c main_arg2) (arg_at4 m ρ c main_arg3) (main_v11_at4 m ρ hr c)
theorem main_v35_at5 (c : Dev nD) : W5 m ρ c (Proc.devRef .tc main_v35) = Cert.ReferenceIdeal.ReadP.val_main_v44 (F := Ideal) (m ((c.tc : Thread nD τ).loc main_arg24)) :=
  hostOps2_main_v35 (W4 m ρ c) (m ((c.tc : Thread nD τ).loc main_arg24)) (arg_at4 m ρ c main_arg24)
theorem main_v36_at5 (c : Dev nD) : W5 m ρ c (Proc.devRef .tc main_v36) = Cert.ReferenceIdeal.ReadP.val_main_v41 (F := Ideal) (m ((c.tc : Thread nD τ).loc main_arg23)) :=
  hostOps2_main_v36 (W4 m ρ c) (m ((c.tc : Thread nD τ).loc main_arg23)) (arg_at4 m ρ c main_arg23)
theorem main_v6_at6 (c : Dev nD) : W6 m ρ c (Proc.devRef .tc main_v6) = Cert.ReferenceIdeal.ReadP.val_main_v13 (F := Ideal) (m ((c.tc : Thread nD τ).loc main_arg4)) (m ((c.tc : Thread nD τ).loc main_arg5)) :=
  (W6_of_ne m ρ c main_v6 (by decide)).trans (main_v6_at5 m ρ hr c)
theorem main_v7_at6 (c : Dev nD) : W6 m ρ c (Proc.devRef .tc main_v7) = broadcastInDim S512 ![] bcast_S_S512 (constant (F := Ideal) S_ .f32 0x00000000#32) :=
  (W6_of_ne m ρ c main_v7 (by decide)).trans (main_v7_at5 m ρ hr c)
theorem main_v37_at6 (c : Dev nD) : W6 m ρ c (Proc.devRef .tc main_v37) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) :=
  (W6_arr m ρ c 3).trans ((Cert.GNN.dense2_arr (V5 m ρ) c).trans (by
    rw [show (V5 m ρ) c main_v31 = _ from main_v31_at5 m ρ hr c, show (V5 m ρ) c main_v36 = _ from main_v36_at5 m ρ hr c, show (V5 m ρ) c main_v35 = _ from main_v35_at5 m ρ hr c]
    rfl))
theorem main_v6_at7 (c : Dev nD) : W7 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps3 (F := Ideal)) _ hostOps3_writes (r := main_v6) (by decide)).trans (main_v6_at6 m ρ hr c)
theorem main_v7_at7 (c : Dev nD) : W7 m ρ c (Proc.devRef .tc main_v7) = broadcastInDim S512 ![] bcast_S_S512 (constant (F := Ideal) S_ .f32 0x00000000#32) :=
  (after_of_writes_sub (hostOps3 (F := Ideal)) _ hostOps3_writes (r := main_v7) (by decide)).trans (main_v7_at6 m ρ hr c)
theorem main_v52_at7 (c : Dev nD) : W7 m ρ c (Proc.devRef .tc main_v52) = Cert.ReferenceIdeal.ReadP.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) :=
  hostOps3_main_v52 (W6 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (arg_at6 m ρ c main_arg3) (main_v37_at6 m ρ hr c) (arg_at6 m ρ c main_arg2)
theorem main_v56_at7 (c : Dev nD) : W7 m ρ c (Proc.devRef .tc main_v56) = Cert.ReferenceIdeal.ReadP.val_main_v68 (F := Ideal) (m ((c.tc : Thread nD τ).loc main_arg27)) :=
  hostOps3_main_v56 (W6 m ρ c) (m ((c.tc : Thread nD τ).loc main_arg27)) (arg_at6 m ρ c main_arg27)
theorem main_v57_at7 (c : Dev nD) : W7 m ρ c (Proc.devRef .tc main_v57) = Cert.ReferenceIdeal.ReadP.val_main_v65 (F := Ideal) (m ((c.tc : Thread nD τ).loc main_arg25)) :=
  hostOps3_main_v57 (W6 m ρ c) (m ((c.tc : Thread nD τ).loc main_arg25)) (arg_at6 m ρ c main_arg25)
theorem main_v6_at8 (c : Dev nD) : W8 m ρ c (Proc.devRef .tc main_v6) = Cert.ReferenceIdeal.ReadP.val_main_v13 (F := Ideal) (m ((c.tc : Thread nD τ).loc main_arg4)) (m ((c.tc : Thread nD τ).loc main_arg5)) :=
  (W8_of_ne m ρ c main_v6 (by decide)).trans (main_v6_at7 m ρ hr c)
theorem main_v7_at8 (c : Dev nD) : W8 m ρ c (Proc.devRef .tc main_v7) = broadcastInDim S512 ![] bcast_S_S512 (constant (F := Ideal) S_ .f32 0x00000000#32) :=
  (W8_of_ne m ρ c main_v7 (by decide)).trans (main_v7_at7 m ρ hr c)
theorem main_v58_at8 (c : Dev nD) : W8 m ρ c (Proc.devRef .tc main_v58) = Cert.ReferenceIdeal.ReadP.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg27)) :=
  (W8_arr m ρ c 3).trans ((Cert.GNN.dense3_arr (V7 m ρ) c).trans (by
    rw [show (V7 m ρ) c main_v52 = _ from main_v52_at7 m ρ hr c, show (V7 m ρ) c main_v57 = _ from main_v57_at7 m ρ hr c, show (V7 m ρ) c main_v56 = _ from main_v56_at7 m ρ hr c]
    rfl))
theorem main_v6_at9 (c : Dev nD) : W9 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps4 (F := Ideal)) _ hostOps4_writes (r := main_v6) (by decide)).trans (main_v6_at8 m ρ hr c)
theorem main_v7_at9 (c : Dev nD) : W9 m ρ c (Proc.devRef .tc main_v7) = broadcastInDim S512 ![] bcast_S_S512 (constant (F := Ideal) S_ .f32 0x00000000#32) :=
  (after_of_writes_sub (hostOps4 (F := Ideal)) _ hostOps4_writes (r := main_v7) (by decide)).trans (main_v7_at8 m ρ hr c)
theorem main_v58_at9 (c : Dev nD) : W9 m ρ c (Proc.devRef .tc main_v58) = Cert.ReferenceIdeal.ReadP.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg27)) :=
  (after_of_writes_sub (hostOps4 (F := Ideal)) _ hostOps4_writes (r := main_v58) (by decide)).trans (main_v58_at8 m ρ hr c)
theorem main_v62_at9 (c : Dev nD) : W9 m ρ c (Proc.devRef .tc main_v62) = Cert.ReferenceIdeal.ReadP.val_main_v77 (F := Ideal) (m ((c.tc : Thread nD τ).loc main_arg28)) :=
  hostOps4_main_v62 (W8 m ρ c) (m ((c.tc : Thread nD τ).loc main_arg28)) (arg_at8 m ρ c main_arg28)
theorem main_v63_at9 (c : Dev nD) : W9 m ρ c (Proc.devRef .tc main_v63) = Cert.ReferenceIdeal.ReadP.val_main_v74 (F := Ideal) (m ((c.tc : Thread nD τ).loc main_arg26)) :=
  hostOps4_main_v63 (W8 m ρ c) (m ((c.tc : Thread nD τ).loc main_arg26)) (arg_at8 m ρ c main_arg26)
theorem main_v6_at10 (c : Dev nD) : W10 m ρ c (Proc.devRef .tc main_v6) = Cert.ReferenceIdeal.ReadP.val_main_v13 (F := Ideal) (m ((c.tc : Thread nD τ).loc main_arg4)) (m ((c.tc : Thread nD τ).loc main_arg5)) :=
  (W10_of_ne m ρ c main_v6 (by decide)).trans (main_v6_at9 m ρ hr c)
theorem main_v7_at10 (c : Dev nD) : W10 m ρ c (Proc.devRef .tc main_v7) = broadcastInDim S512 ![] bcast_S_S512 (constant (F := Ideal) S_ .f32 0x00000000#32) :=
  (W10_of_ne m ρ c main_v7 (by decide)).trans (main_v7_at9 m ρ hr c)
theorem main_v58_at10 (c : Dev nD) : W10 m ρ c (Proc.devRef .tc main_v58) = Cert.ReferenceIdeal.ReadP.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg27)) :=
  (W10_of_ne m ρ c main_v58 (by decide)).trans (main_v58_at9 m ρ hr c)
theorem main_v64_at10 (c : Dev nD) : W10 m ρ c (Proc.devRef .tc main_v64) = Cert.ReferenceIdeal.ReadP.val_main_v80 (F := Ideal) (m ((c.tc : Thread nD τ).loc main_arg0)) (m ((c.tc : Thread nD τ).loc main_arg26)) (m ((c.tc : Thread nD τ).loc main_arg28)) :=
  (W10_arr m ρ c 3).trans ((Cert.GNN.dense4_arr (V9 m ρ) c).trans (by
    rw [show (V9 m ρ) c main_arg0 = _ from arg_at9 m ρ c main_arg0, show (V9 m ρ) c main_v63 = _ from main_v63_at9 m ρ hr c, show (V9 m ρ) c main_v62 = _ from main_v62_at9 m ρ hr c]
    rfl))
theorem main_v6_at11 (c : Dev nD) : W11 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps5 (F := Ideal)) _ hostOps5_writes (r := main_v6) (by decide)).trans (main_v6_at10 m ρ hr c)
theorem main_v7_at11 (c : Dev nD) : W11 m ρ c (Proc.devRef .tc main_v7) = broadcastInDim S512 ![] bcast_S_S512 (constant (F := Ideal) S_ .f32 0x00000000#32) :=
  (after_of_writes_sub (hostOps5 (F := Ideal)) _ hostOps5_writes (r := main_v7) (by decide)).trans (main_v7_at10 m ρ hr c)
theorem main_v92_at11 (c : Dev nD) : W11 m ρ c (Proc.devRef .tc main_v92) = Cert.ReferenceIdeal.ReadP.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps5_main_v92 (W10 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v58_at10 m ρ hr c) (main_v64_at10 m ρ hr c) (arg_at10 m ρ c main_arg0)
theorem main_v93_at11 (c : Dev nD) : W11 m ρ c (Proc.devRef .tc main_v93) = Cert.ReferenceIdeal.ReadP.val_main_v109 (F := Ideal) (m ((c.tc : Thread nD τ).loc main_arg4)) (m ((c.tc : Thread nD τ).loc main_arg5)) :=
  hostOps5_main_v93 (W10 m ρ c) (m ((c.tc : Thread nD τ).loc main_arg4)) (m ((c.tc : Thread nD τ).loc main_arg5)) (main_v6_at10 m ρ hr c)
theorem main_v6_at12 (c : Dev nD) : W12 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps5_1 (F := Ideal)) _ hostOps5_1_writes (r := main_v6) (by decide)).trans (main_v6_at11 m ρ hr c)
theorem main_v7_at12 (c : Dev nD) : W12 m ρ c (Proc.devRef .tc main_v7) = broadcastInDim S512 ![] bcast_S_S512 (constant (F := Ideal) S_ .f32 0x00000000#32) :=
  (after_of_writes_sub (hostOps5_1 (F := Ideal)) _ hostOps5_1_writes (r := main_v7) (by decide)).trans (main_v7_at11 m ρ hr c)
theorem main_v94_at12 (c : Dev nD) : W12 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps5_1_main_v94 (W11 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v93_at11 m ρ hr c) (main_v92_at11 m ρ hr c) (arg_at11 m ρ c main_arg0)
theorem main_v6_at13 (c : Dev nD) : W13 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps5_2 (F := Ideal)) _ hostOps5_2_writes (r := main_v6) (by decide)).trans (main_v6_at12 m ρ hr c)
theorem main_v7_at13 (c : Dev nD) : W13 m ρ c (Proc.devRef .tc main_v7) = broadcastInDim S512 ![] bcast_S_S512 (constant (F := Ideal) S_ .f32 0x00000000#32) :=
  (after_of_writes_sub (hostOps5_2 (F := Ideal)) _ hostOps5_2_writes (r := main_v7) (by decide)).trans (main_v7_at12 m ρ hr c)
theorem main_v94_at13 (c : Dev nD) : W13 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps5_2 (F := Ideal)) _ hostOps5_2_writes (r := main_v94) (by decide)).trans (main_v94_at12 m ρ hr c)
theorem main_v97_at13 (c : Dev nD) : W13 m ρ c (Proc.devRef .tc main_v97) = Cert.ReferenceIdeal.ReadP.val_main_v113 (F := Ideal) (m ((c.tc : Thread nD τ).loc main_arg22)) :=
  hostOps5_2_main_v97 (W12 m ρ c) (m ((c.tc : Thread nD τ).loc main_arg22)) (arg_at12 m ρ c main_arg22)
theorem main_v6_at14 (c : Dev nD) : W14 m ρ c (Proc.devRef .tc main_v6) = Cert.ReferenceIdeal.ReadP.val_main_v13 (F := Ideal) (m ((c.tc : Thread nD τ).loc main_arg4)) (m ((c.tc : Thread nD τ).loc main_arg5)) :=
  (W14_of_ne m ρ c main_v6 (by decide)).trans (main_v6_at13 m ρ hr c)
theorem main_v7_at14 (c : Dev nD) : W14 m ρ c (Proc.devRef .tc main_v7) = broadcastInDim S512 ![] bcast_S_S512 (constant (F := Ideal) S_ .f32 0x00000000#32) :=
  ((W14_arr m ρ c 2).trans (((dat5 (V13 m ρ) c).arrAt_in 2 rfl _).trans (A_eq5 (V13 m ρ) c 2))).trans (main_v7_at13 m ρ hr c)
theorem main_v94_at14 (c : Dev nD) : W14 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W14_of_ne m ρ c main_v94 (by decide)).trans (main_v94_at13 m ρ hr c)
theorem main_v98_at14 (c : Dev nD) : W14 m ρ c (Proc.devRef .tc main_v98) = Cert.ReferenceIdeal.ReadP.val_main_v114 (F := Ideal) (m ((c.tc : Thread nD τ).loc main_arg1)) (m ((c.tc : Thread nD τ).loc main_arg22)) :=
  (W14_arr m ρ c 3).trans ((Cert.GNN.dense5_arr (V13 m ρ) c (main_v7_at13 m ρ hr c)).trans (by
    rw [show (V13 m ρ) c main_arg1 = _ from arg_at13 m ρ c main_arg1, show (V13 m ρ) c main_v97 = _ from main_v97_at13 m ρ hr c]
    rfl))
theorem main_v6_at15 (c : Dev nD) : W15 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps6 (F := Ideal)) _ hostOps6_writes (r := main_v6) (by decide)).trans (main_v6_at14 m ρ hr c)
theorem main_v7_at15 (c : Dev nD) : W15 m ρ c (Proc.devRef .tc main_v7) = broadcastInDim S512 ![] bcast_S_S512 (constant (F := Ideal) S_ .f32 0x00000000#32) :=
  (after_of_writes_sub (hostOps6 (F := Ideal)) _ hostOps6_writes (r := main_v7) (by decide)).trans (main_v7_at14 m ρ hr c)
theorem main_v94_at15 (c : Dev nD) : W15 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps6 (F := Ideal)) _ hostOps6_writes (r := main_v94) (by decide)).trans (main_v94_at14 m ρ hr c)
theorem main_v98_at15 (c : Dev nD) : W15 m ρ c (Proc.devRef .tc main_v98) = Cert.ReferenceIdeal.ReadP.val_main_v114 (F := Ideal) (m ((c.tc : Thread nD τ).loc main_arg1)) (m ((c.tc : Thread nD τ).loc main_arg22)) :=
  (after_of_writes_sub (hostOps6 (F := Ideal)) _ hostOps6_writes (r := main_v98) (by decide)).trans (main_v98_at14 m ρ hr c)
theorem main_v101_at15 (c : Dev nD) : W15 m ρ c (Proc.devRef .tc main_v101) = Cert.ReferenceIdeal.ReadP.val_main_v117 (F := Ideal) (m ((c.tc : Thread nD τ).loc main_arg21)) :=
  hostOps6_main_v101 (W14 m ρ c) (m ((c.tc : Thread nD τ).loc main_arg21)) (arg_at14 m ρ c main_arg21)
theorem main_v6_at16 (c : Dev nD) : W16 m ρ c (Proc.devRef .tc main_v6) = Cert.ReferenceIdeal.ReadP.val_main_v13 (F := Ideal) (m ((c.tc : Thread nD τ).loc main_arg4)) (m ((c.tc : Thread nD τ).loc main_arg5)) :=
  (W16_of_ne m ρ c main_v6 (by decide)).trans (main_v6_at15 m ρ hr c)
theorem main_v94_at16 (c : Dev nD) : W16 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  ((W16_arr m ρ c 0).trans (((dat6 (V15 m ρ) c).arrAt_in 0 rfl _).trans (A_eq6 (V15 m ρ) c 0))).trans (main_v94_at15 m ρ hr c)
theorem main_v98_at16 (c : Dev nD) : W16 m ρ c (Proc.devRef .tc main_v98) = Cert.ReferenceIdeal.ReadP.val_main_v114 (F := Ideal) (m ((c.tc : Thread nD τ).loc main_arg1)) (m ((c.tc : Thread nD τ).loc main_arg22)) :=
  (W16_of_ne m ρ c main_v98 (by decide)).trans (main_v98_at15 m ρ hr c)
theorem main_v102_at16 (c : Dev nD) : W16 m ρ c (Proc.devRef .tc main_v102) = Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W16_arr m ρ c 3).trans ((Cert.GNN.dense6_arr (V15 m ρ) c (main_v7_at15 m ρ hr c)).trans (by
    rw [show (V15 m ρ) c main_v94 = _ from main_v94_at15 m ρ hr c, show (V15 m ρ) c main_v101 = _ from main_v101_at15 m ρ hr c]
    rfl))
theorem main_v6_at17 (c : Dev nD) : W17 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps7 (F := Ideal)) _ hostOps7_writes (r := main_v6) (by decide)).trans (main_v6_at16 m ρ hr c)
theorem main_v94_at17 (c : Dev nD) : W17 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps7 (F := Ideal)) _ hostOps7_writes (r := main_v94) (by decide)).trans (main_v94_at16 m ρ hr c)
theorem main_v118_at17 (c : Dev nD) : W17 m ρ c (Proc.devRef .tc main_v118) = Cert.ReferenceIdeal.ReadP.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps7_main_v118 (W16 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v102_at16 m ρ hr c) (arg_at16 m ρ c main_arg2) (arg_at16 m ρ c main_arg3) (main_v98_at16 m ρ hr c)
theorem main_v122_at17 (c : Dev nD) : W17 m ρ c (Proc.devRef .tc main_v122) = Cert.ReferenceIdeal.ReadP.val_main_v141 (F := Ideal) (m ((c.tc : Thread nD τ).loc main_arg24)) :=
  hostOps7_main_v122 (W16 m ρ c) (m ((c.tc : Thread nD τ).loc main_arg24)) (arg_at16 m ρ c main_arg24)
theorem main_v123_at17 (c : Dev nD) : W17 m ρ c (Proc.devRef .tc main_v123) = Cert.ReferenceIdeal.ReadP.val_main_v138 (F := Ideal) (m ((c.tc : Thread nD τ).loc main_arg23)) :=
  hostOps7_main_v123 (W16 m ρ c) (m ((c.tc : Thread nD τ).loc main_arg23)) (arg_at16 m ρ c main_arg23)
theorem main_v6_at18 (c : Dev nD) : W18 m ρ c (Proc.devRef .tc main_v6) = Cert.ReferenceIdeal.ReadP.val_main_v13 (F := Ideal) (m ((c.tc : Thread nD τ).loc main_arg4)) (m ((c.tc : Thread nD τ).loc main_arg5)) :=
  (W18_of_ne m ρ c main_v6 (by decide)).trans (main_v6_at17 m ρ hr c)
theorem main_v94_at18 (c : Dev nD) : W18 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W18_of_ne m ρ c main_v94 (by decide)).trans (main_v94_at17 m ρ hr c)
theorem main_v124_at18 (c : Dev nD) : W18 m ρ c (Proc.devRef .tc main_v124) = Cert.ReferenceIdeal.ReadP.val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W18_arr m ρ c 3).trans ((Cert.GNN.dense7_arr (V17 m ρ) c).trans (by
    rw [show (V17 m ρ) c main_v118 = _ from main_v118_at17 m ρ hr c, show (V17 m ρ) c main_v123 = _ from main_v123_at17 m ρ hr c, show (V17 m ρ) c main_v122 = _ from main_v122_at17 m ρ hr c]
    rfl))
theorem main_v6_at19 (c : Dev nD) : W19 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps8 (F := Ideal)) _ hostOps8_writes (r := main_v6) (by decide)).trans (main_v6_at18 m ρ hr c)
theorem main_v94_at19 (c : Dev nD) : W19 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps8 (F := Ideal)) _ hostOps8_writes (r := main_v94) (by decide)).trans (main_v94_at18 m ρ hr c)
theorem main_v139_at19 (c : Dev nD) : W19 m ρ c (Proc.devRef .tc main_v139) = Cert.ReferenceIdeal.ReadP.val_main_v159 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps8_main_v139 (W18 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (arg_at18 m ρ c main_arg3) (main_v124_at18 m ρ hr c) (arg_at18 m ρ c main_arg2)
theorem main_v143_at19 (c : Dev nD) : W19 m ρ c (Proc.devRef .tc main_v143) = Cert.ReferenceIdeal.ReadP.val_main_v165 (F := Ideal) (m ((c.tc : Thread nD τ).loc main_arg27)) :=
  hostOps8_main_v143 (W18 m ρ c) (m ((c.tc : Thread nD τ).loc main_arg27)) (arg_at18 m ρ c main_arg27)
theorem main_v144_at19 (c : Dev nD) : W19 m ρ c (Proc.devRef .tc main_v144) = Cert.ReferenceIdeal.ReadP.val_main_v162 (F := Ideal) (m ((c.tc : Thread nD τ).loc main_arg25)) :=
  hostOps8_main_v144 (W18 m ρ c) (m ((c.tc : Thread nD τ).loc main_arg25)) (arg_at18 m ρ c main_arg25)
theorem main_v6_at20 (c : Dev nD) : W20 m ρ c (Proc.devRef .tc main_v6) = Cert.ReferenceIdeal.ReadP.val_main_v13 (F := Ideal) (m ((c.tc : Thread nD τ).loc main_arg4)) (m ((c.tc : Thread nD τ).loc main_arg5)) :=
  (W20_of_ne m ρ c main_v6 (by decide)).trans (main_v6_at19 m ρ hr c)
theorem main_v94_at20 (c : Dev nD) : W20 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W20_of_ne m ρ c main_v94 (by decide)).trans (main_v94_at19 m ρ hr c)
theorem main_v145_at20 (c : Dev nD) : W20 m ρ c (Proc.devRef .tc main_v145) = Cert.ReferenceIdeal.ReadP.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W20_arr m ρ c 3).trans ((Cert.GNN.dense8_arr (V19 m ρ) c).trans (by
    rw [show (V19 m ρ) c main_v139 = _ from main_v139_at19 m ρ hr c, show (V19 m ρ) c main_v144 = _ from main_v144_at19 m ρ hr c, show (V19 m ρ) c main_v143 = _ from main_v143_at19 m ρ hr c]
    rfl))
theorem main_v6_at21 (c : Dev nD) : W21 m ρ c (Proc.devRef .tc main_v6) = Cert.ReferenceIdeal.ReadP.val_main_v13 (F := Ideal) (m ((c.tc : Thread nD τ).loc main_arg4)) (m ((c.tc : Thread nD τ).loc main_arg5)) :=
  (after_of_writes_sub (hostOps9 (F := Ideal)) _ hostOps9_writes (r := main_v6) (by decide)).trans (main_v6_at20 m ρ hr c)
theorem main_v94_at21 (c : Dev nD) : W21 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps9 (F := Ideal)) _ hostOps9_writes (r := main_v94) (by decide)).trans (main_v94_at20 m ρ hr c)
theorem main_v145_at21 (c : Dev nD) : W21 m ρ c (Proc.devRef .tc main_v145) = Cert.ReferenceIdeal.ReadP.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps9 (F := Ideal)) _ hostOps9_writes (r := main_v145) (by decide)).trans (main_v145_at20 m ρ hr c)
theorem main_v149_at21 (c : Dev nD) : W21 m ρ c (Proc.devRef .tc main_v149) = Cert.ReferenceIdeal.ReadP.val_main_v174 (F := Ideal) (m ((c.tc : Thread nD τ).loc main_arg28)) :=
  hostOps9_main_v149 (W20 m ρ c) (m ((c.tc : Thread nD τ).loc main_arg28)) (arg_at20 m ρ c main_arg28)
theorem main_v150_at21 (c : Dev nD) : W21 m ρ c (Proc.devRef .tc main_v150) = Cert.ReferenceIdeal.ReadP.val_main_v171 (F := Ideal) (m ((c.tc : Thread nD τ).loc main_arg26)) :=
  hostOps9_main_v150 (W20 m ρ c) (m ((c.tc : Thread nD τ).loc main_arg26)) (arg_at20 m ρ c main_arg26)
theorem main_v6_at22 (c : Dev nD) : W22 m ρ c (Proc.devRef .tc main_v6) = Cert.ReferenceIdeal.ReadP.val_main_v13 (F := Ideal) (m ((c.tc : Thread nD τ).loc main_arg4)) (m ((c.tc : Thread nD τ).loc main_arg5)) :=
  (W22_of_ne m ρ c main_v6 (by decide)).trans (main_v6_at21 m ρ hr c)
theorem main_v94_at22 (c : Dev nD) : W22 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  ((W22_arr m ρ c 0).trans (((dat9 (V21 m ρ) c).arrAt_in 0 rfl _).trans (A_eq9 (V21 m ρ) c 0))).trans (main_v94_at21 m ρ hr c)
theorem main_v145_at22 (c : Dev nD) : W22 m ρ c (Proc.devRef .tc main_v145) = Cert.ReferenceIdeal.ReadP.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W22_of_ne m ρ c main_v145 (by decide)).trans (main_v145_at21 m ρ hr c)
theorem main_v151_at22 (c : Dev nD) : W22 m ρ c (Proc.devRef .tc main_v151) = Cert.ReferenceIdeal.ReadP.val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W22_arr m ρ c 3).trans ((Cert.GNN.dense9_arr (V21 m ρ) c).trans (by
    rw [show (V21 m ρ) c main_v94 = _ from main_v94_at21 m ρ hr c, show (V21 m ρ) c main_v150 = _ from main_v150_at21 m ρ hr c, show (V21 m ρ) c main_v149 = _ from main_v149_at21 m ρ hr c]
    rfl))
theorem main_v94_at23 (c : Dev nD) : W23 m ρ c (Proc.devRef .tc main_v94) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps10 (F := Ideal)) _ hostOps10_writes (r := main_v94) (by decide)).trans (main_v94_at22 m ρ hr c)
theorem main_v179_at23 (c : Dev nD) : W23 m ρ c (Proc.devRef .tc main_v179) = Cert.ReferenceIdeal.ReadP.val_main_v205 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps10_main_v179 (W22 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v145_at22 m ρ hr c) (main_v151_at22 m ρ hr c) (main_v94_at22 m ρ hr c)
theorem main_v180_at23 (c : Dev nD) : W23 m ρ c (Proc.devRef .tc main_v180) = Cert.ReferenceIdeal.ReadP.val_main_v206 (F := Ideal) (m ((c.tc : Thread nD τ).loc main_arg4)) (m ((c.tc : Thread nD τ).loc main_arg5)) :=
  hostOps10_main_v180 (W22 m ρ c) (m ((c.tc : Thread nD τ).loc main_arg4)) (m ((c.tc : Thread nD τ).loc main_arg5)) (main_v6_at22 m ρ hr c)
theorem main_v181_at24 (c : Dev nD) : W24 m ρ c (Proc.devRef .tc main_v181) = Cert.ReferenceIdeal.ReadP.val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps10_1_main_v181 (W23 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v180_at23 m ρ hr c) (main_v179_at23 m ρ hr c) (main_v94_at23 m ρ hr c)
theorem main_v181_at25 (c : Dev nD) : W25 m ρ c (Proc.devRef .tc main_v181) = Cert.ReferenceIdeal.ReadP.val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps10_2 (F := Ideal)) _ hostOps10_2_writes (r := main_v181) (by decide)).trans (main_v181_at24 m ρ hr c)
theorem main_v182_at25 (c : Dev nD) : W25 m ρ c (Proc.devRef .tc main_v182) = Cert.ReferenceIdeal.ReadP.val_main_v219 (F := Ideal) (m ((c.tc : Thread nD τ).loc main_arg7)) :=
  hostOps10_2_main_v182 (W24 m ρ c) (m ((c.tc : Thread nD τ).loc main_arg7)) (arg_at24 m ρ c main_arg7)
theorem main_v183_at25 (c : Dev nD) : W25 m ρ c (Proc.devRef .tc main_v183) = Cert.ReferenceIdeal.ReadP.val_main_v208 (F := Ideal) (m ((c.tc : Thread nD τ).loc main_arg9)) :=
  hostOps10_2_main_v183 (W24 m ρ c) (m ((c.tc : Thread nD τ).loc main_arg9)) (arg_at24 m ρ c main_arg9)
theorem main_v184_at25 (c : Dev nD) : W25 m ρ c (Proc.devRef .tc main_v184) = Cert.ReferenceIdeal.ReadP.val_main_v273 (F := Ideal) (m ((c.tc : Thread nD τ).loc main_arg11)) :=
  hostOps10_2_main_v184 (W24 m ρ c) (m ((c.tc : Thread nD τ).loc main_arg11)) (arg_at24 m ρ c main_arg11)
theorem main_v185_at25 (c : Dev nD) : W25 m ρ c (Proc.devRef .tc main_v185) = Cert.ReferenceIdeal.ReadP.val_main_v262 (F := Ideal) (m ((c.tc : Thread nD τ).loc main_arg13)) :=
  hostOps10_2_main_v185 (W24 m ρ c) (m ((c.tc : Thread nD τ).loc main_arg13)) (arg_at24 m ρ c main_arg13)
theorem main_v186_at25 (c : Dev nD) : W25 m ρ c (Proc.devRef .tc main_v186) = (fun i => shapeCast S1x65536 (m ((c.tc : Thread nD τ).loc main_arg4)) shapeCasts_S65536_S1x65536 i) :=
  hostOps10_2_main_v186 (W24 m ρ c) (m ((c.tc : Thread nD τ).loc main_arg4)) (arg_at24 m ρ c main_arg4)
theorem main_v187_0_at26 (c : Dev nD) : W26 m ρ c (Proc.devRef .tc main_v187_0) = Cert.ReferenceIdeal.ReadP.val_main_v225 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W26_arr m ρ c 10).trans ((Cert.GNN.agg_dec_arr (V25 m ρ) c).trans (by
    rw [show (V25 m ρ) c main_v181 = _ from main_v181_at25 m ρ hr c, show (V25 m ρ) c main_v186 = _ from main_v186_at25 m ρ hr c, show (V25 m ρ) c main_v182 = _ from main_v182_at25 m ρ hr c, show (V25 m ρ) c main_arg8 = _ from arg_at25 m ρ c main_arg8, show (V25 m ρ) c main_v183 = _ from main_v183_at25 m ρ hr c, show (V25 m ρ) c main_arg10 = _ from arg_at25 m ρ c main_arg10]
    exact Cert.GNN.aggSum_eq_val_main_v225 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))))
theorem main_v187_1_at26 (c : Dev nD) : W26 m ρ c (Proc.devRef .tc main_v187_1) = Cert.ReferenceIdeal.ReadP.val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (W26_arr m ρ c 11).trans ((Cert.GNN.agg_init_arr (V25 m ρ) c).trans (by
    rw [show (V25 m ρ) c main_v181 = _ from main_v181_at25 m ρ hr c, show (V25 m ρ) c main_v186 = _ from main_v186_at25 m ρ hr c, show (V25 m ρ) c main_v184 = _ from main_v184_at25 m ρ hr c, show (V25 m ρ) c main_arg12 = _ from arg_at25 m ρ c main_arg12, show (V25 m ρ) c main_v185 = _ from main_v185_at25 m ρ hr c, show (V25 m ρ) c main_arg14 = _ from arg_at25 m ρ c main_arg14]
    exact Cert.GNN.aggSum_eq_val_main_v279 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))))
theorem main_v187_1_at27 (c : Dev nD) : W27 m ρ c (Proc.devRef .tc main_v187_1) = Cert.ReferenceIdeal.ReadP.val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11 (F := Ideal)) _ hostOps11_writes (r := main_v187_1) (by decide)).trans (main_v187_1_at26 m ρ hr c)
theorem main_v192_at27 (c : Dev nD) : W27 m ρ c (Proc.devRef .tc main_v192) = Cert.ReferenceIdeal.ReadP.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps11_main_v192 (W26 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v187_0_at26 m ρ hr c) (arg_at26 m ρ c main_arg15) (arg_at26 m ρ c main_arg16)
theorem main_v194_at27 (c : Dev nD) : W27 m ρ c (Proc.devRef .tc main_v194) = Cert.ReferenceIdeal.ReadP.val_main_v232 (F := Ideal) (m ((c.tc : Thread nD τ).loc main_arg6)) :=
  hostOps11_main_v194 (W26 m ρ c) (m ((c.tc : Thread nD τ).loc main_arg6)) (arg_at26 m ρ c main_arg6)
theorem main_v187_1_at28 (c : Dev nD) : W28 m ρ c (Proc.devRef .tc main_v187_1) = Cert.ReferenceIdeal.ReadP.val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11_1 (F := Ideal)) _ hostOps11_1_writes (r := main_v187_1) (by decide)).trans (main_v187_1_at27 m ρ hr c)
theorem main_v192_at28 (c : Dev nD) : W28 m ρ c (Proc.devRef .tc main_v192) = Cert.ReferenceIdeal.ReadP.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11_1 (F := Ideal)) _ hostOps11_1_writes (r := main_v192) (by decide)).trans (main_v192_at27 m ρ hr c)
theorem main_v194_at28 (c : Dev nD) : W28 m ρ c (Proc.devRef .tc main_v194) = Cert.ReferenceIdeal.ReadP.val_main_v232 (F := Ideal) (m ((c.tc : Thread nD τ).loc main_arg6)) :=
  (after_of_writes_sub (hostOps11_1 (F := Ideal)) _ hostOps11_1_writes (r := main_v194) (by decide)).trans (main_v194_at27 m ρ hr c)
theorem main_v195_at28 (c : Dev nD) : W28 m ρ c (Proc.devRef .tc main_v195) = Cert.ReferenceIdeal.ReadP.val_main_v233 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps11_1_main_v195 (W27 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v192_at27 m ρ hr c)
theorem main_v187_1_at29 (c : Dev nD) : W29 m ρ c (Proc.devRef .tc main_v187_1) = Cert.ReferenceIdeal.ReadP.val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11_2 (F := Ideal)) _ hostOps11_2_writes (r := main_v187_1) (by decide)).trans (main_v187_1_at28 m ρ hr c)
theorem main_v192_at29 (c : Dev nD) : W29 m ρ c (Proc.devRef .tc main_v192) = Cert.ReferenceIdeal.ReadP.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11_2 (F := Ideal)) _ hostOps11_2_writes (r := main_v192) (by decide)).trans (main_v192_at28 m ρ hr c)
theorem main_v194_at29 (c : Dev nD) : W29 m ρ c (Proc.devRef .tc main_v194) = Cert.ReferenceIdeal.ReadP.val_main_v232 (F := Ideal) (m ((c.tc : Thread nD τ).loc main_arg6)) :=
  (after_of_writes_sub (hostOps11_2 (F := Ideal)) _ hostOps11_2_writes (r := main_v194) (by decide)).trans (main_v194_at28 m ρ hr c)
theorem main_v211_at29 (c : Dev nD) : W29 m ρ c (Proc.devRef .tc main_v211) = Cert.ReferenceIdeal.ReadP.val_main_v249 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps11_2_main_v211 (W28 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v195_at28 m ρ hr c) (main_v194_at28 m ρ hr c)
theorem main_cst_34_at29 (c : Dev nD) : W29 m ρ c (Proc.devRef .tc main_cst_34) = Cert.ReferenceIdeal.ReadP.val_main_cst_35 (F := Ideal) :=
  hostOps11_2_main_cst_34 (W28 m ρ c)
theorem main_v187_1_at30 (c : Dev nD) : W30 m ρ c (Proc.devRef .tc main_v187_1) = Cert.ReferenceIdeal.ReadP.val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11_3 (F := Ideal)) _ hostOps11_3_writes (r := main_v187_1) (by decide)).trans (main_v187_1_at29 m ρ hr c)
theorem main_v192_at30 (c : Dev nD) : W30 m ρ c (Proc.devRef .tc main_v192) = Cert.ReferenceIdeal.ReadP.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11_3 (F := Ideal)) _ hostOps11_3_writes (r := main_v192) (by decide)).trans (main_v192_at29 m ρ hr c)
theorem main_v194_at30 (c : Dev nD) : W30 m ρ c (Proc.devRef .tc main_v194) = Cert.ReferenceIdeal.ReadP.val_main_v232 (F := Ideal) (m ((c.tc : Thread nD τ).loc main_arg6)) :=
  (after_of_writes_sub (hostOps11_3 (F := Ideal)) _ hostOps11_3_writes (r := main_v194) (by decide)).trans (main_v194_at29 m ρ hr c)
theorem main_v212_at30 (c : Dev nD) : W30 m ρ c (Proc.devRef .tc main_v212) = Cert.ReferenceIdeal.ReadP.val_main_v250 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps11_3_main_v212 (W29 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (arg_at29 m ρ c main_arg5) (main_v211_at29 m ρ hr c) (main_cst_34_at29 m ρ hr c)
theorem main_v192_at31 (c : Dev nD) : W31 m ρ c (Proc.devRef .tc main_v192) = Cert.ReferenceIdeal.ReadP.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (hostOps11_4 (F := Ideal)) _ hostOps11_4_writes (r := main_v192) (by decide)).trans (main_v192_at30 m ρ hr c)
theorem main_v214_at31 (c : Dev nD) : W31 m ρ c (Proc.devRef .tc main_v214) = Cert.ReferenceIdeal.ReadP.val_main_v252 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps11_4_main_v214 (W30 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v212_at30 m ρ hr c)
theorem main_v231_at31 (c : Dev nD) : W31 m ρ c (Proc.devRef .tc main_v231) = Cert.ReferenceIdeal.ReadP.val_main_v287 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  hostOps11_4_main_v231 (W30 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (arg_at30 m ρ c main_arg17) (main_v194_at30 m ρ hr c) (arg_at30 m ρ c main_arg18) (arg_at30 m ρ c main_arg19) (main_v187_1_at30 m ρ hr c) (arg_at30 m ρ c main_arg20)

end Cert.GNN.KChain

end
-- ==== Proof.RefStages.lean ====
import proofs.«404942_j76501957477039_1_alg».proof.Proof.RefRead
import Idealize.ShloMosaic.Lib.Pipeline.Frame

set_option maxRecDepth 16384
set_option maxHeartbeats 2000000

noncomputable section

namespace Cert.ReferenceIdeal.Stages

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]
variable (V : Valuation τ sig (Elt F)) (A0 : (⟨S65536x256, .f32⟩ : BufTy).Contents (Elt F)) (A1 : (⟨S131072x256, .f32⟩ : BufTy).Contents (Elt F)) (A2 : (⟨S131072, .i32⟩ : BufTy).Contents (Elt F)) (A3 : (⟨S131072, .i32⟩ : BufTy).Contents (Elt F)) (A4 : (⟨S65536, .i32⟩ : BufTy).Contents (Elt F)) (A5 : (⟨S512, .i1⟩ : BufTy).Contents (Elt F)) (A6 : (⟨S512, .i32⟩ : BufTy).Contents (Elt F)) (A7 : (⟨S512x256, .f32⟩ : BufTy).Contents (Elt F)) (A8 : (⟨S512, .f32⟩ : BufTy).Contents (Elt F)) (A9 : (⟨S512x256, .f32⟩ : BufTy).Contents (Elt F)) (A10 : (⟨S512, .f32⟩ : BufTy).Contents (Elt F)) (A11 : (⟨S512x256, .f32⟩ : BufTy).Contents (Elt F)) (A12 : (⟨S512, .f32⟩ : BufTy).Contents (Elt F)) (A13 : (⟨S512x256, .f32⟩ : BufTy).Contents (Elt F)) (A14 : (⟨S512, .f32⟩ : BufTy).Contents (Elt F)) (A15 : (⟨S65x512, .f32⟩ : BufTy).Contents (Elt F)) (A16 : (⟨S65, .f32⟩ : BufTy).Contents (Elt F)) (A17 : (⟨S64x256, .f32⟩ : BufTy).Contents (Elt F)) (A18 : (⟨S256x256, .f32⟩ : BufTy).Contents (Elt F)) (A19 : (⟨S256, .f32⟩ : BufTy).Contents (Elt F)) (A20 : (⟨S256x512, .f32⟩ : BufTy).Contents (Elt F)) (A21 : (⟨S2x512x256, .f32⟩ : BufTy).Contents (Elt F)) (A22 : (⟨S2x512x256, .f32⟩ : BufTy).Contents (Elt F)) (A23 : (⟨S2x512x512, .f32⟩ : BufTy).Contents (Elt F)) (A24 : (⟨S2x512, .f32⟩ : BufTy).Contents (Elt F)) (A25 : (⟨S2x768x512, .f32⟩ : BufTy).Contents (Elt F)) (A26 : (⟨S2x768x256, .f32⟩ : BufTy).Contents (Elt F)) (A27 : (⟨S2x768, .f32⟩ : BufTy).Contents (Elt F)) (A28 : (⟨S2x768, .f32⟩ : BufTy).Contents (Elt F))

theorem chunk0_writes : (chunk0 (F := F)).Forall fun op => op.writes ⊆ (([main_v0, main_v1, main_v2, main_v3, main_v4, main_v5, main_v6, main_v7, main_v8, main_v9, main_v10, main_cst, main_v11, main_cst_0, main_v12, main_v13, main_v14, main_v15, main_v16, main_v17, main_v18, main_v19, main_v20, main_v21, main_c, main_v22, main_v23, main_c_1, main_v24, main_v25] : List (Ref sig .tc)).map (Proc.devRef (τ := τ) .tc)).toFinset := by
  simp only [chunk0, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c0_main_v6 (h_main_arg4 : V (Proc.devRef .tc main_arg4) = A4) :
    after chunk0 V (Proc.devRef .tc main_v6) = val_main_v6 (F := F) A4 := by
  after_results_simp
  all_goals (try simp only [h_main_arg4])
  all_goals (try simp only [TRef.ofBuf, TRef.toBuf, cast_eq])
  all_goals (try rfl)
theorem c0_main_v13 (h_main_arg4 : V (Proc.devRef .tc main_arg4) = A4) (h_main_arg5 : V (Proc.devRef .tc main_arg5) = A5) :
    after chunk0 V (Proc.devRef .tc main_v13) = val_main_v13 (F := F) A4 A5 := by
  after_results_simp
  all_goals (try simp only [h_main_arg4, h_main_arg5])
  all_goals (try simp only [TRef.ofBuf, TRef.toBuf, cast_eq])
  all_goals (try rfl)
theorem c0_main_v17 (h_main_arg1 : V (Proc.devRef .tc main_arg1) = A1) (h_main_arg22 : V (Proc.devRef .tc main_arg22) = A22) :
    after chunk0 V (Proc.devRef .tc main_v17) = val_main_v17 (F := F) A1 A22 := by
  after_results_simp
  all_goals (try simp only [h_main_arg1, h_main_arg22])
  all_goals (try simp only [TRef.ofBuf, TRef.toBuf, cast_eq])
  all_goals (try rfl)
theorem c0_main_v21 (h_main_arg0 : V (Proc.devRef .tc main_arg0) = A0) (h_main_arg21 : V (Proc.devRef .tc main_arg21) = A21) :
    after chunk0 V (Proc.devRef .tc main_v21) = val_main_v21 (F := F) A0 A21 := by
  after_results_simp
  all_goals (try simp only [h_main_arg0, h_main_arg21])
  all_goals (try simp only [TRef.ofBuf, TRef.toBuf, cast_eq])
  all_goals (try rfl)
theorem c0_main_v23 (h_main_arg2 : V (Proc.devRef .tc main_arg2) = A2) :
    after chunk0 V (Proc.devRef .tc main_v23) = val_main_v23 (F := F) A2 := by
  after_results_simp
  all_goals (try simp only [h_main_arg2])
  all_goals (try simp only [TRef.ofBuf, TRef.toBuf, cast_eq])
  all_goals (try rfl)
theorem c0_main_v25 (h_main_arg2 : V (Proc.devRef .tc main_arg2) = A2) :
    after chunk0 V (Proc.devRef .tc main_v25) = val_main_v25 (F := F) A2 := by
  after_results_simp
  all_goals (try simp only [h_main_arg2])
  all_goals (try simp only [TRef.ofBuf, TRef.toBuf, cast_eq])
  all_goals (try rfl)

theorem chunk1_writes : (chunk1 (F := F)).Forall fun op => op.writes ⊆ (([main_v26, main_v27, main_v28, main_c_2, main_v29, main_v30, main_c_3, main_v31, main_v32, main_v33, main_v34, main_v35, main_v36, main_v37, main_v38, main_v39, main_v40, main_v41, main_v42, main_v43, main_v44, main_v45, main_v46, main_v47, main_cst_4, main_v48, main_c_5, main_v49, main_v50, main_c_6] : List (Ref sig .tc)).map (Proc.devRef (τ := τ) .tc)).toFinset := by
  simp only [chunk1, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c1_main_v47 (h_main_v21 : V (Proc.devRef .tc main_v21) = val_main_v21 (F := F) A0 A21) (h_main_v23 : V (Proc.devRef .tc main_v23) = val_main_v23 (F := F) A2) (h_main_v25 : V (Proc.devRef .tc main_v25) = val_main_v25 (F := F) A2) (h_main_arg2 : V (Proc.devRef .tc main_arg2) = A2) (h_main_arg3 : V (Proc.devRef .tc main_arg3) = A3) (h_main_v17 : V (Proc.devRef .tc main_v17) = val_main_v17 (F := F) A1 A22) (h_main_arg23 : V (Proc.devRef .tc main_arg23) = A23) (h_main_arg24 : V (Proc.devRef .tc main_arg24) = A24) :
    after chunk1 V (Proc.devRef .tc main_v47) = val_main_v47 (F := F) A0 A1 A2 A3 A21 A22 A23 A24 := by
  after_results_simp
  all_goals (try simp only [h_main_v21, h_main_v23, h_main_v25, h_main_arg2, h_main_arg3, h_main_v17, h_main_arg23, h_main_arg24])
  all_goals (try simp only [TRef.ofBuf, TRef.toBuf, cast_eq])
  all_goals (try rfl)
theorem c1_main_v48   :
    after chunk1 V (Proc.devRef .tc main_v48) = val_main_v48 (F := F) := by
  after_results_simp
  all_goals (try simp only [TRef.ofBuf, TRef.toBuf, cast_eq])
  all_goals (try rfl)
theorem c1_main_v50 (h_main_arg3 : V (Proc.devRef .tc main_arg3) = A3) :
    after chunk1 V (Proc.devRef .tc main_v50) = val_main_v50 (F := F) A3 := by
  after_results_simp
  all_goals (try simp only [h_main_arg3])
  all_goals (try simp only [TRef.ofBuf, TRef.toBuf, cast_eq])
  all_goals (try rfl)
theorem c1_main_c_6   :
    after chunk1 V (Proc.devRef .tc main_c_6) = val_main_c_6 (F := F) := by
  after_results_simp
  all_goals (try simp only [TRef.ofBuf, TRef.toBuf, cast_eq])
  all_goals (try rfl)

theorem chunk2_writes : (chunk2 (F := F)).Forall fun op => op.writes ⊆ (([main_v51, main_v52, main_v53, main_v54, main_v55, main_c_7, main_v56, main_v57, main_c_8, main_v58, main_v59, main_v60, main_v61, main_v62, main_v63, main_v64, main_v65, main_v66, main_v67, main_v68, main_v69, main_v70, main_v71, main_v72, main_v73, main_v74, main_v75, main_v76, main_v77, main_v78] : List (Ref sig .tc)).map (Proc.devRef (τ := τ) .tc)).toFinset := by
  simp only [chunk2, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c2_main_v71 (h_main_v48 : V (Proc.devRef .tc main_v48) = val_main_v48 (F := F)) (h_main_v50 : V (Proc.devRef .tc main_v50) = val_main_v50 (F := F) A3) (h_main_arg3 : V (Proc.devRef .tc main_arg3) = A3) (h_main_c_6 : V (Proc.devRef .tc main_c_6) = val_main_c_6 (F := F)) (h_main_v47 : V (Proc.devRef .tc main_v47) = val_main_v47 (F := F) A0 A1 A2 A3 A21 A22 A23 A24) (h_main_arg2 : V (Proc.devRef .tc main_arg2) = A2) (h_main_arg25 : V (Proc.devRef .tc main_arg25) = A25) (h_main_arg27 : V (Proc.devRef .tc main_arg27) = A27) :
    after chunk2 V (Proc.devRef .tc main_v71) = val_main_v71 (F := F) A0 A1 A2 A3 A21 A22 A23 A24 A25 A27 := by
  after_results_simp
  all_goals (try simp only [h_main_v48, h_main_v50, h_main_arg3, h_main_c_6, h_main_v47, h_main_arg2, h_main_arg25, h_main_arg27])
  all_goals (try simp only [TRef.ofBuf, TRef.toBuf, cast_eq])
  all_goals (try rfl)
theorem c2_main_v75 (h_main_arg0 : V (Proc.devRef .tc main_arg0) = A0) (h_main_arg26 : V (Proc.devRef .tc main_arg26) = A26) :
    after chunk2 V (Proc.devRef .tc main_v75) = val_main_v75 (F := F) A0 A26 := by
  after_results_simp
  all_goals (try simp only [h_main_arg0, h_main_arg26])
  all_goals (try simp only [TRef.ofBuf, TRef.toBuf, cast_eq])
  all_goals (try rfl)
theorem c2_main_v78 (h_main_arg28 : V (Proc.devRef .tc main_arg28) = A28) :
    after chunk2 V (Proc.devRef .tc main_v78) = val_main_v78 (F := F) A28 := by
  after_results_simp
  all_goals (try simp only [h_main_arg28])
  all_goals (try simp only [TRef.ofBuf, TRef.toBuf, cast_eq])
  all_goals (try rfl)

theorem chunk3_writes : (chunk3 (F := F)).Forall fun op => op.writes ⊆ (([main_v79, main_v80, main_v81, main_v82, main_v83, main_v84, main_v85, main_v86, main_v87, main_v88, main_v89, main_cst_9, main_v90, main_v91, main_cst_10, main_v92, main_v93, main_v94, main_v95, main_v96, main_cst_11, main_v97, main_v98, main_cst_12, main_v99, main_v100, main_v101, main_v102, main_v103, main_cst_13] : List (Ref sig .tc)).map (Proc.devRef (τ := τ) .tc)).toFinset := by
  simp only [chunk3, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c3_main_v100 (h_main_v71 : V (Proc.devRef .tc main_v71) = val_main_v71 (F := F) A0 A1 A2 A3 A21 A22 A23 A24 A25 A27) (h_main_v75 : V (Proc.devRef .tc main_v75) = val_main_v75 (F := F) A0 A26) (h_main_v78 : V (Proc.devRef .tc main_v78) = val_main_v78 (F := F) A28) :
    after chunk3 V (Proc.devRef .tc main_v100) = val_main_v100 (F := F) A0 A1 A2 A3 A21 A22 A23 A24 A25 A26 A27 A28 := by
  after_results_simp
  all_goals (try simp only [h_main_v71, h_main_v75, h_main_v78])
  all_goals (try simp only [TRef.ofBuf, TRef.toBuf, cast_eq])
  all_goals (try rfl)
theorem c3_main_v103 (h_main_v71 : V (Proc.devRef .tc main_v71) = val_main_v71 (F := F) A0 A1 A2 A3 A21 A22 A23 A24 A25 A27) (h_main_v75 : V (Proc.devRef .tc main_v75) = val_main_v75 (F := F) A0 A26) (h_main_v78 : V (Proc.devRef .tc main_v78) = val_main_v78 (F := F) A28) :
    after chunk3 V (Proc.devRef .tc main_v103) = val_main_v103 (F := F) A0 A1 A2 A3 A21 A22 A23 A24 A25 A26 A27 A28 := by
  after_results_simp
  all_goals (try simp only [h_main_v71, h_main_v75, h_main_v78])
  all_goals (try simp only [TRef.ofBuf, TRef.toBuf, cast_eq])
  all_goals (try rfl)
theorem c3_main_cst_13   :
    after chunk3 V (Proc.devRef .tc main_cst_13) = val_main_cst_13 (F := F) := by
  after_results_simp
  all_goals (try simp only [TRef.ofBuf, TRef.toBuf, cast_eq])
  all_goals (try rfl)

theorem chunk4_writes : (chunk4 (F := F)).Forall fun op => op.writes ⊆ (([main_v104, main_v105, main_v106, main_v107, main_v108, main_v109, main_call0_v0, main_v110, main_v111, main_v112, main_v113, main_v114, main_v115, main_v116, main_v117, main_v118, main_c_14, main_v119, main_v120, main_c_15, main_v121, main_v122, main_v123, main_v124, main_v125, main_c_16, main_v126, main_v127, main_c_17, main_v128] : List (Ref sig .tc)).map (Proc.devRef (τ := τ) .tc)).toFinset := by
  simp only [chunk4, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c4_main_v110 (h_main_v13 : V (Proc.devRef .tc main_v13) = val_main_v13 (F := F) A4 A5) (h_main_cst_13 : V (Proc.devRef .tc main_cst_13) = val_main_cst_13 (F := F)) (h_main_v100 : V (Proc.devRef .tc main_v100) = val_main_v100 (F := F) A0 A1 A2 A3 A21 A22 A23 A24 A25 A26 A27 A28) (h_main_v103 : V (Proc.devRef .tc main_v103) = val_main_v103 (F := F) A0 A1 A2 A3 A21 A22 A23 A24 A25 A26 A27 A28) (h_main_arg0 : V (Proc.devRef .tc main_arg0) = A0) :
    after chunk4 V (Proc.devRef .tc main_v110) = val_main_v110 (F := F) A0 A1 A2 A3 A4 A5 A21 A22 A23 A24 A25 A26 A27 A28 := by
  after_results_simp
  all_goals (try simp only [h_main_v13, h_main_cst_13, h_main_v100, h_main_v103, h_main_arg0])
  all_goals (try simp only [TRef.ofBuf, TRef.toBuf, cast_eq])
  all_goals (try rfl)
theorem c4_main_v114 (h_main_arg1 : V (Proc.devRef .tc main_arg1) = A1) (h_main_arg22 : V (Proc.devRef .tc main_arg22) = A22) :
    after chunk4 V (Proc.devRef .tc main_v114) = val_main_v114 (F := F) A1 A22 := by
  after_results_simp
  all_goals (try simp only [h_main_arg1, h_main_arg22])
  all_goals (try simp only [TRef.ofBuf, TRef.toBuf, cast_eq])
  all_goals (try rfl)
theorem c4_main_v118 (h_main_v13 : V (Proc.devRef .tc main_v13) = val_main_v13 (F := F) A4 A5) (h_main_cst_13 : V (Proc.devRef .tc main_cst_13) = val_main_cst_13 (F := F)) (h_main_v100 : V (Proc.devRef .tc main_v100) = val_main_v100 (F := F) A0 A1 A2 A3 A21 A22 A23 A24 A25 A26 A27 A28) (h_main_v103 : V (Proc.devRef .tc main_v103) = val_main_v103 (F := F) A0 A1 A2 A3 A21 A22 A23 A24 A25 A26 A27 A28) (h_main_arg0 : V (Proc.devRef .tc main_arg0) = A0) (h_main_arg21 : V (Proc.devRef .tc main_arg21) = A21) :
    after chunk4 V (Proc.devRef .tc main_v118) = val_main_v118 (F := F) A0 A1 A2 A3 A4 A5 A21 A22 A23 A24 A25 A26 A27 A28 := by
  after_results_simp
  all_goals (try simp only [h_main_v13, h_main_cst_13, h_main_v100, h_main_v103, h_main_arg0, h_main_arg21])
  all_goals (try simp only [TRef.ofBuf, TRef.toBuf, cast_eq])
  all_goals (try rfl)
theorem c4_main_v125 (h_main_v13 : V (Proc.devRef .tc main_v13) = val_main_v13 (F := F) A4 A5) (h_main_cst_13 : V (Proc.devRef .tc main_cst_13) = val_main_cst_13 (F := F)) (h_main_v100 : V (Proc.devRef .tc main_v100) = val_main_v100 (F := F) A0 A1 A2 A3 A21 A22 A23 A24 A25 A26 A27 A28) (h_main_v103 : V (Proc.devRef .tc main_v103) = val_main_v103 (F := F) A0 A1 A2 A3 A21 A22 A23 A24 A25 A26 A27 A28) (h_main_arg0 : V (Proc.devRef .tc main_arg0) = A0) (h_main_arg21 : V (Proc.devRef .tc main_arg21) = A21) (h_main_arg2 : V (Proc.devRef .tc main_arg2) = A2) :
    after chunk4 V (Proc.devRef .tc main_v125) = val_main_v125 (F := F) A0 A1 A2 A3 A4 A5 A21 A22 A23 A24 A25 A26 A27 A28 := by
  after_results_simp
  all_goals (try simp only [h_main_v13, h_main_cst_13, h_main_v100, h_main_v103, h_main_arg0, h_main_arg21, h_main_arg2])
  all_goals (try simp only [TRef.ofBuf, TRef.toBuf, cast_eq])
  all_goals (try rfl)
theorem c4_main_v127 (h_main_arg3 : V (Proc.devRef .tc main_arg3) = A3) :
    after chunk4 V (Proc.devRef .tc main_v127) = val_main_v127 (F := F) A3 := by
  after_results_simp
  all_goals (try simp only [h_main_arg3])
  all_goals (try simp only [TRef.ofBuf, TRef.toBuf, cast_eq])
  all_goals (try rfl)
theorem c4_main_v128   :
    after chunk4 V (Proc.devRef .tc main_v128) = val_main_v128 (F := F) := by
  after_results_simp
  all_goals (try simp only [TRef.ofBuf, TRef.toBuf, cast_eq])
  all_goals (try rfl)

theorem chunk5_writes : (chunk5 (F := F)).Forall fun op => op.writes ⊆ (([main_v129, main_v130, main_v131, main_v132, main_v133, main_v134, main_v135, main_v136, main_v137, main_v138, main_v139, main_v140, main_v141, main_v142, main_v143, main_v144, main_cst_18, main_v145, main_c_19, main_v146, main_v147, main_c_20, main_v148, main_v149, main_v150, main_v151, main_v152, main_c_21, main_v153, main_v154, main_c_22] : List (Ref sig .tc)).map (Proc.devRef (τ := τ) .tc)).toFinset := by
  simp only [chunk5, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c5_main_v144 (h_main_v125 : V (Proc.devRef .tc main_v125) = val_main_v125 (F := F) A0 A1 A2 A3 A4 A5 A21 A22 A23 A24 A25 A26 A27 A28) (h_main_v118 : V (Proc.devRef .tc main_v118) = val_main_v118 (F := F) A0 A1 A2 A3 A4 A5 A21 A22 A23 A24 A25 A26 A27 A28) (h_main_v127 : V (Proc.devRef .tc main_v127) = val_main_v127 (F := F) A3) (h_main_arg3 : V (Proc.devRef .tc main_arg3) = A3) (h_main_v128 : V (Proc.devRef .tc main_v128) = val_main_v128 (F := F)) (h_main_v114 : V (Proc.devRef .tc main_v114) = val_main_v114 (F := F) A1 A22) (h_main_arg23 : V (Proc.devRef .tc main_arg23) = A23) (h_main_arg24 : V (Proc.devRef .tc main_arg24) = A24) :
    after chunk5 V (Proc.devRef .tc main_v144) = val_main_v144 (F := F) A0 A1 A2 A3 A4 A5 A21 A22 A23 A24 A25 A26 A27 A28 := by
  after_results_simp
  all_goals (try simp only [h_main_v125, h_main_v118, h_main_v127, h_main_arg3, h_main_v128, h_main_v114, h_main_arg23, h_main_arg24])
  all_goals (try simp only [TRef.ofBuf, TRef.toBuf, cast_eq])
  all_goals (try rfl)
theorem c5_main_v152 (h_main_arg3 : V (Proc.devRef .tc main_arg3) = A3) (h_main_v125 : V (Proc.devRef .tc main_v125) = val_main_v125 (F := F) A0 A1 A2 A3 A4 A5 A21 A22 A23 A24 A25 A26 A27 A28) (h_main_v118 : V (Proc.devRef .tc main_v118) = val_main_v118 (F := F) A0 A1 A2 A3 A4 A5 A21 A22 A23 A24 A25 A26 A27 A28) (h_main_v127 : V (Proc.devRef .tc main_v127) = val_main_v127 (F := F) A3) (h_main_v128 : V (Proc.devRef .tc main_v128) = val_main_v128 (F := F)) (h_main_v114 : V (Proc.devRef .tc main_v114) = val_main_v114 (F := F) A1 A22) (h_main_arg23 : V (Proc.devRef .tc main_arg23) = A23) (h_main_arg24 : V (Proc.devRef .tc main_arg24) = A24) :
    after chunk5 V (Proc.devRef .tc main_v152) = val_main_v152 (F := F) A0 A1 A2 A3 A4 A5 A21 A22 A23 A24 A25 A26 A27 A28 := by
  after_results_simp
  all_goals (try simp only [h_main_arg3, h_main_v125, h_main_v118, h_main_v127, h_main_v128, h_main_v114, h_main_arg23, h_main_arg24])
  all_goals (try simp only [TRef.ofBuf, TRef.toBuf, cast_eq])
  all_goals (try rfl)
theorem c5_main_v154 (h_main_arg2 : V (Proc.devRef .tc main_arg2) = A2) :
    after chunk5 V (Proc.devRef .tc main_v154) = val_main_v154 (F := F) A2 := by
  after_results_simp
  all_goals (try simp only [h_main_arg2])
  all_goals (try simp only [TRef.ofBuf, TRef.toBuf, cast_eq])
  all_goals (try rfl)
theorem c5_main_c_22   :
    after chunk5 V (Proc.devRef .tc main_c_22) = val_main_c_22 (F := F) := by
  after_results_simp
  all_goals (try simp only [TRef.ofBuf, TRef.toBuf, cast_eq])
  all_goals (try rfl)

theorem chunk6_writes : (chunk6 (F := F)).Forall fun op => op.writes ⊆ (([main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184] : List (Ref sig .tc)).map (Proc.devRef (τ := τ) .tc)).toFinset := by
  simp only [chunk6, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c6_main_v179 (h_main_v152 : V (Proc.devRef .tc main_v152) = val_main_v152 (F := F) A0 A1 A2 A3 A4 A5 A21 A22 A23 A24 A25 A26 A27 A28) (h_main_v154 : V (Proc.devRef .tc main_v154) = val_main_v154 (F := F) A2) (h_main_arg2 : V (Proc.devRef .tc main_arg2) = A2) (h_main_c_22 : V (Proc.devRef .tc main_c_22) = val_main_c_22 (F := F)) (h_main_v144 : V (Proc.devRef .tc main_v144) = val_main_v144 (F := F) A0 A1 A2 A3 A4 A5 A21 A22 A23 A24 A25 A26 A27 A28) (h_main_arg25 : V (Proc.devRef .tc main_arg25) = A25) (h_main_arg27 : V (Proc.devRef .tc main_arg27) = A27) :
    after chunk6 V (Proc.devRef .tc main_v179) = val_main_v179 (F := F) A0 A1 A2 A3 A4 A5 A21 A22 A23 A24 A25 A26 A27 A28 := by
  after_results_simp
  all_goals (try simp only [h_main_v152, h_main_v154, h_main_arg2, h_main_c_22, h_main_v144, h_main_arg25, h_main_arg27])
  all_goals (try simp only [TRef.ofBuf, TRef.toBuf, cast_eq])
  all_goals (try rfl)
theorem c6_main_v180 (h_main_v152 : V (Proc.devRef .tc main_v152) = val_main_v152 (F := F) A0 A1 A2 A3 A4 A5 A21 A22 A23 A24 A25 A26 A27 A28) (h_main_v154 : V (Proc.devRef .tc main_v154) = val_main_v154 (F := F) A2) (h_main_arg2 : V (Proc.devRef .tc main_arg2) = A2) (h_main_c_22 : V (Proc.devRef .tc main_c_22) = val_main_c_22 (F := F)) (h_main_v144 : V (Proc.devRef .tc main_v144) = val_main_v144 (F := F) A0 A1 A2 A3 A4 A5 A21 A22 A23 A24 A25 A26 A27 A28) (h_main_arg25 : V (Proc.devRef .tc main_arg25) = A25) (h_main_arg27 : V (Proc.devRef .tc main_arg27) = A27) :
    after chunk6 V (Proc.devRef .tc main_v180) = val_main_v180 (F := F) A0 A1 A2 A3 A4 A5 A21 A22 A23 A24 A25 A26 A27 A28 := by
  after_results_simp
  all_goals (try simp only [h_main_v152, h_main_v154, h_main_arg2, h_main_c_22, h_main_v144, h_main_arg25, h_main_arg27])
  all_goals (try simp only [TRef.ofBuf, TRef.toBuf, cast_eq])
  all_goals (try rfl)
theorem c6_main_v182 (h_main_v110 : V (Proc.devRef .tc main_v110) = val_main_v110 (F := F) A0 A1 A2 A3 A4 A5 A21 A22 A23 A24 A25 A26 A27 A28) (h_main_arg26 : V (Proc.devRef .tc main_arg26) = A26) (h_main_arg28 : V (Proc.devRef .tc main_arg28) = A28) :
    after chunk6 V (Proc.devRef .tc main_v182) = val_main_v182 (F := F) A0 A1 A2 A3 A4 A5 A21 A22 A23 A24 A25 A26 A27 A28 := by
  after_results_simp
  all_goals (try simp only [h_main_v110, h_main_arg26, h_main_arg28])
  all_goals (try simp only [TRef.ofBuf, TRef.toBuf, cast_eq])
  all_goals (try rfl)
theorem c6_main_v183 (h_main_v110 : V (Proc.devRef .tc main_v110) = val_main_v110 (F := F) A0 A1 A2 A3 A4 A5 A21 A22 A23 A24 A25 A26 A27 A28) (h_main_arg26 : V (Proc.devRef .tc main_arg26) = A26) (h_main_arg28 : V (Proc.devRef .tc main_arg28) = A28) :
    after chunk6 V (Proc.devRef .tc main_v183) = val_main_v183 (F := F) A0 A1 A2 A3 A4 A5 A21 A22 A23 A24 A25 A26 A27 A28 := by
  after_results_simp
  all_goals (try simp only [h_main_v110, h_main_arg26, h_main_arg28])
  all_goals (try simp only [TRef.ofBuf, TRef.toBuf, cast_eq])
  all_goals (try rfl)
theorem c6_main_v184 (h_main_v152 : V (Proc.devRef .tc main_v152) = val_main_v152 (F := F) A0 A1 A2 A3 A4 A5 A21 A22 A23 A24 A25 A26 A27 A28) (h_main_v154 : V (Proc.devRef .tc main_v154) = val_main_v154 (F := F) A2) (h_main_arg2 : V (Proc.devRef .tc main_arg2) = A2) (h_main_c_22 : V (Proc.devRef .tc main_c_22) = val_main_c_22 (F := F)) (h_main_v144 : V (Proc.devRef .tc main_v144) = val_main_v144 (F := F) A0 A1 A2 A3 A4 A5 A21 A22 A23 A24 A25 A26 A27 A28) (h_main_arg25 : V (Proc.devRef .tc main_arg25) = A25) (h_main_arg27 : V (Proc.devRef .tc main_arg27) = A27) (h_main_v110 : V (Proc.devRef .tc main_v110) = val_main_v110 (F := F) A0 A1 A2 A3 A4 A5 A21 A22 A23 A24 A25 A26 A27 A28) (h_main_arg26 : V (Proc.devRef .tc main_arg26) = A26) (h_main_arg28 : V (Proc.devRef .tc main_arg28) = A28) :
    after chunk6 V (Proc.devRef .tc main_v184) = val_main_v184 (F := F) A0 A1 A2 A3 A4 A5 A21 A22 A23 A24 A25 A26 A27 A28 := by
  after_results_simp
  all_goals (try simp only [h_main_v152, h_main_v154, h_main_arg2, h_main_c_22, h_main_v144, h_main_arg25, h_main_arg27, h_main_v110, h_main_arg26, h_main_arg28])
  all_goals (try simp only [TRef.ofBuf, TRef.toBuf, cast_eq])
  all_goals (try rfl)

theorem chunk7_writes : (chunk7 (F := F)).Forall fun op => op.writes ⊆ (([main_v185, main_v186, main_cst_23, main_v187, main_v188, main_cst_24, main_v189, main_v190, main_v191, main_v192, main_v193, main_cst_25, main_v194, main_v195, main_cst_26, main_v196, main_v197, main_v198, main_v199, main_v200, main_cst_27, main_v201, main_v202, main_v203, main_v204, main_v205, main_v206, main_call1_v0, main_v207, main_v208, main_v209] : List (Ref sig .tc)).map (Proc.devRef (τ := τ) .tc)).toFinset := by
  simp only [chunk7, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c7_main_v207 (h_main_v13 : V (Proc.devRef .tc main_v13) = val_main_v13 (F := F) A4 A5) (h_main_v179 : V (Proc.devRef .tc main_v179) = val_main_v179 (F := F) A0 A1 A2 A3 A4 A5 A21 A22 A23 A24 A25 A26 A27 A28) (h_main_v182 : V (Proc.devRef .tc main_v182) = val_main_v182 (F := F) A0 A1 A2 A3 A4 A5 A21 A22 A23 A24 A25 A26 A27 A28) (h_main_v180 : V (Proc.devRef .tc main_v180) = val_main_v180 (F := F) A0 A1 A2 A3 A4 A5 A21 A22 A23 A24 A25 A26 A27 A28) (h_main_v184 : V (Proc.devRef .tc main_v184) = val_main_v184 (F := F) A0 A1 A2 A3 A4 A5 A21 A22 A23 A24 A25 A26 A27 A28) (h_main_v183 : V (Proc.devRef .tc main_v183) = val_main_v183 (F := F) A0 A1 A2 A3 A4 A5 A21 A22 A23 A24 A25 A26 A27 A28) (h_main_v110 : V (Proc.devRef .tc main_v110) = val_main_v110 (F := F) A0 A1 A2 A3 A4 A5 A21 A22 A23 A24 A25 A26 A27 A28) :
    after chunk7 V (Proc.devRef .tc main_v207) = val_main_v207 (F := F) A0 A1 A2 A3 A4 A5 A21 A22 A23 A24 A25 A26 A27 A28 := by
  after_results_simp
  all_goals (try simp only [h_main_v13, h_main_v179, h_main_v182, h_main_v180, h_main_v184, h_main_v183, h_main_v110])
  all_goals (try simp only [TRef.ofBuf, TRef.toBuf, cast_eq])
  all_goals (try rfl)
theorem c7_main_v209 (h_main_v13 : V (Proc.devRef .tc main_v13) = val_main_v13 (F := F) A4 A5) (h_main_v179 : V (Proc.devRef .tc main_v179) = val_main_v179 (F := F) A0 A1 A2 A3 A4 A5 A21 A22 A23 A24 A25 A26 A27 A28) (h_main_v182 : V (Proc.devRef .tc main_v182) = val_main_v182 (F := F) A0 A1 A2 A3 A4 A5 A21 A22 A23 A24 A25 A26 A27 A28) (h_main_v180 : V (Proc.devRef .tc main_v180) = val_main_v180 (F := F) A0 A1 A2 A3 A4 A5 A21 A22 A23 A24 A25 A26 A27 A28) (h_main_v184 : V (Proc.devRef .tc main_v184) = val_main_v184 (F := F) A0 A1 A2 A3 A4 A5 A21 A22 A23 A24 A25 A26 A27 A28) (h_main_v183 : V (Proc.devRef .tc main_v183) = val_main_v183 (F := F) A0 A1 A2 A3 A4 A5 A21 A22 A23 A24 A25 A26 A27 A28) (h_main_v110 : V (Proc.devRef .tc main_v110) = val_main_v110 (F := F) A0 A1 A2 A3 A4 A5 A21 A22 A23 A24 A25 A26 A27 A28) (h_main_arg9 : V (Proc.devRef .tc main_arg9) = A9) :
    after chunk7 V (Proc.devRef .tc main_v209) = val_main_v209 (F := F) A0 A1 A2 A3 A4 A5 A9 A21 A22 A23 A24 A25 A26 A27 A28 := by
  after_results_simp
  all_goals (try simp only [h_main_v13, h_main_v179, h_main_v182, h_main_v180, h_main_v184, h_main_v183, h_main_v110, h_main_arg9])
  all_goals (try simp only [TRef.ofBuf, TRef.toBuf, cast_eq])
  all_goals (try rfl)

theorem chunk8_writes : (chunk8 (F := F)).Forall fun op => op.writes ⊆ (([main_v210, main_v211, main_v212, main_v213, main_v214, main_cst_28, main_v215, main_v216, main_cst_29, main_v217, main_v218, main_v219, main_v220, main_v221, main_v222, main_v223, main_v224, main_v225, main_v226, main_v227, main_v228, main_v229, main_v230, main_c_30, main_v231, main_v232, main_call2_cst, main_call2_v0, main_call2_cst_0, main_call2_v1] : List (Ref sig .tc)).map (Proc.devRef (τ := τ) .tc)).toFinset := by
  simp only [chunk8, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c8_main_v230 (h_main_v6 : V (Proc.devRef .tc main_v6) = val_main_v6 (F := F) A4) (h_main_v207 : V (Proc.devRef .tc main_v207) = val_main_v207 (F := F) A0 A1 A2 A3 A4 A5 A21 A22 A23 A24 A25 A26 A27 A28) (h_main_arg7 : V (Proc.devRef .tc main_arg7) = A7) (h_main_arg8 : V (Proc.devRef .tc main_arg8) = A8) (h_main_v209 : V (Proc.devRef .tc main_v209) = val_main_v209 (F := F) A0 A1 A2 A3 A4 A5 A9 A21 A22 A23 A24 A25 A26 A27 A28) (h_main_arg10 : V (Proc.devRef .tc main_arg10) = A10) (h_main_arg15 : V (Proc.devRef .tc main_arg15) = A15) (h_main_arg16 : V (Proc.devRef .tc main_arg16) = A16) :
    after chunk8 V (Proc.devRef .tc main_v230) = val_main_v230 (F := F) A0 A1 A2 A3 A4 A5 A7 A8 A9 A10 A15 A16 A21 A22 A23 A24 A25 A26 A27 A28 := by
  after_results_simp
  all_goals (try simp only [h_main_v6, h_main_v207, h_main_arg7, h_main_arg8, h_main_v209, h_main_arg10, h_main_arg15, h_main_arg16])
  all_goals (try simp only [TRef.ofBuf, TRef.toBuf, cast_eq])
  all_goals (try rfl)
theorem c8_main_v232 (h_main_arg6 : V (Proc.devRef .tc main_arg6) = A6) :
    after chunk8 V (Proc.devRef .tc main_v232) = val_main_v232 (F := F) A6 := by
  after_results_simp
  all_goals (try simp only [h_main_arg6])
  all_goals (try simp only [TRef.ofBuf, TRef.toBuf, cast_eq])
  all_goals (try rfl)
theorem c8_main_call2_v0 (h_main_v6 : V (Proc.devRef .tc main_v6) = val_main_v6 (F := F) A4) (h_main_v207 : V (Proc.devRef .tc main_v207) = val_main_v207 (F := F) A0 A1 A2 A3 A4 A5 A21 A22 A23 A24 A25 A26 A27 A28) (h_main_arg7 : V (Proc.devRef .tc main_arg7) = A7) (h_main_arg8 : V (Proc.devRef .tc main_arg8) = A8) (h_main_v209 : V (Proc.devRef .tc main_v209) = val_main_v209 (F := F) A0 A1 A2 A3 A4 A5 A9 A21 A22 A23 A24 A25 A26 A27 A28) (h_main_arg10 : V (Proc.devRef .tc main_arg10) = A10) (h_main_arg15 : V (Proc.devRef .tc main_arg15) = A15) (h_main_arg16 : V (Proc.devRef .tc main_arg16) = A16) :
    after chunk8 V (Proc.devRef .tc main_call2_v0) = val_main_call2_v0 (F := F) A0 A1 A2 A3 A4 A5 A7 A8 A9 A10 A15 A16 A21 A22 A23 A24 A25 A26 A27 A28 := by
  after_results_simp
  all_goals (try simp only [h_main_v6, h_main_v207, h_main_arg7, h_main_arg8, h_main_v209, h_main_arg10, h_main_arg15, h_main_arg16])
  all_goals (try simp only [TRef.ofBuf, TRef.toBuf, cast_eq])
  all_goals (try rfl)
theorem c8_main_call2_v1   :
    after chunk8 V (Proc.devRef .tc main_call2_v1) = val_main_call2_v1 (F := F) := by
  after_results_simp
  all_goals (try simp only [TRef.ofBuf, TRef.toBuf, cast_eq])
  all_goals (try rfl)

theorem chunk9_writes : (chunk9 (F := F)).Forall fun op => op.writes ⊆ (([main_call2_v2, main_call2_v3, main_call2_v4, main_call2_v5, main_call2_v6, main_call2_cst_1, main_call2_v7, main_call2_v8, main_call2_v9, main_call2_v10, main_v233, main_v234, main_c_31, main_v235, main_v236, main_c_32, main_v237, main_v238, main_v239, main_c_33, main_v240, main_v241, main_c_34, main_v242, main_v243, main_v244, main_v245, main_v246, main_v247, main_v248] : List (Ref sig .tc)).map (Proc.devRef (τ := τ) .tc)).toFinset := by
  simp only [chunk9, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c9_main_v248 (h_main_v230 : V (Proc.devRef .tc main_v230) = val_main_v230 (F := F) A0 A1 A2 A3 A4 A5 A7 A8 A9 A10 A15 A16 A21 A22 A23 A24 A25 A26 A27 A28) (h_main_call2_v1 : V (Proc.devRef .tc main_call2_v1) = val_main_call2_v1 (F := F)) (h_main_call2_v0 : V (Proc.devRef .tc main_call2_v0) = val_main_call2_v0 (F := F) A0 A1 A2 A3 A4 A5 A7 A8 A9 A10 A15 A16 A21 A22 A23 A24 A25 A26 A27 A28) (h_main_v232 : V (Proc.devRef .tc main_v232) = val_main_v232 (F := F) A6) :
    after chunk9 V (Proc.devRef .tc main_v248) = val_main_v248 (F := F) A0 A1 A2 A3 A4 A5 A6 A7 A8 A9 A10 A15 A16 A21 A22 A23 A24 A25 A26 A27 A28 := by
  after_results
  all_goals (try simp only [h_main_v230, h_main_call2_v1, h_main_call2_v0, h_main_v232])
  all_goals (repeat (first | rw [h_main_v230] | rw [h_main_call2_v1] | rw [h_main_call2_v0] | rw [h_main_v232]))
  all_goals (try simp only [TRef.ofBuf, TRef.toBuf, cast_eq])
  all_goals (try rfl)

theorem chunk10_writes : (chunk10 (F := F)).Forall fun op => op.writes ⊆ (([main_v249, main_cst_35, main_call3_v0, main_call3_v1, main_v250, main_cst_36, main_v251, main_cst_37, main_v252, main_c_38, main_v253, main_v254, main_c_39, main_v255, main_v256, main_c_40] : List (Ref sig .tc)).map (Proc.devRef (τ := τ) .tc)).toFinset := by
  simp only [chunk10, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c10_main_v252 (h_main_arg5 : V (Proc.devRef .tc main_arg5) = A5) (h_main_v248 : V (Proc.devRef .tc main_v248) = val_main_v248 (F := F) A0 A1 A2 A3 A4 A5 A6 A7 A8 A9 A10 A15 A16 A21 A22 A23 A24 A25 A26 A27 A28) :
    after chunk10 V (Proc.devRef .tc main_v252) = val_main_v252 (F := F) A0 A1 A2 A3 A4 A5 A6 A7 A8 A9 A10 A15 A16 A21 A22 A23 A24 A25 A26 A27 A28 := by
  after_results_simp
  all_goals (try simp only [h_main_arg5, h_main_v248])
  all_goals (try simp only [TRef.ofBuf, TRef.toBuf, cast_eq])
  all_goals (try rfl)
theorem c10_main_v254 (h_main_v232 : V (Proc.devRef .tc main_v232) = val_main_v232 (F := F) A6) :
    after chunk10 V (Proc.devRef .tc main_v254) = val_main_v254 (F := F) A6 := by
  after_results_simp
  all_goals (try simp only [h_main_v232])
  all_goals (try simp only [TRef.ofBuf, TRef.toBuf, cast_eq])
  all_goals (try rfl)
theorem c10_main_v256 (h_main_v232 : V (Proc.devRef .tc main_v232) = val_main_v232 (F := F) A6) :
    after chunk10 V (Proc.devRef .tc main_v256) = val_main_v256 (F := F) A6 := by
  after_results_simp
  all_goals (try simp only [h_main_v232])
  all_goals (try simp only [TRef.ofBuf, TRef.toBuf, cast_eq])
  all_goals (try rfl)
theorem c10_main_c_40   :
    after chunk10 V (Proc.devRef .tc main_c_40) = val_main_c_40 (F := F) := by
  after_results_simp
  all_goals (try simp only [TRef.ofBuf, TRef.toBuf, cast_eq])
  all_goals (try rfl)

theorem chunk11_writes : (chunk11 (F := F)).Forall fun op => op.writes ⊆ (([main_v257, main_v258, main_v259, main_v260, main_v261, main_v262, main_v263, main_v264, main_v265, main_v266, main_v267, main_v268, main_cst_41, main_v269, main_v270, main_cst_42, main_v271, main_v272, main_v273, main_v274, main_v275, main_v276, main_v277, main_v278, main_v279, main_v280, main_v281, main_v282, main_v283, main_v284, main_v285, main_v286, main_v287] : List (Ref sig .tc)).map (Proc.devRef (τ := τ) .tc)).toFinset := by
  simp only [chunk11, List.Forall, nullary_writes, unary_writes, binary_writes, ternary_writes, quaternary_writes, reshape_writes,
    Finset.singleton_subset_iff, List.mem_toFinset, List.map_cons, List.map_nil, List.mem_cons, List.mem_nil_iff, true_or, or_true, and_self, or_false]
theorem c11_main_v287 (h_main_arg17 : V (Proc.devRef .tc main_arg17) = A17) (h_main_v256 : V (Proc.devRef .tc main_v256) = val_main_v256 (F := F) A6) (h_main_v254 : V (Proc.devRef .tc main_v254) = val_main_v254 (F := F) A6) (h_main_c_40 : V (Proc.devRef .tc main_c_40) = val_main_c_40 (F := F)) (h_main_arg18 : V (Proc.devRef .tc main_arg18) = A18) (h_main_arg19 : V (Proc.devRef .tc main_arg19) = A19) (h_main_v6 : V (Proc.devRef .tc main_v6) = val_main_v6 (F := F) A4) (h_main_v207 : V (Proc.devRef .tc main_v207) = val_main_v207 (F := F) A0 A1 A2 A3 A4 A5 A21 A22 A23 A24 A25 A26 A27 A28) (h_main_arg11 : V (Proc.devRef .tc main_arg11) = A11) (h_main_arg12 : V (Proc.devRef .tc main_arg12) = A12) (h_main_arg13 : V (Proc.devRef .tc main_arg13) = A13) (h_main_arg14 : V (Proc.devRef .tc main_arg14) = A14) (h_main_arg20 : V (Proc.devRef .tc main_arg20) = A20) :
    after chunk11 V (Proc.devRef .tc main_v287) = val_main_v287 (F := F) A0 A1 A2 A3 A4 A5 A6 A11 A12 A13 A14 A17 A18 A19 A20 A21 A22 A23 A24 A25 A26 A27 A28 := by
  after_results_simp
  all_goals (try simp only [h_main_arg17, h_main_v256, h_main_v254, h_main_c_40, h_main_arg18, h_main_arg19, h_main_v6, h_main_v207, h_main_arg11, h_main_arg12, h_main_arg13, h_main_arg14, h_main_arg20])
  all_goals (try simp only [TRef.ofBuf, TRef.toBuf, cast_eq])
  all_goals (try rfl)

variable (m : (ℓ : Loc nD τ sig) → Buf (Elt F) ℓ) (c : Dev nD)

abbrev R0 : Valuation τ sig (Elt F) := launchContents m c
abbrev R1 : Valuation τ sig (Elt F) := after chunk0 (R0 m c)
abbrev R2 : Valuation τ sig (Elt F) := after chunk1 (R1 m c)
abbrev R3 : Valuation τ sig (Elt F) := after chunk2 (R2 m c)
abbrev R4 : Valuation τ sig (Elt F) := after chunk3 (R3 m c)
abbrev R5 : Valuation τ sig (Elt F) := after chunk4 (R4 m c)
abbrev R6 : Valuation τ sig (Elt F) := after chunk5 (R5 m c)
abbrev R7 : Valuation τ sig (Elt F) := after chunk6 (R6 m c)
abbrev R8 : Valuation τ sig (Elt F) := after chunk7 (R7 m c)
abbrev R9 : Valuation τ sig (Elt F) := after chunk8 (R8 m c)
abbrev R10 : Valuation τ sig (Elt F) := after chunk9 (R9 m c)
abbrev R11 : Valuation τ sig (Elt F) := after chunk10 (R10 m c)
abbrev R12 : Valuation τ sig (Elt F) := after chunk11 (R11 m c)

/-- The arguments of @main. -/
noncomputable def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-! No chunk writes an argument: after every chunk it holds its launch contents. -/

theorem arg_at0 (b : Ref sig .tc) (hb : b ∈ args := by decide) :
    R0 m c (Proc.devRef .tc b) = m ((c.tc : Thread nD τ).loc b) := rfl
theorem arg_at1 (b : Ref sig .tc) (hb : b ∈ args := by decide) :
    R1 m c (Proc.devRef .tc b) = m ((c.tc : Thread nD τ).loc b) :=
  (after_of_writes_sub (chunk0 (F := F)) _ chunk0_writes ((by decide +kernel : ∀ b ∈ args, b ∉ _) b hb)).trans (arg_at0 m c b hb)
theorem arg_at2 (b : Ref sig .tc) (hb : b ∈ args := by decide) :
    R2 m c (Proc.devRef .tc b) = m ((c.tc : Thread nD τ).loc b) :=
  (after_of_writes_sub (chunk1 (F := F)) _ chunk1_writes ((by decide +kernel : ∀ b ∈ args, b ∉ _) b hb)).trans (arg_at1 m c b hb)
theorem arg_at3 (b : Ref sig .tc) (hb : b ∈ args := by decide) :
    R3 m c (Proc.devRef .tc b) = m ((c.tc : Thread nD τ).loc b) :=
  (after_of_writes_sub (chunk2 (F := F)) _ chunk2_writes ((by decide +kernel : ∀ b ∈ args, b ∉ _) b hb)).trans (arg_at2 m c b hb)
theorem arg_at4 (b : Ref sig .tc) (hb : b ∈ args := by decide) :
    R4 m c (Proc.devRef .tc b) = m ((c.tc : Thread nD τ).loc b) :=
  (after_of_writes_sub (chunk3 (F := F)) _ chunk3_writes ((by decide +kernel : ∀ b ∈ args, b ∉ _) b hb)).trans (arg_at3 m c b hb)
theorem arg_at5 (b : Ref sig .tc) (hb : b ∈ args := by decide) :
    R5 m c (Proc.devRef .tc b) = m ((c.tc : Thread nD τ).loc b) :=
  (after_of_writes_sub (chunk4 (F := F)) _ chunk4_writes ((by decide +kernel : ∀ b ∈ args, b ∉ _) b hb)).trans (arg_at4 m c b hb)
theorem arg_at6 (b : Ref sig .tc) (hb : b ∈ args := by decide) :
    R6 m c (Proc.devRef .tc b) = m ((c.tc : Thread nD τ).loc b) :=
  (after_of_writes_sub (chunk5 (F := F)) _ chunk5_writes ((by decide +kernel : ∀ b ∈ args, b ∉ _) b hb)).trans (arg_at5 m c b hb)
theorem arg_at7 (b : Ref sig .tc) (hb : b ∈ args := by decide) :
    R7 m c (Proc.devRef .tc b) = m ((c.tc : Thread nD τ).loc b) :=
  (after_of_writes_sub (chunk6 (F := F)) _ chunk6_writes ((by decide +kernel : ∀ b ∈ args, b ∉ _) b hb)).trans (arg_at6 m c b hb)
theorem arg_at8 (b : Ref sig .tc) (hb : b ∈ args := by decide) :
    R8 m c (Proc.devRef .tc b) = m ((c.tc : Thread nD τ).loc b) :=
  (after_of_writes_sub (chunk7 (F := F)) _ chunk7_writes ((by decide +kernel : ∀ b ∈ args, b ∉ _) b hb)).trans (arg_at7 m c b hb)
theorem arg_at9 (b : Ref sig .tc) (hb : b ∈ args := by decide) :
    R9 m c (Proc.devRef .tc b) = m ((c.tc : Thread nD τ).loc b) :=
  (after_of_writes_sub (chunk8 (F := F)) _ chunk8_writes ((by decide +kernel : ∀ b ∈ args, b ∉ _) b hb)).trans (arg_at8 m c b hb)
theorem arg_at10 (b : Ref sig .tc) (hb : b ∈ args := by decide) :
    R10 m c (Proc.devRef .tc b) = m ((c.tc : Thread nD τ).loc b) :=
  (after_of_writes_sub (chunk9 (F := F)) _ chunk9_writes ((by decide +kernel : ∀ b ∈ args, b ∉ _) b hb)).trans (arg_at9 m c b hb)
theorem arg_at11 (b : Ref sig .tc) (hb : b ∈ args := by decide) :
    R11 m c (Proc.devRef .tc b) = m ((c.tc : Thread nD τ).loc b) :=
  (after_of_writes_sub (chunk10 (F := F)) _ chunk10_writes ((by decide +kernel : ∀ b ∈ args, b ∉ _) b hb)).trans (arg_at10 m c b hb)
theorem arg_at12 (b : Ref sig .tc) (hb : b ∈ args := by decide) :
    R12 m c (Proc.devRef .tc b) = m ((c.tc : Thread nD τ).loc b) :=
  (after_of_writes_sub (chunk11 (F := F)) _ chunk11_writes ((by decide +kernel : ∀ b ∈ args, b ∉ _) b hb)).trans (arg_at11 m c b hb)

theorem main_v6_at1 : R1 m c (Proc.devRef .tc main_v6) = val_main_v6 (F := F) (m ((c.tc : Thread nD τ).loc main_arg4)) :=
  c0_main_v6 (R0 m c) (m ((c.tc : Thread nD τ).loc main_arg4)) (arg_at0 m c main_arg4)
theorem main_v13_at1 : R1 m c (Proc.devRef .tc main_v13) = val_main_v13 (F := F) (m ((c.tc : Thread nD τ).loc main_arg4)) (m ((c.tc : Thread nD τ).loc main_arg5)) :=
  c0_main_v13 (R0 m c) (m ((c.tc : Thread nD τ).loc main_arg4)) (m ((c.tc : Thread nD τ).loc main_arg5)) (arg_at0 m c main_arg4) (arg_at0 m c main_arg5)
theorem main_v17_at1 : R1 m c (Proc.devRef .tc main_v17) = val_main_v17 (F := F) (m ((c.tc : Thread nD τ).loc main_arg1)) (m ((c.tc : Thread nD τ).loc main_arg22)) :=
  c0_main_v17 (R0 m c) (m ((c.tc : Thread nD τ).loc main_arg1)) (m ((c.tc : Thread nD τ).loc main_arg22)) (arg_at0 m c main_arg1) (arg_at0 m c main_arg22)
theorem main_v21_at1 : R1 m c (Proc.devRef .tc main_v21) = val_main_v21 (F := F) (m ((c.tc : Thread nD τ).loc main_arg0)) (m ((c.tc : Thread nD τ).loc main_arg21)) :=
  c0_main_v21 (R0 m c) (m ((c.tc : Thread nD τ).loc main_arg0)) (m ((c.tc : Thread nD τ).loc main_arg21)) (arg_at0 m c main_arg0) (arg_at0 m c main_arg21)
theorem main_v23_at1 : R1 m c (Proc.devRef .tc main_v23) = val_main_v23 (F := F) (m ((c.tc : Thread nD τ).loc main_arg2)) :=
  c0_main_v23 (R0 m c) (m ((c.tc : Thread nD τ).loc main_arg2)) (arg_at0 m c main_arg2)
theorem main_v25_at1 : R1 m c (Proc.devRef .tc main_v25) = val_main_v25 (F := F) (m ((c.tc : Thread nD τ).loc main_arg2)) :=
  c0_main_v25 (R0 m c) (m ((c.tc : Thread nD τ).loc main_arg2)) (arg_at0 m c main_arg2)
theorem main_v6_at2 : R2 m c (Proc.devRef .tc main_v6) = val_main_v6 (F := F) (m ((c.tc : Thread nD τ).loc main_arg4)) :=
  (after_of_writes_sub (chunk1 (F := F)) _ chunk1_writes (r := main_v6) (by decide)).trans (main_v6_at1 m c)
theorem main_v13_at2 : R2 m c (Proc.devRef .tc main_v13) = val_main_v13 (F := F) (m ((c.tc : Thread nD τ).loc main_arg4)) (m ((c.tc : Thread nD τ).loc main_arg5)) :=
  (after_of_writes_sub (chunk1 (F := F)) _ chunk1_writes (r := main_v13) (by decide)).trans (main_v13_at1 m c)
theorem main_v47_at2 : R2 m c (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) :=
  c1_main_v47 (R1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (main_v21_at1 m c) (main_v23_at1 m c) (main_v25_at1 m c) (arg_at1 m c main_arg2) (arg_at1 m c main_arg3) (main_v17_at1 m c) (arg_at1 m c main_arg23) (arg_at1 m c main_arg24)
theorem main_v48_at2 : R2 m c (Proc.devRef .tc main_v48) = val_main_v48 (F := F) :=
  c1_main_v48 (R1 m c)
theorem main_v50_at2 : R2 m c (Proc.devRef .tc main_v50) = val_main_v50 (F := F) (m ((c.tc : Thread nD τ).loc main_arg3)) :=
  c1_main_v50 (R1 m c) (m ((c.tc : Thread nD τ).loc main_arg3)) (arg_at1 m c main_arg3)
theorem main_c_6_at2 : R2 m c (Proc.devRef .tc main_c_6) = val_main_c_6 (F := F) :=
  c1_main_c_6 (R1 m c)
theorem main_v6_at3 : R3 m c (Proc.devRef .tc main_v6) = val_main_v6 (F := F) (m ((c.tc : Thread nD τ).loc main_arg4)) :=
  (after_of_writes_sub (chunk2 (F := F)) _ chunk2_writes (r := main_v6) (by decide)).trans (main_v6_at2 m c)
theorem main_v13_at3 : R3 m c (Proc.devRef .tc main_v13) = val_main_v13 (F := F) (m ((c.tc : Thread nD τ).loc main_arg4)) (m ((c.tc : Thread nD τ).loc main_arg5)) :=
  (after_of_writes_sub (chunk2 (F := F)) _ chunk2_writes (r := main_v13) (by decide)).trans (main_v13_at2 m c)
theorem main_v71_at3 : R3 m c (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg27)) :=
  c2_main_v71 (R2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg27)) (main_v48_at2 m c) (main_v50_at2 m c) (arg_at2 m c main_arg3) (main_c_6_at2 m c) (main_v47_at2 m c) (arg_at2 m c main_arg2) (arg_at2 m c main_arg25) (arg_at2 m c main_arg27)
theorem main_v75_at3 : R3 m c (Proc.devRef .tc main_v75) = val_main_v75 (F := F) (m ((c.tc : Thread nD τ).loc main_arg0)) (m ((c.tc : Thread nD τ).loc main_arg26)) :=
  c2_main_v75 (R2 m c) (m ((c.tc : Thread nD τ).loc main_arg0)) (m ((c.tc : Thread nD τ).loc main_arg26)) (arg_at2 m c main_arg0) (arg_at2 m c main_arg26)
theorem main_v78_at3 : R3 m c (Proc.devRef .tc main_v78) = val_main_v78 (F := F) (m ((c.tc : Thread nD τ).loc main_arg28)) :=
  c2_main_v78 (R2 m c) (m ((c.tc : Thread nD τ).loc main_arg28)) (arg_at2 m c main_arg28)
theorem main_v6_at4 : R4 m c (Proc.devRef .tc main_v6) = val_main_v6 (F := F) (m ((c.tc : Thread nD τ).loc main_arg4)) :=
  (after_of_writes_sub (chunk3 (F := F)) _ chunk3_writes (r := main_v6) (by decide)).trans (main_v6_at3 m c)
theorem main_v13_at4 : R4 m c (Proc.devRef .tc main_v13) = val_main_v13 (F := F) (m ((c.tc : Thread nD τ).loc main_arg4)) (m ((c.tc : Thread nD τ).loc main_arg5)) :=
  (after_of_writes_sub (chunk3 (F := F)) _ chunk3_writes (r := main_v13) (by decide)).trans (main_v13_at3 m c)
theorem main_v100_at4 : R4 m c (Proc.devRef .tc main_v100) = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c3_main_v100 (R3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v71_at3 m c) (main_v75_at3 m c) (main_v78_at3 m c)
theorem main_v103_at4 : R4 m c (Proc.devRef .tc main_v103) = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c3_main_v103 (R3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v71_at3 m c) (main_v75_at3 m c) (main_v78_at3 m c)
theorem main_cst_13_at4 : R4 m c (Proc.devRef .tc main_cst_13) = val_main_cst_13 (F := F) :=
  c3_main_cst_13 (R3 m c)
theorem main_v6_at5 : R5 m c (Proc.devRef .tc main_v6) = val_main_v6 (F := F) (m ((c.tc : Thread nD τ).loc main_arg4)) :=
  (after_of_writes_sub (chunk4 (F := F)) _ chunk4_writes (r := main_v6) (by decide)).trans (main_v6_at4 m c)
theorem main_v13_at5 : R5 m c (Proc.devRef .tc main_v13) = val_main_v13 (F := F) (m ((c.tc : Thread nD τ).loc main_arg4)) (m ((c.tc : Thread nD τ).loc main_arg5)) :=
  (after_of_writes_sub (chunk4 (F := F)) _ chunk4_writes (r := main_v13) (by decide)).trans (main_v13_at4 m c)
theorem main_v110_at5 : R5 m c (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c4_main_v110 (R4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v13_at4 m c) (main_cst_13_at4 m c) (main_v100_at4 m c) (main_v103_at4 m c) (arg_at4 m c main_arg0)
theorem main_v114_at5 : R5 m c (Proc.devRef .tc main_v114) = val_main_v114 (F := F) (m ((c.tc : Thread nD τ).loc main_arg1)) (m ((c.tc : Thread nD τ).loc main_arg22)) :=
  c4_main_v114 (R4 m c) (m ((c.tc : Thread nD τ).loc main_arg1)) (m ((c.tc : Thread nD τ).loc main_arg22)) (arg_at4 m c main_arg1) (arg_at4 m c main_arg22)
theorem main_v118_at5 : R5 m c (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c4_main_v118 (R4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v13_at4 m c) (main_cst_13_at4 m c) (main_v100_at4 m c) (main_v103_at4 m c) (arg_at4 m c main_arg0) (arg_at4 m c main_arg21)
theorem main_v125_at5 : R5 m c (Proc.devRef .tc main_v125) = val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c4_main_v125 (R4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v13_at4 m c) (main_cst_13_at4 m c) (main_v100_at4 m c) (main_v103_at4 m c) (arg_at4 m c main_arg0) (arg_at4 m c main_arg21) (arg_at4 m c main_arg2)
theorem main_v127_at5 : R5 m c (Proc.devRef .tc main_v127) = val_main_v127 (F := F) (m ((c.tc : Thread nD τ).loc main_arg3)) :=
  c4_main_v127 (R4 m c) (m ((c.tc : Thread nD τ).loc main_arg3)) (arg_at4 m c main_arg3)
theorem main_v128_at5 : R5 m c (Proc.devRef .tc main_v128) = val_main_v128 (F := F) :=
  c4_main_v128 (R4 m c)
theorem main_v6_at6 : R6 m c (Proc.devRef .tc main_v6) = val_main_v6 (F := F) (m ((c.tc : Thread nD τ).loc main_arg4)) :=
  (after_of_writes_sub (chunk5 (F := F)) _ chunk5_writes (r := main_v6) (by decide)).trans (main_v6_at5 m c)
theorem main_v13_at6 : R6 m c (Proc.devRef .tc main_v13) = val_main_v13 (F := F) (m ((c.tc : Thread nD τ).loc main_arg4)) (m ((c.tc : Thread nD τ).loc main_arg5)) :=
  (after_of_writes_sub (chunk5 (F := F)) _ chunk5_writes (r := main_v13) (by decide)).trans (main_v13_at5 m c)
theorem main_v110_at6 : R6 m c (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk5 (F := F)) _ chunk5_writes (r := main_v110) (by decide)).trans (main_v110_at5 m c)
theorem main_v144_at6 : R6 m c (Proc.devRef .tc main_v144) = val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c5_main_v144 (R5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v125_at5 m c) (main_v118_at5 m c) (main_v127_at5 m c) (arg_at5 m c main_arg3) (main_v128_at5 m c) (main_v114_at5 m c) (arg_at5 m c main_arg23) (arg_at5 m c main_arg24)
theorem main_v152_at6 : R6 m c (Proc.devRef .tc main_v152) = val_main_v152 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c5_main_v152 (R5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (arg_at5 m c main_arg3) (main_v125_at5 m c) (main_v118_at5 m c) (main_v127_at5 m c) (main_v128_at5 m c) (main_v114_at5 m c) (arg_at5 m c main_arg23) (arg_at5 m c main_arg24)
theorem main_v154_at6 : R6 m c (Proc.devRef .tc main_v154) = val_main_v154 (F := F) (m ((c.tc : Thread nD τ).loc main_arg2)) :=
  c5_main_v154 (R5 m c) (m ((c.tc : Thread nD τ).loc main_arg2)) (arg_at5 m c main_arg2)
theorem main_c_22_at6 : R6 m c (Proc.devRef .tc main_c_22) = val_main_c_22 (F := F) :=
  c5_main_c_22 (R5 m c)
theorem main_v6_at7 : R7 m c (Proc.devRef .tc main_v6) = val_main_v6 (F := F) (m ((c.tc : Thread nD τ).loc main_arg4)) :=
  (after_of_writes_sub (chunk6 (F := F)) _ chunk6_writes (r := main_v6) (by decide)).trans (main_v6_at6 m c)
theorem main_v13_at7 : R7 m c (Proc.devRef .tc main_v13) = val_main_v13 (F := F) (m ((c.tc : Thread nD τ).loc main_arg4)) (m ((c.tc : Thread nD τ).loc main_arg5)) :=
  (after_of_writes_sub (chunk6 (F := F)) _ chunk6_writes (r := main_v13) (by decide)).trans (main_v13_at6 m c)
theorem main_v110_at7 : R7 m c (Proc.devRef .tc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk6 (F := F)) _ chunk6_writes (r := main_v110) (by decide)).trans (main_v110_at6 m c)
theorem main_v179_at7 : R7 m c (Proc.devRef .tc main_v179) = val_main_v179 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c6_main_v179 (R6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v152_at6 m c) (main_v154_at6 m c) (arg_at6 m c main_arg2) (main_c_22_at6 m c) (main_v144_at6 m c) (arg_at6 m c main_arg25) (arg_at6 m c main_arg27)
theorem main_v180_at7 : R7 m c (Proc.devRef .tc main_v180) = val_main_v180 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c6_main_v180 (R6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v152_at6 m c) (main_v154_at6 m c) (arg_at6 m c main_arg2) (main_c_22_at6 m c) (main_v144_at6 m c) (arg_at6 m c main_arg25) (arg_at6 m c main_arg27)
theorem main_v182_at7 : R7 m c (Proc.devRef .tc main_v182) = val_main_v182 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c6_main_v182 (R6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v110_at6 m c) (arg_at6 m c main_arg26) (arg_at6 m c main_arg28)
theorem main_v183_at7 : R7 m c (Proc.devRef .tc main_v183) = val_main_v183 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c6_main_v183 (R6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v110_at6 m c) (arg_at6 m c main_arg26) (arg_at6 m c main_arg28)
theorem main_v184_at7 : R7 m c (Proc.devRef .tc main_v184) = val_main_v184 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c6_main_v184 (R6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v152_at6 m c) (main_v154_at6 m c) (arg_at6 m c main_arg2) (main_c_22_at6 m c) (main_v144_at6 m c) (arg_at6 m c main_arg25) (arg_at6 m c main_arg27) (main_v110_at6 m c) (arg_at6 m c main_arg26) (arg_at6 m c main_arg28)
theorem main_v6_at8 : R8 m c (Proc.devRef .tc main_v6) = val_main_v6 (F := F) (m ((c.tc : Thread nD τ).loc main_arg4)) :=
  (after_of_writes_sub (chunk7 (F := F)) _ chunk7_writes (r := main_v6) (by decide)).trans (main_v6_at7 m c)
theorem main_v207_at8 : R8 m c (Proc.devRef .tc main_v207) = val_main_v207 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c7_main_v207 (R7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v13_at7 m c) (main_v179_at7 m c) (main_v182_at7 m c) (main_v180_at7 m c) (main_v184_at7 m c) (main_v183_at7 m c) (main_v110_at7 m c)
theorem main_v209_at8 : R8 m c (Proc.devRef .tc main_v209) = val_main_v209 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c7_main_v209 (R7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v13_at7 m c) (main_v179_at7 m c) (main_v182_at7 m c) (main_v180_at7 m c) (main_v184_at7 m c) (main_v183_at7 m c) (main_v110_at7 m c) (arg_at7 m c main_arg9)
theorem main_v6_at9 : R9 m c (Proc.devRef .tc main_v6) = val_main_v6 (F := F) (m ((c.tc : Thread nD τ).loc main_arg4)) :=
  (after_of_writes_sub (chunk8 (F := F)) _ chunk8_writes (r := main_v6) (by decide)).trans (main_v6_at8 m c)
theorem main_v207_at9 : R9 m c (Proc.devRef .tc main_v207) = val_main_v207 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk8 (F := F)) _ chunk8_writes (r := main_v207) (by decide)).trans (main_v207_at8 m c)
theorem main_v230_at9 : R9 m c (Proc.devRef .tc main_v230) = val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c8_main_v230 (R8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v6_at8 m c) (main_v207_at8 m c) (arg_at8 m c main_arg7) (arg_at8 m c main_arg8) (main_v209_at8 m c) (arg_at8 m c main_arg10) (arg_at8 m c main_arg15) (arg_at8 m c main_arg16)
theorem main_v232_at9 : R9 m c (Proc.devRef .tc main_v232) = val_main_v232 (F := F) (m ((c.tc : Thread nD τ).loc main_arg6)) :=
  c8_main_v232 (R8 m c) (m ((c.tc : Thread nD τ).loc main_arg6)) (arg_at8 m c main_arg6)
theorem main_call2_v0_at9 : R9 m c (Proc.devRef .tc main_call2_v0) = val_main_call2_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c8_main_call2_v0 (R8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v6_at8 m c) (main_v207_at8 m c) (arg_at8 m c main_arg7) (arg_at8 m c main_arg8) (main_v209_at8 m c) (arg_at8 m c main_arg10) (arg_at8 m c main_arg15) (arg_at8 m c main_arg16)
theorem main_call2_v1_at9 : R9 m c (Proc.devRef .tc main_call2_v1) = val_main_call2_v1 (F := F) :=
  c8_main_call2_v1 (R8 m c)
theorem main_v6_at10 : R10 m c (Proc.devRef .tc main_v6) = val_main_v6 (F := F) (m ((c.tc : Thread nD τ).loc main_arg4)) :=
  (after_of_writes_sub (chunk9 (F := F)) _ chunk9_writes (r := main_v6) (by decide)).trans (main_v6_at9 m c)
theorem main_v207_at10 : R10 m c (Proc.devRef .tc main_v207) = val_main_v207 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk9 (F := F)) _ chunk9_writes (r := main_v207) (by decide)).trans (main_v207_at9 m c)
theorem main_v230_at10 : R10 m c (Proc.devRef .tc main_v230) = val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk9 (F := F)) _ chunk9_writes (r := main_v230) (by decide)).trans (main_v230_at9 m c)
theorem main_v232_at10 : R10 m c (Proc.devRef .tc main_v232) = val_main_v232 (F := F) (m ((c.tc : Thread nD τ).loc main_arg6)) :=
  (after_of_writes_sub (chunk9 (F := F)) _ chunk9_writes (r := main_v232) (by decide)).trans (main_v232_at9 m c)
theorem main_v248_at10 : R10 m c (Proc.devRef .tc main_v248) = val_main_v248 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c9_main_v248 (R9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (main_v230_at9 m c) (main_call2_v1_at9 m c) (main_call2_v0_at9 m c) (main_v232_at9 m c)
theorem main_v6_at11 : R11 m c (Proc.devRef .tc main_v6) = val_main_v6 (F := F) (m ((c.tc : Thread nD τ).loc main_arg4)) :=
  (after_of_writes_sub (chunk10 (F := F)) _ chunk10_writes (r := main_v6) (by decide)).trans (main_v6_at10 m c)
theorem main_v207_at11 : R11 m c (Proc.devRef .tc main_v207) = val_main_v207 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk10 (F := F)) _ chunk10_writes (r := main_v207) (by decide)).trans (main_v207_at10 m c)
theorem main_v230_at11 : R11 m c (Proc.devRef .tc main_v230) = val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk10 (F := F)) _ chunk10_writes (r := main_v230) (by decide)).trans (main_v230_at10 m c)
theorem main_v252_at11 : R11 m c (Proc.devRef .tc main_v252) = val_main_v252 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c10_main_v252 (R10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (arg_at10 m c main_arg5) (main_v248_at10 m c)
theorem main_v254_at11 : R11 m c (Proc.devRef .tc main_v254) = val_main_v254 (F := F) (m ((c.tc : Thread nD τ).loc main_arg6)) :=
  c10_main_v254 (R10 m c) (m ((c.tc : Thread nD τ).loc main_arg6)) (main_v232_at10 m c)
theorem main_v256_at11 : R11 m c (Proc.devRef .tc main_v256) = val_main_v256 (F := F) (m ((c.tc : Thread nD τ).loc main_arg6)) :=
  c10_main_v256 (R10 m c) (m ((c.tc : Thread nD τ).loc main_arg6)) (main_v232_at10 m c)
theorem main_c_40_at11 : R11 m c (Proc.devRef .tc main_c_40) = val_main_c_40 (F := F) :=
  c10_main_c_40 (R10 m c)
theorem main_v230_at12 : R12 m c (Proc.devRef .tc main_v230) = val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk11 (F := F)) _ chunk11_writes (r := main_v230) (by decide)).trans (main_v230_at11 m c)
theorem main_v252_at12 : R12 m c (Proc.devRef .tc main_v252) = val_main_v252 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  (after_of_writes_sub (chunk11 (F := F)) _ chunk11_writes (r := main_v252) (by decide)).trans (main_v252_at11 m c)
theorem main_v287_at12 : R12 m c (Proc.devRef .tc main_v287) = val_main_v287 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c11_main_v287 (R11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (arg_at11 m c main_arg17) (main_v256_at11 m c) (main_v254_at11 m c) (main_c_40_at11 m c) (arg_at11 m c main_arg18) (arg_at11 m c main_arg19) (main_v6_at11 m c) (main_v207_at11 m c) (arg_at11 m c main_arg11) (arg_at11 m c main_arg12) (arg_at11 m c main_arg13) (arg_at11 m c main_arg14) (arg_at11 m c main_arg20)

theorem after_ops : after (ops (F := F)) (launchContents m c) = R12 m c := by
  simp only [ops, after_append]

theorem result0 : after (ops (F := F)) (launchContents m c) (Proc.devRef .tc main_v230) = val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  rw [after_ops]; exact main_v230_at12 m c

theorem result1 : after (ops (F := F)) (launchContents m c) (Proc.devRef .tc main_v287) = val_main_v287 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  rw [after_ops]; exact main_v287_at12 m c

theorem result2 : after (ops (F := F)) (launchContents m c) (Proc.devRef .tc main_v252) = val_main_v252 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  rw [after_ops]; exact main_v252_at12 m c

/-- The whole of @main leaves every argument as launched. -/
theorem kept (b : Ref sig .tc) (hb : b ∈ args := by decide) :
    after (ops (F := F)) (launchContents m c) (Proc.devRef .tc b) = m ((c.tc : Thread nD τ).loc b) := by
  rw [after_ops]; exact arg_at12 m c b hb

end Cert.ReferenceIdeal.Stages

end
-- ==== Proof.PreRange.lean ====
import proofs.«404942_j76501957477039_1_alg».proof.Defs
import proofs.«404942_j76501957477039_1_alg».proof.Proof.Gen.Pre_finite_inputs
import proofs.«404942_j76501957477039_1_alg».proof.Proof.OwnerRange
import Idealize.ShloMosaic.Lib.ReduceAll

namespace Cert.GNN

open Idealize.ShloMosaic

instance scalarIdx_subsingleton : Subsingleton Cert.Pre_finite_inputs.S_.Idx := ⟨fun a b => funext fun d => d.elim0⟩

theorem tail_decode {F : FTy → Type} [FloatOps F] (A4 : IVec Cert.Pre_finite_inputs.S65536 32)
    (v : IVec Cert.Pre_finite_inputs.S_ 1) (j : Cert.Pre_finite_inputs.S_.Idx)
    (e : Cert.Pre_finite_inputs.fn_part7 (F := F) A4 v (constantI Cert.Pre_finite_inputs.S_ 32 0#32) j = 1#1) :
    OwnerInRange A4 := by
  unfold Cert.Pre_finite_inputs.fn_part7 at e
  dsimp only at e
  obtain ⟨e1, hlt⟩ := IntOp.andi_eq_one.1 e
  obtain ⟨-, hge⟩ := IntOp.andi_eq_one.1 e1
  intro i
  have h0 := Host.reduce_andi_all _ _ _ _ j hge i
  have h1 := Host.reduce_andi_all _ _ _ _ j hlt i
  have g0 : (0#32 : BitVec 32).toInt ≤ (A4 i).toInt := IntOp.cmpi_sge.1 h0
  have g1 : (A4 i).toInt < (512#32 : BitVec 32).toInt := IntOp.cmpi_slt.1 h1
  rw [show (0#32 : BitVec 32).toInt = 0 from by decide] at g0
  rw [show (512#32 : BitVec 32).toInt = 512 from by decide] at g1
  exact ⟨g0, g1⟩

theorem owner_in_range (m : (ℓ : Loc Cert.KernelIdeal.nD Cert.KernelIdeal.τ Cert.KernelIdeal.sig) → Buf (Elt Ideal) ℓ)
    (h : Cert.Pre_KernelIdeal m) (c : Dev Cert.KernelIdeal.nD) :
    OwnerInRange (m ((c.tc : Thread Cert.KernelIdeal.nD Cert.KernelIdeal.τ).loc Cert.KernelIdeal.main_arg4)) := by
  have e := congrFun (h c) (fun d => d.elim0)
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at e
  exact tail_decode (F := Ideal) _ _ _ e

end Cert.GNN
-- ==== Proof.lean ====
import proofs.«404942_j76501957477039_1_alg».proof.Defs
import proofs.«404942_j76501957477039_1_alg».proof.Proof.Gen.Kernel
import proofs.«404942_j76501957477039_1_alg».proof.Proof.Gen.Kernel.Frame
import proofs.«404942_j76501957477039_1_alg».proof.Proof.Gen.KernelIdeal
import proofs.«404942_j76501957477039_1_alg».proof.Proof.Gen.KernelIdeal.Frame
import proofs.«404942_j76501957477039_1_alg».proof.Proof.Gen.ReferenceIdeal
import proofs.«404942_j76501957477039_1_alg».proof.Proof.Gen.Pre_finite_inputs
import proofs.«404942_j76501957477039_1_alg».proof.Proof.KRun
import proofs.«404942_j76501957477039_1_alg».proof.Proof.KChain
import proofs.«404942_j76501957477039_1_alg».proof.Proof.RefStages
import proofs.«404942_j76501957477039_1_alg».proof.Proof.PreRange
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference ends at the fold of its operations, and no operation writes an argument. -/
theorem frame_ri : Cert.frame_ReferenceIdeal := fun m ρ _ =>
  (θ_run Cert.ReferenceIdeal.defs _ _).mono (fun r h c => by
    and_intros <;> exact (h c _).trans (Cert.ReferenceIdeal.Stages.kept m c _))
    (Cert.ReferenceIdeal.ValueP.run_after (F := Ideal) m ρ)

/-- Both programs end with each result at one and the same stage of the arguments, which agree. -/
theorem algebraic : Cert.algebraic_KernelIdeal_ReferenceIdeal := by
  intro m ρ m' ρ' hpre hagree
  have hr : ∀ c : Dev Cert.KernelIdeal.nD, Cert.GNN.OwnerInRange (m ((c.tc : Thread Cert.KernelIdeal.nD Cert.KernelIdeal.τ).loc Cert.KernelIdeal.main_arg4)) :=
    fun c => Cert.GNN.owner_in_range m hpre c
  refine ⟨fun c => Cert.KernelIdeal.Gen.W31 m ρ c (Proc.devRef .tc Cert.KernelIdeal.main_v192),
    fun c => Cert.KernelIdeal.Gen.W31 m ρ c (Proc.devRef .tc Cert.KernelIdeal.main_v231),
    fun c => Cert.KernelIdeal.Gen.W31 m ρ c (Proc.devRef .tc Cert.KernelIdeal.main_v214),
    Cert.KernelIdeal.GenV.run_values m ρ, ?_⟩
  refine (θ_run Cert.ReferenceIdeal.defs _ _).mono (fun r h c => ?_) (Cert.ReferenceIdeal.ValueP.run_after (F := Ideal) m' ρ')
  obtain ⟨e0, e1, e2, e3, e4, e5, e6, e7, e8, e9, e10, e11, e12, e13, e14, e15, e16, e17, e18, e19, e20, e21, e22, e23, e24, e25, e26, e27, e28⟩ := hagree c
  refine ⟨?_, ?_, ?_, ?_⟩
  · refine (h c Cert.ReferenceIdeal.main_v230).trans ((Cert.ReferenceIdeal.Stages.result0 m' c).trans ?_)
    simp only [e0, e1, e2, e3, e4, e5, e6, e7, e8, e9, e10, e11, e12, e13, e14, e15, e16, e17, e18, e19, e20, e21, e22, e23, e24, e25, e26, e27, e28]
    exact (Cert.GNN.KChain.main_v192_at31 m ρ hr c).symm
  · refine (h c Cert.ReferenceIdeal.main_v287).trans ((Cert.ReferenceIdeal.Stages.result1 m' c).trans ?_)
    simp only [e0, e1, e2, e3, e4, e5, e6, e7, e8, e9, e10, e11, e12, e13, e14, e15, e16, e17, e18, e19, e20, e21, e22, e23, e24, e25, e26, e27, e28]
    exact (Cert.GNN.KChain.main_v231_at31 m ρ hr c).symm
  · refine (h c Cert.ReferenceIdeal.main_v252).trans ((Cert.ReferenceIdeal.Stages.result2 m' c).trans ?_)
    simp only [e0, e1, e2, e3, e4, e5, e6, e7, e8, e9, e10, e11, e12, e13, e14, e15, e16, e17, e18, e19, e20, e21, e22, e23, e24, e25, e26, e27, e28]
    exact (Cert.GNN.KChain.main_v214_at31 m ρ hr c).symm
  · and_intros <;> exact (h c _).trans (Cert.ReferenceIdeal.Stages.kept m' c _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
